-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S768x768 : Shape := ⟨2, ![768, 768]⟩
abbrev S768x1536 : Shape := ⟨2, ![768, 1536]⟩
abbrev S1536x768 : Shape := ⟨2, ![1536, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S1536x768 : S_.BroadcastsInDim S1536x768 (![] : Fin 0 → Fin S1536x768.rank)
  reducesTo_S1536x768_S_d0_1 : S1536x768.ReducesTo [0, 1] S_

variable [Facts]

def fn_part1 {F : FTy → Type} [FloatOps F] (main_v13 : IVec S_ 1) (main_v16 : IVec S1536x768 1) : IVec S_ 1 :=
  let main_c_5 : IVec S_ 1 := constantI S_ 1 1#1
  let main_v17 : IVec S_ 1 := (fun x v => Host.reduce IntOp.andi x v reducesTo_S1536x768_S_d0_1 h_S_) main_v16 main_c_5
  let main_v18 : IVec S_ 1 := andi main_v13 main_v17
  main_v18

def fn {F : FTy → Type} [FloatOps F] (main_arg0 : FVec F S768x768 .f32) (main_arg1 : FVec F S768x1536 .f32) (main_arg2 : FVec F S768x1536 .f32) (main_arg3 : FVec F S1536x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768x1536 .f32 := Host.absf main_arg2
  let main_cst_2 : FVec F S_ .f32 := constant S_ .f32 0x7F800000#32
  let main_v10 : FVec F S768x1536 .f32 := broadcastInDim S768x1536 ![] bcast_S_S768x1536 main_cst_2
  let main_v11 : IVec S768x1536 1 := cmpf .olt main_v9 main_v10
  let main_c_3 : IVec S_ 1 := constantI S_ 1 1#1
  let main_v12 : IVec S_ 1 := (fun x v => Host.reduce IntOp.andi x v reducesTo_S768x1536_S_d0_1 h_S_) main_v11 main_c_3
  let main_v13 : IVec S_ 1 := andi main_v8 main_v12
  let main_v14 : FVec F S1536x768 .f32 := Host.absf main_arg3
  let main_cst_4 : FVec F S_ .f32 := constant S_ .f32 0x7F800000#32
  let main_v15 : FVec F S1536x768 .f32 := broadcastInDim S1536x768 ![] bcast_S_S1536x768 main_cst_4
  let main_v16 : IVec S1536x768 1 := cmpf .olt main_v14 main_v15
  fn_part1 (F := F) main_v13 main_v16
-- ==== Pre_finite_inputs_ReferenceIdeal.lean ====
abbrev S768x768 : Shape := ⟨2, ![768, 768]⟩
abbrev S768x12288 : Shape := ⟨2, ![768, 12288]⟩
abbrev S12288x768 : Shape := ⟨2, ![12288, 768]⟩
abbrev S_ : Shape := ⟨0, ![]⟩

class Facts : Prop where
  bcast_S_S768x768 : S_.BroadcastsInDim S768x768 (![] : Fin 0 → Fin S768x768.rank)
  reducesTo_S768x768_S_d0_1 : S768x768.ReducesTo [0, 1] S_
  h_S_ : 0 < S_.numel
  bcast_S_S768x12288 : S_.BroadcastsInDim S768x12288 (![] : Fin 0 → Fin S768x12288.rank)
  reducesTo_S768x12288_S_d0_1 : S768x12288.ReducesTo [0, 1] S_
  bcast_S_S12288x768 : S_.BroadcastsInDim S12288x768 (![] : Fin 0 → Fin S12288x768.rank)
  reducesTo_S12288x768_S_d0_1 : S12288x768.ReducesTo [0, 1] S_

variable [Facts]

def fn_part1 {F : FTy → Type} [FloatOps F] (main_v13 : IVec S_ 1) (main_v16 : IVec S12288x768 1) : IVec S_ 1 :=
  let main_c_5 : IVec S_ 1 := constantI S_ 1 1#1
  let main_v17 : IVec S_ 1 := (fun x v => Host.reduce IntOp.andi x v reducesTo_S12288x768_S_d0_1 h_S_) main_v16 main_c_5
  let main_v18 : IVec S_ 1 := andi main_v13 main_v17
  main_v18

def fn {F : FTy → Type} [FloatOps F] (main_arg0 : FVec F S768x768 .f32) (main_arg1 : FVec F S768x12288 .f32) (main_arg2 : FVec F S768x12288 .f32) (main_arg3 : FVec F S12288x768 .f32) : IVec S_ 1 :=
  let main_v0 : FVec F S768x768 .f32 := Host.absf main_arg0
  let main_cst : FVec F S_ .f32 := constant S_ .f32 0x7F800000#32
  let main_v1 : FVec F S768x768 .f32 := broadcastInDim S768x768 ![] bcast_S_S768x768 main_cst
  let main_v2 : IVec S768x768 1 := cmpf .olt main_v0 main_v1
  let main_c : IVec S_ 1 := constantI S_ 1 1#1
  let main_v3 : IVec S_ 1 := (fun x v => Host.reduce IntOp.andi x v reducesTo_S768x768_S_d0_1 h_S_) main_v2 main_c
  let main_v4 : FVec F S768x12288 .f32 := Host.absf main_arg1
  let main_cst_0 : FVec F S_ .f32 := constant S_ .f32 0x7F800000#32
  let main_v5 : FVec F S768x12288 .f32 := broadcastInDim S768x12288 ![] bcast_S_S768x12288 main_cst_0
  let main_v6 : IVec S768x12288 1 := cmpf .olt main_v4 main_v5
  let main_c_1 : IVec S_ 1 := constantI S_ 1 1#1
  let main_v7 : IVec S_ 1 := (fun x v => Host.reduce IntOp.andi x v reducesTo_S768x12288_S_d0_1 h_S_) main_v6 main_c_1
  let main_v8 : IVec S_ 1 := andi main_v3 main_v7
  let main_v9 : FVec F S768x12288 .f32 := Host.absf main_arg2
  let main_cst_2 : FVec F S_ .f32 := constant S_ .f32 0x7F800000#32
  let main_v10 : FVec F S768x12288 .f32 := broadcastInDim S768x12288 ![] bcast_S_S768x12288 main_cst_2
  let main_v11 : IVec S768x12288 1 := cmpf .olt main_v9 main_v10
  let main_c_3 : IVec S_ 1 := constantI S_ 1 1#1
  let main_v12 : IVec S_ 1 := (fun x v => Host.reduce IntOp.andi x v reducesTo_S768x12288_S_d0_1 h_S_) main_v11 main_c_3
  let main_v13 : IVec S_ 1 := andi main_v8 main_v12
  let main_v14 : FVec F S12288x768 .f32 := Host.absf main_arg3
  let main_cst_4 : FVec F S_ .f32 := constant S_ .f32 0x7F800000#32
  let main_v15 : FVec F S12288x768 .f32 := broadcastInDim S12288x768 ![] bcast_S_S12288x768 main_cst_4
  let main_v16 : IVec S12288x768 1 := cmpf .olt main_v14 main_v15
  fn_part1 (F := F) main_v13 main_v16
-- ==== Kernel.lean ====
abbrev S768x768 : Shape := ⟨2, ![768, 768]⟩
abbrev S768x1536 : Shape := ⟨2, ![768, 1536]⟩
abbrev S1536x768 : Shape := ⟨2, ![1536, 768]⟩
abbrev S3x768x256 : Shape := ⟨3, ![3, 768, 256]⟩
abbrev S3x8x96x256 : Shape := ⟨4, ![3, 8, 96, 256]⟩
abbrev S3x96x256 : Shape := ⟨3, ![3, 96, 256]⟩
abbrev S96x256 : Shape := ⟨2, ![96, 256]⟩
abbrev S3x8 : Shape := ⟨2, ![3, 8]⟩
abbrev S_ : Shape := ⟨0, ![]⟩
abbrev S1536x256 : Shape := ⟨2, ![1536, 256]⟩
abbrev S768x256 : Shape := ⟨2, ![768, 256]⟩
abbrev S1x768x256 : Shape := ⟨3, ![1, 768, 256]⟩
abbrev S1x96x256 : Shape := ⟨3, ![1, 96, 256]⟩
abbrev S1x1x96x256 : Shape := ⟨4, ![1, 1, 96, 256]⟩
abbrev S1x1 : Shape := ⟨2, ![1, 1]⟩

abbrev nBuf : Space → Nat
  | .hbm => 5
  | .vmem => 11
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S768x1536, .f32⟩
  | .hbm, ⟨3, _⟩ => ⟨S1536x768, .f32⟩
  | .hbm, ⟨4, _⟩ => ⟨S768x768, .bf16⟩
  | .local _ .vmem, ⟨0, _⟩ => ⟨S768x768, .f32⟩
  | .local _ .vmem, ⟨1, _⟩ => ⟨S768x1536, .f32⟩
  | .local _ .vmem, ⟨2, _⟩ => ⟨S768x1536, .f32⟩
  | .local _ .vmem, ⟨3, _⟩ => ⟨S1536x768, .f32⟩
  | .local _ .vmem, ⟨4, _⟩ => ⟨S768x768, .bf16⟩
  | .local _ .vmem, ⟨5, _⟩ => ⟨S3x768x256, .bf16⟩
  | .local _ .vmem, ⟨6, _⟩ => ⟨S3x8x96x256, .bf16⟩
  | .local _ .vmem, ⟨7, _⟩ => ⟨S768x1536, .bf16⟩
  | .local _ .vmem, ⟨8, _⟩ => ⟨S1536x768, .bf16⟩
  | .local _ .vmem, ⟨9, _⟩ => ⟨S3x96x256, .bf16⟩
  | .local _ .vmem, ⟨10, _⟩ => ⟨S96x256, .f32⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) : Fin 3 → Nat :=
  let c0_42 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32 : BitVec 32 := 96#32
  let v56 : BitVec 32 := Scalar.muli v2 c96_i32
  let v57 : Index := Scalar.indexCast v56
  let c0_43 : Index := 0#32
  ![0, v57.toNat, 0]
def k0_off2 (d0 : Dev nD) (c7_i32_48 : BitVec 32) : Fin 3 → Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.xori v2 c7_i32_48
  let c96_i32_49 : BitVec 32 := 96#32
  let v64 : BitVec 32 := Scalar.muli v63 c96_i32_49
  let c0_i32_61 : BitVec 32 := 0#32
  ![0, v64.toNat, 0]
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_48 : BitVec 32 := 7#32
  let v63 : BitVec 32 := Scalar.xori v2 c7_i32_48
  let c1_i32_57 : BitVec 32 := 1#32
  let v65 : BitVec 32 := Scalar.muli v63 c1_i32_57
  let v66 : BitVec 32 := Scalar.addi c0_i32_58 v65
  v66.toNat
def k0_dev9 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v75 : BitVec 32 := Scalar.xori v2 c3_i32_62
  let c1_i32_71 : BitVec 32 := 1#32
  let v77 : BitVec 32 := Scalar.muli v75 c1_i32_71
  let v78 : BitVec 32 := Scalar.addi c0_i32_72 v77
  v78.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_76 : BitVec 32 := 5#32
  let v87 : BitVec 32 := Scalar.xori v2 c5_i32_76
  let c1_i32_85 : BitVec 32 := 1#32
  let v89 : BitVec 32 := Scalar.muli v87 c1_i32_85
  let v90 : BitVec 32 := Scalar.addi c0_i32_86 v89
  v90.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v99 : BitVec 32 := Scalar.xori v2 c6_i32_90
  let c1_i32_99 : BitVec 32 := 1#32
  let v101 : BitVec 32 := Scalar.muli v99 c1_i32_99
  let v102 : BitVec 32 := Scalar.addi c0_i32_100 v101
  v102.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v111 : BitVec 32 := Scalar.xori v2 c1_i32_104
  let c1_i32_113 : BitVec 32 := 1#32
  let v113 : BitVec 32 := Scalar.muli v111 c1_i32_113
  let v114 : BitVec 32 := Scalar.addi c0_i32_114 v113
  v114.toNat
def k0_dev13 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_118 : BitVec 32 := 2#32
  let v123 : BitVec 32 := Scalar.xori v2 c2_i32_118
  let c1_i32_127 : BitVec 32 := 1#32
  let v125 : BitVec 32 := Scalar.muli v123 c1_i32_127
  let v126 : BitVec 32 := Scalar.addi c0_i32_128 v125
  v126.toNat
def k0_dev14 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v135 : BitVec 32 := Scalar.xori v2 c4_i32_132
  let c1_i32_141 : BitVec 32 := 1#32
  let v137 : BitVec 32 := Scalar.muli v135 c1_i32_141
  let v138 : BitVec 32 := Scalar.addi c0_i32_142 v137
  v138.toNat
def k0_off3 (d0 : Dev nD) : Fin 3 → Nat :=
  let c1_153 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_152 : BitVec 32 := 96#32
  let v154 : BitVec 32 := Scalar.muli v2 c96_i32_152
  let v155 : Index := Scalar.indexCast v154
  let c0_154 : Index := 0#32
  ![1, v155.toNat, 0]
def k0_off4 (d0 : Dev nD) (c7_i32_159 : BitVec 32) : Fin 3 → Nat :=
  let c1_i32_161 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v161 : BitVec 32 := Scalar.xori v2 c7_i32_159
  let c96_i32_160 : BitVec 32 := 96#32
  let v162 : BitVec 32 := Scalar.muli v161 c96_i32_160
  let c0_i32_172 : BitVec 32 := 0#32
  ![1, v162.toNat, 0]
def k0_dev15 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_159 : BitVec 32 := 7#32
  let v161 : BitVec 32 := Scalar.xori v2 c7_i32_159
  let c1_i32_168 : BitVec 32 := 1#32
  let v163 : BitVec 32 := Scalar.muli v161 c1_i32_168
  let v164 : BitVec 32 := Scalar.addi c0_i32_169 v163
  v164.toNat
def k0_dev16 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_173 : BitVec 32 := 3#32
  let v173 : BitVec 32 := Scalar.xori v2 c3_i32_173
  let c1_i32_182 : BitVec 32 := 1#32
  let v175 : BitVec 32 := Scalar.muli v173 c1_i32_182
  let v176 : BitVec 32 := Scalar.addi c0_i32_183 v175
  v176.toNat
def k0_dev17 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_187 : BitVec 32 := 5#32
  let v185 : BitVec 32 := Scalar.xori v2 c5_i32_187
  let c1_i32_196 : BitVec 32 := 1#32
  let v187 : BitVec 32 := Scalar.muli v185 c1_i32_196
  let v188 : BitVec 32 := Scalar.addi c0_i32_197 v187
  v188.toNat
def k0_dev18 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_201 : BitVec 32 := 6#32
  let v197 : BitVec 32 := Scalar.xori v2 c6_i32_201
  let c1_i32_210 : BitVec 32 := 1#32
  let v199 : BitVec 32 := Scalar.muli v197 c1_i32_210
  let v200 : BitVec 32 := Scalar.addi c0_i32_211 v199
  v200.toNat
def k0_dev19 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_215 : BitVec 32 := 1#32
  let v209 : BitVec 32 := Scalar.xori v2 c1_i32_215
  let c1_i32_224 : BitVec 32 := 1#32
  let v211 : BitVec 32 := Scalar.muli v209 c1_i32_224
  let v212 : BitVec 32 := Scalar.addi c0_i32_225 v211
  v212.toNat
def k0_dev20 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_229 : BitVec 32 := 2#32
  let v221 : BitVec 32 := Scalar.xori v2 c2_i32_229
  let c1_i32_238 : BitVec 32 := 1#32
  let v223 : BitVec 32 := Scalar.muli v221 c1_i32_238
  let v224 : BitVec 32 := Scalar.addi c0_i32_239 v223
  v224.toNat
def k0_dev21 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_243 : BitVec 32 := 4#32
  let v233 : BitVec 32 := Scalar.xori v2 c4_i32_243
  let c1_i32_252 : BitVec 32 := 1#32
  let v235 : BitVec 32 := Scalar.muli v233 c1_i32_252
  let v236 : BitVec 32 := Scalar.addi c0_i32_253 v235
  v236.toNat
def k0_off5 (d0 : Dev nD) : Fin 3 → Nat :=
  let c2_264 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_263 : BitVec 32 := 96#32
  let v252 : BitVec 32 := Scalar.muli v2 c96_i32_263
  let v253 : Index := Scalar.indexCast v252
  let c0_265 : Index := 0#32
  ![2, v253.toNat, 0]
def k0_off6 (d0 : Dev nD) (c7_i32_270 : BitVec 32) : Fin 3 → Nat :=
  let c2_i32_272 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v259 : BitVec 32 := Scalar.xori v2 c7_i32_270
  let c96_i32_271 : BitVec 32 := 96#32
  let v260 : BitVec 32 := Scalar.muli v259 c96_i32_271
  let c0_i32_283 : BitVec 32 := 0#32
  ![2, v260.toNat, 0]
def k0_dev22 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_270 : BitVec 32 := 7#32
  let v259 : BitVec 32 := Scalar.xori v2 c7_i32_270
  let c1_i32_279 : BitVec 32 := 1#32
  let v261 : BitVec 32 := Scalar.muli v259 c1_i32_279
  let v262 : BitVec 32 := Scalar.addi c0_i32_280 v261
  v262.toNat
def k0_dev23 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v271 : BitVec 32 := Scalar.xori v2 c3_i32_284
  let c1_i32_293 : BitVec 32 := 1#32
  let v273 : BitVec 32 := Scalar.muli v271 c1_i32_293
  let v274 : BitVec 32 := Scalar.addi c0_i32_294 v273
  v274.toNat
def k0_dev24 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_298 : BitVec 32 := 5#32
  let v283 : BitVec 32 := Scalar.xori v2 c5_i32_298
  let c1_i32_307 : BitVec 32 := 1#32
  let v285 : BitVec 32 := Scalar.muli v283 c1_i32_307
  let v286 : BitVec 32 := Scalar.addi c0_i32_308 v285
  v286.toNat
def k0_dev25 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_312 : BitVec 32 := 6#32
  let v295 : BitVec 32 := Scalar.xori v2 c6_i32_312
  let c1_i32_321 : BitVec 32 := 1#32
  let v297 : BitVec 32 := Scalar.muli v295 c1_i32_321
  let v298 : BitVec 32 := Scalar.addi c0_i32_322 v297
  v298.toNat
def k0_dev26 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_326 : BitVec 32 := 1#32
  let v307 : BitVec 32 := Scalar.xori v2 c1_i32_326
  let c1_i32_335 : BitVec 32 := 1#32
  let v309 : BitVec 32 := Scalar.muli v307 c1_i32_335
  let v310 : BitVec 32 := Scalar.addi c0_i32_336 v309
  v310.toNat
def k0_dev27 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_340 : BitVec 32 := 2#32
  let v319 : BitVec 32 := Scalar.xori v2 c2_i32_340
  let c1_i32_349 : BitVec 32 := 1#32
  let v321 : BitVec 32 := Scalar.muli v319 c1_i32_349
  let v322 : BitVec 32 := Scalar.addi c0_i32_350 v321
  v322.toNat
def k0_dev28 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_354 : BitVec 32 := 4#32
  let v331 : BitVec 32 := Scalar.xori v2 c4_i32_354
  let c1_i32_363 : BitVec 32 := 1#32
  let v333 : BitVec 32 := Scalar.muli v331 c1_i32_363
  let v334 : BitVec 32 := Scalar.addi c0_i32_364 v333
  v334.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_538 : BitVec 32 := 96#32
  let v475 : BitVec 32 := Scalar.muli v2 c96_i32_538
  let v476 : Index := Scalar.indexCast v475
  let c0_539 : Index := 0#32
  ![v476.toNat, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_541 : BitVec 32 := 96#32
  let v479 : BitVec 32 := Scalar.muli v2 c96_i32_541
  let c0_i32_549 : BitVec 32 := 0#32
  ![v479.toNat, 0]
def k0_dev29 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_540 : BitVec 32 := 7#32
  let v478 : BitVec 32 := Scalar.xori v2 c7_i32_540
  let c1_i32_547 : BitVec 32 := 1#32
  let v480 : BitVec 32 := Scalar.muli v478 c1_i32_547
  let v481 : BitVec 32 := Scalar.addi c0_i32_548 v480
  v481.toNat
def k0_dev30 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_552 : BitVec 32 := 3#32
  let v489 : BitVec 32 := Scalar.xori v2 c3_i32_552
  let c1_i32_559 : BitVec 32 := 1#32
  let v491 : BitVec 32 := Scalar.muli v489 c1_i32_559
  let v492 : BitVec 32 := Scalar.addi c0_i32_560 v491
  v492.toNat
def k0_dev31 (d0 : Dev nD) : Nat :=
  let c0_i32_572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_564 : BitVec 32 := 5#32
  let v500 : BitVec 32 := Scalar.xori v2 c5_i32_564
  let c1_i32_571 : BitVec 32 := 1#32
  let v502 : BitVec 32 := Scalar.muli v500 c1_i32_571
  let v503 : BitVec 32 := Scalar.addi c0_i32_572 v502
  v503.toNat
def k0_dev32 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_576 : BitVec 32 := 6#32
  let v511 : BitVec 32 := Scalar.xori v2 c6_i32_576
  let c1_i32_583 : BitVec 32 := 1#32
  let v513 : BitVec 32 := Scalar.muli v511 c1_i32_583
  let v514 : BitVec 32 := Scalar.addi c0_i32_584 v513
  v514.toNat
def k0_dev33 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_588 : BitVec 32 := 1#32
  let v522 : BitVec 32 := Scalar.xori v2 c1_i32_588
  let c1_i32_595 : BitVec 32 := 1#32
  let v524 : BitVec 32 := Scalar.muli v522 c1_i32_595
  let v525 : BitVec 32 := Scalar.addi c0_i32_596 v524
  v525.toNat
def k0_dev34 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_600 : BitVec 32 := 2#32
  let v533 : BitVec 32 := Scalar.xori v2 c2_i32_600
  let c1_i32_607 : BitVec 32 := 1#32
  let v535 : BitVec 32 := Scalar.muli v533 c1_i32_607
  let v536 : BitVec 32 := Scalar.addi c0_i32_608 v535
  v536.toNat
def k0_dev35 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_612 : BitVec 32 := 4#32
  let v544 : BitVec 32 := Scalar.xori v2 c4_i32_612
  let c1_i32_619 : BitVec 32 := 1#32
  let v546 : BitVec 32 := Scalar.muli v544 c1_i32_619
  let v547 : BitVec 32 := Scalar.addi c0_i32_620 v546
  v547.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_799 : BitVec 32 := 96#32
  let v687 : BitVec 32 := Scalar.muli v2 c96_i32_799
  let v688 : Index := Scalar.indexCast v687
  let c256_800 : Index := 256#32
  ![v688.toNat, 256]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_802 : BitVec 32 := 96#32
  let v691 : BitVec 32 := Scalar.muli v2 c96_i32_802
  let c256_i32 : BitVec 32 := 256#32
  ![v691.toNat, 256]
def k0_dev36 (d0 : Dev nD) : Nat :=
  let c0_i32_809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_801 : BitVec 32 := 7#32
  let v690 : BitVec 32 := Scalar.xori v2 c7_i32_801
  let c1_i32_808 : BitVec 32 := 1#32
  let v692 : BitVec 32 := Scalar.muli v690 c1_i32_808
  let v693 : BitVec 32 := Scalar.addi c0_i32_809 v692
  v693.toNat
def k0_dev37 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_812 : BitVec 32 := 3#32
  let v701 : BitVec 32 := Scalar.xori v2 c3_i32_812
  let c1_i32_819 : BitVec 32 := 1#32
  let v703 : BitVec 32 := Scalar.muli v701 c1_i32_819
  let v704 : BitVec 32 := Scalar.addi c0_i32_820 v703
  v704.toNat
def k0_dev38 (d0 : Dev nD) : Nat :=
  let c0_i32_832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_824 : BitVec 32 := 5#32
  let v712 : BitVec 32 := Scalar.xori v2 c5_i32_824
  let c1_i32_831 : BitVec 32 := 1#32
  let v714 : BitVec 32 := Scalar.muli v712 c1_i32_831
  let v715 : BitVec 32 := Scalar.addi c0_i32_832 v714
  v715.toNat
def k0_dev39 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_836 : BitVec 32 := 6#32
  let v723 : BitVec 32 := Scalar.xori v2 c6_i32_836
  let c1_i32_843 : BitVec 32 := 1#32
  let v725 : BitVec 32 := Scalar.muli v723 c1_i32_843
  let v726 : BitVec 32 := Scalar.addi c0_i32_844 v725
  v726.toNat
def k0_dev40 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_848 : BitVec 32 := 1#32
  let v734 : BitVec 32 := Scalar.xori v2 c1_i32_848
  let c1_i32_855 : BitVec 32 := 1#32
  let v736 : BitVec 32 := Scalar.muli v734 c1_i32_855
  let v737 : BitVec 32 := Scalar.addi c0_i32_856 v736
  v737.toNat
def k0_dev41 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_860 : BitVec 32 := 2#32
  let v745 : BitVec 32 := Scalar.xori v2 c2_i32_860
  let c1_i32_867 : BitVec 32 := 1#32
  let v747 : BitVec 32 := Scalar.muli v745 c1_i32_867
  let v748 : BitVec 32 := Scalar.addi c0_i32_868 v747
  v748.toNat
def k0_dev42 (d0 : Dev nD) : Nat :=
  let c0_i32_880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_872 : BitVec 32 := 4#32
  let v756 : BitVec 32 := Scalar.xori v2 c4_i32_872
  let c1_i32_879 : BitVec 32 := 1#32
  let v758 : BitVec 32 := Scalar.muli v756 c1_i32_879
  let v759 : BitVec 32 := Scalar.addi c0_i32_880 v758
  v759.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_1059 : BitVec 32 := 96#32
  let v899 : BitVec 32 := Scalar.muli v2 c96_i32_1059
  let v900 : Index := Scalar.indexCast v899
  let c512_1060 : Index := 512#32
  ![v900.toNat, 512]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_1062 : BitVec 32 := 96#32
  let v903 : BitVec 32 := Scalar.muli v2 c96_i32_1062
  let c512_i32 : BitVec 32 := 512#32
  ![v903.toNat, 512]
def k0_dev43 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1061 : BitVec 32 := 7#32
  let v902 : BitVec 32 := Scalar.xori v2 c7_i32_1061
  let c1_i32_1068 : BitVec 32 := 1#32
  let v904 : BitVec 32 := Scalar.muli v902 c1_i32_1068
  let v905 : BitVec 32 := Scalar.addi c0_i32_1069 v904
  v905.toNat
def k0_dev44 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1072 : BitVec 32 := 3#32
  let v913 : BitVec 32 := Scalar.xori v2 c3_i32_1072
  let c1_i32_1079 : BitVec 32 := 1#32
  let v915 : BitVec 32 := Scalar.muli v913 c1_i32_1079
  let v916 : BitVec 32 := Scalar.addi c0_i32_1080 v915
  v916.toNat
def k0_dev45 (d0 : Dev nD) : Nat :=
  let c0_i32_1092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1084 : BitVec 32 := 5#32
  let v924 : BitVec 32 := Scalar.xori v2 c5_i32_1084
  let c1_i32_1091 : BitVec 32 := 1#32
  let v926 : BitVec 32 := Scalar.muli v924 c1_i32_1091
  let v927 : BitVec 32 := Scalar.addi c0_i32_1092 v926
  v927.toNat
def k0_dev46 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1096 : BitVec 32 := 6#32
  let v935 : BitVec 32 := Scalar.xori v2 c6_i32_1096
  let c1_i32_1103 : BitVec 32 := 1#32
  let v937 : BitVec 32 := Scalar.muli v935 c1_i32_1103
  let v938 : BitVec 32 := Scalar.addi c0_i32_1104 v937
  v938.toNat
def k0_dev47 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1108 : BitVec 32 := 1#32
  let v946 : BitVec 32 := Scalar.xori v2 c1_i32_1108
  let c1_i32_1115 : BitVec 32 := 1#32
  let v948 : BitVec 32 := Scalar.muli v946 c1_i32_1115
  let v949 : BitVec 32 := Scalar.addi c0_i32_1116 v948
  v949.toNat
def k0_dev48 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1120 : BitVec 32 := 2#32
  let v957 : BitVec 32 := Scalar.xori v2 c2_i32_1120
  let c1_i32_1127 : BitVec 32 := 1#32
  let v959 : BitVec 32 := Scalar.muli v957 c1_i32_1127
  let v960 : BitVec 32 := Scalar.addi c0_i32_1128 v959
  v960.toNat
def k0_dev49 (d0 : Dev nD) : Nat :=
  let c0_i32_1140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1132 : BitVec 32 := 4#32
  let v968 : BitVec 32 := Scalar.xori v2 c4_i32_1132
  let c1_i32_1139 : BitVec 32 := 1#32
  let v970 : BitVec 32 := Scalar.muli v968 c1_i32_1139
  let v971 : BitVec 32 := Scalar.addi c0_i32_1140 v970
  v971.toNat
def k0_off13 (d0 : Dev nD) (c7_i32_1144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v979 : BitVec 32 := Scalar.xori v2 c7_i32_1144
  let c96_i32_1145 : BitVec 32 := 96#32
  let v980 : BitVec 32 := Scalar.muli v979 c96_i32_1145
  let c0_i32_1153 : BitVec 32 := 0#32
  ![v980.toNat, 0]
def k0_off14 (d0 : Dev nD) (c7_i32_1228 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1042 : BitVec 32 := Scalar.xori v2 c7_i32_1228
  let c96_i32_1229 : BitVec 32 := 96#32
  let v1043 : BitVec 32 := Scalar.muli v1042 c96_i32_1229
  let c256_i32_1237 : BitVec 32 := 256#32
  ![v1043.toNat, 256]
def k0_off15 (d0 : Dev nD) (c7_i32_1312 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1105 : BitVec 32 := Scalar.xori v2 c7_i32_1312
  let c96_i32_1313 : BitVec 32 := 96#32
  let v1106 : BitVec 32 := Scalar.muli v1105 c96_i32_1313
  let c512_i32_1321 : BitVec 32 := 512#32
  ![v1106.toNat, 512]
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_7 : (7#32 : BitVec 32).msb = false
  inb_S768x768_S768x768_0_0 : ∀ a, (![0, 0] : Fin 2 → Nat) a + S768x768.size a ≤ S768x768.size a
  h_S768x768 : 0 < S768x768.numel
  shapeCasts_S768x768_S768x768 : S768x768.ShapeCasts S768x768
  bitsLt_bf16_f32 : FTy.bits .bf16 < FTy.bits .f32
  inb_S768x1536_S768x1536_0_0 : ∀ a, (![0, 0] : Fin 2 → Nat) a + S768x1536.size a ≤ S768x1536.size a
  h_S768x1536 : 0 < S768x1536.numel
  shapeCasts_S768x1536_S768x1536 : S768x1536.ShapeCasts S768x1536
  packedbf16_S768x1536_S768x1536_0_0 : (Rect.unit (s := S768x1536) ![0, 0] S768x1536.size inb_S768x1536_S768x1536_0_0).PackedRows (EltTy.packing .bf16)
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  packedbf16_S1536x768_S1536x768_0_0 : (Rect.unit (s := S1536x768) ![0, 0] S1536x768.size inb_S1536x768_S1536x768_0_0).PackedRows (EltTy.packing .bf16)
  inb_S1536x768_S1536x256_0_0 : ∀ a, (![0, 0] : Fin 2 → Nat) a + S1536x256.size a ≤ S1536x768.size a
  h_S1536x256 : 0 < S1536x256.numel
  inb_S3x768x256_S1x768x256_0_0_0 : ∀ a, (![0, 0, 0] : Fin 3 → Nat) a + S1x768x256.size a ≤ S3x768x256.size a
  h_S1x768x256 : 0 < S1x768x256.numel
  shapeCasts_S1x768x256_S768x256 : S1x768x256.ShapeCasts S768x256
  shapeCasts_S768x256_S1x768x256 : S768x256.ShapeCasts S1x768x256
  packedbf16_S3x768x256_S1x768x256_0_0_0 : (Rect.unit (s := S3x768x256) ![0, 0, 0] S1x768x256.size inb_S3x768x256_S1x768x256_0_0_0).PackedRows (EltTy.packing .bf16)
  h_S1x96x256 : 0 < S1x96x256.numel
  shapeCasts_S1x96x256_S96x256 : S1x96x256.ShapeCasts S96x256
  inb_S3x8x96x256_S1x1x96x256_0_0_0_0 : ∀ a, (![0, 0, 0, 0] : Fin 4 → Nat) a + S1x1x96x256.size a ≤ S3x8x96x256.size a
  h_S1x1x96x256 : 0 < S1x1x96x256.numel
  shapeCasts_S1x1x96x256_S96x256 : S1x1x96x256.ShapeCasts S96x256
  shapeCasts_S96x256_S1x1x96x256 : S96x256.ShapeCasts S1x1x96x256
  packedbf16_S3x8x96x256_S1x1x96x256_0_0_0_0 : (Rect.unit (s := S3x8x96x256) ![0, 0, 0, 0] S1x1x96x256.size inb_S3x8x96x256_S1x1x96x256_0_0_0_0).PackedRows (EltTy.packing .bf16)
  inb_S3x8_S1x1_0_7 : ∀ a, (![0, 7] : Fin 2 → Nat) a + S1x1.size a ≤ S3x8.size a
  squeezes_S1x1_S_ : S1x1.Squeezes S_
  inb_S3x8x96x256_S1x1x96x256_0_7_0_0 : ∀ a, (![0, 7, 0, 0] : Fin 4 → Nat) a + S1x1x96x256.size a ≤ S3x8x96x256.size a
  squeezes_S1x1x96x256_S96x256 : S1x1x96x256.Squeezes S96x256
  squeezes_S1x96x256_S96x256 : S1x96x256.Squeezes S96x256
  wordsbf16_S3x8x96x256_S1x1x96x256_0_7_0_0 : (Rect.unit (s := S3x8x96x256) ![0, 7, 0, 0] S1x1x96x256.size inb_S3x8x96x256_S1x1x96x256_0_7_0_0).WholeWords (EltTy.packing .bf16)
  inb_S3x8_S1x1_0_3 : ∀ a, (![0, 3] : Fin 2 → Nat) a + S1x1.size a ≤ S3x8.size a
  inb_S3x8x96x256_S1x1x96x256_0_3_0_0 : ∀ a, (![0, 3, 0, 0] : Fin 4 → Nat) a + S1x1x96x256.size a ≤ S3x8x96x256.size a
  wordsbf16_S3x8x96x256_S1x1x96x256_0_3_0_0 : (Rect.unit (s := S3x8x96x256) ![0, 3, 0, 0] S1x1x96x256.size inb_S3x8x96x256_S1x1x96x256_0_3_0_0).WholeWords (EltTy.packing .bf16)
  inb_S3x8_S1x1_0_5 : ∀ a, (![0, 5] : Fin 2 → Nat) a + S1x1.size a ≤ S3x8.size a
  inb_S3x8x96x256_S1x1x96x256_0_5_0_0 : ∀ a, (![0, 5, 0, 0] : Fin 4 → Nat) a + S1x1x96x256.size a ≤ S3x8x96x256.size a
  wordsbf16_S3x8x96x256_S1x1x96x256_0_5_0_0 : (Rect.unit (s := S3x8x96x256) ![0, 5, 0, 0] S1x1x96x256.size inb_S3x8x96x256_S1x1x96x256_0_5_0_0).WholeWords (EltTy.packing .bf16)
  inb_S3x8_S1x1_0_6 : ∀ a, (![0, 6] : Fin 2 → Nat) a + S1x1.size a ≤ S3x8.size a
  inb_S3x8x96x256_S1x1x96x256_0_6_0_0 : ∀ a, (![0, 6, 0, 0] : Fin 4 → Nat) a + S1x1x96x256.size a ≤ S3x8x96x256.size a
  wordsbf16_S3x8x96x256_S1x1x96x256_0_6_0_0 : (Rect.unit (s := S3x8x96x256) ![0, 6, 0, 0] S1x1x96x256.size inb_S3x8x96x256_S1x1x96x256_0_6_0_0).WholeWords (EltTy.packing .bf16)
  inb_S3x8_S1x1_0_1 : ∀ a, (![0, 1] : Fin 2 → Nat) a + S1x1.size a ≤ S3x8.size a
  inb_S3x8x96x256_S1x1x96x256_0_1_0_0 : ∀ a, (![0, 1, 0, 0] : Fin 4 → Nat) a + S1x1x96x256.size a ≤ S3x8x96x256.size a
  wordsbf16_S3x8x96x256_S1x1x96x256_0_1_0_0 : (Rect.unit (s := S3x8x96x256) ![0, 1, 0, 0] S1x1x96x256.size inb_S3x8x96x256_S1x1x96x256_0_1_0_0).WholeWords (EltTy.packing .bf16)
  inb_S3x8_S1x1_0_2 : ∀ a, (![0, 2] : Fin 2 → Nat) a + S1x1.size a ≤ S3x8.size a
  inb_S3x8x96x256_S1x1x96x256_0_2_0_0 : ∀ a, (![0, 2, 0, 0] : Fin 4 → Nat) a + S1x1x96x256.size a ≤ S3x8x96x256.size a
  wordsbf16_S3x8x96x256_S1x1x96x256_0_2_0_0 : (Rect.unit (s := S3x8x96x256) ![0, 2, 0, 0] S1x1x96x256.size inb_S3x8x96x256_S1x1x96x256_0_2_0_0).WholeWords (EltTy.packing .bf16)
  inb_S3x8_S1x1_0_4 : ∀ a, (![0, 4] : Fin 2 → Nat) a + S1x1.size a ≤ S3x8.size a
  inb_S3x8x96x256_S1x1x96x256_0_4_0_0 : ∀ a, (![0, 4, 0, 0] : Fin 4 → Nat) a + S1x1x96x256.size a ≤ S3x8x96x256.size a
  wordsbf16_S3x8x96x256_S1x1x96x256_0_4_0_0 : (Rect.unit (s := S3x8x96x256) ![0, 4, 0, 0] S1x1x96x256.size inb_S3x8x96x256_S1x1x96x256_0_4_0_0).WholeWords (EltTy.packing .bf16)
  inb_S1536x768_S1536x256_0_256 : ∀ a, (![0, 256] : Fin 2 → Nat) a + S1536x256.size a ≤ S1536x768.size a
  inb_S3x768x256_S1x768x256_1_0_0 : ∀ a, (![1, 0, 0] : Fin 3 → Nat) a + S1x768x256.size a ≤ S3x768x256.size a
  packedbf16_S3x768x256_S1x768x256_1_0_0 : (Rect.unit (s := S3x768x256) ![1, 0, 0] S1x768x256.size inb_S3x768x256_S1x768x256_1_0_0).PackedRows (EltTy.packing .bf16)
  inb_S3x8x96x256_S1x1x96x256_1_0_0_0 : ∀ a, (![1, 0, 0, 0] : Fin 4 → Nat) a + S1x1x96x256.size a ≤ S3x8x96x256.size a
  packedbf16_S3x8x96x256_S1x1x96x256_1_0_0_0 : (Rect.unit (s := S3x8x96x256) ![1, 0, 0, 0] S1x1x96x256.size inb_S3x8x96x256_S1x1x96x256_1_0_0_0).PackedRows (EltTy.packing .bf16)
  inb_S3x8_S1x1_1_7 : ∀ a, (![1, 7] : Fin 2 → Nat) a + S1x1.size a ≤ S3x8.size a
  inb_S3x8x96x256_S1x1x96x256_1_7_0_0 : ∀ a, (![1, 7, 0, 0] : Fin 4 → Nat) a + S1x1x96x256.size a ≤ S3x8x96x256.size a
  wordsbf16_S3x8x96x256_S1x1x96x256_1_7_0_0 : (Rect.unit (s := S3x8x96x256) ![1, 7, 0, 0] S1x1x96x256.size inb_S3x8x96x256_S1x1x96x256_1_7_0_0).WholeWords (EltTy.packing .bf16)
  inb_S3x8_S1x1_1_3 : ∀ a, (![1, 3] : Fin 2 → Nat) a + S1x1.size a ≤ S3x8.size a
  inb_S3x8x96x256_S1x1x96x256_1_3_0_0 : ∀ a, (![1, 3, 0, 0] : Fin 4 → Nat) a + S1x1x96x256.size a ≤ S3x8x96x256.size a
  wordsbf16_S3x8x96x256_S1x1x96x256_1_3_0_0 : (Rect.unit (s := S3x8x96x256) ![1, 3, 0, 0] S1x1x96x256.size inb_S3x8x96x256_S1x1x96x256_1_3_0_0).WholeWords (EltTy.packing .bf16)
  inb_S3x8_S1x1_1_5 : ∀ a, (![1, 5] : Fin 2 → Nat) a + S1x1.size a ≤ S3x8.size a
  inb_S3x8x96x256_S1x1x96x256_1_5_0_0 : ∀ a, (![1, 5, 0, 0] : Fin 4 → Nat) a + S1x1x96x256.size a ≤ S3x8x96x256.size a
  wordsbf16_S3x8x96x256_S1x1x96x256_1_5_0_0 : (Rect.unit (s := S3x8x96x256) ![1, 5, 0, 0] S1x1x96x256.size inb_S3x8x96x256_S1x1x96x256_1_5_0_0).WholeWords (EltTy.packing .bf16)
  inb_S3x8_S1x1_1_6 : ∀ a, (![1, 6] : Fin 2 → Nat) a + S1x1.size a ≤ S3x8.size a
  inb_S3x8x96x256_S1x1x96x256_1_6_0_0 : ∀ a, (![1, 6, 0, 0] : Fin 4 → Nat) a + S1x1x96x256.size a ≤ S3x8x96x256.size a
  wordsbf16_S3x8x96x256_S1x1x96x256_1_6_0_0 : (Rect.unit (s := S3x8x96x256) ![1, 6, 0, 0] S1x1x96x256.size inb_S3x8x96x256_S1x1x96x256_1_6_0_0).WholeWords (EltTy.packing .bf16)
  inb_S3x8_S1x1_1_1 : ∀ a, (![1, 1] : Fin 2 → Nat) a + S1x1.size a ≤ S3x8.size a
  inb_S3x8x96x256_S1x1x96x256_1_1_0_0 : ∀ a, (![1, 1, 0, 0] : Fin 4 → Nat) a + S1x1x96x256.size a ≤ S3x8x96x256.size a
  wordsbf16_S3x8x96x256_S1x1x96x256_1_1_0_0 : (Rect.unit (s := S3x8x96x256) ![1, 1, 0, 0] S1x1x96x256.size inb_S3x8x96x256_S1x1x96x256_1_1_0_0).WholeWords (EltTy.packing .bf16)
  inb_S3x8_S1x1_1_2 : ∀ a, (![1, 2] : Fin 2 → Nat) a + S1x1.size a ≤ S3x8.size a
  inb_S3x8x96x256_S1x1x96x256_1_2_0_0 : ∀ a, (![1, 2, 0, 0] : Fin 4 → Nat) a + S1x1x96x256.size a ≤ S3x8x96x256.size a
  wordsbf16_S3x8x96x256_S1x1x96x256_1_2_0_0 : (Rect.unit (s := S3x8x96x256) ![1, 2, 0, 0] S1x1x96x256.size inb_S3x8x96x256_S1x1x96x256_1_2_0_0).WholeWords (EltTy.packing .bf16)
  inb_S3x8_S1x1_1_4 : ∀ a, (![1, 4] : Fin 2 → Nat) a + S1x1.size a ≤ S3x8.size a
  inb_S3x8x96x256_S1x1x96x256_1_4_0_0 : ∀ a, (![1, 4, 0, 0] : Fin 4 → Nat) a + S1x1x96x256.size a ≤ S3x8x96x256.size a
  wordsbf16_S3x8x96x256_S1x1x96x256_1_4_0_0 : (Rect.unit (s := S3x8x96x256) ![1, 4, 0, 0] S1x1x96x256.size inb_S3x8x96x256_S1x1x96x256_1_4_0_0).WholeWords (EltTy.packing .bf16)
  inb_S1536x768_S1536x256_0_512 : ∀ a, (![0, 512] : Fin 2 → Nat) a + S1536x256.size a ≤ S1536x768.size a
  inb_S3x768x256_S1x768x256_2_0_0 : ∀ a, (![2, 0, 0] : Fin 3 → Nat) a + S1x768x256.size a ≤ S3x768x256.size a
  packedbf16_S3x768x256_S1x768x256_2_0_0 : (Rect.unit (s := S3x768x256) ![2, 0, 0] S1x768x256.size inb_S3x768x256_S1x768x256_2_0_0).PackedRows (EltTy.packing .bf16)
  inb_S3x8x96x256_S1x1x96x256_2_0_0_0 : ∀ a, (![2, 0, 0, 0] : Fin 4 → Nat) a + S1x1x96x256.size a ≤ S3x8x96x256.size a
  packedbf16_S3x8x96x256_S1x1x96x256_2_0_0_0 : (Rect.unit (s := S3x8x96x256) ![2, 0, 0, 0] S1x1x96x256.size inb_S3x8x96x256_S1x1x96x256_2_0_0_0).PackedRows (EltTy.packing .bf16)
  inb_S3x8_S1x1_2_7 : ∀ a, (![2, 7] : Fin 2 → Nat) a + S1x1.size a ≤ S3x8.size a
  inb_S3x8x96x256_S1x1x96x256_2_7_0_0 : ∀ a, (![2, 7, 0, 0] : Fin 4 → Nat) a + S1x1x96x256.size a ≤ S3x8x96x256.size a
  wordsbf16_S3x8x96x256_S1x1x96x256_2_7_0_0 : (Rect.unit (s := S3x8x96x256) ![2, 7, 0, 0] S1x1x96x256.size inb_S3x8x96x256_S1x1x96x256_2_7_0_0).WholeWords (EltTy.packing .bf16)
  inb_S3x8_S1x1_2_3 : ∀ a, (![2, 3] : Fin 2 → Nat) a + S1x1.size a ≤ S3x8.size a
  inb_S3x8x96x256_S1x1x96x256_2_3_0_0 : ∀ a, (![2, 3, 0, 0] : Fin 4 → Nat) a + S1x1x96x256.size a ≤ S3x8x96x256.size a
  wordsbf16_S3x8x96x256_S1x1x96x256_2_3_0_0 : (Rect.unit (s := S3x8x96x256) ![2, 3, 0, 0] S1x1x96x256.size inb_S3x8x96x256_S1x1x96x256_2_3_0_0).WholeWords (EltTy.packing .bf16)
  inb_S3x8_S1x1_2_5 : ∀ a, (![2, 5] : Fin 2 → Nat) a + S1x1.size a ≤ S3x8.size a
  inb_S3x8x96x256_S1x1x96x256_2_5_0_0 : ∀ a, (![2, 5, 0, 0] : Fin 4 → Nat) a + S1x1x96x256.size a ≤ S3x8x96x256.size a
  wordsbf16_S3x8x96x256_S1x1x96x256_2_5_0_0 : (Rect.unit (s := S3x8x96x256) ![2, 5, 0, 0] S1x1x96x256.size inb_S3x8x96x256_S1x1x96x256_2_5_0_0).WholeWords (EltTy.packing .bf16)
  inb_S3x8_S1x1_2_6 : ∀ a, (![2, 6] : Fin 2 → Nat) a + S1x1.size a ≤ S3x8.size a
  inb_S3x8x96x256_S1x1x96x256_2_6_0_0 : ∀ a, (![2, 6, 0, 0] : Fin 4 → Nat) a + S1x1x96x256.size a ≤ S3x8x96x256.size a
  wordsbf16_S3x8x96x256_S1x1x96x256_2_6_0_0 : (Rect.unit (s := S3x8x96x256) ![2, 6, 0, 0] S1x1x96x256.size inb_S3x8x96x256_S1x1x96x256_2_6_0_0).WholeWords (EltTy.packing .bf16)
  inb_S3x8_S1x1_2_1 : ∀ a, (![2, 1] : Fin 2 → Nat) a + S1x1.size a ≤ S3x8.size a
  inb_S3x8x96x256_S1x1x96x256_2_1_0_0 : ∀ a, (![2, 1, 0, 0] : Fin 4 → Nat) a + S1x1x96x256.size a ≤ S3x8x96x256.size a
  wordsbf16_S3x8x96x256_S1x1x96x256_2_1_0_0 : (Rect.unit (s := S3x8x96x256) ![2, 1, 0, 0] S1x1x96x256.size inb_S3x8x96x256_S1x1x96x256_2_1_0_0).WholeWords (EltTy.packing .bf16)
  inb_S3x8_S1x1_2_2 : ∀ a, (![2, 2] : Fin 2 → Nat) a + S1x1.size a ≤ S3x8.size a
  inb_S3x8x96x256_S1x1x96x256_2_2_0_0 : ∀ a, (![2, 2, 0, 0] : Fin 4 → Nat) a + S1x1x96x256.size a ≤ S3x8x96x256.size a
  wordsbf16_S3x8x96x256_S1x1x96x256_2_2_0_0 : (Rect.unit (s := S3x8x96x256) ![2, 2, 0, 0] S1x1x96x256.size inb_S3x8x96x256_S1x1x96x256_2_2_0_0).WholeWords (EltTy.packing .bf16)
  inb_S3x8_S1x1_2_4 : ∀ a, (![2, 4] : Fin 2 → Nat) a + S1x1.size a ≤ S3x8.size a
  inb_S3x8x96x256_S1x1x96x256_2_4_0_0 : ∀ a, (![2, 4, 0, 0] : Fin 4 → Nat) a + S1x1x96x256.size a ≤ S3x8x96x256.size a
  wordsbf16_S3x8x96x256_S1x1x96x256_2_4_0_0 : (Rect.unit (s := S3x8x96x256) ![2, 4, 0, 0] S1x1x96x256.size inb_S3x8x96x256_S1x1x96x256_2_4_0_0).WholeWords (EltTy.packing .bf16)
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S3x96x256_S1x96x256_0_0_0 : ∀ a, (![0, 0, 0] : Fin 3 → Nat) a + S1x96x256.size a ≤ S3x96x256.size a
  shapeCasts_S96x256_S1x96x256 : S96x256.ShapeCasts S1x96x256
  packedbf16_S3x96x256_S1x96x256_0_0_0 : (Rect.unit (s := S3x96x256) ![0, 0, 0] S1x96x256.size inb_S3x96x256_S1x96x256_0_0_0).PackedRows (EltTy.packing .bf16)
  wordsbf16_S3x96x256_S1x96x256_0_0_0 : (Rect.unit (s := S3x96x256) ![0, 0, 0] S1x96x256.size inb_S3x96x256_S1x96x256_0_0_0).WholeWords (EltTy.packing .bf16)
  inb_S3x96x256_S1x96x256_1_0_0 : ∀ a, (![1, 0, 0] : Fin 3 → Nat) a + S1x96x256.size a ≤ S3x96x256.size a
  packedbf16_S3x96x256_S1x96x256_1_0_0 : (Rect.unit (s := S3x96x256) ![1, 0, 0] S1x96x256.size inb_S3x96x256_S1x96x256_1_0_0).PackedRows (EltTy.packing .bf16)
  wordsbf16_S3x96x256_S1x96x256_1_0_0 : (Rect.unit (s := S3x96x256) ![1, 0, 0] S1x96x256.size inb_S3x96x256_S1x96x256_1_0_0).WholeWords (EltTy.packing .bf16)
  inb_S3x96x256_S1x96x256_2_0_0 : ∀ a, (![2, 0, 0] : Fin 3 → Nat) a + S1x96x256.size a ≤ S3x96x256.size a
  packedbf16_S3x96x256_S1x96x256_2_0_0 : (Rect.unit (s := S3x96x256) ![2, 0, 0] S1x96x256.size inb_S3x96x256_S1x96x256_2_0_0).PackedRows (EltTy.packing .bf16)
  wordsbf16_S3x96x256_S1x96x256_2_0_0 : (Rect.unit (s := S3x96x256) ![2, 0, 0] S1x96x256.size inb_S3x96x256_S1x96x256_2_0_0).WholeWords (EltTy.packing .bf16)
  dot_S768x768_S768x1536_S768x1536_1_0_0_1_n_n_wf : DotDims.WF S768x768 S768x1536 S768x1536 [1] [0] [0] [1] [] []
  dot_S768x1536_S1536x256_S768x256_1_0_0_1_n_n_wf : DotDims.WF S768x1536 S1536x256 S768x256 [1] [0] [0] [1] [] []
  hcc0_scratch6 : 5 + S3x8.numel ≤ 101
  hcc0_scratch7 : 29 + S3x8.numel ≤ 101
  hcc0_scratch8 : 53 + S3x8.numel ≤ 101
  hcc0_scratch9 : 77 + S3x8.numel ≤ 101
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x96x256.size a ≤ S3x768x256.size a
  k0_off2_inb : ∀ d0 : Dev nD, ∀ (r : Fin 7), ∀ a, (k0_off2 d0 (BitVec.ofNat 32 (1 + r.val))) a + S1x96x256.size a ≤ S3x768x256.size a
  k0_off2_wordsbf16 : ∀ d0 : Dev nD, ∀ (r : Fin 7), (Rect.unit (s := S3x768x256) (k0_off2 d0 (BitVec.ofNat 32 (1 + r.val))) S1x96x256.size (k0_off2_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ a, (k0_off3 d0) a + S1x96x256.size a ≤ S3x768x256.size a
  k0_off4_inb : ∀ d0 : Dev nD, ∀ (r : Fin 7), ∀ a, (k0_off4 d0 (BitVec.ofNat 32 (1 + r.val))) a + S1x96x256.size a ≤ S3x768x256.size a
  k0_off4_wordsbf16 : ∀ d0 : Dev nD, ∀ (r : Fin 7), (Rect.unit (s := S3x768x256) (k0_off4 d0 (BitVec.ofNat 32 (1 + r.val))) S1x96x256.size (k0_off4_inb d0 r)).WholeWords (EltTy.packing .bf16)
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off5_inb : ∀ d0 : Dev nD, ∀ a, (k0_off5 d0) a + S1x96x256.size a ≤ S3x768x256.size a
  k0_off6_inb : ∀ d0 : Dev nD, ∀ (r : Fin 7), ∀ a, (k0_off6 d0 (BitVec.ofNat 32 (1 + r.val))) a + S1x96x256.size a ≤ S3x768x256.size a
  k0_off6_wordsbf16 : ∀ d0 : Dev nD, ∀ (r : Fin 7), (Rect.unit (s := S3x768x256) (k0_off6 d0 (BitVec.ofNat 32 (1 + r.val))) S1x96x256.size (k0_off6_inb d0 r)).WholeWords (EltTy.packing .bf16)
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off7_inb : ∀ d0 : Dev nD, ∀ a, (k0_off7 d0) a + S96x256.size a ≤ S768x768.size a
  k0_off7_packedbf16 : ∀ d0 : Dev nD, (Rect.unit (s := S768x768) (k0_off7 d0) S96x256.size (k0_off7_inb d0)).PackedRows (EltTy.packing .bf16)
  k0_off8_inb : ∀ d0 : Dev nD, ∀ a, (k0_off8 d0) a + S96x256.size a ≤ S768x768.size a
  k0_off8_wordsbf16 : ∀ d0 : Dev nD, (Rect.unit (s := S768x768) (k0_off8 d0) S96x256.size (k0_off8_inb d0)).WholeWords (EltTy.packing .bf16)
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off9_inb : ∀ d0 : Dev nD, ∀ a, (k0_off9 d0) a + S96x256.size a ≤ S768x768.size a
  k0_off9_packedbf16 : ∀ d0 : Dev nD, (Rect.unit (s := S768x768) (k0_off9 d0) S96x256.size (k0_off9_inb d0)).PackedRows (EltTy.packing .bf16)
  k0_off10_inb : ∀ d0 : Dev nD, ∀ a, (k0_off10 d0) a + S96x256.size a ≤ S768x768.size a
  k0_off10_wordsbf16 : ∀ d0 : Dev nD, (Rect.unit (s := S768x768) (k0_off10 d0) S96x256.size (k0_off10_inb d0)).WholeWords (EltTy.packing .bf16)
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_off11_inb : ∀ d0 : Dev nD, ∀ a, (k0_off11 d0) a + S96x256.size a ≤ S768x768.size a
  k0_off11_packedbf16 : ∀ d0 : Dev nD, (Rect.unit (s := S768x768) (k0_off11 d0) S96x256.size (k0_off11_inb d0)).PackedRows (EltTy.packing .bf16)
  k0_off12_inb : ∀ d0 : Dev nD, ∀ a, (k0_off12 d0) a + S96x256.size a ≤ S768x768.size a
  k0_off12_wordsbf16 : ∀ d0 : Dev nD, (Rect.unit (s := S768x768) (k0_off12 d0) S96x256.size (k0_off12_inb d0)).WholeWords (EltTy.packing .bf16)
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_off13_inb : ∀ d0 : Dev nD, ∀ (r : Fin 7), ∀ a, (k0_off13 d0 (BitVec.ofNat 32 (1 + r.val))) a + S96x256.size a ≤ S768x768.size a
  k0_off13_wordsbf16 : ∀ d0 : Dev nD, ∀ (r : Fin 7), (Rect.unit (s := S768x768) (k0_off13 d0 (BitVec.ofNat 32 (1 + r.val))) S96x256.size (k0_off13_inb d0 r)).WholeWords (EltTy.packing .bf16)
  k0_off14_inb : ∀ d0 : Dev nD, ∀ (r : Fin 7), ∀ a, (k0_off14 d0 (BitVec.ofNat 32 (1 + r.val))) a + S96x256.size a ≤ S768x768.size a
  k0_off14_wordsbf16 : ∀ d0 : Dev nD, ∀ (r : Fin 7), (Rect.unit (s := S768x768) (k0_off14 d0 (BitVec.ofNat 32 (1 + r.val))) S96x256.size (k0_off14_inb d0 r)).WholeWords (EltTy.packing .bf16)
  k0_off15_inb : ∀ d0 : Dev nD, ∀ (r : Fin 7), ∀ a, (k0_off15 d0 (BitVec.ofNat 32 (1 + r.val))) a + S96x256.size a ≤ S768x768.size a
  k0_off15_wordsbf16 : ∀ d0 : Dev nD, ∀ (r : Fin 7), (Rect.unit (s := S768x768) (k0_off15 d0 (BitVec.ofNat 32 (1 + r.val))) S96x256.size (k0_off15_inb d0 r)).WholeWords (EltTy.packing .bf16)
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch6 : DmaSems sig S3x8 := SemArray.consecutive 5 S3x8 hcc0_scratch6
abbrev cc0_scratch7 : DmaSems sig S3x8 := SemArray.consecutive 29 S3x8 hcc0_scratch7
abbrev cc0_scratch8 : DmaSems sig S3x8 := SemArray.consecutive 53 S3x8 hcc0_scratch8
abbrev cc0_scratch9 : DmaSems sig S3x8 := SemArray.consecutive 77 S3x8 hcc0_scratch9
def dot_S768x768_S768x1536_S768x1536_1_0_0_1_n_n : DotDims S768x768 S768x1536 S768x1536 where
  lhsContracting := [1]
  rhsContracting := [0]
  lhsNonContracting := [0]
  rhsNonContracting := [1]
  lhsBatch := []
  rhsBatch := []
  wf := dot_S768x768_S768x1536_S768x1536_1_0_0_1_n_n_wf
def dot_S768x1536_S1536x256_S768x256_1_0_0_1_n_n : DotDims S768x1536 S1536x256 S768x256 where
  lhsContracting := [1]
  rhsContracting := [0]
  lhsNonContracting := [0]
  rhsNonContracting := [1]
  lhsBatch := []
  rhsBatch := []
  wf := dot_S768x1536_S1536x256_S768x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S768x768 : Shape := ⟨2, ![768, 768]⟩
abbrev S768x12288 : Shape := ⟨2, ![768, 12288]⟩
abbrev S12288x768 : Shape := ⟨2, ![12288, 768]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x12288, .f32⟩
  | .hbm, ⟨2, _⟩ => ⟨S768x12288, .f32⟩
  | .hbm, ⟨3, _⟩ => ⟨S12288x768, .f32⟩
  | .hbm, ⟨4, _⟩ => ⟨S768x12288, .f32⟩
  | .hbm, ⟨5, _⟩ => ⟨S768x12288, .f32⟩
  | .hbm, ⟨6, _⟩ => ⟨S768x12288, .f32⟩
  | .hbm, ⟨7, _⟩ => ⟨S768x12288, .f32⟩
  | .hbm, ⟨8, _⟩ => ⟨S_, .f32⟩
  | .hbm, ⟨9, _⟩ => ⟨S768x12288, .f32⟩
  | .hbm, ⟨10, _⟩ => ⟨S768x12288, .f32⟩
  | .hbm, ⟨11, _⟩ => ⟨S768x12288, .f32⟩
  | .hbm, ⟨12, _⟩ => ⟨S768x12288, .f32⟩
  | .hbm, ⟨13, _⟩ => ⟨S768x768, .f32⟩
  | .hbm, ⟨14, _⟩ => ⟨S768x768, .bf16⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S768x12288 : S_.BroadcastsInDim S768x12288 (![] : Fin 0 → Fin S768x12288.rank)
  bitsLt_bf16_f32 : FTy.bits .bf16 < FTy.bits .f32
  dot_S768x768_S768x12288_S768x12288_1_0_0_1_n_n_wf : DotDims.WF S768x768 S768x12288 S768x12288 [1] [0] [0] [1] [] []
  dot_S768x12288_S12288x768_S768x768_1_0_0_1_n_n_wf : DotDims.WF S768x12288 S12288x768 S768x768 [1] [0] [0] [1] [] []

variable [Facts₀]

def dot_S768x768_S768x12288_S768x12288_1_0_0_1_n_n : DotDims S768x768 S768x12288 S768x12288 where
  lhsContracting := [1]
  rhsContracting := [0]
  lhsNonContracting := [0]
  rhsNonContracting := [1]
  lhsBatch := []
  rhsBatch := []
  wf := dot_S768x768_S768x12288_S768x12288_1_0_0_1_n_n_wf
def dot_S768x12288_S12288x768_S768x768_1_0_0_1_n_n : DotDims S768x12288 S12288x768 S768x768 where
  lhsContracting := [1]
  rhsContracting := [0]
  lhsNonContracting := [0]
  rhsNonContracting := [1]
  lhsBatch := []
  rhsBatch := []
  wf := dot_S768x12288_S12288x768_S768x768_1_0_0_1_n_n_wf

class Facts : Prop extends Facts₀ where

variable [Facts]
-- ==== Proof.Peers.lean ====
import proofs.«900790_g7700000000000791_dist_gated_mlp_tp_i_m768_h1536_d768_v7x_i8_bf16_1_alg».proof.Proof.Gen.KernelIdeal

namespace Cert.KernelIdeal.Proto

open Cert.KernelIdeal Cert.KernelIdeal.Gen Idealize.ShloMosaic

def peer (c : Dev nD) (o : Fin 8) : Dev nD := ⟨c.val ^^^ o.val, by revert c o; decide⟩

theorem peer_peer (c : Dev nD) (o : Fin 8) : peer (peer c o) o = c := by revert c o; decide
theorem peer_zero (c : Dev nD) : peer c 0 = c := by revert c; decide

def peerEquiv (o : Fin 8) : Dev nD ≃ Dev nD := ⟨fun c => peer c o, fun c => peer c o, fun c => peer_peer c o, fun c => peer_peer c o⟩

def peerEquiv' (c : Dev nD) : Fin 8 ≃ Dev nD := ⟨fun o => peer c o, fun d => ⟨c.val ^^^ d.val, by revert c d; decide⟩, by intro o; revert c o; decide, by intro d; revert c d; decide⟩

end Cert.KernelIdeal.Proto
-- ==== Proof.Vals.lean ====
import proofs.«900790_g7700000000000791_dist_gated_mlp_tp_i_m768_h1536_d768_v7x_i8_bf16_1_alg».proof.Proof.Peers
import proofs.«900790_g7700000000000791_dist_gated_mlp_tp_i_m768_h1536_d768_v7x_i8_bf16_1_alg».proof.Proof.Gen.KernelIdeal.Skeleton

noncomputable section

namespace Cert.KernelIdeal.Proto

open Cert.KernelIdeal Cert.KernelIdeal.Gen
open Idealize.ShloMosaic Idealize.ShloMosaic.TcCoe Idealize.SL.Sem

variable {F : FTy → Type} [FloatOps F]

abbrev xM : Memref sig .tc .vmem S768x768 .f32 := Memref.whole cc0_stg0_0
abbrev wgM : Memref sig .tc .vmem S768x1536 .f32 := Memref.whole cc0_stg1_0
abbrev wuM : Memref sig .tc .vmem S768x1536 .f32 := Memref.whole cc0_stg2_0
abbrev wdM : Memref sig .tc .vmem S1536x768 .f32 := Memref.whole cc0_stg3_0
abbrev outM : Memref sig .tc .vmem S768x768 .bf16 := Memref.whole cc0_stg4_0
abbrev pM : Memref sig .tc .vmem S3x768x256 .bf16 := Memref.whole cc0_scratch0
abbrev rsM : Memref sig .tc .vmem S3x8x96x256 .bf16 := Memref.whole cc0_scratch1
abbrev actM : Memref sig .tc .vmem S768x1536 .bf16 := Memref.whole cc0_scratch2
abbrev wdbM : Memref sig .tc .vmem S1536x768 .bf16 := Memref.whole cc0_scratch3
abbrev redM : Memref sig .tc .vmem S3x96x256 .bf16 := Memref.whole cc0_scratch4
abbrev accM : Memref sig .tc .vmem S96x256 .f32 := Memref.whole cc0_scratch5

theorem wdb_inb (ch : Fin 3) : ∀ a, (![0, 256 * ch.val] : Fin 2 → Nat) a + S1536x256.size a ≤ S1536x768.size a := by revert ch; decide
theorem p_inb (ch : Fin 3) : ∀ a, (![ch.val, 0, 0] : Fin 3 → Nat) a + S1x768x256.size a ≤ S3x768x256.size a := by revert ch; decide
theorem prow_inb (ch : Fin 3) (d : Dev nD) : ∀ a, (![ch.val, 96 * d.val, 0] : Fin 3 → Nat) a + S1x96x256.size a ≤ S3x768x256.size a := by revert ch d; decide
theorem slot_inb (ch : Fin 3) (o : Fin 8) : ∀ a, (![ch.val, o.val, 0, 0] : Fin 4 → Nat) a + S1x1x96x256.size a ≤ S3x8x96x256.size a := by revert ch o; decide
theorem red_inb (ch : Fin 3) : ∀ a, (![ch.val, 0, 0] : Fin 3 → Nat) a + S1x96x256.size a ≤ S3x96x256.size a := by revert ch; decide
theorem out_inb (s : Dev nD) (ch : Fin 3) : ∀ a, (![96 * s.val, 256 * ch.val] : Fin 2 → Nat) a + S96x256.size a ≤ S768x768.size a := by revert s ch; decide
theorem sem_inb (ch : Fin 3) (o : Fin 8) : ∀ a, (![ch.val, o.val] : Fin 2 → Nat) a + S1x1.size a ≤ S3x8.size a := by revert ch o; decide

abbrev wdbRect (ch : Fin 3) : Rect S1536x768 := Rect.unit (s := S1536x768) ![0, 256 * ch.val] S1536x256.size (wdb_inb ch)
abbrev pRect (ch : Fin 3) : Rect S3x768x256 := Rect.unit (s := S3x768x256) ![ch.val, 0, 0] S1x768x256.size (p_inb ch)
abbrev prowRect (ch : Fin 3) (d : Dev nD) : Rect S3x768x256 := Rect.unit (s := S3x768x256) ![ch.val, 96 * d.val, 0] S1x96x256.size (prow_inb ch d)
abbrev slotRect (ch : Fin 3) (o : Fin 8) : Rect S3x8x96x256 := Rect.unit (s := S3x8x96x256) ![ch.val, o.val, 0, 0] S1x1x96x256.size (slot_inb ch o)
abbrev redRect (ch : Fin 3) : Rect S3x96x256 := Rect.unit (s := S3x96x256) ![ch.val, 0, 0] S1x96x256.size (red_inb ch)
abbrev outRect (s : Dev nD) (ch : Fin 3) : Rect S768x768 := Rect.unit (s := S768x768) ![96 * s.val, 256 * ch.val] S96x256.size (out_inb s ch)

abbrev prowV (ch : Fin 3) (d : Dev nD) : Memref sig .tc .vmem S96x256 .bf16 :=
  (pM.slice (prowRect ch d) (fun _ => rfl)).squeeze S96x256 squeezes_S1x96x256_S96x256

abbrev slotV (ch : Fin 3) (o : Fin 8) : Memref sig .tc .vmem S96x256 .bf16 :=
  (rsM.slice (slotRect ch o) (fun _ => rfl)).squeeze S96x256 squeezes_S1x1x96x256_S96x256

abbrev redV (ch : Fin 3) : Memref sig .tc .vmem S96x256 .bf16 :=
  (redM.slice (redRect ch) (fun _ => rfl)).squeeze S96x256 squeezes_S1x96x256_S96x256

abbrev outV (s : Dev nD) (ch : Fin 3) : Memref sig .tc .vmem S96x256 .bf16 := outM.slice (outRect s ch) (fun _ => rfl)

variable (m : (ℓ : Loc nD τ sig) → Buf (Elt F) ℓ)

def t0 : Fin grid0.N := ⟨0, by decide⟩

def xv (c : Dev nD) : (cc0_stg0_0 : Ref sig .tc).ty.Contents (Elt F) := (win0_0.blk t0).view.read (Elt F) (m ((c : Thread nD τ).loc main_arg0))
def wgv (c : Dev nD) : (cc0_stg1_0 : Ref sig .tc).ty.Contents (Elt F) := (win0_1.blk t0).view.read (Elt F) (m ((c : Thread nD τ).loc main_arg1))
def wuv (c : Dev nD) : (cc0_stg2_0 : Ref sig .tc).ty.Contents (Elt F) := (win0_2.blk t0).view.read (Elt F) (m ((c : Thread nD τ).loc main_arg2))
def wdv (c : Dev nD) : (cc0_stg3_0 : Ref sig .tc).ty.Contents (Elt F) := (win0_3.blk t0).view.read (Elt F) (m ((c : Thread nD τ).loc main_arg3))

def actv (c : Dev nD) : FVec F S768x1536 .bf16 := k0_pay1 (xv m c) (wgv m c) (wuv m c)

def wdbv (c : Dev nD) : FVec F S1536x768 .bf16 := k0_pay2 (wdv m c)

def pval (c : Dev nD) (ch : Fin 3) : FVec F S768x256 .bf16 :=
  k0_pay3 (actv m c) (wdbM.view.readAt (Elt F) (wdbRect ch).toLoadRect (wdbv m c))

end Cert.KernelIdeal.Proto

end
-- ==== Proof.Canon.lean ====
import proofs.«900790_g7700000000000791_dist_gated_mlp_tp_i_m768_h1536_d768_v7x_i8_bf16_1_alg».proof.Proof.Vals
import Idealize.ShloMosaic.Lib.ValueIdx
import Idealize.ShloMosaic.Lib.Pipeline.Kit

noncomputable section

namespace Cert.KernelIdeal.Proto

open Cert.KernelIdeal Cert.KernelIdeal.Gen
open Idealize.ShloMosaic Idealize.ShloMosaic.TcCoe Idealize.SL.Sem Idealize.ShloMosaic.ValueIdx
open Idealize.ShloMosaic.Rounds

variable {F : FTy → Type} [FloatOps F]
variable (m : (ℓ : Loc nD τ sig) → Buf (Elt F) ℓ)

abbrev UB : Type := URounds (GSem nD τ sig) (Fin 8)
abbrev UU : Type := UR sig nD τ × UB

def pCan (c : Dev nD) : (cc0_scratch0 : Ref sig .tc).ty.Contents (Elt F) :=
  fun i => pval m c (i 0) (ix2 (i 1) (i 2))

def rsCan (c : Dev nD) : (cc0_scratch1 : Ref sig .tc).ty.Contents (Elt F) :=
  fun i => pval m (peer c (i 1)) (i 0) (ix2 ⟨96 * c.val + (i 2).val, by have h2 : (i 2).val < 96 := (i 2).isLt; have hc : c.val < 8 := c.isLt; omega⟩ (i 3))

def slotRead (c : Dev nD) (ch : Fin 3) (o : Fin 8) : Vec F S1x1x96x256 .bf16 :=
  rsM.view.readAt (Elt F) (slotRect ch o).toLoadRect (rsCan m c)

def acc0 (c : Dev nD) (ch : Fin 3) : FVec F S96x256 .f32 := k0_pay10 (slotRead m c ch 0)
def accStep (a : FVec F S96x256 .f32) (s : Vec F S1x1x96x256 .bf16) : FVec F S96x256 .f32 := k0_pay11 a s
def acc1 (c : Dev nD) (ch : Fin 3) := accStep (acc0 m c ch) (slotRead m c ch 1)
def acc2 (c : Dev nD) (ch : Fin 3) := accStep (acc1 m c ch) (slotRead m c ch 2)
def acc3 (c : Dev nD) (ch : Fin 3) := accStep (acc2 m c ch) (slotRead m c ch 4)
def acc4 (c : Dev nD) (ch : Fin 3) := accStep (acc3 m c ch) (slotRead m c ch 3)
def acc5 (c : Dev nD) (ch : Fin 3) := accStep (acc4 m c ch) (slotRead m c ch 5)
def acc6 (c : Dev nD) (ch : Fin 3) := accStep (acc5 m c ch) (slotRead m c ch 6)
def acc7 (c : Dev nD) (ch : Fin 3) := accStep (acc6 m c ch) (slotRead m c ch 7)

def redv (c : Dev nD) (ch : Fin 3) : FVec F S96x256 .bf16 := k0_pay19 (acc7 m c ch)

def redCan (c : Dev nD) : (cc0_scratch4 : Ref sig .tc).ty.Contents (Elt F) :=
  fun i => redv m c (i 0) (ix2 (i 1) (i 2))

def outCan : (cc0_stg4_0 : Ref sig .tc).ty.Contents (Elt F) :=
  fun i => redv m ⟨(i 0).val / 96, by have h0 : (i 0).val < 768 := (i 0).isLt; show (i 0).val / 96 < 8; omega⟩ ⟨(i 1).val / 256, by have h1 : (i 1).val < 768 := (i 1).isLt; omega⟩
    (ix2 ⟨(i 0).val % 96, Nat.mod_lt _ (by decide)⟩ ⟨(i 1).val % 256, Nat.mod_lt _ (by decide)⟩)

end Cert.KernelIdeal.Proto

end
-- ==== Proof.DevEqs.lean ====
import proofs.«900790_g7700000000000791_dist_gated_mlp_tp_i_m768_h1536_d768_v7x_i8_bf16_1_alg».proof.Proof.Peers

set_option Elab.async false

namespace Cert.KernelIdeal.Proto

open Cert.KernelIdeal.Gen Idealize.ShloMosaic

theorem dev1_eq (c : Dev nD) : (⟨k0_dev1 c, k0_dev1_lt c⟩ : Dev nD) = peer c ⟨1, by decide⟩ := by
  revert c; decide +kernel
theorem dev2_eq (c : Dev nD) : (⟨k0_dev2 c, k0_dev2_lt c⟩ : Dev nD) = peer c ⟨2, by decide⟩ := by
  revert c; decide +kernel
theorem dev3_eq (c : Dev nD) : (⟨k0_dev3 c, k0_dev3_lt c⟩ : Dev nD) = peer c ⟨3, by decide⟩ := by
  revert c; decide +kernel
theorem dev4_eq (c : Dev nD) : (⟨k0_dev4 c, k0_dev4_lt c⟩ : Dev nD) = peer c ⟨4, by decide⟩ := by
  revert c; decide +kernel
theorem dev5_eq (c : Dev nD) : (⟨k0_dev5 c, k0_dev5_lt c⟩ : Dev nD) = peer c ⟨5, by decide⟩ := by
  revert c; decide +kernel
theorem dev6_eq (c : Dev nD) : (⟨k0_dev6 c, k0_dev6_lt c⟩ : Dev nD) = peer c ⟨6, by decide⟩ := by
  revert c; decide +kernel
theorem dev7_eq (c : Dev nD) : (⟨k0_dev7 c, k0_dev7_lt c⟩ : Dev nD) = peer c ⟨7, by decide⟩ := by
  revert c; decide +kernel
theorem dev8_eq (c : Dev nD) : (⟨k0_dev8 c, k0_dev8_lt c⟩ : Dev nD) = peer c ⟨7, by decide⟩ := dev7_eq c
theorem dev9_eq (c : Dev nD) : (⟨k0_dev9 c, k0_dev9_lt c⟩ : Dev nD) = peer c ⟨3, by decide⟩ := dev3_eq c
theorem dev10_eq (c : Dev nD) : (⟨k0_dev10 c, k0_dev10_lt c⟩ : Dev nD) = peer c ⟨5, by decide⟩ := dev5_eq c
theorem dev11_eq (c : Dev nD) : (⟨k0_dev11 c, k0_dev11_lt c⟩ : Dev nD) = peer c ⟨6, by decide⟩ := dev6_eq c
theorem dev12_eq (c : Dev nD) : (⟨k0_dev12 c, k0_dev12_lt c⟩ : Dev nD) = peer c ⟨1, by decide⟩ := dev1_eq c
theorem dev13_eq (c : Dev nD) : (⟨k0_dev13 c, k0_dev13_lt c⟩ : Dev nD) = peer c ⟨2, by decide⟩ := dev2_eq c
theorem dev14_eq (c : Dev nD) : (⟨k0_dev14 c, k0_dev14_lt c⟩ : Dev nD) = peer c ⟨4, by decide⟩ := dev4_eq c
theorem dev15_eq (c : Dev nD) : (⟨k0_dev15 c, k0_dev15_lt c⟩ : Dev nD) = peer c ⟨7, by decide⟩ := dev7_eq c
theorem dev16_eq (c : Dev nD) : (⟨k0_dev16 c, k0_dev16_lt c⟩ : Dev nD) = peer c ⟨3, by decide⟩ := dev3_eq c
theorem dev17_eq (c : Dev nD) : (⟨k0_dev17 c, k0_dev17_lt c⟩ : Dev nD) = peer c ⟨5, by decide⟩ := dev5_eq c
theorem dev18_eq (c : Dev nD) : (⟨k0_dev18 c, k0_dev18_lt c⟩ : Dev nD) = peer c ⟨6, by decide⟩ := dev6_eq c
theorem dev19_eq (c : Dev nD) : (⟨k0_dev19 c, k0_dev19_lt c⟩ : Dev nD) = peer c ⟨1, by decide⟩ := dev1_eq c
theorem dev20_eq (c : Dev nD) : (⟨k0_dev20 c, k0_dev20_lt c⟩ : Dev nD) = peer c ⟨2, by decide⟩ := dev2_eq c
theorem dev21_eq (c : Dev nD) : (⟨k0_dev21 c, k0_dev21_lt c⟩ : Dev nD) = peer c ⟨4, by decide⟩ := dev4_eq c
theorem dev22_eq (c : Dev nD) : (⟨k0_dev22 c, k0_dev22_lt c⟩ : Dev nD) = peer c ⟨7, by decide⟩ := dev7_eq c
theorem dev23_eq (c : Dev nD) : (⟨k0_dev23 c, k0_dev23_lt c⟩ : Dev nD) = peer c ⟨3, by decide⟩ := dev3_eq c
theorem dev24_eq (c : Dev nD) : (⟨k0_dev24 c, k0_dev24_lt c⟩ : Dev nD) = peer c ⟨5, by decide⟩ := dev5_eq c
theorem dev25_eq (c : Dev nD) : (⟨k0_dev25 c, k0_dev25_lt c⟩ : Dev nD) = peer c ⟨6, by decide⟩ := dev6_eq c
theorem dev26_eq (c : Dev nD) : (⟨k0_dev26 c, k0_dev26_lt c⟩ : Dev nD) = peer c ⟨1, by decide⟩ := dev1_eq c
theorem dev27_eq (c : Dev nD) : (⟨k0_dev27 c, k0_dev27_lt c⟩ : Dev nD) = peer c ⟨2, by decide⟩ := dev2_eq c
theorem dev28_eq (c : Dev nD) : (⟨k0_dev28 c, k0_dev28_lt c⟩ : Dev nD) = peer c ⟨4, by decide⟩ := dev4_eq c
theorem dev29_eq (c : Dev nD) : (⟨k0_dev29 c, k0_dev29_lt c⟩ : Dev nD) = peer c ⟨7, by decide⟩ := dev7_eq c
theorem dev30_eq (c : Dev nD) : (⟨k0_dev30 c, k0_dev30_lt c⟩ : Dev nD) = peer c ⟨3, by decide⟩ := dev3_eq c
theorem dev31_eq (c : Dev nD) : (⟨k0_dev31 c, k0_dev31_lt c⟩ : Dev nD) = peer c ⟨5, by decide⟩ := dev5_eq c
theorem dev32_eq (c : Dev nD) : (⟨k0_dev32 c, k0_dev32_lt c⟩ : Dev nD) = peer c ⟨6, by decide⟩ := dev6_eq c
theorem dev33_eq (c : Dev nD) : (⟨k0_dev33 c, k0_dev33_lt c⟩ : Dev nD) = peer c ⟨1, by decide⟩ := dev1_eq c
theorem dev34_eq (c : Dev nD) : (⟨k0_dev34 c, k0_dev34_lt c⟩ : Dev nD) = peer c ⟨2, by decide⟩ := dev2_eq c
theorem dev35_eq (c : Dev nD) : (⟨k0_dev35 c, k0_dev35_lt c⟩ : Dev nD) = peer c ⟨4, by decide⟩ := dev4_eq c
theorem dev36_eq (c : Dev nD) : (⟨k0_dev36 c, k0_dev36_lt c⟩ : Dev nD) = peer c ⟨7, by decide⟩ := dev7_eq c
theorem dev37_eq (c : Dev nD) : (⟨k0_dev37 c, k0_dev37_lt c⟩ : Dev nD) = peer c ⟨3, by decide⟩ := dev3_eq c
theorem dev38_eq (c : Dev nD) : (⟨k0_dev38 c, k0_dev38_lt c⟩ : Dev nD) = peer c ⟨5, by decide⟩ := dev5_eq c
theorem dev39_eq (c : Dev nD) : (⟨k0_dev39 c, k0_dev39_lt c⟩ : Dev nD) = peer c ⟨6, by decide⟩ := dev6_eq c
theorem dev40_eq (c : Dev nD) : (⟨k0_dev40 c, k0_dev40_lt c⟩ : Dev nD) = peer c ⟨1, by decide⟩ := dev1_eq c
theorem dev41_eq (c : Dev nD) : (⟨k0_dev41 c, k0_dev41_lt c⟩ : Dev nD) = peer c ⟨2, by decide⟩ := dev2_eq c
theorem dev42_eq (c : Dev nD) : (⟨k0_dev42 c, k0_dev42_lt c⟩ : Dev nD) = peer c ⟨4, by decide⟩ := dev4_eq c
theorem dev43_eq (c : Dev nD) : (⟨k0_dev43 c, k0_dev43_lt c⟩ : Dev nD) = peer c ⟨7, by decide⟩ := dev7_eq c
theorem dev44_eq (c : Dev nD) : (⟨k0_dev44 c, k0_dev44_lt c⟩ : Dev nD) = peer c ⟨3, by decide⟩ := dev3_eq c
theorem dev45_eq (c : Dev nD) : (⟨k0_dev45 c, k0_dev45_lt c⟩ : Dev nD) = peer c ⟨5, by decide⟩ := dev5_eq c
theorem dev46_eq (c : Dev nD) : (⟨k0_dev46 c, k0_dev46_lt c⟩ : Dev nD) = peer c ⟨6, by decide⟩ := dev6_eq c
theorem dev47_eq (c : Dev nD) : (⟨k0_dev47 c, k0_dev47_lt c⟩ : Dev nD) = peer c ⟨1, by decide⟩ := dev1_eq c
theorem dev48_eq (c : Dev nD) : (⟨k0_dev48 c, k0_dev48_lt c⟩ : Dev nD) = peer c ⟨2, by decide⟩ := dev2_eq c
theorem dev49_eq (c : Dev nD) : (⟨k0_dev49 c, k0_dev49_lt c⟩ : Dev nD) = peer c ⟨4, by decide⟩ := dev4_eq c

theorem off2_eq (c : Dev nD) (r : Fin 7) :
    k0_off2 c (BitVec.ofNat 32 (1 + r.val)) = ![0, 96 * (peer c ⟨1 + r.val, by omega⟩).val, 0] := by
  revert c r; decide +kernel
theorem off4_eq (c : Dev nD) (r : Fin 7) :
    k0_off4 c (BitVec.ofNat 32 (1 + r.val)) = ![1, 96 * (peer c ⟨1 + r.val, by omega⟩).val, 0] := by
  revert c r; decide +kernel
theorem off6_eq (c : Dev nD) (r : Fin 7) :
    k0_off6 c (BitVec.ofNat 32 (1 + r.val)) = ![2, 96 * (peer c ⟨1 + r.val, by omega⟩).val, 0] := by
  revert c r; decide +kernel

end Cert.KernelIdeal.Proto
-- ==== Proof.Proto.lean ====
import proofs.«900790_g7700000000000791_dist_gated_mlp_tp_i_m768_h1536_d768_v7x_i8_bf16_1_alg».proof.Proof.Canon
import proofs.«900790_g7700000000000791_dist_gated_mlp_tp_i_m768_h1536_d768_v7x_i8_bf16_1_alg».proof.Proof.DevEqs
import proofs.«900790_g7700000000000791_dist_gated_mlp_tp_i_m768_h1536_d768_v7x_i8_bf16_1_alg».proof.Proof.Gen.KernelIdeal.Launch
import Idealize.ShloMosaic.Lib.Tactic

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev karr (k : Fin 4) : DmaSems sig S3x8 := match k with | 0 => cc0_scratch6 | 1 => cc0_scratch7 | 2 => cc0_scratch8 | 3 => cc0_scratch9

abbrev semAt (A : DmaSems sig S3x8) (ch : Fin 3) (o : Fin 8) : DmaSem sig :=
  ((A.slice (Rect.unit (s := S3x8) ![ch.val, o.val] S1x1.size (sem_inb ch o))).squeeze S_ squeezes_S1x1_S_).sem

abbrev dsem (k : Fin 4) (ch : Fin 3) (o : Fin 8) : SemLoc sig := .dma (semAt (karr k) ch o)

abbrev barCell (c : Dev nD) : GSem nD τ sig := ((c : Thread nD τ), .reg barS)
abbrev dcell (c : Dev nD) (k : Fin 4) (ch : Fin 3) (o : Fin 8) : GSem nD τ sig := ((c : Thread nD τ), dsem k ch o)

theorem semAt_val (k : Fin 4) (ch : Fin 3) (o : Fin 8) : (semAt (karr k) ch o).val = 5 + 24 * k.val + 8 * ch.val + o.val := by
  revert k ch o; decide

def decodeQ (q : DmaSem sig) : Option (Fin 4 × Fin 3 × Fin 8) :=
  if h : 5 ≤ q.val ∧ q.val < 101 then
    some (⟨(q.val - 5) / 24, by omega⟩, ⟨((q.val - 5) % 24) / 8, by omega⟩, ⟨(q.val - 5) % 8, by omega⟩)
  else none

theorem decodeQ_semAt (k : Fin 4) (ch : Fin 3) (o : Fin 8) : decodeQ (semAt (karr k) ch o) = some (k, ch, o) := by
  revert k ch o; decide

abbrev N : ℕ := (slotV 0 0 : Memref sig .tc .vmem S96x256 .bf16).view.dmaCredit
theorem N_pos : 0 < N := View.dmaCredit_pos _ (by decide)
theorem credit_slot (ch : Fin 3) (o : Fin 8) : (slotV ch o).view.dmaCredit = N := rfl

abbrev pts {sp : Space} {s : Shape} {e : EltTy} (c : Dev nD) (v : Memref sig .tc sp s e) (q : PosShare TreeShare)
    (f : Buf (Elt F) (v.view.loc (c : Thread nD τ))) : sProp 𝕄 :=
  v.view.loc (c : Thread nD τ) ↦[v.view.set]{q} f

abbrev redShare (o : Fin 8) : PosShare TreeShare := Transfers.shareTok fullShare 8 o

def barPay (t : Dev nD) (o : Fin 8) : sProp 𝕄 :=
  iprop((∃ f, pts (peer t o) (slotV 0 o) fullShare f) ∗ (∃ f, pts (peer t o) (slotV 1 o) fullShare f) ∗ (∃ f, pts (peer t o) (slotV 2 o) fullShare f)
    ∗ (∃ f, pts (peer t o) (outV t 0) fullShare f) ∗ (∃ f, pts (peer t o) (outV t 1) fullShare f) ∗ (∃ f, pts (peer t o) (outV t 2) fullShare f))

def dmaPay (c : Dev nD) (k : Fin 4) (ch : Fin 3) (o : Fin 8) : sProp 𝕄 :=
  match k with
  | 0 => iprop(∃ f, pts c (prowV ch (peer c o)) fullShare f)
  | 1 => pts c (slotV ch o) fullShare (rsCan m c)
  | 2 => pts c (redV ch) (redShare o) (redCan m c)
  | 3 => pts c (outV (peer c o) ch) fullShare (outCan m)

def Rd : Rounds.Schedule (GSem nD τ sig) (Fin 8) 𝕄 where
  duties g r :=
    if r = 0 ∧ g.1.2 = .tc then
      match g.2 with
      | .reg s => if s = barS then Finset.univ.erase 0 else ∅
      | .dma q => match decodeQ q with
        | some (_, _, o) => if o = 0 then ∅ else {0}
        | none => ∅
    else ∅
  unitless _ := False
  amount g _ _ := match g.2 with | .reg _ => 1 | .dma _ => N
  payload g _ d := match g.2 with
    | .reg _ => barPay g.1.1 d
    | .dma q => match decodeQ q with
      | some (k, ch, o) => dmaPay m g.1.1 k ch o
      | none => iprop(emp)
  amount_pos g _ _ _ := by
    cases g.2 with
    | reg _ => exact Nat.one_pos
    | dma _ => exact N_pos

section Sched
variable (c : Dev nD) (k : Fin 4) (ch : Fin 3) (o : Fin 8)

theorem duties_bar : (Rd (F := F) m).duties (barCell c) 0 = Finset.univ.erase 0 := by
  dsimp only [Rd]; rw [if_pos ⟨rfl, rfl⟩, if_pos rfl]
theorem duties_dma (ho : o ≠ 0) : (Rd (F := F) m).duties (dcell c k ch o) 0 = {0} := by
  dsimp only [Rd]; rw [if_pos ⟨rfl, rfl⟩]; simp only [decodeQ_semAt, ho, ↓reduceIte]
theorem duties_dma0 : (Rd (F := F) m).duties (dcell c k ch 0) 0 = ∅ := by
  dsimp only [Rd]; rw [if_pos ⟨rfl, rfl⟩]; simp only [decodeQ_semAt, ↓reduceIte]
theorem duties_later (g : GSem nD τ sig) : ∀ r, 1 ≤ r → (Rd (F := F) m).duties g r = ∅ :=
  fun r hr => by dsimp only [Rd]; rw [if_neg fun h => by omega]
theorem amount_bar (d : Fin 8) : (Rd (F := F) m).amount (barCell c) 0 d = 1 := rfl
theorem amount_dma (d : Fin 8) : (Rd (F := F) m).amount (dcell c k ch o) 0 d = N := rfl
theorem expect_bar : (Rd (F := F) m).expect (barCell c) 0 = 7 := by
  unfold Schedule.expect Schedule.amountOf
  rw [duties_bar, Finset.sum_congr rfl fun d _ => amount_bar m c d]; decide
theorem expect_dma (ho : o ≠ 0) : (Rd (F := F) m).expect (dcell c k ch o) 0 = N := by
  unfold Schedule.expect Schedule.amountOf; rw [duties_dma m c k ch o ho, Finset.sum_singleton, amount_dma]
theorem payload_dma (d : Fin 8) : (Rd (F := F) m).payload (dcell c k ch o) 0 d = dmaPay m c k ch o := by
  dsimp only [Rd]; rw [decodeQ_semAt]

theorem rest_bar : bigSep ((Rd (F := F) m).duties (barCell c) 0 \ ∅) (fun d => (Rd (F := F) m).payload (barCell c) 0 d)
    = bigSep (Finset.univ.erase (0 : Fin 8)) (fun d => barPay (F := F) c d) := by
  rw [Finset.sdiff_empty, duties_bar]; rfl
theorem rest_dma (ho : o ≠ 0) : bigSep ((Rd (F := F) m).duties (dcell c k ch o) 0 \ ∅) (fun d => (Rd (F := F) m).payload (dcell c k ch o) 0 d)
    = dmaPay m c k ch o := by
  rw [Finset.sdiff_empty, duties_dma m c k ch o ho, bigSep_singleton, payload_dma]

end Sched

abbrev CO : Type := Fin 3 × Fin 8

abbrev allCO : Finset CO := Finset.univ ×ˢ (Finset.univ.erase 0)

def owedFrom (c : Dev nD) (S : Finset (Fin 8)) (R A : Finset CO) : CellTallies nD τ sig Unit :=
  (∑ o ∈ S, tallyAt (barCell (peer c o)) () 1) + (∑ x ∈ R, tallyAt (dcell (peer c x.2) 1 x.1 x.2) () N) + (∑ x ∈ A, tallyAt (dcell (peer c x.2) 3 x.1 x.2) () N)

def O₀ (c : Dev nD) : CellTallies nD τ sig Unit := owedFrom c (Finset.univ.erase 0) allCO allCO

theorem owed_peel_bar (c : Dev nD) {S : Finset (Fin 8)} (R A : Finset CO) {o : Fin 8} (ho : o ∈ S) :
    owedFrom c S R A = owedFrom c (S.erase o) R A + tallyAt (barCell (peer c o)) () 1 := by
  unfold owedFrom; rw [← Finset.sum_erase_add _ _ ho]; ac_rfl
theorem owed_peel_rs (c : Dev nD) (S : Finset (Fin 8)) {R : Finset CO} (A : Finset CO) {x : CO} (hx : x ∈ R) :
    owedFrom c S R A = owedFrom c S (R.erase x) A + tallyAt (dcell (peer c x.2) 1 x.1 x.2) () N := by
  unfold owedFrom; rw [← Finset.sum_erase_add _ _ hx]; ac_rfl
theorem owed_peel_ag (c : Dev nD) (S : Finset (Fin 8)) (R : Finset CO) {A : Finset CO} {x : CO} (hx : x ∈ A) :
    owedFrom c S R A = owedFrom c S R (A.erase x) + tallyAt (dcell (peer c x.2) 3 x.1 x.2) () N := by
  unfold owedFrom; rw [← Finset.sum_erase_add _ _ hx]; ac_rfl
theorem owed_none (c : Dev nD) : owedFrom c ∅ ∅ ∅ = 0 := by unfold owedFrom; simp

def L (g : GSem nD τ sig) : Finset Unit := if g.1.2 = .tc then {()} else ∅

def lv (g : GSem nD τ sig) (_ : Unit) : ℕ :=
  match g.2 with
  | .reg _ => 1
  | .dma q => match decodeQ q with
    | some (k, _, _) => if k = 1 then 2 else if k = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

abbrev CIx : Type := Option (Fin 4 × Fin 3 × Fin 8)
abbrev kcell (ci : Dev nD × CIx) : GSem nD τ sig :=
  match ci.2 with
  | none => barCell ci.1
  | some (k, ch, o) => dcell ci.1 k ch o

def records (K : Dev nD × CIx → ℕ) : sProp 𝕄 :=
  iprop((bigSep Finset.univ fun ci : Dev nD × CIx => cellInv ER (Rd m) (K ci) (kcell ci))
    ∗ bigSep Finset.univ fun ci : Dev nD × CIx => reached ER (kcell ci) 0)

instance records_persistent (K : Dev nD × CIx → ℕ) : BI.Persistent (records m K) := by unfold records; infer_instance

def payToks (c : Dev nD) : sProp 𝕄 :=
  iprop((bigSep (Finset.univ.erase (0 : Fin 8)) fun o => dutyTok ER (barCell (peer c o)) 0 o)
    ∗ bigSep allCO fun x : CO => iprop(dutyTok ER (dcell c 0 x.1 x.2) 0 0 ∗ dutyTok ER (dcell (peer c x.2) 1 x.1 x.2) 0 0
        ∗ dutyTok ER (dcell c 2 x.1 x.2) 0 0 ∗ dutyTok ER (dcell (peer c x.2) 3 x.1 x.2) 0 0))

def positions (c : Dev nD) : sProp 𝕄 := bigSep Finset.univ fun i : CIx => atPos ER (kcell (c, i)) 0 ∅ 0

def ghost (K : Dev nD × CIx → ℕ) (c : Dev nD) : sProp 𝕄 := iprop(records m K ∗ positions c ∗ payToks c)

def creds (c : Dev nD) : sProp 𝕄 :=
  iprop(cred (tallyAt (barCell c) () 7)
    ∗ bigSep allCO fun x : CO => iprop(cred (tallyAt (dcell c 1 x.1 x.2) () N) ∗ cred (tallyAt (dcell c 3 x.1 x.2) () N)))

def start (c : Dev nD) : sProp 𝕄 := iprop((∃ K, ghost m K c) ∗ creds c ∗ levAts L lv)

def scratch (c : Dev nD) : sProp 𝕄 :=
  iprop((∃ f, pts c pM fullShare f) ∗ (∃ f, pts c rsM fullShare f) ∗ (∃ f, pts c actM fullShare f)
    ∗ (∃ f, pts c wdbM fullShare f) ∗ (∃ f, pts c redM fullShare f) ∗ (∃ f, pts c accM fullShare f))

def Φ₀ (c : Dev nD) : sProp 𝕄 := iprop(start m c ∗ scratch c)

def Φ₁ (c : Dev nD) : sProp 𝕄 :=
  iprop(scratch c ∗ bigSep Finset.univ fun x : Fin 4 × Fin 3 × Fin 8 => semVal (dcell c x.1 x.2.1 x.2.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wgv m c
    | ⟨2, _⟩ => wuv m c
    | ⟨3, _⟩ => wdv m c
    | ⟨4, _⟩ => outCan m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Proto

end
-- ==== Proof.BodyStmt.lean ====
import proofs.«900790_g7700000000000791_dist_gated_mlp_tp_i_m768_h1536_d768_v7x_i8_bf16_1_alg».proof.Proof.Proto
import proofs.«900790_g7700000000000791_dist_gated_mlp_tp_i_m768_h1536_d768_v7x_i8_bf16_1_alg».proof.Proof.Gen.KernelIdeal.Points

noncomputable section

namespace Cert.KernelIdeal.Proto

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CIx → ℕ) (c : Dev nD) : sProp 𝕄 :=
  iprop((ghost m K c ∗ creds c ∗ levAts L lv ∗ scratch c)
    ∗ (dats m ρ 0 c).owesAt () t₀.castSucc
    ∗ stg c cc0_stg0_0 (xv m c) ∗ stg c cc0_stg1_0 (wgv m c) ∗ stg c cc0_stg2_0 (wuv m c) ∗ stg c cc0_stg3_0 (wdv m c)
    ∗ (∃ X, stg c cc0_stg4_0 X))

def bodyPost (c : Dev nD) : sProp 𝕄 :=
  iprop(Φ₁ c ∗ (dats m ρ 0 c).owesAt () t₀.succ
    ∗ stg c cc0_stg0_0 (xv m c) ∗ stg c cc0_stg1_0 (wgv m c) ∗ stg c cc0_stg2_0 (wuv m c) ∗ stg c cc0_stg3_0 (wdv m c)
    ∗ stg c cc0_stg4_0 (outCan m))

abbrev bodyCall : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9

end Cert.KernelIdeal.Proto

end
-- ==== Proof.State.lean ====
import proofs.«900790_g7700000000000791_dist_gated_mlp_tp_i_m768_h1536_d768_v7x_i8_bf16_1_alg».proof.Proof.BodyStmt

noncomputable section

namespace Cert.KernelIdeal.Proto

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

def Tb (S : Finset (Fin 8)) : sProp 𝕄 := bigSep S fun o => dutyTok ER (barCell (peer c o)) 0 o

def Tx (k kp : Fin 4) (X : Finset CO) : sProp 𝕄 :=
  bigSep X fun x => iprop(dutyTok ER (dcell c k x.1 x.2) 0 0 ∗ dutyTok ER (dcell (peer c x.2) kp x.1 x.2) 0 0)

def Pos (k : Fin 4) (X : Finset CO) (r : ℕ) : sProp 𝕄 := bigSep X fun x => atPos ER (dcell c k x.1 x.2) r ∅ 0

def Cr (k : Fin 4) (X : Finset CO) : sProp 𝕄 := bigSep X fun x => cred (tallyAt (dcell c k x.1 x.2) () N)

def PosZ : sProp 𝕄 := bigSep (Finset.univ : Finset (Fin 4 × Fin 3)) fun y => atPos ER (dcell c y.1 y.2 0) 0 ∅ 0

def barPart (done : Bool) : sProp 𝕄 :=
  if done then atPos ER (barCell c) 1 ∅ 0 else iprop(atPos ER (barCell c) 0 ∅ 0 ∗ cred (tallyAt (barCell c) () 7))

def GP (S : Finset (Fin 8)) (bar : Bool) (R A Wr Wa Dr Da : Finset CO) : sProp 𝕄 :=
  iprop(Tb c S ∗ Tx c 0 1 R ∗ Tx c 2 3 A
    ∗ (∃ W, owes (c : Thread nD τ) (owedFrom c S R A) W)
    ∗ barPart c bar
    ∗ (Pos c 1 Wr 0 ∗ Cr c 1 Wr ∗ Pos c 1 (allCO \ Wr) 1)
    ∗ (Pos c 3 Wa 0 ∗ Cr c 3 Wa ∗ Pos c 3 (allCO \ Wa) 1)
    ∗ (Pos c 0 Dr 0 ∗ Cr c 0 (Dr \ R) ∗ Pos c 0 (allCO \ Dr) 1)
    ∗ (Pos c 2 Da 0 ∗ Cr c 2 (Da \ A) ∗ Pos c 2 (allCO \ Da) 1)
    ∗ PosZ c)

abbrev GP₀ : sProp 𝕄 := GP c (Finset.univ.erase 0) false allCO allCO allCO allCO allCO allCO

abbrev GP₁ : sProp 𝕄 := GP c ∅ true ∅ ∅ ∅ ∅ ∅ ∅

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in

theorem bigSep_option {α : Type} [Fintype α] [DecidableEq α] (Φ : Option α → sProp 𝕄) :
    bigSep Finset.univ Φ = iprop(Φ none ∗ bigSep Finset.univ fun a => Φ (some a)) := by
  rw [bigSep_univ_at Φ none,
    show (Finset.univ.erase (none : Option α)) = (Finset.univ : Finset α).map Function.Embedding.some from by
      ext x; cases x <;> simp,
    bigSep_map]
  all_goals rfl

theorem allCO_compl : (Finset.univ : Finset CO) \ allCO
    = (Finset.univ : Finset (Fin 3)).map ⟨fun ch => (ch, (0 : Fin 8)), fun a b h => congrArg Prod.fst h⟩ := by decide

omit [FloatOps F] in

theorem bigSep_cells (Φ : Fin 4 × Fin 3 × Fin 8 → sProp 𝕄) :
    bigSep Finset.univ Φ = iprop((bigSep allCO fun x => Φ (0, x)) ∗ (bigSep allCO fun x => Φ (1, x)) ∗ (bigSep allCO fun x => Φ (2, x))
      ∗ (bigSep allCO fun x => Φ (3, x)) ∗ bigSep (Finset.univ : Finset (Fin 4 × Fin 3)) fun y => Φ (y.1, y.2, 0)) := by
  have hk (k : Fin 4) : (bigSep Finset.univ fun y : Fin 3 × Fin 8 => Φ (k, y))
      = iprop((bigSep allCO fun x => Φ (k, x)) ∗ bigSep Finset.univ fun ch : Fin 3 => Φ (k, ch, 0)) := by
    rw [bigSep_sdiff_split (Finset.subset_univ allCO), allCO_compl, bigSep_map]
    all_goals rfl
  rw [bigSep_univ_prod Φ, bigSep_fin4, hk 0, hk 1, hk 2, hk 3, bigSep_univ_prod (fun y : Fin 4 × Fin 3 => Φ (y.1, y.2, 0)), bigSep_fin4]
  refine BI.Entails.antisymm (show _ ⊢ (_ : sProp 𝕄) from ?_) (show _ ⊢ (_ : sProp 𝕄) from ?_)
  · iintro ⟨⟨A0, Z0⟩, ⟨A1, Z1⟩, ⟨A2, Z2⟩, A3, Z3⟩; iframe
  · iintro ⟨A0, A1, A2, A3, Z0, Z1, Z2, Z3⟩; iframe

omit [FloatOps F] in

theorem bigSep_pers_fupd {I : Type} [DecidableEq I] (s : Finset I) (P : sProp 𝕄) [BI.Persistent P] (Φ Ψ : I → sProp 𝕄)
    (h : ∀ i ∈ s, iprop(P ∗ Φ i) ⊢ iprop(|={Set.univ}=> Ψ i)) : iprop(P ∗ bigSep s Φ) ⊢ iprop(|={Set.univ}=> bigSep s Ψ) := by
  have h1 : iprop(P ∗ bigSep s Φ) ⊢ bigSep s (fun i => iprop(P ∗ Φ i)) := by
    rw [bigSep_sep']
    iintro ⟨#HP, H⟩
    iframe H
    iapply (BI.bigSep_intro_persistent (R := P) (fun i _ => BI.Entails.refl P)); iexact HP
  exact (h1.trans (bigSep_mono h)).trans (bigSep_fupd s Ψ)

omit [FloatOps F] in
theorem positions_eq : (positions c : sProp 𝕄)
    = iprop(atPos ER (barCell c) 0 ∅ 0 ∗ Pos c 0 allCO 0 ∗ Pos c 1 allCO 0 ∗ Pos c 2 allCO 0 ∗ Pos c 3 allCO 0 ∗ PosZ c) := by
  unfold positions Pos PosZ
  rw [bigSep_option, bigSep_cells]
  all_goals rfl

omit [FloatOps F] in
theorem payToks_split : (payToks c : sProp 𝕄) ⊢ iprop(Tb c (Finset.univ.erase 0) ∗ Tx c 0 1 allCO ∗ Tx c 2 3 allCO) := by
  unfold payToks Tb Tx
  rw [← bigSep_sep']
  refine sep_mono_right (bigSep_mono fun x _ => (show _ ⊢ (_ : sProp 𝕄) from ?_))
  iintro ⟨H1, H2, H3, H4⟩; iframe

omit [FloatOps F] in
theorem creds_split : (creds c : sProp 𝕄) ⊢ iprop(cred (tallyAt (barCell c) () 7) ∗ Cr c 1 allCO ∗ Cr c 3 allCO) := by
  unfold creds Cr
  rw [bigSep_sep']

omit [FloatOps F] in
theorem Pos_empty (k : Fin 4) (r : ℕ) : (Pos c k ∅ r : sProp 𝕄) = iprop(emp) := rfl
omit [FloatOps F] in
theorem Cr_empty (k : Fin 4) : (Cr c k ∅ : sProp 𝕄) = iprop(emp) := rfl
omit [FloatOps F] in
theorem barPart_false : (barPart c false : sProp 𝕄) = iprop(atPos ER (barCell c) 0 ∅ 0 ∗ cred (tallyAt (barCell c) () 7)) := rfl

theorem gp_intro : iprop(positions c ∗ payToks c ∗ creds c ∗ (dats m ρ 0 c).owesAt () t₀.castSucc) ⊢ (GP₀ c : sProp 𝕄) := by
  have hO : (dats m ρ 0 c).owed t₀.castSucc = owedFrom c (Finset.univ.erase 0) allCO allCO := rfl
  rw [positions_eq]
  unfold GP₀ GP Dat.owesAt Pipeline.owesWithin
  rw [hO, Finset.sdiff_self, Pos_empty c 1 1, Pos_empty c 3 1, Pos_empty c 0 1, Pos_empty c 2 1, Cr_empty c 0, Cr_empty c 2, barPart_false]
  iintro ⟨⟨Hb, P0, P1, P2, P3, PZ⟩, Htok, Hcr, ⟨%W, %hW, HO⟩⟩
  ihave Htok' := (payToks_split c) $$ Htok
  icases Htok' with ⟨Tb, T01, T23⟩
  ihave Hcr' := (creds_split c) $$ Hcr
  icases Hcr' with ⟨C7, C1, C3⟩
  iframe Tb T01 T23 Hb C7 P0 P1 P2 P3 C1 C3 PZ
  isplitl [HO]; · iexists W; iexact HO
  isplitr <;> isplitr <;> iempintro

theorem inv_of_records (k : Fin 4) (ch : Fin 3) (o : Fin 8) :
    (records m K : sProp 𝕄) ⊢ cellInv ER (Rd m) (K (c, some (k, ch, o))) (dcell c k ch o) := by
  have h : (bigSep Finset.univ fun ci : Dev nD × CIx => cellInv ER (Rd m) (K ci) (kcell ci) : sProp 𝕄)
      ⊢ cellInv ER (Rd m) (K (c, some (k, ch, o))) (dcell c k ch o) :=
    bigSep_elim (Finset.mem_univ ((c, some (k, ch, o)) : Dev nD × CIx))
  unfold records
  iintro ⟨H, -⟩
  iapply h; iexact H

theorem close_one (k : Fin 4) (ch : Fin 3) (o : Fin 8) (R : ℕ) (hR : ∀ r, R ≤ r → (Rd (F := F) m).duties (dcell c k ch o) r = ∅) :
    iprop(records m K ∗ atPos ER (dcell c k ch o) R ∅ 0) ⊢ iprop(|={Set.univ}=> semVal (dcell c k ch o) 0) := by
  iintro ⟨#HR, Hat⟩
  iapply (Rounds.cell_close ER (Rd m) (Set.mem_univ (K (c, some (k, ch, o)))) (fun h => h) (R := R) hR)
  iframe Hat
  iapply (inv_of_records m K c k ch o); iexact HR

theorem close_used (k : Fin 4) :
    iprop(records m K ∗ Pos c k allCO 1) ⊢ iprop(|={Set.univ}=> bigSep allCO fun x : CO => semVal (dcell c k x.1 x.2) 0) :=
  bigSep_pers_fupd allCO (records m K) _ _ fun x _ => close_one m K c k x.1 x.2 1 (duties_later m _)

theorem close_unused :
    iprop(records m K ∗ PosZ c) ⊢ iprop(|={Set.univ}=> bigSep (Finset.univ : Finset (Fin 4 × Fin 3)) fun y => semVal (dcell c y.1 y.2 0) 0) :=
  bigSep_pers_fupd Finset.univ (records m K) _ _ fun y _ => close_one m K c y.1 y.2 0 0 fun r _ => by
    rcases r with _ | r
    · exact duties_dma0 m c y.1 y.2
    · exact duties_later m _ _ (Nat.succ_le_succ (Nat.zero_le r))

theorem gp_close : iprop(records m K ∗ GP₁ c) ⊢ |={Set.univ}=> iprop((bigSep Finset.univ fun x : Fin 4 × Fin 3 × Fin 8 => semVal (dcell c x.1 x.2.1 x.2.2) 0) ∗ (dats m ρ 0 c).owesAt () t₀.succ : sProp 𝕄) := by
  have hO : (dats m ρ 0 c).owed t₀.succ = 0 := rfl
  unfold GP₁ GP Dat.owesAt Pipeline.owesWithin
  rw [hO, owed_none, Finset.sdiff_empty, bigSep_cells]
  iintro ⟨#HR, -, -, -, ⟨%W, HO⟩, -, ⟨-, -, H1⟩, ⟨-, -, H3⟩, ⟨-, -, H0⟩, ⟨-, -, H2⟩, HZ⟩
  imod (close_used m K c 0) $$ [$HR $H0] with Hz0
  imod (close_used m K c 1) $$ [$HR $H1] with Hz1
  imod (close_used m K c 2) $$ [$HR $H2] with Hz2
  imod (close_used m K c 3) $$ [$HR $H3] with Hz3
  imod (close_unused m K c) $$ [$HR $HZ] with HzZ
  imodintro
  iframe Hz0 Hz1 Hz2 Hz3 HzZ
  iexists W
  isplitr; · ipureintro; exact fun _ _ => Or.inl trivial
  iexact HO

end Cert.KernelIdeal.Proto

end
-- ==== Proof.Bufs.lean ====
import proofs.«900790_g7700000000000791_dist_gated_mlp_tp_i_m768_h1536_d768_v7x_i8_bf16_1_alg».proof.Proof.State

noncomputable section

namespace Cert.KernelIdeal.Proto

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ)

variable (c : Dev nD)

abbrev lo (n : ℕ) : Finset (Fin 3) := Finset.univ.filter fun ch => ch.val < n
abbrev hi (n : ℕ) : Finset (Fin 3) := Finset.univ.filter fun ch => n ≤ ch.val

abbrev coGE (n : ℕ) : Finset CO := allCO.filter fun x => n ≤ x.1.val

abbrev chunkCO (ch : Fin 3) : Finset CO := allCO.filter fun x => x.1 = ch

def IN : sProp 𝕄 := iprop(stg c cc0_stg0_0 (xv m c) ∗ stg c cc0_stg1_0 (wgv m c) ∗ stg c cc0_stg2_0 (wuv m c) ∗ stg c cc0_stg3_0 (wdv m c))

def PeerSlots (X : Finset CO) : sProp 𝕄 := bigSep X fun x => iprop(∃ f, pts (peer c x.2) (slotV x.1 x.2) fullShare f)

def PeerOut (X : Finset CO) : sProp 𝕄 := bigSep X fun x => iprop(∃ f, pts (peer c x.2) (outV c x.1) fullShare f)

def B1 : sProp 𝕄 :=
  iprop(IN m c ∗ (∃ f, pts c actM fullShare f) ∗ (∃ f, pts c wdbM fullShare f) ∗ (∃ f, pts c redM fullShare f) ∗ (∃ f, pts c accM fullShare f)
    ∗ (∃ f, pts c pM fullShare f)
    ∗ (bigSep Finset.univ fun ch : Fin 3 => iprop(∃ f, pts c (slotV ch 0) fullShare f))
    ∗ (bigSep Finset.univ fun ch : Fin 3 => iprop(∃ f, pts c (outV c ch) fullShare f))
    ∗ PeerSlots c allCO ∗ PeerOut c allCO)

def B3 (n : ℕ) : sProp 𝕄 :=
  iprop(IN m c ∗ pts c actM fullShare (actv m c) ∗ pts c wdbM fullShare (wdbv m c) ∗ (∃ f, pts c redM fullShare f) ∗ (∃ f, pts c accM fullShare f)
    ∗ (bigSep (lo n) fun ch => pts c (prowV ch c) fullShare (pCan m c))
    ∗ (bigSep (hi n) fun ch => iprop(∃ f, (pM.view.loc (c : Thread nD τ) ↦[(pM.access (pRect ch)).set]{fullShare} f)))
    ∗ (bigSep (lo n) fun ch => pts c (slotV ch 0) fullShare (rsCan m c))
    ∗ (bigSep (hi n) fun ch => iprop(∃ f, pts c (slotV ch 0) fullShare f))
    ∗ (bigSep Finset.univ fun ch : Fin 3 => iprop(∃ f, pts c (outV c ch) fullShare f))
    ∗ PeerSlots c (coGE n) ∗ PeerOut c allCO)

def B4 (n : ℕ) : sProp 𝕄 :=
  iprop(IN m c ∗ pts c actM fullShare (actv m c) ∗ pts c wdbM fullShare (wdbv m c) ∗ (∃ f, pts c accM fullShare f)
    ∗ (bigSep Finset.univ fun ch : Fin 3 => pts c (prowV ch c) fullShare (pCan m c))
    ∗ (bigSep Finset.univ fun ch : Fin 3 => pts c (slotV ch 0) fullShare (rsCan m c))
    ∗ (bigSep (allCO \ coGE n) fun x => pts c (slotV x.1 x.2) fullShare (rsCan m c))
    ∗ (bigSep (lo n) fun ch => iprop(pts c (redV ch) (Transfers.shareDrop fullShare 8) (redCan m c) ∗ pts c (redV ch) (redShare 0) (redCan m c)))
    ∗ (bigSep (hi n) fun ch => iprop(∃ f, pts c (redV ch) fullShare f))
    ∗ (bigSep (lo n) fun ch => pts c (outV c ch) fullShare (outCan m))
    ∗ (bigSep (hi n) fun ch => iprop(∃ f, pts c (outV c ch) fullShare f))
    ∗ PeerOut c (coGE n))

def B5 (n k : ℕ) : sProp 𝕄 :=
  iprop(B4 m c 3
    ∗ (bigSep (allCO \ coGE n) fun x => pts c (outV (peer c x.2) x.1) fullShare (outCan m))
    ∗ (bigSep (allCO \ coGE k) fun x => iprop((∃ f, pts c (prowV x.1 (peer c x.2)) fullShare f) ∗ pts c (redV x.1) (redShare x.2) (redCan m c))))

end Cert.KernelIdeal.Proto

end
-- ==== Proof.Tiles.lean ====
import proofs.«900790_g7700000000000791_dist_gated_mlp_tp_i_m768_h1536_d768_v7x_i8_bf16_1_alg».proof.Proof.Canon
import Idealize.ShloMosaic.Lib.Pipeline.Value

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

theorem pts_congr {sp : Space} {s : Shape} {e : EltTy} {c : Thread nD τ} {v : View sig c.2.kind sp s e}
    {S : Finset (Idx (v.loc c))} {q : PosShare TreeShare} {f g : Buf (Elt F) (v.loc c)}
    (h : ∀ i ∈ S, f i = g i) : (v.loc c ↦[S]{q} f : sProp 𝕄) = (v.loc c ↦[S]{q} g) :=
  pointsTo_congr h

-- a set covered by pairwise disjoint pieces is held exactly when every piece is
theorem pts_cover {ℓ : Loc nD τ sig} {T : Type} [Fintype T] [DecidableEq T] (K : T → Finset (Idx ℓ)) (S : Finset (Idx ℓ))
    (q : PosShare TreeShare) (f : Buf (Elt F) ℓ)
    (hd : ∀ t t', t ≠ t' → Disjoint (K t) (K t'))
    (hc : ∀ i, i ∈ S ↔ ∃ t, i ∈ K t) :
    (ℓ ↦[S]{q} f : sProp 𝕄) ⊣⊢ bigSep Finset.univ fun t => ℓ ↦[K t]{q} f := by
  rw [show S = Finset.univ.biUnion K from by ext i; simp only [hc, Finset.mem_biUnion, Finset.mem_univ, true_and],
    pointsTo_biUnion Finset.univ K (fun t _ t' _ h => hd t t' h)]

-- the whole buffer, every index of which lies in the piece blk names
theorem pts_tile {ℓ : Loc nD τ sig} {T : Type} [Fintype T] [DecidableEq T] (K : T → Finset (Idx ℓ)) {S : Finset (Idx ℓ)}
    (hS : S = Finset.univ) (f : Buf (Elt F) ℓ) (blk : Idx ℓ → T)
    (hd : ∀ t t', t ≠ t' → Disjoint (K t) (K t')) (hc : ∀ i, i ∈ K (blk i)) :
    (ℓ ↦[S]{fullShare} f : sProp 𝕄) ⊣⊢ bigSep Finset.univ fun t => ℓ ↦[K t]{fullShare} f :=
  pts_cover K S fullShare f hd fun i => ⟨fun _ => ⟨blk i, hc i⟩, fun _ => hS ▸ Finset.mem_univ _⟩

-- a family over pairs is pairwise disjoint when either coordinate alone separates its members
theorem disj2 {α A B : Type} [DecidableEq α] (R : A → B → Finset α) (h1 : ∀ a a' b b', a ≠ a' → Disjoint (R a b) (R a' b'))
    (h2 : ∀ a b b', b ≠ b' → Disjoint (R a b) (R a b')) (t t' : A × B) (h : t ≠ t') : Disjoint (R t.1 t.2) (R t'.1 t'.2) := by
  by_cases e : t.1 = t'.1
  · rw [← e]; exact h2 _ _ _ fun e2 => h (Prod.ext e e2)
  · exact h1 _ _ _ _ e

theorem blk_sep (k : ℕ) {a b : ℕ} (h : a ≠ b) : k * a + k ≤ k * b ∨ k * b + k ≤ k * a :=
  (Nat.lt_or_gt_of_ne h).imp (Nat.mul_le_mul_left k) (Nat.mul_le_mul_left k)

theorem ax_unit (x : ℕ) : x ≤ x ∧ x < x + 1 := ⟨Nat.le_refl _, Nat.lt_succ_self _⟩
theorem ax_whole {n : ℕ} (x : Fin n) : 0 ≤ x.val ∧ x.val < 0 + n := ⟨Nat.zero_le _, by omega⟩
theorem ax_blk (k : ℕ) (hk : 0 < k) (x : ℕ) : k * (x / k) ≤ x ∧ x < k * (x / k) + k :=
  ⟨Nat.mul_div_le x k, Nat.lt_mul_div_succ x hk⟩

theorem redV_set (ch : Fin 3) : (redV ch).view.set = (redRect ch).set := by
  simp only [Memref.view_squeeze, Memref.view_slice, Memref.view_whole, View.set_reshape, View.set_slice_whole]

theorem redV_pts (c : Dev nD) (ch : Fin 3) (q : PosShare TreeShare) (f : Buf (Elt F) (redM.view.loc (c : Thread nD τ))) :
    ((redV ch).view.loc (c : Thread nD τ) ↦[(redV ch).view.set]{q} f : sProp 𝕄)
      = (redM.view.loc (c : Thread nD τ) ↦[(redRect ch).set]{q} f) := by
  rw [redV_set]

theorem red_tile (c : Dev nD) (f : Buf (Elt F) (redM.view.loc (c : Thread nD τ))) :
    (redM.view.loc (c : Thread nD τ) ↦[redM.view.set]{fullShare} f : sProp 𝕄) ⊣⊢
      bigSep Finset.univ fun ch : Fin 3 => ((redV ch).view.loc (c : Thread nD τ) ↦[(redV ch).view.set]{fullShare} f) := by
  rw [bigSep_congr fun ch _ => redV_pts c ch fullShare f]
  exact pts_tile _ (View.set_whole _) f (fun i => i 0)
    (fun _ _ h => Rect.unit_disjoint (0 : Fin 3) (Nat.lt_or_gt_of_ne (Fin.val_ne_of_ne h)))
    fun i => Rect.mem_set_unit.2 fun a => match a with
      | ⟨0, _⟩ => ax_unit _ | ⟨1, _⟩ => ax_whole (i 1) | ⟨2, _⟩ => ax_whole (i 2)

theorem slotV_set (ch : Fin 3) (o : Fin 8) : (slotV ch o).view.set = (slotRect ch o).set := by
  simp only [Memref.view_squeeze, Memref.view_slice, Memref.view_whole, View.set_reshape, View.set_slice_whole]

theorem slotV_pts (c : Dev nD) (ch : Fin 3) (o : Fin 8) (q : PosShare TreeShare) (f : Buf (Elt F) (rsM.view.loc (c : Thread nD τ))) :
    ((slotV ch o).view.loc (c : Thread nD τ) ↦[(slotV ch o).view.set]{q} f : sProp 𝕄)
      = (rsM.view.loc (c : Thread nD τ) ↦[(slotRect ch o).set]{q} f) := by
  rw [slotV_set]

theorem rs_tile (c : Dev nD) (f : Buf (Elt F) (rsM.view.loc (c : Thread nD τ))) :
    (rsM.view.loc (c : Thread nD τ) ↦[rsM.view.set]{fullShare} f : sProp 𝕄) ⊣⊢
      bigSep Finset.univ fun t : Fin 3 × Fin 8 => ((slotV t.1 t.2).view.loc (c : Thread nD τ) ↦[(slotV t.1 t.2).view.set]{fullShare} f) := by
  rw [bigSep_congr fun t _ => slotV_pts c t.1 t.2 fullShare f]
  exact pts_tile _ (View.set_whole _) f (fun i => (i 0, i 1))
    (disj2 (fun ch o => (slotRect ch o).set)
      (fun _ _ _ _ h => Rect.unit_disjoint (0 : Fin 4) (Nat.lt_or_gt_of_ne (Fin.val_ne_of_ne h)))
      fun _ _ _ h => Rect.unit_disjoint (1 : Fin 4) (Nat.lt_or_gt_of_ne (Fin.val_ne_of_ne h)))
    fun i => Rect.mem_set_unit.2 fun a => match a with
      | ⟨0, _⟩ => ax_unit _ | ⟨1, _⟩ => ax_unit _ | ⟨2, _⟩ => ax_whole (i 2) | ⟨3, _⟩ => ax_whole (i 3)

theorem outM_set : outM.view.set = Finset.univ := View.set_whole _
theorem outV_set (s : Dev nD) (ch : Fin 3) : (outV s ch).view.set = (outRect s ch).set := by
  simp only [Memref.view_slice, Memref.view_whole, View.set_slice_whole]

theorem outV_pts (c : Dev nD) (s : Dev nD) (ch : Fin 3) (q : PosShare TreeShare) (f : Buf (Elt F) (outM.view.loc (c : Thread nD τ))) :
    ((outV s ch).view.loc (c : Thread nD τ) ↦[(outV s ch).view.set]{q} f : sProp 𝕄)
      = (outM.view.loc (c : Thread nD τ) ↦[(outRect s ch).set]{q} f) := by
  rw [outV_set]

theorem out_tile (c : Dev nD) (f : Buf (Elt F) (outM.view.loc (c : Thread nD τ))) :
    (outM.view.loc (c : Thread nD τ) ↦[outM.view.set]{fullShare} f : sProp 𝕄) ⊣⊢
      bigSep Finset.univ fun sc : Dev nD × Fin 3 => ((outV sc.1 sc.2).view.loc (c : Thread nD τ) ↦[(outV sc.1 sc.2).view.set]{fullShare} f) := by
  rw [bigSep_congr fun t _ => outV_pts c t.1 t.2 fullShare f]
  exact pts_tile _ outM_set f
    (fun i => (⟨(i 0).val / 96, Nat.div_lt_of_lt_mul (i 0).isLt⟩, ⟨(i 1).val / 256, Nat.div_lt_of_lt_mul (i 1).isLt⟩))
    (disj2 (fun s ch => (outRect s ch).set)
      (fun _ _ _ _ h => Rect.unit_disjoint (0 : Fin 2) (blk_sep 96 (Fin.val_ne_of_ne h)))
      fun _ _ _ h => Rect.unit_disjoint (1 : Fin 2) (blk_sep 256 (Fin.val_ne_of_ne h)))
    fun i => Rect.mem_set_unit.2 fun a => match a with
      | ⟨0, _⟩ => ax_blk 96 (by decide) _ | ⟨1, _⟩ => ax_blk 256 (by decide) _

theorem pM_set : pM.view.set = Finset.univ := View.set_whole _
theorem prowV_set (ch : Fin 3) (d : Dev nD) : (prowV ch d).view.set = (prowRect ch d).set := by
  simp only [Memref.view_squeeze, Memref.view_slice, Memref.view_whole, View.set_reshape, View.set_slice_whole]

theorem prow_disj (t t' : Fin 3 × Dev nD) (h : t ≠ t') : Disjoint (prowRect t.1 t.2).set (prowRect t'.1 t'.2).set :=
  disj2 (fun ch d => (prowRect ch d).set)
    (fun _ _ _ _ h => Rect.unit_disjoint (0 : Fin 3) (Nat.lt_or_gt_of_ne (Fin.val_ne_of_ne h)))
    (fun _ _ _ h => Rect.unit_disjoint (1 : Fin 3) (blk_sep 96 (Fin.val_ne_of_ne h))) t t' h

def prowBlk (i : S3x768x256.Idx) : Dev nD :=
  ⟨(i 1).val / 96, by have h1 : (i 1).val < 768 := (i 1).isLt; show (i 1).val / 96 < 8; omega⟩

theorem prow_cov (i : S3x768x256.Idx) : i ∈ (prowRect (i 0) (prowBlk i)).set :=
  Rect.mem_set_unit.2 fun a => match a with
    | ⟨0, _⟩ => ax_unit _ | ⟨1, _⟩ => ax_blk 96 (by decide) _ | ⟨2, _⟩ => ax_whole (i 2)

theorem prowV_pts (c : Dev nD) (ch : Fin 3) (d : Dev nD) (q : PosShare TreeShare) (f : Buf (Elt F) (pM.view.loc (c : Thread nD τ))) :
    ((prowV ch d).view.loc (c : Thread nD τ) ↦[(prowV ch d).view.set]{q} f : sProp 𝕄)
      = (pM.view.loc (c : Thread nD τ) ↦[(prowRect ch d).set]{q} f) := by
  rw [prowV_set]

theorem p_tile (c : Dev nD) (f : Buf (Elt F) (pM.view.loc (c : Thread nD τ))) :
    (pM.view.loc (c : Thread nD τ) ↦[pM.view.set]{fullShare} f : sProp 𝕄) ⊣⊢
      bigSep Finset.univ fun t : Fin 3 × Dev nD => ((prowV t.1 t.2).view.loc (c : Thread nD τ) ↦[(prowV t.1 t.2).view.set]{fullShare} f) := by
  rw [bigSep_congr fun t _ => prowV_pts c t.1 t.2 fullShare f]
  exact pts_tile _ pM_set f (fun i => (i 0, prowBlk i)) prow_disj prow_cov

theorem pchunk_set (ch : Fin 3) : (pM.access (pRect ch)).set = (pRect ch).set := View.set_slice_whole _ _

theorem pchunk_load_subset (ch : Fin 3) : pM.view.setOn (pRect ch).toLoadRect.set ⊆ (pM.access (pRect ch)).set := by
  rw [View.set_slice]; exact Finset.Subset.refl _

theorem pchunk_mem (ch : Fin 3) (i : S3x768x256.Idx) : i ∈ (pRect ch).set ↔ ∃ d : Dev nD, i ∈ (prowRect ch d).set := by
  constructor
  · intro h
    have h0 : ch.val ≤ (i 0).val ∧ (i 0).val < ch.val + 1 := Rect.mem_set_unit.1 h 0
    have e : i 0 = ch := Fin.ext (by omega)
    exact ⟨prowBlk i, e ▸ prow_cov i⟩
  · rintro ⟨d, h⟩
    exact Rect.mem_set_unit.2 fun a => match a with
      | ⟨0, _⟩ => Rect.mem_set_unit.1 h 0 | ⟨1, _⟩ => ax_whole (i 1) | ⟨2, _⟩ => ax_whole (i 2)

theorem p_chunk (c : Dev nD) (ch : Fin 3) (f : Buf (Elt F) (pM.view.loc (c : Thread nD τ))) :
    (bigSep Finset.univ fun d : Dev nD => ((prowV ch d).view.loc (c : Thread nD τ) ↦[(prowV ch d).view.set]{fullShare} f : sProp 𝕄)) ⊣⊢
      (pM.view.loc (c : Thread nD τ) ↦[(pM.access (pRect ch)).set]{fullShare} f) := by
  rw [pchunk_set, bigSep_congr fun d _ => prowV_pts c ch d fullShare f]
  exact (pts_cover _ _ fullShare f (fun d d' hd => prow_disj (ch, d) (ch, d') fun e => hd (Prod.ext_iff.mp e).2) (pchunk_mem ch)).symm

theorem red_shares (c : Dev nD) (ch : Fin 3) (f : Buf (Elt F) (redM.view.loc (c : Thread nD τ))) :
    ((redV ch).view.loc (c : Thread nD τ) ↦[(redV ch).view.set]{fullShare} f : sProp 𝕄) ⊣⊢
      iprop(((redV ch).view.loc (c : Thread nD τ) ↦[(redV ch).view.set]{Transfers.shareDrop fullShare 8} f)
        ∗ bigSep Finset.univ fun o : Fin 8 =>
            ((redV ch).view.loc (c : Thread nD τ) ↦[(redV ch).view.set]{Transfers.shareTok fullShare 8 o} f)) :=
  Transfers.pointsTo_toks fullShare 8

end Cert.KernelIdeal.Proto

end
-- ==== Proof.Lands.lean ====
import proofs.«900790_g7700000000000791_dist_gated_mlp_tp_i_m768_h1536_d768_v7x_i8_bf16_1_alg».proof.Proof.Canon
import Idealize.ShloMosaic.Lib.ValueLayout

noncomputable section

namespace Cert.KernelIdeal.Proto

open Cert.KernelIdeal Cert.KernelIdeal.Gen
open Idealize.ShloMosaic Idealize.ShloMosaic.ValueIdx

variable {F : FTy → Type} [FloatOps F]
variable (m : (ℓ : Loc nD τ sig) → Buf (Elt F) ℓ)

abbrev rowOf (d : Dev nD) (r : Fin 96) : Fin 768 := ⟨96 * d.val + r.val, by have hd : d.val < 8 := d.isLt; have := r.isLt; omega⟩
abbrev colOf (ch : Fin 3) (q : Fin 256) : Fin 768 := ⟨256 * ch.val + q.val, by have := ch.isLt; have := q.isLt; omega⟩

theorem reshape_4 (h : S96x256.numel = (⟨4, S1x1x96x256.size⟩ : Shape).numel) (r : Fin 96) (q : Fin 256) :
    Shape.reshapeEquiv (s := ⟨4, S1x1x96x256.size⟩) (s' := S96x256) h (ix2 r q) = ix4 (0 : Fin 1) (0 : Fin 1) r q :=
  Shape.reshapeEquiv_eq_of_rowMajor h (by
    rw [Shape.rowMajor_val_four, Shape.rowMajor_val_two]
    show ((0 * 1 + 0) * 96 + r.val) * 256 + q.val = r.val * 256 + q.val
    omega)

theorem reshape_3 (h : S96x256.numel = (⟨3, S1x96x256.size⟩ : Shape).numel) (r : Fin 96) (q : Fin 256) :
    Shape.reshapeEquiv (s := ⟨3, S1x96x256.size⟩) (s' := S96x256) h (ix2 r q) = ix3 (0 : Fin 1) r q :=
  Shape.reshapeEquiv_eq_of_rowMajor h (by
    rw [Shape.rowMajor_val_three, Shape.rowMajor_val_two]
    show (0 * 96 + r.val) * 256 + q.val = r.val * 256 + q.val
    omega)

theorem pRect_idx (ch : Fin 3) (u : Fin 1) (i : Fin 768) (q : Fin 256) :
    (pRect ch).toLoadRect.idx (ix3 u i q) = ix3 ch i q := by
  funext a
  apply Fin.ext
  match a with
  | ⟨0, _⟩ => show ch.val + 1 * u.val = ch.val; omega
  | ⟨1, _⟩ => show 0 + 1 * i.val = i.val; omega
  | ⟨2, _⟩ => show 0 + 1 * q.val = q.val; omega

theorem prowRect_idx (ch : Fin 3) (d : Dev nD) (u : Fin 1) (r : Fin 96) (q : Fin 256) :
    (prowRect ch d).toLoadRect.idx (ix3 u r q) = ix3 ch (rowOf d r) q := by
  funext a
  apply Fin.ext
  match a with
  | ⟨0, _⟩ => show ch.val + 1 * u.val = ch.val; omega
  | ⟨1, _⟩ => show 96 * d.val + 1 * r.val = 96 * d.val + r.val; omega
  | ⟨2, _⟩ => show 0 + 1 * q.val = q.val; omega

theorem slotRect_idx (ch : Fin 3) (o : Fin 8) (u0 u1 : Fin 1) (r : Fin 96) (q : Fin 256) :
    (slotRect ch o).toLoadRect.idx (ix4 u0 u1 r q) = ix4 ch o r q := by
  funext a
  apply Fin.ext
  match a with
  | ⟨0, _⟩ => show ch.val + 1 * u0.val = ch.val; omega
  | ⟨1, _⟩ => show o.val + 1 * u1.val = o.val; omega
  | ⟨2, _⟩ => show 0 + 1 * r.val = r.val; omega
  | ⟨3, _⟩ => show 0 + 1 * q.val = q.val; omega

theorem redRect_idx (ch : Fin 3) (u : Fin 1) (r : Fin 96) (q : Fin 256) :
    (redRect ch).toLoadRect.idx (ix3 u r q) = ix3 ch r q := by
  funext a
  apply Fin.ext
  match a with
  | ⟨0, _⟩ => show ch.val + 1 * u.val = ch.val; omega
  | ⟨1, _⟩ => show 0 + 1 * r.val = r.val; omega
  | ⟨2, _⟩ => show 0 + 1 * q.val = q.val; omega

-- dropping unit axes does not move an entry: (r, q) sits where (0, 0, r, q) does
theorem slotV_emb (ch : Fin 3) (o : Fin 8) (r : Fin 96) (q : Fin 256) :
    (slotV ch o).view.emb (ix2 r q) = ix4 ch o r q := by
  show (slotRect ch o).emb (Shape.reshapeEquiv _ (ix2 r q)) = _
  rw [reshape_4]; exact slotRect_idx ch o 0 0 r q

theorem prowV_emb (ch : Fin 3) (d : Dev nD) (r : Fin 96) (q : Fin 256) :
    (prowV ch d).view.emb (ix2 r q) = ix3 ch (rowOf d r) q := by
  show (prowRect ch d).emb (Shape.reshapeEquiv _ (ix2 r q)) = _
  rw [reshape_3]; exact prowRect_idx ch d 0 r q

theorem redV_emb (ch : Fin 3) (r : Fin 96) (q : Fin 256) :
    (redV ch).view.emb (ix2 r q) = ix3 ch r q := by
  show (redRect ch).emb (Shape.reshapeEquiv _ (ix2 r q)) = _
  rw [reshape_3]; exact redRect_idx ch 0 r q

theorem outV_emb (s : Dev nD) (ch : Fin 3) (r : Fin 96) (q : Fin 256) :
    (outV s ch).view.emb (ix2 r q) = ix2 (rowOf s r) (colOf ch q) := by
  funext a
  apply Fin.ext
  match a with
  | ⟨0, _⟩ => show 96 * s.val + 1 * r.val = 96 * s.val + r.val; omega
  | ⟨1, _⟩ => show 256 * ch.val + 1 * q.val = 256 * ch.val + q.val; omega

theorem pCan_at (c : Dev nD) (ch : Fin 3) (i : Fin 768) (q : Fin 256) : pCan m c (ix3 ch i q) = pval m c ch (ix2 i q) := rfl
theorem rsCan_at (c : Dev nD) (ch : Fin 3) (o : Fin 8) (r : Fin 96) (q : Fin 256) :
    rsCan m c (ix4 ch o r q) = pval m (peer c o) ch (ix2 (rowOf c r) q) := rfl
theorem redCan_at (c : Dev nD) (ch : Fin 3) (r : Fin 96) (q : Fin 256) : redCan m c (ix3 ch r q) = redv m c ch (ix2 r q) := rfl

-- entry (96 s + r, 256 ch + q) of the result is entry (r, q) of block (s, ch): quotient and remainder undo the offsets
theorem outCan_at (s : Dev nD) (ch : Fin 3) (r : Fin 96) (q : Fin 256) :
    outCan m (ix2 (rowOf s r) (colOf ch q)) = redv m s ch (ix2 r q) := by
  have e0 : (96 * s.val + r.val) / 96 = s.val := by omega
  have e1 : (256 * ch.val + q.val) / 256 = ch.val := by omega
  have e2 : (96 * s.val + r.val) % 96 = r.val := by omega
  have e3 : (256 * ch.val + q.val) % 256 = q.val := by omega
  show redv m ⟨(96 * s.val + r.val) / 96, _⟩ ⟨(256 * ch.val + q.val) / 256, _⟩ (ix2 ⟨(96 * s.val + r.val) % 96, _⟩ ⟨(256 * ch.val + q.val) % 256, _⟩) = _
  simp only [e0, e1, e2, e3, Fin.eta]

-- a write over a whole view leaves at every element of the view the value written there
theorem write_all {κ : Kind} {sp : Space} {s : Shape} {e : EltTy} (v : View sig κ sp s e) (f g : v.ty.Contents (Elt F)) (w : s.Idx → Elt F e)
    (h : ∀ y, _root_.cast (congrArg (Elt F) v.elt_eq.symm) (w y) = g (v.emb y)) :
    ∀ i ∈ v.set, v.write (Elt F) f w Finset.univ i = g i := by
  intro i hi
  obtain ⟨y, rfl⟩ := View.exists_emb_of_mem_set _ hi
  rw [View.write_emb_of_mem _ _ (Finset.mem_univ _)]; exact h y

theorem land_rs (c : Dev nD) (ch : Fin 3) (o : Fin 8)
    (fs : (prowV ch (peer c o)).view.ty.Contents (Elt F)) (fd : (slotV ch o).view.ty.Contents (Elt F))
    (hfs : ∀ i ∈ (prowV ch (peer c o)).view.set, fs i = pCan m c i) :
    ∀ i ∈ (slotV ch o).view.set,
      (slotV ch o).view.write (Elt F) fd ((prowV ch (peer c o)).view.read (Elt F) fs) Finset.univ i = rsCan m (peer c o) i := by
  refine write_all _ _ _ _ fun y => ?_
  obtain ⟨r, q, rfl⟩ : ∃ (r : Fin 96) (q : Fin 256), y = ix2 r q := ⟨y 0, y 1, eq_ix2 y⟩
  rw [View.read_apply, hfs _ (View.emb_mem_set _ _)]
  show pCan m c ((prowV ch (peer c o)).view.emb (ix2 r q)) = rsCan m (peer c o) ((slotV ch o).view.emb (ix2 r q))
  rw [prowV_emb, slotV_emb, pCan_at, rsCan_at, peer_peer]

theorem land_ag (c : Dev nD) (ch : Fin 3) (o : Fin 8)
    (fs : (redV ch).view.ty.Contents (Elt F)) (fd : (outV c ch).view.ty.Contents (Elt F))
    (hfs : ∀ i ∈ (redV ch).view.set, fs i = redCan m c i) :
    ∀ i ∈ (outV c ch).view.set,
      (outV c ch).view.write (Elt F) fd ((redV ch).view.read (Elt F) fs) Finset.univ i = outCan m i := by
  refine write_all _ _ _ _ fun y => ?_
  obtain ⟨r, q, rfl⟩ : ∃ (r : Fin 96) (q : Fin 256), y = ix2 r q := ⟨y 0, y 1, eq_ix2 y⟩
  rw [View.read_apply, hfs _ (View.emb_mem_set _ _)]
  show redCan m c ((redV ch).view.emb (ix2 r q)) = outCan m ((outV c ch).view.emb (ix2 r q))
  rw [redV_emb, outV_emb, redCan_at, outCan_at]

theorem shapeCast_ab_11ab_apply {α : Type} {a b : ℕ} (x : (⟨2, ![a, b]⟩ : Shape).Idx → α)
    (h : (⟨2, ![a, b]⟩ : Shape).ShapeCasts ⟨4, ![1, 1, a, b]⟩) (u0 u1 : Fin 1) (i : Fin a) (j : Fin b) :
    shapeCast ⟨4, ![1, 1, a, b]⟩ x h (ix4 u0 u1 i j) = x (ix2 i j) :=
  shapeCast_apply x h _ _ (by
    rw [Shape.rowMajor_val_four, Shape.rowMajor_val_two]
    show i.val * b + j.val = ((u0.val * 1 + u1.val) * a + i.val) * b + j.val
    rw [Fin.val_eq_zero u0, Fin.val_eq_zero u1]
    simp)

theorem store_p (c : Dev nD) (ch : Fin 3) (f : (pM.access (pRect ch)).ty.Contents (Elt F)) :
    ∀ i ∈ (pM.access (pRect ch)).set,
      (pM.access (pRect ch)).write (Elt F) f (k0_pay4 (pval m c ch)) Finset.univ i = pCan m c i := by
  refine write_all _ _ _ _ fun y => ?_
  obtain ⟨u, r, q, rfl⟩ : ∃ (u : Fin 1) (r : Fin 768) (q : Fin 256), y = ix3 u r q := ⟨y 0, y 1, y 2, eq_ix3 y⟩
  show k0_pay4 (pval m c ch) (ix3 u r q) = pCan m c ((pRect ch).toLoadRect.idx (ix3 u r q))
  rw [pRect_idx, pCan_at]
  unfold k0_pay4
  exact shapeCast_ab_1ab_apply _ _ u r q

theorem store_slot0 (c : Dev nD) (ch : Fin 3) (f : (rsM.access (slotRect ch 0)).ty.Contents (Elt F))
    (fp : pM.view.ty.Contents (Elt F)) (hfp : ∀ i ∈ (prowV ch c).view.set, fp i = pCan m c i) :
    ∀ i ∈ (rsM.access (slotRect ch 0)).set,
      (rsM.access (slotRect ch 0)).write (Elt F) f
        (k0_pay5 (pM.view.readAt (Elt F) (prowRect ch c).toLoadRect fp)) Finset.univ i = rsCan m c i := by
  refine write_all _ _ _ _ fun y => ?_
  obtain ⟨u0, u1, r, q, rfl⟩ : ∃ (u0 u1 : Fin 1) (r : Fin 96) (q : Fin 256), y = ix4 u0 u1 r q :=
    ⟨y 0, y 1, y 2, y 3, eq_ix4 y⟩
  show k0_pay5 (pM.view.readAt (Elt F) (prowRect ch c).toLoadRect fp) (ix4 u0 u1 r q)
    = rsCan m c ((slotRect ch 0).toLoadRect.idx (ix4 u0 u1 r q))
  rw [slotRect_idx, rsCan_at, peer_zero]
  unfold k0_pay5
  rw [shapeCast_ab_11ab_apply, shapeCast_1ab_ab_apply, View.readAt_apply]
  show fp ((prowRect ch c).toLoadRect.idx (ix3 (0 : Fin 1) r q)) = _
  rw [prowRect_idx, ← prowV_emb, hfp _ (View.emb_mem_set _ _), prowV_emb, pCan_at]

theorem load_slot (c : Dev nD) (ch : Fin 3) (o : Fin 8) (f : rsM.view.ty.Contents (Elt F))
    (hf : ∀ i ∈ (slotV ch o).view.set, f i = rsCan m c i) :
    rsM.view.readAt (Elt F) (slotRect ch o).toLoadRect f = slotRead m c ch o := by
  funext x
  obtain ⟨u0, u1, r, q, rfl⟩ : ∃ (u0 u1 : Fin 1) (r : Fin 96) (q : Fin 256), x = ix4 u0 u1 r q :=
    ⟨x 0, x 1, x 2, x 3, eq_ix4 x⟩
  unfold slotRead
  rw [View.readAt_apply, View.readAt_apply]
  show f ((slotRect ch o).toLoadRect.idx (ix4 u0 u1 r q)) = rsCan m c ((slotRect ch o).toLoadRect.idx (ix4 u0 u1 r q))
  rw [slotRect_idx, ← slotV_emb]
  exact hf _ (View.emb_mem_set _ _)

theorem store_red (c : Dev nD) (ch : Fin 3) (f : (redM.access (redRect ch)).ty.Contents (Elt F)) :
    ∀ i ∈ (redM.access (redRect ch)).set,
      (redM.access (redRect ch)).write (Elt F) f (k0_pay20 (redv m c ch)) Finset.univ i = redCan m c i := by
  refine write_all _ _ _ _ fun y => ?_
  obtain ⟨u, r, q, rfl⟩ : ∃ (u : Fin 1) (r : Fin 96) (q : Fin 256), y = ix3 u r q := ⟨y 0, y 1, y 2, eq_ix3 y⟩
  show k0_pay20 (redv m c ch) (ix3 u r q) = redCan m c ((redRect ch).toLoadRect.idx (ix3 u r q))
  rw [redRect_idx, redCan_at]
  unfold k0_pay20
  exact shapeCast_ab_1ab_apply _ _ u r q

theorem store_out (c : Dev nD) (ch : Fin 3) (f : (outM.access (outRect c ch)).ty.Contents (Elt F))
    (fr : redM.view.ty.Contents (Elt F)) (hfr : ∀ i ∈ (redV ch).view.set, fr i = redCan m c i) :
    ∀ i ∈ (outV c ch).view.set,
      (outM.access (outRect c ch)).write (Elt F) f
        (k0_pay21 (redM.view.readAt (Elt F) (redRect ch).toLoadRect fr)) Finset.univ i = outCan m i := by
  refine write_all (outM.access (outRect c ch)) _ _ _ fun y => ?_
  obtain ⟨r, q, rfl⟩ : ∃ (r : Fin 96) (q : Fin 256), y = ix2 r q := ⟨y 0, y 1, eq_ix2 y⟩
  show k0_pay21 (redM.view.readAt (Elt F) (redRect ch).toLoadRect fr) (ix2 r q) = outCan m ((outV c ch).view.emb (ix2 r q))
  rw [outV_emb, outCan_at]
  unfold k0_pay21
  rw [shapeCast_1ab_ab_apply, View.readAt_apply]
  show fr ((redRect ch).toLoadRect.idx (ix3 (0 : Fin 1) r q)) = _
  rw [redRect_idx, ← redV_emb, hfr _ (View.emb_mem_set _ _), redV_emb, redCan_at]

end Cert.KernelIdeal.Proto

end
-- ==== Proof.LocalSteps.lean ====
import proofs.«900790_g7700000000000791_dist_gated_mlp_tp_i_m768_h1536_d768_v7x_i8_bf16_1_alg».proof.Proof.Tiles
import proofs.«900790_g7700000000000791_dist_gated_mlp_tp_i_m768_h1536_d768_v7x_i8_bf16_1_alg».proof.Proof.Lands
import proofs.«900790_g7700000000000791_dist_gated_mlp_tp_i_m768_h1536_d768_v7x_i8_bf16_1_alg».proof.Proof.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

-- a load needs a share of any set of elements that contains those it reads
theorem step_load_at (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {S : Finset (Idx (M.view.loc (c : Thread nD τ)))} {f : Buf (Elt F) (M.view.loc (c : Thread nD τ))}
    (hS : M.view.setOn r.set ⊆ S) :
    iprop((M.view.loc (c : Thread nD τ) ↦[S]{q} f)
        ∗ ((M.view.loc (c : Thread nD τ) ↦[S]{q} f) -∗ wp frame (wpE (defs₀ (F := F)) 𝒱₀ (c : Thread nD τ) none) Set.univ (k (M.view.readAt (Elt F) r f)) Q))
      ⊢ wp frame (wpE (defs₀ (F := F)) 𝒱₀ (c : Thread nD τ) none) Set.univ (.op (.load M r h) k) Q :=
  BI.wand_elim (wp_load 𝒱₀ (c : Thread nD τ) none Set.univ (Γ := .empty) hS)

-- an unmasked store needs, in full, any set of elements that contains those it writes
theorem step_store_at (c : Dev nD) {cs : CoreSpace} {s : Shape} {e : EltTy} (M : Memref sig .tc cs s e) {α : Type} {r : Rect s}
    {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    {S : Finset (Idx ((M.access r).loc (c : Thread nD τ)))} {f : Buf (Elt F) ((M.access r).loc (c : Thread nD τ))}
    (hS : (M.access r).set ⊆ S) :
    iprop(((M.access r).loc (c : Thread nD τ) ↦[S]{fullShare} f)
        ∗ (((M.access r).loc (c : Thread nD τ) ↦[S]{fullShare} ((M.access r).write (Elt F) f w Finset.univ)) -∗ wp frame (wpE (defs₀ (F := F)) 𝒱₀ (c : Thread nD τ) none) Set.univ (k ⟨⟩) Q))
      ⊢ wp frame (wpE (defs₀ (F := F)) 𝒱₀ (c : Thread nD τ) none) Set.univ (.op (.store M r w Finset.univ hx hm) k) Q :=
  BI.wand_elim (wp_store 𝒱₀ (c : Thread nD τ) none Set.univ (Γ := .empty) (Mk := Finset.univ) hS)

theorem step_load_held (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {f : Buf (Elt F) (M.view.loc (c : Thread nD τ))} :
    iprop(pts c M q f ∗ (pts c M q f -∗ wp frame (wpE (defs₀ (F := F)) 𝒱₀ (c : Thread nD τ) none) Set.univ (k (M.view.readAt (Elt F) r f)) Q))
      ⊢ wp frame (wpE (defs₀ (F := F)) 𝒱₀ (c : Thread nD τ) none) Set.univ (.op (.load M r h) k) Q :=
  step_load_at c M (M.view.setOn_subset_set _)

-- mapping a finite set along the identity embedding gives the set back
theorem setOn_whole {κ : Kind} (b : Ref sig κ) (T : Finset b.ty.shape.Idx) : (View.whole b : View sig κ _ _ _).setOn T = T := by
  unfold View.setOn; rw [View.emb_whole]; exact Finset.map_refl

theorem hz2 : (![0, 0] : Fin 2 → Nat) = fun _ => 0 := funext fun a => by fin_cases a <;> rfl

abbrev R768x768 : Rect S768x768 := Rect.unit (s := S768x768) ![0, 0] S768x768.size inb_S768x768_S768x768_0_0
abbrev R768x1536 : Rect S768x1536 := Rect.unit (s := S768x1536) ![0, 0] S768x1536.size inb_S768x1536_S768x1536_0_0
abbrev R1536x768 : Rect S1536x768 := Rect.unit (s := S1536x768) ![0, 0] S1536x768.size inb_S1536x768_S1536x768_0_0
abbrev R96x256 : Rect S96x256 := Rect.unit (s := S96x256) ![0, 0] S96x256.size inb_S96x256_S96x256_0_0

theorem step_load_whole_act (c : Dev nD) {α : Type} {h : actM.view.LoadsAt R768x1536.toLoadRect}
    {k : (R768x1536.toLoadRect.shape.Idx → Elt F .bf16) → Prog (TpuEff nD τ sig (Elt F) Λ₀ .tc) α} {Q : α → sProp 𝕄} {q : PosShare TreeShare}
    {f : Buf (Elt F) (actM.view.loc (c : Thread nD τ))} :
    iprop(pts c actM q f ∗ (pts c actM q f -∗ wp frame (wpE (defs₀ (F := F)) 𝒱₀ (c : Thread nD τ) none) Set.univ (k f) Q))
      ⊢ wp frame (wpE (defs₀ (F := F)) 𝒱₀ (c : Thread nD τ) none) Set.univ (.op (.load actM R768x1536.toLoadRect h) k) Q := by
  have := step_load_held c actM (r := R768x1536.toLoadRect) (h := h) (k := k) (Q := Q) (q := q) (f := f)
  erw [Memref.readAt_unit_zero (Elt F) cc0_scratch2 hz2] at this; exact this

theorem step_store_whole_act (c : Dev nD) {α : Type} {w : R768x1536.shape.Idx → Elt F .bf16} {hx : (actM.access R768x1536).Stores Finset.univ}
    {hm : (Finset.univ : Finset R768x1536.shape.Idx) = Finset.univ ∨ ∀ a, R768x1536.stride a = 1}
    {k : PUnit → Prog (TpuEff nD τ sig (Elt F) Λ₀ .tc) α} {Q : α → sProp 𝕄} {f : Buf (Elt F) (actM.view.loc (c : Thread nD τ))} :
    iprop(pts c actM fullShare f ∗ (pts c actM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store actM R768x1536 w Finset.univ hx hm) k) Q := by
  have := step_store_at c actM (r := R768x1536) (w := w) (hx := hx) (hm := hm) (k := k) (Q := Q) (f := f) (View.set_slice_subset _ _)
  erw [Memref.write_access_unit_zero_univ (Elt F) cc0_scratch2 hz2] at this; exact this

theorem step_load_whole_wdb (c : Dev nD) {α : Type} {h : wdbM.view.LoadsAt R1536x768.toLoadRect}
    {k : (R1536x768.toLoadRect.shape.Idx → Elt F .bf16) → Prog (TpuEff nD τ sig (Elt F) Λ₀ .tc) α} {Q : α → sProp 𝕄} {q : PosShare TreeShare}
    {f : Buf (Elt F) (wdbM.view.loc (c : Thread nD τ))} :
    iprop(pts c wdbM q f ∗ (pts c wdbM q f -∗ wp frame (wpE (defs₀ (F := F)) 𝒱₀ (c : Thread nD τ) none) Set.univ (k f) Q))
      ⊢ wp frame (wpE (defs₀ (F := F)) 𝒱₀ (c : Thread nD τ) none) Set.univ (.op (.load wdbM R1536x768.toLoadRect h) k) Q := by
  have := step_load_held c wdbM (r := R1536x768.toLoadRect) (h := h) (k := k) (Q := Q) (q := q) (f := f)
  erw [Memref.readAt_unit_zero (Elt F) cc0_scratch3 hz2] at this; exact this

theorem step_store_whole_wdb (c : Dev nD) {α : Type} {w : R1536x768.shape.Idx → Elt F .bf16} {hx : (wdbM.access R1536x768).Stores Finset.univ}
    {hm : (Finset.univ : Finset R1536x768.shape.Idx) = Finset.univ ∨ ∀ a, R1536x768.stride a = 1}
    {k : PUnit → Prog (TpuEff nD τ sig (Elt F) Λ₀ .tc) α} {Q : α → sProp 𝕄} {f : Buf (Elt F) (wdbM.view.loc (c : Thread nD τ))} :
    iprop(pts c wdbM fullShare f ∗ (pts c wdbM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store wdbM R1536x768 w Finset.univ hx hm) k) Q := by
  have := step_store_at c wdbM (r := R1536x768) (w := w) (hx := hx) (hm := hm) (k := k) (Q := Q) (f := f) (View.set_slice_subset _ _)
  erw [Memref.write_access_unit_zero_univ (Elt F) cc0_scratch3 hz2] at this; exact this

theorem step_load_whole_acc (c : Dev nD) {α : Type} {h : accM.view.LoadsAt R96x256.toLoadRect}
    {k : (R96x256.toLoadRect.shape.Idx → Elt F .f32) → Prog (TpuEff nD τ sig (Elt F) Λ₀ .tc) α} {Q : α → sProp 𝕄} {q : PosShare TreeShare}
    {f : Buf (Elt F) (accM.view.loc (c : Thread nD τ))} :
    iprop(pts c accM q f ∗ (pts c accM q f -∗ wp frame (wpE (defs₀ (F := F)) 𝒱₀ (c : Thread nD τ) none) Set.univ (k f) Q))
      ⊢ wp frame (wpE (defs₀ (F := F)) 𝒱₀ (c : Thread nD τ) none) Set.univ (.op (.load accM R96x256.toLoadRect h) k) Q := by
  have := step_load_held c accM (r := R96x256.toLoadRect) (h := h) (k := k) (Q := Q) (q := q) (f := f)
  erw [Memref.readAt_unit_zero (Elt F) cc0_scratch5 hz2] at this; exact this

theorem step_store_whole_acc (c : Dev nD) {α : Type} {w : R96x256.shape.Idx → Elt F .f32} {hx : (accM.access R96x256).Stores Finset.univ}
    {hm : (Finset.univ : Finset R96x256.shape.Idx) = Finset.univ ∨ ∀ a, R96x256.stride a = 1}
    {k : PUnit → Prog (TpuEff nD τ sig (Elt F) Λ₀ .tc) α} {Q : α → sProp 𝕄} {f : Buf (Elt F) (accM.view.loc (c : Thread nD τ))} :
    iprop(pts c accM fullShare f ∗ (pts c accM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store accM R96x256 w Finset.univ hx hm) k) Q := by
  have := step_store_at c accM (r := R96x256) (w := w) (hx := hx) (hm := hm) (k := k) (Q := Q) (f := f) (View.set_slice_subset _ _)
  erw [Memref.write_access_unit_zero_univ (Elt F) cc0_scratch5 hz2] at this; exact this

theorem step_load_pchunk (c : Dev nD) (ch : Fin 3) {α : Type} {R : Rect S3x768x256} (hR : R = pRect ch) {h : pM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (pM.view.loc (c : Thread nD τ))} :
    iprop((pM.view.loc (c : Thread nD τ) ↦[(pM.access (pRect ch)).set]{q} f)
        ∗ ((pM.view.loc (c : Thread nD τ) ↦[(pM.access (pRect ch)).set]{q} f) -∗ wp frame (wpE (defs₀ (F := F)) 𝒱₀ (c : Thread nD τ) none) Set.univ (k (pM.view.readAt (Elt F) R.toLoadRect f)) Q))
      ⊢ wp frame (wpE (defs₀ (F := F)) 𝒱₀ (c : Thread nD τ) none) Set.univ (.op (.load pM R.toLoadRect h) k) Q := by
  subst hR; exact step_load_at c pM (pchunk_load_subset ch)

theorem step_store_pchunk (c : Dev nD) (ch : Fin 3) {α : Type} {R : Rect S3x768x256} (hR : R = pRect ch) {w : R.shape.Idx → Elt F .bf16}
    {hx : (pM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (pM.view.loc (c : Thread nD τ))} :
    iprop((pM.view.loc (c : Thread nD τ) ↦[(pM.access (pRect ch)).set]{fullShare} f)
        ∗ ((pM.view.loc (c : Thread nD τ) ↦[(pM.access (pRect ch)).set]{fullShare} ((pM.access R).write (Elt F) f w Finset.univ))
            -∗ wp frame (wpE (defs₀ (F := F)) 𝒱₀ (c : Thread nD τ) none) Set.univ (k ⟨⟩) Q))
      ⊢ wp frame (wpE (defs₀ (F := F)) 𝒱₀ (c : Thread nD τ) none) Set.univ (.op (.store pM R w Finset.univ hx hm) k) Q := by
  subst hR; exact step_store_at c pM (r := pRect ch) (Finset.Subset.refl _)

theorem step_load_slot (c : Dev nD) (ch : Fin 3) (o : Fin 8) {α : Type} {R : Rect S3x8x96x256} (hR : R = slotRect ch o) {h : rsM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (rsM.view.loc (c : Thread nD τ))} :
    iprop(pts c (slotV ch o) q f ∗ (pts c (slotV ch o) q f -∗ wp frame (wpE (defs₀ (F := F)) 𝒱₀ (c : Thread nD τ) none) Set.univ (k (rsM.view.readAt (Elt F) R.toLoadRect f)) Q))
      ⊢ wp frame (wpE (defs₀ (F := F)) 𝒱₀ (c : Thread nD τ) none) Set.univ (.op (.load rsM R.toLoadRect h) k) Q := by
  subst hR; unfold pts; rw [slotV_pts]
  exact step_load_at c rsM (setOn_whole cc0_scratch1 _).subset

theorem step_store_slot (c : Dev nD) (ch : Fin 3) (o : Fin 8) {α : Type} {R : Rect S3x8x96x256} (hR : R = slotRect ch o) {w : R.shape.Idx → Elt F .bf16}
    {hx : (rsM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (rsM.view.loc (c : Thread nD τ))} :
    iprop(pts c (slotV ch o) fullShare f
        ∗ (pts c (slotV ch o) fullShare ((rsM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store rsM R w Finset.univ hx hm) k) Q := by
  subst hR; unfold pts; rw [slotV_pts, slotV_pts]
  exact step_store_at c rsM (r := slotRect ch o) (View.set_slice_whole cc0_scratch1 _).subset

theorem step_load_red (c : Dev nD) (ch : Fin 3) {α : Type} {R : Rect S3x96x256} (hR : R = redRect ch) {h : redM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (redM.view.loc (c : Thread nD τ))} :
    iprop(pts c (redV ch) q f ∗ (pts c (redV ch) q f -∗ wp frame (wpE (defs₀ (F := F)) 𝒱₀ (c : Thread nD τ) none) Set.univ (k (redM.view.readAt (Elt F) R.toLoadRect f)) Q))
      ⊢ wp frame (wpE (defs₀ (F := F)) 𝒱₀ (c : Thread nD τ) none) Set.univ (.op (.load redM R.toLoadRect h) k) Q := by
  subst hR; unfold pts; rw [redV_pts]
  exact step_load_at c redM (setOn_whole cc0_scratch4 _).subset

theorem step_store_red (c : Dev nD) (ch : Fin 3) {α : Type} {R : Rect S3x96x256} (hR : R = redRect ch) {w : R.shape.Idx → Elt F .bf16}
    {hx : (redM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (redM.view.loc (c : Thread nD τ))} :
    iprop(pts c (redV ch) fullShare f
        ∗ (pts c (redV ch) fullShare ((redM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store redM R w Finset.univ hx hm) k) Q := by
  subst hR; unfold pts; rw [redV_pts, redV_pts]
  exact step_store_at c redM (r := redRect ch) (View.set_slice_whole cc0_scratch4 _).subset

theorem step_load_out (c : Dev nD) (s : Dev nD) (ch : Fin 3) {α : Type} {R : Rect S768x768} (hR : R = outRect s ch) {h : outM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (outM.view.loc (c : Thread nD τ))} :
    iprop(pts c (outV s ch) q f ∗ (pts c (outV s ch) q f -∗ wp frame (wpE (defs₀ (F := F)) 𝒱₀ (c : Thread nD τ) none) Set.univ (k (outM.view.readAt (Elt F) R.toLoadRect f)) Q))
      ⊢ wp frame (wpE (defs₀ (F := F)) 𝒱₀ (c : Thread nD τ) none) Set.univ (.op (.load outM R.toLoadRect h) k) Q := by
  subst hR; unfold pts; rw [outV_pts]
  exact step_load_at c outM (setOn_whole cc0_stg4_0 _).subset

theorem step_store_out (c : Dev nD) (s : Dev nD) (ch : Fin 3) {α : Type} {R : Rect S768x768} (hR : R = outRect s ch) {w : R.shape.Idx → Elt F .bf16}
    {hx : (outM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (outM.view.loc (c : Thread nD τ))} :
    iprop(pts c (outV s ch) fullShare f
        ∗ (pts c (outV s ch) fullShare ((outM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store outM R w Finset.univ hx hm) k) Q := by
  subst hR; unfold pts; rw [outV_pts, outV_pts]
  exact step_store_at c outM (r := outRect s ch) (View.set_slice_whole cc0_stg4_0 _).subset

theorem step_load_prow (c : Dev nD) (ch : Fin 3) (d : Dev nD) {α : Type} {R : Rect S3x768x256} (hR : R = prowRect ch d) {h : pM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (pM.view.loc (c : Thread nD τ))} :
    iprop(pts c (prowV ch d) q f ∗ (pts c (prowV ch d) q f -∗ wp frame (wpE (defs₀ (F := F)) 𝒱₀ (c : Thread nD τ) none) Set.univ (k (pM.view.readAt (Elt F) R.toLoadRect f)) Q))
      ⊢ wp frame (wpE (defs₀ (F := F)) 𝒱₀ (c : Thread nD τ) none) Set.univ (.op (.load pM R.toLoadRect h) k) Q := by
  subst hR; unfold pts; rw [prowV_pts]
  exact step_load_at c pM (setOn_whole cc0_scratch0 _).subset

end Cert.KernelIdeal.Proto

end
-- ==== Proof.PhaseCompute.lean ====
import proofs.«900790_g7700000000000791_dist_gated_mlp_tp_i_m768_h1536_d768_v7x_i8_bf16_1_alg».proof.Proof.Bufs
import proofs.«900790_g7700000000000791_dist_gated_mlp_tp_i_m768_h1536_d768_v7x_i8_bf16_1_alg».proof.Proof.LocalSteps

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ UU ℕ

variable (m : (ℓ : Loc nD τ sig) → Buf (Elt F) ℓ)

-- A load that returns the whole of a buffer held whole reads its contents `g`.
private theorem step_load_stg (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {f : Buf (Elt F) (M.view.loc (c : Thread nD τ))} {g : r.shape.Idx → Elt F e} (hf : M.view.readAt (Elt F) r f = g) :
    iprop((M.view.loc (c : Thread nD τ) ↦{q} f) ∗ ((M.view.loc (c : Thread nD τ) ↦{q} f) -∗ wp frame (wpE (defs₀ (F := F)) 𝒱₀ (c : Thread nD τ) none) Set.univ (k g) Q))
      ⊢ wp frame (wpE (defs₀ (F := F)) 𝒱₀ (c : Thread nD τ) none) Set.univ (.op (.load M r h) k) Q := by
  subst hf; exact step_load_at c M (Finset.subset_univ _)

-- `stg c b X` is the whole of `b` held in full at contents `X`.
private theorem stg_eq (c : Dev nD) (b : Ref sig .tc) (X : b.ty.Contents (Elt F)) :
    (stg c b X : sProp 𝕄) = (((c : Thread nD τ).loc b) ↦{fullShare} X) := by
  refine equiv_iff.mp ⟨?_, ?_⟩
  · show (_ : sProp 𝕄) ⊢ _; iintro ⟨%f, %hf, H⟩; subst hf; iexact H
  · show (_ : sProp 𝕄) ⊢ _; iintro H; iexists X; iframe H; ipureintro; rfl

theorem p_cut (c : Dev nD) (f : Buf (Elt F) (pM.view.loc (c : Thread nD τ))) :
    pts c pM fullShare f
      ⊢ bigSep Finset.univ fun ch : Fin 3 => iprop(∃ g, (pM.view.loc (c : Thread nD τ) ↦[(pM.access (pRect ch)).set]{fullShare} g) : sProp 𝕄) := by
  refine (p_tile (F := F) c f).1.trans ?_
  rw [bigSep_univ_prod]
  exact bigSep_mono fun ch _ => (p_chunk (F := F) c ch f).1.trans (exists_intro f)

theorem phase_compute (c : Dev nD) {α : Type} {Q : α → sProp 𝕄} (k : Prog (TpuEff nD τ sig (Elt F) Λ₀ .tc) α)
    {h1 : xM.view.LoadsAt R768x768.toLoadRect} {h2 : wgM.view.LoadsAt R768x1536.toLoadRect} {h3 : wuM.view.LoadsAt R768x1536.toLoadRect}
    {h4 : actM.view.LoadsAt R768x1536.toLoadRect} {hx5 : (actM.access R768x1536).Stores Finset.univ}
    {hm5 : (Finset.univ : Finset R768x1536.shape.Idx) = Finset.univ ∨ ∀ a, R768x1536.stride a = 1}
    {h6 : wdM.view.LoadsAt R1536x768.toLoadRect} {h7 : wdbM.view.LoadsAt R1536x768.toLoadRect}
    {hx8 : (wdbM.access R1536x768).Stores Finset.univ}
    {hm8 : (Finset.univ : Finset R1536x768.shape.Idx) = Finset.univ ∨ ∀ a, R1536x768.stride a = 1} :
    iprop(B1 m c ∗ (B3 m c 0 -∗ wp frame (wpE (defs₀ (F := F)) 𝒱₀ (c : Thread nD τ) none) Set.univ k Q))
      ⊢ wp frame (wpE (defs₀ (F := F)) 𝒱₀ (c : Thread nD τ) none) Set.univ
          (Prog.op (.load xM R768x768.toLoadRect h1) fun x =>
           Prog.op (.load wgM R768x1536.toLoadRect h2) fun g =>
           Prog.op (.load wuM R768x1536.toLoadRect h3) fun u =>
           Prog.op (.load actM R768x1536.toLoadRect h4) fun _ =>
           Prog.op (.store actM R768x1536 (k0_pay1 x g u) Finset.univ hx5 hm5) fun _ =>
           Prog.op (.load wdM R1536x768.toLoadRect h6) fun d =>
           Prog.op (.load wdbM R1536x768.toLoadRect h7) fun _ =>
           Prog.op (.store wdbM R1536x768 (k0_pay2 d) Finset.univ hx8 hm8) fun _ => k) Q := by
  unfold B1 B3 IN actv wdbv
  rw [stg_eq, stg_eq, stg_eq, stg_eq, (by decide : lo 0 = ∅), (by decide : hi 0 = Finset.univ), (by decide : coGE 0 = allCO), bigSep_empty, bigSep_empty]
  iintro ⟨⟨⟨Hx, Hg, Hu, Hd⟩, ⟨%fa, Hact⟩, ⟨%fw, Hwdb⟩, Hred, Hacc, ⟨%fp, Hp⟩, Hs0, Hout, HPS, HPO⟩, Hk⟩
  iapply (step_load_stg (F := F) c xM (Memref.readAt_unit_zero (Elt F) cc0_stg0_0 hz2 _ _)); iframe Hx
  iintro Hx
  iapply (step_load_stg (F := F) c wgM (Memref.readAt_unit_zero (Elt F) cc0_stg1_0 hz2 _ _)); iframe Hg
  iintro Hg
  iapply (step_load_stg (F := F) c wuM (Memref.readAt_unit_zero (Elt F) cc0_stg2_0 hz2 _ _)); iframe Hu
  iintro Hu
  iapply (step_load_whole_act (F := F) c); iframe Hact
  iintro Hact
  iapply (step_store_whole_act (F := F) c); iframe Hact
  iintro Hact
  iapply (step_load_stg (F := F) c wdM (Memref.readAt_unit_zero (Elt F) cc0_stg3_0 hz2 _ _)); iframe Hd
  iintro Hd
  iapply (step_load_whole_wdb (F := F) c); iframe Hwdb
  iintro Hwdb
  iapply (step_store_whole_wdb (F := F) c); iframe Hwdb
  iintro Hwdb
  iapply Hk
  ihave Hp := p_cut (F := F) c fp $$ Hp
  iframe
  isplitr <;> iempintro

end Cert.KernelIdeal.Proto

end
-- ==== Proof.Steps.lean ====
import proofs.«900790_g7700000000000791_dist_gated_mlp_tp_i_m768_h1536_d768_v7x_i8_bf16_1_alg».proof.Proof.Proto
import proofs.«900790_g7700000000000791_dist_gated_mlp_tp_i_m768_h1536_d768_v7x_i8_bf16_1_alg».proof.Proof.Lands

noncomputable section

namespace Cert.KernelIdeal.Proto

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem barPay_self (c : Dev nD) (o : Fin 8) :
    barPay (F := F) (peer c o) o
      = iprop((∃ f, pts c (slotV 0 o) fullShare f) ∗ (∃ f, pts c (slotV 1 o) fullShare f) ∗ (∃ f, pts c (slotV 2 o) fullShare f)
          ∗ (∃ f, pts c (outV (peer c o) 0) fullShare f) ∗ (∃ f, pts c (outV (peer c o) 1) fullShare f) ∗ (∃ f, pts c (outV (peer c o) 2) fullShare f)) := by
  unfold barPay; rw [peer_peer]

theorem step_signal (K : Dev nD × CIx → ℕ) (c n : Dev nD) (o : Fin 8) (ho : o ≠ 0) (hn : n = peer c o)
    {α : Type} {Q : α → sProp 𝕄} {k : PUnit → Prog (TpuEff nD τ sig (Elt F) Λ₀ .tc) α}
    (O : CellTallies nD τ sig Unit) (W : Waits sig Unit) :
    iprop(cellInv ER (Rd (F := F) m) (K (peer c o, none)) (barCell (peer c o))
        ∗ owes (c : Thread nD τ) (O + tallyAt (barCell (peer c o)) () 1) W
        ∗ dutyTok ER (barCell (peer c o)) 0 o ∗ barPay (F := F) (peer c o) o
        ∗ reached ER (barCell (peer c o)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  exact Rounds.wp_signal 𝒱₀ ER (Rd (F := F) m) (c : Thread nD τ) none (dst := (peer c o : Thread nD τ)) (κ := K (peer c o, none))
    (r := 0) (d := o) (by rw [duties_bar]; exact Finset.mem_erase.mpr ⟨ho, Finset.mem_univ _⟩)
    ((amount_bar m (peer c o) o).trans (by decide)) () O rfl (W := W)

theorem step_barwait (K : Dev nD × CIx → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, none)) (barCell c) ∗ cred (tallyAt (barCell c) () 7)
        ∗ owes (c : Thread nD τ) O W ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ bigSep (Finset.univ.erase (0 : Fin 8)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (7#32).toNat) k) Q) := by
  iintro H Hk
  iapply (Rounds.wp_wait_rest_token 𝒱₀ ER (Rd (F := F) m) (c : Thread nD τ) none (κ := K (c, none))
      (wpE_semWait_eq 𝒱₀ (c : Thread nD τ) none Set.univ) (Set.mem_univ _) () (O := O) (W := W) (R := 0) (m := 0) (T := ∅)
      (show 0 + (7#32).toNat = _ by rw [expect_bar]; decide)) $$ [H]
  · iexact H
  iintro ⟨HO, Hat, -, Hpay⟩
  ihave Hp := (Entails.of_eq (rest_bar m c)) $$ Hpay
  iapply Hk; iframe

theorem step_rs_send (K : Dev nD × CIx → ℕ) (c n : Dev nD) (ch : Fin 3) (o : Fin 8) (ho : o ≠ 0) (hn : n = peer c o)
    {SRC DST : Memref sig .tc .vmem S96x256 .bf16} {sS sR : DmaSem sig}
    (hS : SRC = prowV ch (peer c o)) (hD : DST = slotV ch o)
    (hsS : sS = semAt (karr 0) ch o) (hsR : sR = semAt (karr 1) ch o)
    {hsc : (DST : Memref sig (Dev.tc n : Thread nD τ).2.kind .vmem S96x256 .bf16).view.ref.isScScratch = false}
    {hsrc : SRC.view.WordExact} {hdst : DST.view.WordExact}
    {hsem : DmaTarget.Typed .vmem (.dma sR) (.remote (Dev.tc n : Thread nD τ) DST (.dma sS) hsc)}
    {α : Type} {Q : α → sProp 𝕄} {k : PUnit → Prog (TpuEff nD τ sig (Elt F) Λ₀ .tc) α}
    (fs : Buf (Elt F) ((prowV ch (peer c o)).view.loc (c : Thread nD τ)))
    (fd : Buf (Elt F) ((slotV ch o).view.loc (peer c o : Thread nD τ)))
    (hfs : ∀ i ∈ (prowV ch (peer c o)).view.set, fs i = pCan m c i)
    (O : CellTallies nD τ sig Unit) (W : Waits sig Unit) :
    iprop(cellInv ER (Rd (F := F) m) (K (c, some (0, ch, o))) (dcell c 0 ch o)
        ∗ cellInv ER (Rd (F := F) m) (K (peer c o, some (1, ch, o))) (dcell (peer c o) 1 ch o)
        ∗ pts c (prowV ch (peer c o)) fullShare fs ∗ pts (peer c o) (slotV ch o) fullShare fd
        ∗ owes (c : Thread nD τ) (O + tallyAt (dcell (peer c o) 1 ch o) () N) W
        ∗ dutyTok ER (dcell c 0 ch o) 0 0 ∗ reached ER (dcell c 0 ch o) 0
        ∗ dutyTok ER (dcell (peer c o) 1 ch o) 0 0 ∗ reached ER (dcell (peer c o) 1 ch o) 0)
      ⊢ iprop(((cred (tallyAt (dcell c 0 ch o) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma SRC (.remote (Dev.tc n : Thread nD τ) DST (.dma sS) hsc) (.dma sR) hsrc hdst hsem) k) Q) := by
  subst hn hS hD hsS hsR
  exact Rounds.wp_send_pointsTo 𝒱₀ ER (Rd (F := F) m) (c : Thread nD τ) none (c' := (peer c o : Thread nD τ))
    (src := prowV ch (peer c o)) (dst := slotV ch o)
    (by rw [duties_dma m c 0 ch o ho]; exact Finset.mem_singleton_self _)
    (by rw [duties_dma m (peer c o) 1 ch o ho]; exact Finset.mem_singleton_self _)
    () () N rfl (amount_dma m c 0 ch o 0) (amount_dma m (peer c o) 1 ch o 0) O rfl (W := W)
    (by rw [payload_dma]
        show _ ⊢ iprop(∃ f, pts c (prowV ch (peer c o)) fullShare f)
        iintro H; iexists fs; iexact H)
    (by rw [payload_dma]
        show _ ⊢ pts (peer c o) (slotV ch o) fullShare (rsCan m (peer c o))
        exact Entails.of_eq (pointsTo_congr (land_rs m c ch o fs fd hfs)))

theorem step_wait (K : Dev nD × CIx → ℕ) (c : Dev nD) (kk : Fin 4) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr kk) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, some (kk, ch, o))) (dcell c kk ch o) ∗ cred (tallyAt (dcell c kk ch o) () N)
        ∗ owes (c : Thread nD τ) O W ∗ MayWait (c : Thread nD τ) (dsem kk ch o) () O ∗ atPos ER (dcell c kk ch o) 0 ∅ 0)
      ⊢ iprop(((owes (c : Thread nD τ) O (insert (dsem kk ch o, ()) W) ∗ atPos ER (dcell c kk ch o) 1 ∅ 0 ∗ dmaPay m c kk ch o)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) := by
  subst hsem; rw [← hcr]
  iintro H Hk
  iapply (Rounds.wp_wait_rest_token 𝒱₀ ER (Rd (F := F) m) (c : Thread nD τ) none (κ := K (c, some (kk, ch, o)))
      (sm := dsem kk ch o) (k' := DSTV.view.dmaCredit)
      (wpE_waitDma2_eq 𝒱₀ (c : Thread nD τ) none Set.univ) (Set.mem_univ _) () (O := O) (W := W) (R := 0) (m := 0) (T := ∅)
      (show 0 + DSTV.view.dmaCredit = _ by rw [expect_dma m c kk ch o ho, hcr, Nat.zero_add])) $$ H
  iintro ⟨HO, Hat, -, Hpay⟩
  ihave Hp := (Entails.of_eq (rest_dma m c kk ch o ho)) $$ Hpay
  iapply Hk; iframe

theorem step_rs_wait (K : Dev nD × CIx → ℕ) (c : Dev nD) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr 1) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, some (1, ch, o))) (dcell c 1 ch o) ∗ cred (tallyAt (dcell c 1 ch o) () N)
        ∗ owes (c : Thread nD τ) O W ∗ MayWait (c : Thread nD τ) (dsem 1 ch o) () O ∗ atPos ER (dcell c 1 ch o) 0 ∅ 0)
      ⊢ iprop(((owes (c : Thread nD τ) O (insert (dsem 1 ch o, ()) W) ∗ atPos ER (dcell c 1 ch o) 1 ∅ 0
              ∗ pts c (slotV ch o) fullShare (rsCan m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) :=
  step_wait m K c 1 ch o ho hsem hcr O W

theorem step_ag_send (K : Dev nD × CIx → ℕ) (c n : Dev nD) (ch : Fin 3) (o : Fin 8) (ho : o ≠ 0) (hn : n = peer c o)
    {SRC DST : Memref sig .tc .vmem S96x256 .bf16} {sS sR : DmaSem sig}
    (hS : SRC = redV ch) (hD : DST = outV c ch)
    (hsS : sS = semAt (karr 2) ch o) (hsR : sR = semAt (karr 3) ch o)
    {hsc : (DST : Memref sig (Dev.tc n : Thread nD τ).2.kind .vmem S96x256 .bf16).view.ref.isScScratch = false}
    {hsrc : SRC.view.WordExact} {hdst : DST.view.WordExact}
    {hsem : DmaTarget.Typed .vmem (.dma sR) (.remote (Dev.tc n : Thread nD τ) DST (.dma sS) hsc)}
    {α : Type} {Q : α → sProp 𝕄} {k : PUnit → Prog (TpuEff nD τ sig (Elt F) Λ₀ .tc) α}
    (fs : Buf (Elt F) ((redV ch).view.loc (c : Thread nD τ)))
    (fd : Buf (Elt F) ((outV c ch).view.loc (peer c o : Thread nD τ)))
    (hfs : ∀ i ∈ (redV ch).view.set, fs i = redCan m c i)
    (O : CellTallies nD τ sig Unit) (W : Waits sig Unit) :
    iprop(cellInv ER (Rd (F := F) m) (K (c, some (2, ch, o))) (dcell c 2 ch o)
        ∗ cellInv ER (Rd (F := F) m) (K (peer c o, some (3, ch, o))) (dcell (peer c o) 3 ch o)
        ∗ pts c (redV ch) (redShare o) fs ∗ pts (peer c o) (outV c ch) fullShare fd
        ∗ owes (c : Thread nD τ) (O + tallyAt (dcell (peer c o) 3 ch o) () N) W
        ∗ dutyTok ER (dcell c 2 ch o) 0 0 ∗ reached ER (dcell c 2 ch o) 0
        ∗ dutyTok ER (dcell (peer c o) 3 ch o) 0 0 ∗ reached ER (dcell (peer c o) 3 ch o) 0)
      ⊢ iprop(((cred (tallyAt (dcell c 2 ch o) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma SRC (.remote (Dev.tc n : Thread nD τ) DST (.dma sS) hsc) (.dma sR) hsrc hdst hsem) k) Q) := by
  subst hn hS hD hsS hsR
  exact Rounds.wp_send_pointsTo 𝒱₀ ER (Rd (F := F) m) (c : Thread nD τ) none (c' := (peer c o : Thread nD τ))
    (src := redV ch) (dst := outV c ch)
    (by rw [duties_dma m c 2 ch o ho]; exact Finset.mem_singleton_self _)
    (by rw [duties_dma m (peer c o) 3 ch o ho]; exact Finset.mem_singleton_self _)
    () () N rfl (amount_dma m c 2 ch o 0) (amount_dma m (peer c o) 3 ch o 0) O rfl (W := W)
    (by rw [payload_dma]
        show _ ⊢ pts c (redV ch) (redShare o) (redCan m c)
        exact Entails.of_eq (pointsTo_congr hfs))
    (by rw [payload_dma]
        show _ ⊢ pts (peer c o) (outV (peer (peer c o) o) ch) fullShare (outCan m)
        rw [peer_peer]
        exact Entails.of_eq (pointsTo_congr (land_ag m c ch o fs fd hfs)))

theorem step_drain (K : Dev nD × CIx → ℕ) (c : Dev nD) (kk : Fin 4) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr kk) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (W : Waits sig Unit) :
    iprop(cellInv ER (Rd (F := F) m) (K (c, some (kk, ch, o))) (dcell c kk ch o) ∗ cred (tallyAt (dcell c kk ch o) () N)
        ∗ owes (c : Thread nD τ) 0 W ∗ atPos ER (dcell c kk ch o) 0 ∅ 0)
      ⊢ iprop(((owes (c : Thread nD τ) 0 (insert (dsem kk ch o, ()) W) ∗ atPos ER (dcell c kk ch o) 1 ∅ 0 ∗ dmaPay m c kk ch o)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) := by
  iintro ⟨Hg, Hc, HO, Hat⟩
  iapply (step_wait m K c kk ch o ho hsem hcr 0 W)
  rw [MayWait_zero]; iframe; iempintro

theorem dmaPay_0 (c : Dev nD) (ch : Fin 3) (o : Fin 8) : dmaPay m c 0 ch o = iprop(∃ f, pts c (prowV ch (peer c o)) fullShare f) := rfl
theorem dmaPay_2 (c : Dev nD) (ch : Fin 3) (o : Fin 8) : dmaPay m c 2 ch o = pts c (redV ch) (redShare o) (redCan m c) := rfl
theorem dmaPay_3 (c : Dev nD) (ch : Fin 3) (o : Fin 8) : dmaPay m c 3 ch o = pts c (outV (peer c o) ch) fullShare (outCan m) := rfl

end Cert.KernelIdeal.Proto

end
-- ==== Proof.Levels.lean ====
import proofs.«900790_g7700000000000791_dist_gated_mlp_tp_i_m768_h1536_d768_v7x_i8_bf16_1_alg».proof.Proof.Proto

noncomputable section

namespace Cert.KernelIdeal.Proto

open Idealize.ShloMosaic
open Idealize.ShloMosaic.TcCoe
open Idealize.SL.BI
open Idealize.SL.BI.BIBase

variable {F : FTy → Type}

local notation "𝕄" => MT nD τ sig Unit (Elt F) ℕ UU ℕ

theorem lv_dcell (c : Dev nD) (k : Fin 4) (ch : Fin 3) (o : Fin 8) (u : Unit) :
    lv (dcell c k ch o) u = if k = 1 then 2 else if k = 3 then 3 else 0 := by
  dsimp only [lv]; rw [decodeQ_semAt]

-- a wait at level `n` is allowed when every cell still owed lies above `n`: entry cells at 1, receive cells at 2 and 3
theorem mayWait_owed (c : Dev nD) (s : SemLoc sig) (S : Finset (Fin 8)) (R A : Finset CO) (n : ℕ)
    (hn : lv ((c : Thread nD τ), s) () = n) (hS : S = ∅ ∨ n < 1) (hR : R = ∅ ∨ n < 2) (hA : n < 3) :
    (levAts L lv : sProp 𝕄) ⊢ MayWait (c : Thread nD τ) s () (owedFrom c S R A) := by
  have hL (d : Dev nD) (sm : SemLoc sig) (u : Unit) : u ∈ L ((d : Thread nD τ), sm) := by
    rw [L_tc]; exact Finset.mem_singleton_self _
  have h1 (d : Dev nD) (ch : Fin 3) (o : Fin 8) (u : Unit) : lv (dcell d 1 ch o) u = 2 := (lv_dcell d 1 ch o u).trans (by decide)
  have h3 (d : Dev nD) (ch : Fin 3) (o : Fin 8) (u : Unit) : lv (dcell d 3 ch o) u = 3 := (lv_dcell d 3 ch o u).trans (by decide)
  refine Pipeline.mayWait_of_levAts (L := L) (lev := lv) (hL c s ()) fun g u hg => ?_
  rw [hn]; unfold owedFrom at hg
  rcases Pipeline.add_pos_cases hg with h | h
  · rcases Pipeline.add_pos_cases h with h | h
    · obtain ⟨o, ho, hp⟩ := Pipeline.sum_pos_exists h
      obtain ⟨rfl, _⟩ := Pipeline.tallyAt_pos hp
      exact ⟨hL _ _ _, hS.resolve_left (Finset.ne_empty_of_mem ho)⟩
    · obtain ⟨x, hx, hp⟩ := Pipeline.sum_pos_exists h
      obtain ⟨rfl, _⟩ := Pipeline.tallyAt_pos hp
      exact ⟨hL _ _ _, by rw [h1]; exact hR.resolve_left (Finset.ne_empty_of_mem hx)⟩
  · obtain ⟨x, _, hp⟩ := Pipeline.sum_pos_exists h
    obtain ⟨rfl, _⟩ := Pipeline.tallyAt_pos hp
    exact ⟨hL _ _ _, by rw [h3]; exact hA⟩

theorem mayWait_stage (c : Dev nD) (q : DmaSem sig) (hq : q.val < 5) (S : Finset (Fin 8)) (R A : Finset CO) :
    (levAts L lv : sProp 𝕄) ⊢ MayWait (c : Thread nD τ) (.dma q) () (owedFrom c S R A) :=
  mayWait_owed c _ S R A 0 (by dsimp only [lv]; unfold decodeQ; rw [dif_neg (by omega)]) (.inr Nat.one_pos) (.inr Nat.two_pos) (by decide)

theorem mayWait_bar (c : Dev nD) (R A : Finset CO) :
    (levAts L lv : sProp 𝕄) ⊢ MayWait (c : Thread nD τ) (.reg barS) () (owedFrom c ∅ R A) :=
  mayWait_owed c _ ∅ R A 1 rfl (.inl rfl) (.inr Nat.one_lt_two) (by decide)

theorem mayWait_rsR (c : Dev nD) (ch : Fin 3) (o : Fin 8) (A : Finset CO) :
    (levAts L lv : sProp 𝕄) ⊢ MayWait (c : Thread nD τ) (dsem 1 ch o) () (owedFrom c ∅ ∅ A) :=
  mayWait_owed c _ ∅ ∅ A 2 ((lv_dcell c 1 ch o ()).trans (by decide)) (.inl rfl) (.inl rfl) (by decide)

end Cert.KernelIdeal.Proto

end
-- ==== Proof.PhaseEntry.lean ====
import proofs.«900790_g7700000000000791_dist_gated_mlp_tp_i_m768_h1536_d768_v7x_i8_bf16_1_alg».proof.Proof.Bufs
import proofs.«900790_g7700000000000791_dist_gated_mlp_tp_i_m768_h1536_d768_v7x_i8_bf16_1_alg».proof.Proof.Steps
import proofs.«900790_g7700000000000791_dist_gated_mlp_tp_i_m768_h1536_d768_v7x_i8_bf16_1_alg».proof.Proof.Levels

noncomputable section

namespace Cert.KernelIdeal.Proto

open Idealize.ShloMosaic
open Idealize.ShloMosaic.TcCoe
open Idealize.SL Idealize.SL.BI
open scoped Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem pe_inv (K : Dev nD × CIx → ℕ) (ci : Dev nD × CIx) :
    records m K ⊢ (cellInv ER (Rd (F := F) m) (K ci) (kcell ci) : sProp 𝕄) := by
  unfold records; exact sep_elim_left.trans (bigSep_elim (Finset.mem_univ ci))

theorem pe_reached (K : Dev nD × CIx → ℕ) (ci : Dev nD × CIx) :
    records m K ⊢ (reached ER (kcell ci) 0 : sProp 𝕄) := by
  unfold records; exact sep_elim_right.trans (bigSep_elim (Finset.mem_univ ci))

theorem bsep (P Q : sProp 𝕄) : iprop(P ∗ Q) = BI.sep P Q := rfl

theorem peers_list : (Finset.univ.erase (0 : Fin 8)) = ([1, 2, 3, 4, 5, 6, 7] : List (Fin 8)).toFinset := by decide

theorem bigSep_peers (Φ : Fin 8 → sProp 𝕄) :
    bigSep (Finset.univ.erase (0 : Fin 8)) Φ = iprop(Φ 1 ∗ Φ 2 ∗ Φ 3 ∗ Φ 4 ∗ Φ 5 ∗ Φ 6 ∗ Φ 7) := by
  rw [bigSep_eq_bigSepL_of_eq _ peers_list (by decide)]; rfl

theorem allCO_list : allCO = ([(0, 1), (1, 1), (2, 1), (0, 2), (1, 2), (2, 2), (0, 3), (1, 3), (2, 3), (0, 4), (1, 4), (2, 4),
    (0, 5), (1, 5), (2, 5), (0, 6), (1, 6), (2, 6), (0, 7), (1, 7), (2, 7)] : List CO).toFinset := by decide

theorem bigSep_allCO_peers (Φ : CO → sProp 𝕄) :
    bigSep allCO Φ = bigSep (Finset.univ.erase (0 : Fin 8)) fun o => iprop(Φ (0, o) ∗ Φ (1, o) ∗ Φ (2, o)) := by
  rw [bigSep_eq_bigSepL_of_eq _ allCO_list (by decide), bigSep_peers]
  simp only [bigSepL_cons_cons, bigSepL_singleton, bsep]
  ac_rfl

theorem barPays_regroup (c : Dev nD) :
    bigSep (Finset.univ.erase (0 : Fin 8)) (fun o => barPay (F := F) c o) = iprop(PeerSlots c allCO ∗ PeerOut c allCO) := by
  unfold PeerSlots PeerOut
  rw [bigSep_allCO_peers, bigSep_allCO_peers, bsep, ← bigSep_sep]
  refine bigSep_congr fun o _ => ?_
  unfold barPay
  simp only [bsep]
  ac_rfl

/-- One entry signal to the peer across `o`: its unit leaves the debt. -/
theorem signal_rec (K : Dev nD × CIx → ℕ) (c : Dev nD) (o : Fin 8) (ho : o ≠ 0) {S S' : Finset (Fin 8)} (hS : o ∈ S)
    (hS' : S.erase o = S') (R A : Finset CO)
    {α : Type} {Q : α → sProp 𝕄} {k : PUnit → Prog (TpuEff nD τ sig (Elt F) Λ₀ .tc) α} (W : Waits sig Unit) :
    iprop(records m K ∗ owes (c : Thread nD τ) (owedFrom c S R A) W
        ∗ dutyTok ER (barCell (peer c o)) 0 o ∗ barPay (F := F) (peer c o) o)
      ⊢ iprop((owes (c : Thread nD τ) (owedFrom c S' R A) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc (peer c o) : Thread nD τ) barS (1#32).toNat) k) Q) := by
  subst hS'
  rw [owed_peel_bar c R A hS]
  iintro ⟨#Hrec, HO, Ht, Hp⟩
  iapply (step_signal m K c _ o ho rfl _ W)
  iframe HO Ht Hp
  isplitr
  · iapply (pe_inv m K (peer c o, none)); iexact Hrec
  · iapply (pe_reached m K (peer c o, none)); iexact Hrec

theorem phase_entry (K : Dev nD × CIx → ℕ) (c : Dev nD) (n1 n2 n3 n4 n5 n6 n7 : Dev nD)
    (h1 : n1 = peer c 1) (h2 : n2 = peer c 2) (h3 : n3 = peer c 3) (h4 : n4 = peer c 4)
    (h5 : n5 = peer c 5) (h6 : n6 = peer c 6) (h7 : n7 = peer c 7)
    {α : Type} {Q : α → sProp 𝕄} (k : Prog (TpuEff nD τ sig (Elt F) Λ₀ .tc) α) :
    iprop(records m K ∗ levAts L lv ∗ GP₀ c
        ∗ (bigSep (Finset.univ.erase (0 : Fin 8)) fun o => barPay (F := F) (peer c o) o)
        ∗ ((GP c ∅ true allCO allCO allCO allCO allCO allCO ∗ PeerSlots c allCO ∗ PeerOut c allCO)
            -∗ wp frame (wpE (defs₀ (F := F)) 𝒱₀ (c : Thread nD τ) none) Set.univ k Q))
      ⊢ wp frame (wpE (defs₀ (F := F)) 𝒱₀ (c : Thread nD τ) none) Set.univ
          (.op (.semSignal (Dev.tc n1 : Thread nD τ) barS (1#32).toNat) fun _ =>
           .op (.semSignal (Dev.tc n2 : Thread nD τ) barS (1#32).toNat) fun _ =>
           .op (.semSignal (Dev.tc n3 : Thread nD τ) barS (1#32).toNat) fun _ =>
           .op (.semSignal (Dev.tc n4 : Thread nD τ) barS (1#32).toNat) fun _ =>
           .op (.semSignal (Dev.tc n5 : Thread nD τ) barS (1#32).toNat) fun _ =>
           .op (.semSignal (Dev.tc n6 : Thread nD τ) barS (1#32).toNat) fun _ =>
           .op (.semSignal (Dev.tc n7 : Thread nD τ) barS (1#32).toNat) fun _ =>
           .op (.semWait barS (7#32).toNat) fun _ => k) Q := by
  subst h1 h2 h3 h4 h5 h6 h7
  unfold GP₀ GP Tb barPart
  rw [bigSep_peers, bigSep_peers]
  simp only [Bool.false_eq_true, ↓reduceIte]
  iintro ⟨#Hrec, #Hlev, ⟨⟨Ht1, Ht2, Ht3, Ht4, Ht5, Ht6, Ht7⟩, HTr, HTa, ⟨%W, HO⟩, ⟨Hat, Hc⟩, Hr1, Hr3, Hr0, Hr2, HZ⟩,
    ⟨Hp1, Hp2, Hp3, Hp4, Hp5, Hp6, Hp7⟩, Hk⟩
  iapply (signal_rec m K c 1 (by decide) (by decide) rfl allCO allCO W) $$ [$Hrec $HO $Ht1 $Hp1]
  iintro HO
  iapply (signal_rec m K c 2 (by decide) (by decide) rfl allCO allCO W) $$ [$Hrec $HO $Ht2 $Hp2]
  iintro HO
  iapply (signal_rec m K c 3 (by decide) (by decide) rfl allCO allCO W) $$ [$Hrec $HO $Ht3 $Hp3]
  iintro HO
  iapply (signal_rec m K c 4 (by decide) (by decide) rfl allCO allCO W) $$ [$Hrec $HO $Ht4 $Hp4]
  iintro HO
  iapply (signal_rec m K c 5 (by decide) (by decide) rfl allCO allCO W) $$ [$Hrec $HO $Ht5 $Hp5]
  iintro HO
  iapply (signal_rec m K c 6 (by decide) (by decide) rfl allCO allCO W) $$ [$Hrec $HO $Ht6 $Hp6]
  iintro HO
  iapply (signal_rec m K c 7 (by decide) (by decide) (by decide) allCO allCO W (S' := ∅)) $$ [$Hrec $HO $Ht7 $Hp7]
  iintro HO
  iapply (step_barwait m K c (owedFrom c ∅ allCO allCO) W) $$ [$HO $Hat $Hc]
  · isplitr; · iapply (pe_inv m K (c, none)); iexact Hrec
    iapply (mayWait_bar c allCO allCO); iexact Hlev
  iintro ⟨HO, Hat, Hpays⟩
  ihave Hps := (Entails.of_eq (barPays_regroup c)) $$ Hpays
  iapply Hk
  iframe Hps HTr HTa Hat Hr1 Hr3 Hr0 Hr2 HZ
  isplitr; · rw [bigSep_empty]; iempintro
  iexists _; iexact HO

end Cert.KernelIdeal.Proto

end
-- ==== Proof.Chunks.lean ====
import proofs.«900790_g7700000000000791_dist_gated_mlp_tp_i_m768_h1536_d768_v7x_i8_bf16_1_alg».proof.Proof.Bufs

noncomputable section

namespace Cert.KernelIdeal.Proto

open Idealize.ShloMosaic
open Idealize.SL Idealize.SL.BI
open scoped Idealize.SL.BI
open Idealize.SL.BI.BIBase

variable {F : FTy → Type} [FloatOps F]

local notation "𝕄" => MT nD τ sig Unit (Elt F) ℕ UU ℕ

theorem coGE_split (ch : Fin 3) : coGE ch.val = coGE (ch.val + 1) ∪ chunkCO ch := by revert ch; decide
theorem coGE_disj (ch : Fin 3) : Disjoint (coGE (ch.val + 1)) (chunkCO ch) := by revert ch; decide

theorem compl_split (ch : Fin 3) : allCO \ coGE (ch.val + 1) = (allCO \ coGE ch.val) ∪ chunkCO ch := by revert ch; decide
theorem compl_disj (ch : Fin 3) : Disjoint (allCO \ coGE ch.val) (chunkCO ch) := by revert ch; decide
theorem coGE_zero : coGE 0 = allCO := by decide
theorem coGE_three : coGE 3 = ∅ := by decide

theorem chunkCO_issue (ch : Fin 3) :
    chunkCO ch = ([(ch, 7), (ch, 3), (ch, 5), (ch, 6), (ch, 1), (ch, 2), (ch, 4)] : List CO).toFinset := by revert ch; decide
theorem nodup_issue (ch : Fin 3) : ([(ch, 7), (ch, 3), (ch, 5), (ch, 6), (ch, 1), (ch, 2), (ch, 4)] : List CO).Nodup := by revert ch; decide

theorem chunkCO_sum (ch : Fin 3) :
    chunkCO ch = ([(ch, 1), (ch, 2), (ch, 4), (ch, 3), (ch, 5), (ch, 6), (ch, 7)] : List CO).toFinset := by revert ch; decide
theorem nodup_sum (ch : Fin 3) : ([(ch, 1), (ch, 2), (ch, 4), (ch, 3), (ch, 5), (ch, 6), (ch, 7)] : List CO).Nodup := by revert ch; decide

theorem bigSep_coGE (ch : Fin 3) (Φ : CO → sProp 𝕄) :
    bigSep (coGE ch.val) Φ = iprop(bigSep (coGE (ch.val + 1)) Φ ∗ bigSep (chunkCO ch) Φ) := by
  rw [coGE_split ch, bigSep_union (coGE_disj ch)]; rfl

theorem bigSep_compl (ch : Fin 3) (Φ : CO → sProp 𝕄) :
    bigSep (allCO \ coGE (ch.val + 1)) Φ = iprop(bigSep (allCO \ coGE ch.val) Φ ∗ bigSep (chunkCO ch) Φ) := by
  rw [compl_split ch, bigSep_union (compl_disj ch)]; rfl

theorem bigSep_chunk_issue (ch : Fin 3) (Φ : CO → sProp 𝕄) :
    bigSep (chunkCO ch) Φ = iprop(Φ (ch, 7) ∗ Φ (ch, 3) ∗ Φ (ch, 5) ∗ Φ (ch, 6) ∗ Φ (ch, 1) ∗ Φ (ch, 2) ∗ Φ (ch, 4)) := by
  rw [bigSep_eq_bigSepL_of_eq _ (chunkCO_issue ch) (nodup_issue ch)]; rfl

theorem bigSep_chunk_sum (ch : Fin 3) (Φ : CO → sProp 𝕄) :
    bigSep (chunkCO ch) Φ = iprop(Φ (ch, 1) ∗ Φ (ch, 2) ∗ Φ (ch, 4) ∗ Φ (ch, 3) ∗ Φ (ch, 5) ∗ Φ (ch, 6) ∗ Φ (ch, 7)) := by
  rw [bigSep_eq_bigSepL_of_eq _ (chunkCO_sum ch) (nodup_sum ch)]; rfl

theorem lo_succ (ch : Fin 3) : lo (ch.val + 1) = insert ch (lo ch.val) := by revert ch; decide
theorem not_mem_lo (ch : Fin 3) : ch ∉ lo ch.val := by revert ch; decide
theorem hi_eq (ch : Fin 3) : hi ch.val = insert ch (hi (ch.val + 1)) := by revert ch; decide
theorem not_mem_hi_succ (ch : Fin 3) : ch ∉ hi (ch.val + 1) := by revert ch; decide

theorem bigSep_lo_succ (ch : Fin 3) (Φ : Fin 3 → sProp 𝕄) :
    bigSep (lo (ch.val + 1)) Φ = iprop(bigSep (lo ch.val) Φ ∗ Φ ch) := by
  rw [lo_succ ch, bigSep_insert (not_mem_lo ch)]
  exact Std.Commutative.comm (op := (BI.sep : sProp 𝕄 → _ → _)) _ _

theorem bigSep_hi (ch : Fin 3) (Φ : Fin 3 → sProp 𝕄) :
    bigSep (hi ch.val) Φ = iprop(Φ ch ∗ bigSep (hi (ch.val + 1)) Φ) := by
  rw [hi_eq ch, bigSep_insert (not_mem_hi_succ ch)]; rfl

theorem coGE_erase (ch : Fin 3) :
    (((((((coGE ch.val).erase (ch, 7)).erase (ch, 3)).erase (ch, 5)).erase (ch, 6)).erase (ch, 1)).erase (ch, 2)).erase (ch, 4) = coGE (ch.val + 1) := by
  revert ch; decide

theorem owed_chunk_rs (c : Dev nD) (ch : Fin 3) (A : Finset CO) :
    owedFrom c ∅ (coGE ch.val) A
      = owedFrom c ∅ (coGE (ch.val + 1)) A + tallyAt (dcell (peer c 4) 1 ch 4) () N + tallyAt (dcell (peer c 2) 1 ch 2) () N
          + tallyAt (dcell (peer c 1) 1 ch 1) () N + tallyAt (dcell (peer c 6) 1 ch 6) () N + tallyAt (dcell (peer c 5) 1 ch 5) () N
          + tallyAt (dcell (peer c 3) 1 ch 3) () N + tallyAt (dcell (peer c 7) 1 ch 7) () N := by
  rw [owed_peel_rs c ∅ A (x := (ch, 7)), owed_peel_rs c ∅ A (x := (ch, 3)), owed_peel_rs c ∅ A (x := (ch, 5)),
    owed_peel_rs c ∅ A (x := (ch, 6)), owed_peel_rs c ∅ A (x := (ch, 1)), owed_peel_rs c ∅ A (x := (ch, 2)),
    owed_peel_rs c ∅ A (x := (ch, 4)), coGE_erase ch]
  all_goals revert ch; decide

theorem owed_chunk_ag (c : Dev nD) (ch : Fin 3) (R : Finset CO) :
    owedFrom c ∅ R (coGE ch.val)
      = owedFrom c ∅ R (coGE (ch.val + 1)) + tallyAt (dcell (peer c 4) 3 ch 4) () N + tallyAt (dcell (peer c 2) 3 ch 2) () N
          + tallyAt (dcell (peer c 1) 3 ch 1) () N + tallyAt (dcell (peer c 6) 3 ch 6) () N + tallyAt (dcell (peer c 5) 3 ch 5) () N
          + tallyAt (dcell (peer c 3) 3 ch 3) () N + tallyAt (dcell (peer c 7) 3 ch 7) () N := by
  rw [owed_peel_ag c ∅ R (x := (ch, 7)), owed_peel_ag c ∅ R (x := (ch, 3)), owed_peel_ag c ∅ R (x := (ch, 5)),
    owed_peel_ag c ∅ R (x := (ch, 6)), owed_peel_ag c ∅ R (x := (ch, 1)), owed_peel_ag c ∅ R (x := (ch, 2)),
    owed_peel_ag c ∅ R (x := (ch, 4)), coGE_erase ch]
  all_goals revert ch; decide

end Cert.KernelIdeal.Proto

end
-- ==== Proof.PhaseScatter.lean ====
import proofs.«900790_g7700000000000791_dist_gated_mlp_tp_i_m768_h1536_d768_v7x_i8_bf16_1_alg».proof.Proof.LocalSteps
import proofs.«900790_g7700000000000791_dist_gated_mlp_tp_i_m768_h1536_d768_v7x_i8_bf16_1_alg».proof.Proof.PhaseEntry
import proofs.«900790_g7700000000000791_dist_gated_mlp_tp_i_m768_h1536_d768_v7x_i8_bf16_1_alg».proof.Proof.Chunks

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev srcV (off : Fin 3 → ℕ) (inb : ∀ a, off a + S1x96x256.size a ≤ S3x768x256.size a) : Memref sig .tc .vmem S96x256 .bf16 :=
  (pM.slice (Rect.unit (s := S3x768x256) off S1x96x256.size inb) (fun _ => rfl)).squeeze S96x256 squeezes_S1x96x256_S96x256

abbrev sendOp (n : Dev nD) (ch : Fin 3) (o : Fin 8) (off : Fin 3 → ℕ) (inb : ∀ a, off a + S1x96x256.size a ≤ S3x768x256.size a)
    (hsc : (slotV ch o : Memref sig (Dev.tc n : Thread nD τ).2.kind .vmem S96x256 .bf16).view.ref.isScScratch = false)
    (hsrc : (srcV off inb).view.WordExact) (hdst : (slotV ch o).view.WordExact)
    (hsem : DmaTarget.Typed .vmem (.dma (semAt cc0_scratch7 ch o)) (.remote (Dev.tc n : Thread nD τ) (slotV ch o) (.dma (semAt cc0_scratch6 ch o)) hsc : DmaTarget nD τ sig .tc .vmem S96x256 .bf16)) :
    TpuEff nD τ sig (Elt F) Λ₀ .tc PUnit :=
  .enqueueDma (srcV off inb) (.remote (Dev.tc n : Thread nD τ) (slotV ch o) (.dma (semAt cc0_scratch6 ch o)) hsc) (.dma (semAt cc0_scratch7 ch o)) hsrc hdst hsem

theorem bigSep_devs (c : Dev nD) (Ψ : Dev nD → sProp 𝕄) :
    bigSep Finset.univ Ψ = iprop(Ψ c ∗ Ψ (peer c 7) ∗ Ψ (peer c 3) ∗ Ψ (peer c 5) ∗ Ψ (peer c 6) ∗ Ψ (peer c 1) ∗ Ψ (peer c 2) ∗ Ψ (peer c 4)) := by
  rw [bigSep_eq_bigSepL_of_eq [c, peer c 7, peer c 3, peer c 5, peer c 6, peer c 1, peer c 2, peer c 4] (by revert c; decide) (by revert c; decide)]; rfl

-- One transfer of the scatter: the records supply both cells' invariants and reached rounds.
private theorem scatter_send (K : Dev nD × CIx → ℕ) (c : Dev nD) (ch : Fin 3) (o : Fin 8) (ho : o ≠ 0)
    {hsc : (slotV ch o : Memref sig (Dev.tc (peer c o) : Thread nD τ).2.kind .vmem S96x256 .bf16).view.ref.isScScratch = false}
    {hsrc : (srcV ![ch.val, 96 * (peer c o).val, 0] (prow_inb ch (peer c o))).view.WordExact} {hdst : (slotV ch o).view.WordExact}
    {hsem : DmaTarget.Typed .vmem (.dma (semAt cc0_scratch7 ch o)) (.remote (Dev.tc (peer c o) : Thread nD τ) (slotV ch o) (.dma (semAt cc0_scratch6 ch o)) hsc : DmaTarget nD τ sig .tc .vmem S96x256 .bf16)}
    {α : Type} {Q : α → sProp 𝕄} {k : PUnit → Prog (TpuEff nD τ sig (Elt F) Λ₀ .tc) α}
    {O : CellTallies nD τ sig Unit} {W : Waits sig Unit} :
    iprop(records m K ∗ pts c (prowV ch (peer c o)) fullShare (pCan m c) ∗ (∃ f, pts (peer c o) (slotV ch o) fullShare f)
        ∗ (dutyTok ER (dcell c 0 ch o) 0 0 ∗ dutyTok ER (dcell (peer c o) 1 ch o) 0 0)
        ∗ owes (c : Thread nD τ) (O + tallyAt (dcell (peer c o) 1 ch o) () N) W)
      ⊢ iprop(((cred (tallyAt (dcell c 0 ch o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (sendOp (peer c o) ch o ![ch.val, 96 * (peer c o).val, 0] (prow_inb ch (peer c o)) hsc hsrc hdst hsem) k) Q) := by
  iintro ⟨#Hrec, Hr, ⟨%fd, Hd⟩, ⟨Hta, Htb⟩, HO⟩
  iapply (step_rs_send (F := F) m K c (peer c o) ch o ho rfl rfl rfl rfl rfl (pCan m c) fd (fun _ _ => rfl) O W)
  iframe Hr Hd HO Hta Htb
  isplitr; · iapply (pe_inv m K (c, some (0, ch, o))); iexact Hrec
  isplitr; · iapply (pe_inv m K (peer c o, some (1, ch, o))); iexact Hrec
  isplitr; · iapply (pe_reached m K (c, some (0, ch, o))); iexact Hrec
  iapply (pe_reached m K (peer c o, some (1, ch, o))); iexact Hrec

theorem tx_step (c : Dev nD) (ch : Fin 3) :
    (Tx c 0 1 (coGE ch.val) : sProp 𝕄) = iprop(Tx c 0 1 (coGE (ch.val + 1)) ∗ Tx c 0 1 (chunkCO ch)) := by
  unfold Tx; exact bigSep_coGE ch _
theorem ps_step (c : Dev nD) (ch : Fin 3) :
    (PeerSlots c (coGE ch.val) : sProp 𝕄) = iprop(PeerSlots c (coGE (ch.val + 1)) ∗ PeerSlots c (chunkCO ch)) := by
  unfold PeerSlots; exact bigSep_coGE ch _
theorem cr_step (c : Dev nD) (ch : Fin 3) :
    (Cr c 0 (allCO \ coGE (ch.val + 1)) : sProp 𝕄) = iprop(Cr c 0 (allCO \ coGE ch.val) ∗ Cr c 0 (chunkCO ch)) := by
  unfold Cr; exact bigSep_compl ch _

theorem phase_scatter (K : Dev nD × CIx → ℕ) (c : Dev nD) (ch : Fin 3)
    {n7 n3 n5 n6 n1 n2 n4 : Dev nD}
    (hn7 : n7 = peer c 7)
    (hn3 : n3 = peer c 3)
    (hn5 : n5 = peer c 5)
    (hn6 : n6 = peer c 6)
    (hn1 : n1 = peer c 1)
    (hn2 : n2 = peer c 2)
    (hn4 : n4 = peer c 4)
    {off0 off7 off3 off5 off6 off1 off2 off4 : Fin 3 → ℕ}
    (ho0 : off0 = ![ch.val, 96 * c.val, 0])
    (ho7 : off7 = ![ch.val, 96 * (peer c 7).val, 0])
    (ho3 : off3 = ![ch.val, 96 * (peer c 3).val, 0])
    (ho5 : off5 = ![ch.val, 96 * (peer c 5).val, 0])
    (ho6 : off6 = ![ch.val, 96 * (peer c 6).val, 0])
    (ho1 : off1 = ![ch.val, 96 * (peer c 1).val, 0])
    (ho2 : off2 = ![ch.val, 96 * (peer c 2).val, 0])
    (ho4 : off4 = ![ch.val, 96 * (peer c 4).val, 0])
    {inb0 : ∀ a, off0 a + S1x96x256.size a ≤ S3x768x256.size a}
    {inb7 : ∀ a, off7 a + S1x96x256.size a ≤ S3x768x256.size a}
    {inb3 : ∀ a, off3 a + S1x96x256.size a ≤ S3x768x256.size a}
    {inb5 : ∀ a, off5 a + S1x96x256.size a ≤ S3x768x256.size a}
    {inb6 : ∀ a, off6 a + S1x96x256.size a ≤ S3x768x256.size a}
    {inb1 : ∀ a, off1 a + S1x96x256.size a ≤ S3x768x256.size a}
    {inb2 : ∀ a, off2 a + S1x96x256.size a ≤ S3x768x256.size a}
    {inb4 : ∀ a, off4 a + S1x96x256.size a ≤ S3x768x256.size a}
    {hl1 : actM.view.LoadsAt R768x1536.toLoadRect}
    {hl2 : wdbM.view.LoadsAt (wdbRect ch).toLoadRect}
    {hl3 : pM.view.LoadsAt (pRect ch).toLoadRect}
    {hs4 : (pM.access (pRect ch)).Stores Finset.univ}
    {hm4 : (Finset.univ : Finset (pRect ch).shape.Idx) = Finset.univ ∨ ∀ a, (pRect ch).stride a = 1}
    {hl5 : pM.view.LoadsAt (Rect.unit (s := S3x768x256) off0 S1x96x256.size inb0).toLoadRect}
    {hl6 : rsM.view.LoadsAt (slotRect ch 0).toLoadRect}
    {hs7 : (rsM.access (slotRect ch 0)).Stores Finset.univ}
    {hm7 : (Finset.univ : Finset (slotRect ch 0).shape.Idx) = Finset.univ ∨ ∀ a, (slotRect ch 0).stride a = 1}
    {hsc7 : (slotV ch 7 : Memref sig (Dev.tc n7 : Thread nD τ).2.kind .vmem S96x256 .bf16).view.ref.isScScratch = false}
    {hsrc7 : (srcV off7 inb7).view.WordExact} {hdst7 : (slotV ch 7).view.WordExact}
    {hsem7 : DmaTarget.Typed .vmem (.dma (semAt cc0_scratch7 ch 7)) (.remote (Dev.tc n7 : Thread nD τ) (slotV ch 7) (.dma (semAt cc0_scratch6 ch 7)) hsc7)}
    {hsc3 : (slotV ch 3 : Memref sig (Dev.tc n3 : Thread nD τ).2.kind .vmem S96x256 .bf16).view.ref.isScScratch = false}
    {hsrc3 : (srcV off3 inb3).view.WordExact} {hdst3 : (slotV ch 3).view.WordExact}
    {hsem3 : DmaTarget.Typed .vmem (.dma (semAt cc0_scratch7 ch 3)) (.remote (Dev.tc n3 : Thread nD τ) (slotV ch 3) (.dma (semAt cc0_scratch6 ch 3)) hsc3)}
    {hsc5 : (slotV ch 5 : Memref sig (Dev.tc n5 : Thread nD τ).2.kind .vmem S96x256 .bf16).view.ref.isScScratch = false}
    {hsrc5 : (srcV off5 inb5).view.WordExact} {hdst5 : (slotV ch 5).view.WordExact}
    {hsem5 : DmaTarget.Typed .vmem (.dma (semAt cc0_scratch7 ch 5)) (.remote (Dev.tc n5 : Thread nD τ) (slotV ch 5) (.dma (semAt cc0_scratch6 ch 5)) hsc5)}
    {hsc6 : (slotV ch 6 : Memref sig (Dev.tc n6 : Thread nD τ).2.kind .vmem S96x256 .bf16).view.ref.isScScratch = false}
    {hsrc6 : (srcV off6 inb6).view.WordExact} {hdst6 : (slotV ch 6).view.WordExact}
    {hsem6 : DmaTarget.Typed .vmem (.dma (semAt cc0_scratch7 ch 6)) (.remote (Dev.tc n6 : Thread nD τ) (slotV ch 6) (.dma (semAt cc0_scratch6 ch 6)) hsc6)}
    {hsc1 : (slotV ch 1 : Memref sig (Dev.tc n1 : Thread nD τ).2.kind .vmem S96x256 .bf16).view.ref.isScScratch = false}
    {hsrc1 : (srcV off1 inb1).view.WordExact} {hdst1 : (slotV ch 1).view.WordExact}
    {hsem1 : DmaTarget.Typed .vmem (.dma (semAt cc0_scratch7 ch 1)) (.remote (Dev.tc n1 : Thread nD τ) (slotV ch 1) (.dma (semAt cc0_scratch6 ch 1)) hsc1)}
    {hsc2 : (slotV ch 2 : Memref sig (Dev.tc n2 : Thread nD τ).2.kind .vmem S96x256 .bf16).view.ref.isScScratch = false}
    {hsrc2 : (srcV off2 inb2).view.WordExact} {hdst2 : (slotV ch 2).view.WordExact}
    {hsem2 : DmaTarget.Typed .vmem (.dma (semAt cc0_scratch7 ch 2)) (.remote (Dev.tc n2 : Thread nD τ) (slotV ch 2) (.dma (semAt cc0_scratch6 ch 2)) hsc2)}
    {hsc4 : (slotV ch 4 : Memref sig (Dev.tc n4 : Thread nD τ).2.kind .vmem S96x256 .bf16).view.ref.isScScratch = false}
    {hsrc4 : (srcV off4 inb4).view.WordExact} {hdst4 : (slotV ch 4).view.WordExact}
    {hsem4 : DmaTarget.Typed .vmem (.dma (semAt cc0_scratch7 ch 4)) (.remote (Dev.tc n4 : Thread nD τ) (slotV ch 4) (.dma (semAt cc0_scratch6 ch 4)) hsc4)}
    {α : Type} {Q : α → sProp 𝕄} {k : PUnit → Prog (TpuEff nD τ sig (Elt F) Λ₀ .tc) α} :
    iprop(records m K ∗ levAts L lv ∗ GP c ∅ true (coGE ch.val) allCO allCO allCO allCO allCO ∗ B3 m c ch.val)
      ⊢ iprop(((GP c ∅ true (coGE (ch.val + 1)) allCO allCO allCO allCO allCO ∗ B3 m c (ch.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load actM R768x1536.toLoadRect hl1) fun a =>
               .op (.load wdbM (wdbRect ch).toLoadRect hl2) fun w =>
               .op (.load pM (pRect ch).toLoadRect hl3) fun _ =>
               .op (.store pM (pRect ch) (k0_pay4 (k0_pay3 a w)) Finset.univ hs4 hm4) fun _ =>
               .op (.load pM (Rect.unit (s := S3x768x256) off0 S1x96x256.size inb0).toLoadRect hl5) fun r =>
               .op (.load rsM (slotRect ch 0).toLoadRect hl6) fun _ =>
               .op (.store rsM (slotRect ch 0) (k0_pay5 r) Finset.univ hs7 hm7) fun _ =>
               .op (sendOp n7 ch 7 off7 inb7 hsc7 hsrc7 hdst7 hsem7) fun _ =>
               .op (sendOp n3 ch 3 off3 inb3 hsc3 hsrc3 hdst3 hsem3) fun _ =>
               .op (sendOp n5 ch 5 off5 inb5 hsc5 hsrc5 hdst5 hsem5) fun _ =>
               .op (sendOp n6 ch 6 off6 inb6 hsc6 hsrc6 hdst6 hsem6) fun _ =>
               .op (sendOp n1 ch 1 off1 inb1 hsc1 hsrc1 hdst1 hsem1) fun _ =>
               .op (sendOp n2 ch 2 off2 inb2 hsc2 hsrc2 hdst2 hsem2) fun _ =>
               .op (sendOp n4 ch 4 off4 inb4 hsc4 hsrc4 hdst4 hsem4) k) Q) := by
  subst hn7 hn3 hn5 hn6 hn1 hn2 hn4 ho0 ho7 ho3 ho5 ho6 ho1 ho2 ho4
  unfold GP B3
  rw [tx_step c ch, ps_step c ch, cr_step c ch, bigSep_hi ch, bigSep_hi ch, bigSep_lo_succ ch, bigSep_lo_succ ch, owed_chunk_rs c ch allCO]
  iintro ⟨#Hrec, #Hlev, ⟨HTb, ⟨HTx, HTc⟩, HTxA, ⟨%W, HO⟩, Hbar, HW1, HW3, ⟨HP0, HCr0, HP0'⟩, HD2, HZ⟩,
    ⟨HIN, Hact, Hwdb, Hred, Hacc, Hprow, ⟨⟨%fp, Hpch⟩, Hpch'⟩, Hs0lo, ⟨⟨%fs, Hs0⟩, Hs0'⟩, Hout, ⟨HPS, HPSc⟩, HPO⟩⟩ Hk
  ihave HTc := (Entails.of_eq (show (Tx c 0 1 (chunkCO ch) : sProp 𝕄) = _ from bigSep_chunk_issue ch _)) $$ HTc
  icases HTc with ⟨Ht7, Ht3, Ht5, Ht6, Ht1, Ht2, Ht4⟩
  ihave HPSc := (Entails.of_eq (show (PeerSlots c (chunkCO ch) : sProp 𝕄) = _ from bigSep_chunk_issue ch _)) $$ HPSc
  icases HPSc with ⟨Hd7, Hd3, Hd5, Hd6, Hd1, Hd2, Hd4⟩
  iapply (step_load_whole_act (F := F) c); iframe Hact
  iintro Hact
  iapply (step_load_held (F := F) c wdbM); iframe Hwdb
  iintro Hwdb
  iapply (step_load_pchunk (F := F) c ch rfl); iframe Hpch
  iintro Hpch
  iapply (step_store_pchunk (F := F) c ch rfl); iframe Hpch
  iintro Hpch
  have e4 : (pM.view.loc (c : Thread nD τ) ↦[(pM.access (pRect ch)).set]{fullShare}
        ((pM.access (pRect ch)).write (Elt F) fp (k0_pay4 (k0_pay3 (actv m c) (wdbM.view.readAt (Elt F) (wdbRect ch).toLoadRect (wdbv m c)))) Finset.univ) : sProp 𝕄)
      = (pM.view.loc (c : Thread nD τ) ↦[(pM.access (pRect ch)).set]{fullShare} pCan m c) :=
    pts_congr (v := pM.view) (c := (c : Thread nD τ)) (q := fullShare) (store_p m c ch fp)
  ihave Hpch := (Entails.of_eq e4) $$ Hpch
  ihave Hrows := (p_chunk (F := F) c ch (pCan m c)).mpr $$ Hpch
  ihave Hrows := (Entails.of_eq (bigSep_devs c _)) $$ Hrows
  icases Hrows with ⟨Hr0, Hr7, Hr3, Hr5, Hr6, Hr1, Hr2, Hr4⟩
  iapply (step_load_prow (F := F) c ch c rfl); iframe Hr0
  iintro Hr0
  iapply (step_load_slot (F := F) c ch 0 rfl); iframe Hs0
  iintro Hs0
  iapply (step_store_slot (F := F) c ch 0 rfl); iframe Hs0
  iintro Hs0
  have e7 : (pts c (slotV ch 0) fullShare ((rsM.access (slotRect ch 0)).write (Elt F) fs
        (k0_pay5 (pM.view.readAt (Elt F) (prowRect ch c).toLoadRect (pCan m c))) Finset.univ) : sProp 𝕄)
      = pts c (slotV ch 0) fullShare (rsCan m c) :=
    pts_congr (v := (slotV ch 0).view) (c := (c : Thread nD τ)) (q := fullShare)
      (fun i hi => store_slot0 m c ch fs (pCan m c) (fun _ _ => rfl) i
        (by rw [slotV_set] at hi; rw [show (rsM.access (slotRect ch 0)).set = (slotRect ch 0).set from View.set_slice_whole _ _]; exact hi))
  ihave Hs0 := (Entails.of_eq e7) $$ Hs0
  iapply (scatter_send (F := F) m K c ch 7 (by decide)) $$ [$HO $Hrec $Hr7 $Hd7 $Ht7]
  iintro ⟨Hc7, HO⟩
  iapply (scatter_send (F := F) m K c ch 3 (by decide)) $$ [$HO $Hrec $Hr3 $Hd3 $Ht3]
  iintro ⟨Hc3, HO⟩
  iapply (scatter_send (F := F) m K c ch 5 (by decide)) $$ [$HO $Hrec $Hr5 $Hd5 $Ht5]
  iintro ⟨Hc5, HO⟩
  iapply (scatter_send (F := F) m K c ch 6 (by decide)) $$ [$HO $Hrec $Hr6 $Hd6 $Ht6]
  iintro ⟨Hc6, HO⟩
  iapply (scatter_send (F := F) m K c ch 1 (by decide)) $$ [$HO $Hrec $Hr1 $Hd1 $Ht1]
  iintro ⟨Hc1, HO⟩
  iapply (scatter_send (F := F) m K c ch 2 (by decide)) $$ [$HO $Hrec $Hr2 $Hd2 $Ht2]
  iintro ⟨Hc2, HO⟩
  iapply (scatter_send (F := F) m K c ch 4 (by decide)) $$ [$HO $Hrec $Hr4 $Hd4 $Ht4]
  iintro ⟨Hc4, HO⟩
  iapply Hk
  rw [show (Cr c 0 (chunkCO ch) : sProp 𝕄) = _ from bigSep_chunk_issue ch _]
  iframe
  iexists W; iexact HO

end Cert.KernelIdeal.Proto

end
-- ==== Proof.ReducePieces.lean ====
import proofs.«900790_g7700000000000791_dist_gated_mlp_tp_i_m768_h1536_d768_v7x_i8_bf16_1_alg».proof.Proof.LocalSteps
import proofs.«900790_g7700000000000791_dist_gated_mlp_tp_i_m768_h1536_d768_v7x_i8_bf16_1_alg».proof.Proof.PhaseEntry
import proofs.«900790_g7700000000000791_dist_gated_mlp_tp_i_m768_h1536_d768_v7x_i8_bf16_1_alg».proof.Proof.Chunks

noncomputable section

namespace Cert.KernelIdeal.Proto

open Cert.KernelIdeal.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
-- both cells of a transfer (send side in array k, receive side in array kp): invariants and reached rounds are on record
theorem ag_cells (K : Dev nD × CIx → ℕ) (c : Dev nD) (k kp : Fin 4) (ch : Fin 3) (o : Fin 8) :
    (records m K : sProp 𝕄) ⊢ iprop(cellInv ER (Rd (F := F) m) (K (c, some (k, ch, o))) (dcell c k ch o)
      ∗ cellInv ER (Rd (F := F) m) (K (peer c o, some (kp, ch, o))) (dcell (peer c o) kp ch o)
      ∗ reached ER (dcell c k ch o) 0 ∗ reached ER (dcell (peer c o) kp ch o) 0) := by
  iintro #H
  isplitr; · iapply (pe_inv m K (c, some (k, ch, o))); iexact H
  isplitr; · iapply (pe_inv m K (peer c o, some (kp, ch, o))); iexact H
  isplitr; · iapply (pe_reached m K (c, some (k, ch, o))); iexact H
  iapply (pe_reached m K (peer c o, some (kp, ch, o))); iexact H

theorem gather_sends (K : Dev nD × CIx → ℕ) (c : Dev nD) (ch : Fin 3)
    (n7 n3 n5 n6 n1 n2 n4 : Dev nD)
    (hn7 : n7 = peer c 7) (hn3 : n3 = peer c 3) (hn5 : n5 = peer c 5) (hn6 : n6 = peer c 6)
    (hn1 : n1 = peer c 1) (hn2 : n2 = peer c 2) (hn4 : n4 = peer c 4)
    (offd : Fin 2 → Nat) (hoffd : offd = ![96 * c.val, 256 * ch.val]) (W : Waits sig Unit)
    {inbd : ∀ a, offd a + S96x256.size a ≤ S768x768.size a}
    {hsrc : (redV ch).view.WordExact} {hdst : (outM.slice (Rect.unit (s := S768x768) offd S96x256.size inbd) (fun _ => rfl)).view.WordExact}
    {hsc7 : ((outM.slice (Rect.unit (s := S768x768) offd S96x256.size inbd) (fun _ => rfl)) : Memref sig (Dev.tc n7 : Thread nD τ).2.kind .vmem S96x256 .bf16).view.ref.isScScratch = false}
    {hsem7 : DmaTarget.Typed .vmem (.dma (semAt cc0_scratch9 ch 7)) (.remote (Dev.tc n7 : Thread nD τ) (outM.slice (Rect.unit (s := S768x768) offd S96x256.size inbd) (fun _ => rfl)) (.dma (semAt cc0_scratch8 ch 7)) hsc7)}
    {hsc3 : ((outM.slice (Rect.unit (s := S768x768) offd S96x256.size inbd) (fun _ => rfl)) : Memref sig (Dev.tc n3 : Thread nD τ).2.kind .vmem S96x256 .bf16).view.ref.isScScratch = false}
    {hsem3 : DmaTarget.Typed .vmem (.dma (semAt cc0_scratch9 ch 3)) (.remote (Dev.tc n3 : Thread nD τ) (outM.slice (Rect.unit (s := S768x768) offd S96x256.size inbd) (fun _ => rfl)) (.dma (semAt cc0_scratch8 ch 3)) hsc3)}
    {hsc5 : ((outM.slice (Rect.unit (s := S768x768) offd S96x256.size inbd) (fun _ => rfl)) : Memref sig (Dev.tc n5 : Thread nD τ).2.kind .vmem S96x256 .bf16).view.ref.isScScratch = false}
    {hsem5 : DmaTarget.Typed .vmem (.dma (semAt cc0_scratch9 ch 5)) (.remote (Dev.tc n5 : Thread nD τ) (outM.slice (Rect.unit (s := S768x768) offd S96x256.size inbd) (fun _ => rfl)) (.dma (semAt cc0_scratch8 ch 5)) hsc5)}
    {hsc6 : ((outM.slice (Rect.unit (s := S768x768) offd S96x256.size inbd) (fun _ => rfl)) : Memref sig (Dev.tc n6 : Thread nD τ).2.kind .vmem S96x256 .bf16).view.ref.isScScratch = false}
    {hsem6 : DmaTarget.Typed .vmem (.dma (semAt cc0_scratch9 ch 6)) (.remote (Dev.tc n6 : Thread nD τ) (outM.slice (Rect.unit (s := S768x768) offd S96x256.size inbd) (fun _ => rfl)) (.dma (semAt cc0_scratch8 ch 6)) hsc6)}
    {hsc1 : ((outM.slice (Rect.unit (s := S768x768) offd S96x256.size inbd) (fun _ => rfl)) : Memref sig (Dev.tc n1 : Thread nD τ).2.kind .vmem S96x256 .bf16).view.ref.isScScratch = false}
    {hsem1 : DmaTarget.Typed .vmem (.dma (semAt cc0_scratch9 ch 1)) (.remote (Dev.tc n1 : Thread nD τ) (outM.slice (Rect.unit (s := S768x768) offd S96x256.size inbd) (fun _ => rfl)) (.dma (semAt cc0_scratch8 ch 1)) hsc1)}
    {hsc2 : ((outM.slice (Rect.unit (s := S768x768) offd S96x256.size inbd) (fun _ => rfl)) : Memref sig (Dev.tc n2 : Thread nD τ).2.kind .vmem S96x256 .bf16).view.ref.isScScratch = false}
    {hsem2 : DmaTarget.Typed .vmem (.dma (semAt cc0_scratch9 ch 2)) (.remote (Dev.tc n2 : Thread nD τ) (outM.slice (Rect.unit (s := S768x768) offd S96x256.size inbd) (fun _ => rfl)) (.dma (semAt cc0_scratch8 ch 2)) hsc2)}
    {hsc4 : ((outM.slice (Rect.unit (s := S768x768) offd S96x256.size inbd) (fun _ => rfl)) : Memref sig (Dev.tc n4 : Thread nD τ).2.kind .vmem S96x256 .bf16).view.ref.isScScratch = false}
    {hsem4 : DmaTarget.Typed .vmem (.dma (semAt cc0_scratch9 ch 4)) (.remote (Dev.tc n4 : Thread nD τ) (outM.slice (Rect.unit (s := S768x768) offd S96x256.size inbd) (fun _ => rfl)) (.dma (semAt cc0_scratch8 ch 4)) hsc4)}
    {α : Type} {Q : α → sProp 𝕄} {k : Prog (TpuEff nD τ sig (Elt F) Λ₀ .tc) α} :
    iprop(records m K
        ∗ owes (c : Thread nD τ) (owedFrom c ∅ ∅ (coGE ch.val)) W
        ∗ (bigSep (chunkCO ch) fun x => iprop(dutyTok ER (dcell c 2 x.1 x.2) 0 0 ∗ dutyTok ER (dcell (peer c x.2) 3 x.1 x.2) 0 0))
        ∗ (bigSep (chunkCO ch) fun x => iprop(∃ f, pts (peer c x.2) (outV c x.1) fullShare f))
        ∗ (bigSep (Finset.univ.erase (0 : Fin 8)) fun o => pts c (redV ch) (redShare o) (redCan m c)))
      ⊢ iprop(((owes (c : Thread nD τ) (owedFrom c ∅ ∅ (coGE (ch.val + 1))) W
              ∗ bigSep (chunkCO ch) fun x => cred (tallyAt (dcell c 2 x.1 x.2) () N)) -∗ wp frame (wpE (defs₀ (F := F)) 𝒱₀ (c : Thread nD τ) none) Set.univ k Q)
          -∗ wp frame (wpE (defs₀ (F := F)) 𝒱₀ (c : Thread nD τ) none) Set.univ
              (Prog.op (.enqueueDma (redV ch) (.remote (Dev.tc n7 : Thread nD τ) (outM.slice (Rect.unit (s := S768x768) offd S96x256.size inbd) (fun _ => rfl)) (.dma (semAt cc0_scratch8 ch 7)) hsc7) (.dma (semAt cc0_scratch9 ch 7)) hsrc hdst hsem7) fun _ =>
               Prog.op (.enqueueDma (redV ch) (.remote (Dev.tc n3 : Thread nD τ) (outM.slice (Rect.unit (s := S768x768) offd S96x256.size inbd) (fun _ => rfl)) (.dma (semAt cc0_scratch8 ch 3)) hsc3) (.dma (semAt cc0_scratch9 ch 3)) hsrc hdst hsem3) fun _ =>
               Prog.op (.enqueueDma (redV ch) (.remote (Dev.tc n5 : Thread nD τ) (outM.slice (Rect.unit (s := S768x768) offd S96x256.size inbd) (fun _ => rfl)) (.dma (semAt cc0_scratch8 ch 5)) hsc5) (.dma (semAt cc0_scratch9 ch 5)) hsrc hdst hsem5) fun _ =>
               Prog.op (.enqueueDma (redV ch) (.remote (Dev.tc n6 : Thread nD τ) (outM.slice (Rect.unit (s := S768x768) offd S96x256.size inbd) (fun _ => rfl)) (.dma (semAt cc0_scratch8 ch 6)) hsc6) (.dma (semAt cc0_scratch9 ch 6)) hsrc hdst hsem6) fun _ =>
               Prog.op (.enqueueDma (redV ch) (.remote (Dev.tc n1 : Thread nD τ) (outM.slice (Rect.unit (s := S768x768) offd S96x256.size inbd) (fun _ => rfl)) (.dma (semAt cc0_scratch8 ch 1)) hsc1) (.dma (semAt cc0_scratch9 ch 1)) hsrc hdst hsem1) fun _ =>
               Prog.op (.enqueueDma (redV ch) (.remote (Dev.tc n2 : Thread nD τ) (outM.slice (Rect.unit (s := S768x768) offd S96x256.size inbd) (fun _ => rfl)) (.dma (semAt cc0_scratch8 ch 2)) hsc2) (.dma (semAt cc0_scratch9 ch 2)) hsrc hdst hsem2) fun _ =>
               Prog.op (.enqueueDma (redV ch) (.remote (Dev.tc n4 : Thread nD τ) (outM.slice (Rect.unit (s := S768x768) offd S96x256.size inbd) (fun _ => rfl)) (.dma (semAt cc0_scratch8 ch 4)) hsc4) (.dma (semAt cc0_scratch9 ch 4)) hsrc hdst hsem4) fun _ => k) Q) := by
  subst hn7 hn3 hn5 hn6 hn1 hn2 hn4 hoffd
  rw [owed_chunk_ag c ch ∅, bigSep_chunk_issue ch, bigSep_chunk_issue ch, bigSep_chunk_issue ch, bigSep_peers]
  iintro ⟨#Hrec, HO, ⟨⟨Ta7, Tb7⟩, ⟨Ta3, Tb3⟩, ⟨Ta5, Tb5⟩, ⟨Ta6, Tb6⟩, ⟨Ta1, Tb1⟩, ⟨Ta2, Tb2⟩, ⟨Ta4, Tb4⟩⟩,
    ⟨⟨%f7, D7⟩, ⟨%f3, D3⟩, ⟨%f5, D5⟩, ⟨%f6, D6⟩, ⟨%f1, D1⟩, ⟨%f2, D2⟩, ⟨%f4, D4⟩⟩,
    ⟨S1, S2, S3, S4, S5, S6, S7⟩⟩ Hk
  iapply (step_ag_send m K c _ ch 7 (by decide) rfl rfl rfl rfl rfl (redCan m c) f7 (fun _ _ => rfl) _ W) $$ [$S7 $D7 $HO $Ta7 $Tb7]
  · iapply (ag_cells m K c 2 3 ch 7); iexact Hrec
  iintro ⟨C7, HO⟩
  iapply (step_ag_send m K c _ ch 3 (by decide) rfl rfl rfl rfl rfl (redCan m c) f3 (fun _ _ => rfl) _ W) $$ [$S3 $D3 $HO $Ta3 $Tb3]
  · iapply (ag_cells m K c 2 3 ch 3); iexact Hrec
  iintro ⟨C3, HO⟩
  iapply (step_ag_send m K c _ ch 5 (by decide) rfl rfl rfl rfl rfl (redCan m c) f5 (fun _ _ => rfl) _ W) $$ [$S5 $D5 $HO $Ta5 $Tb5]
  · iapply (ag_cells m K c 2 3 ch 5); iexact Hrec
  iintro ⟨C5, HO⟩
  iapply (step_ag_send m K c _ ch 6 (by decide) rfl rfl rfl rfl rfl (redCan m c) f6 (fun _ _ => rfl) _ W) $$ [$S6 $D6 $HO $Ta6 $Tb6]
  · iapply (ag_cells m K c 2 3 ch 6); iexact Hrec
  iintro ⟨C6, HO⟩
  iapply (step_ag_send m K c _ ch 1 (by decide) rfl rfl rfl rfl rfl (redCan m c) f1 (fun _ _ => rfl) _ W) $$ [$S1 $D1 $HO $Ta1 $Tb1]
  · iapply (ag_cells m K c 2 3 ch 1); iexact Hrec
  iintro ⟨C1, HO⟩
  iapply (step_ag_send m K c _ ch 2 (by decide) rfl rfl rfl rfl rfl (redCan m c) f2 (fun _ _ => rfl) _ W) $$ [$S2 $D2 $HO $Ta2 $Tb2]
  · iapply (ag_cells m K c 2 3 ch 2); iexact Hrec
  iintro ⟨C2, HO⟩
  iapply (step_ag_send m K c _ ch 4 (by decide) rfl rfl rfl rfl rfl (redCan m c) f4 (fun _ _ => rfl) _ W) $$ [$S4 $D4 $HO $Ta4 $Tb4]
  · iapply (ag_cells m K c 2 3 ch 4); iexact Hrec
  iintro ⟨C4, HO⟩
  iapply Hk
  iframe

end Cert.KernelIdeal.Proto

end
-- ==== Proof.PhaseReduce.lean ====
import proofs.«900790_g7700000000000791_dist_gated_mlp_tp_i_m768_h1536_d768_v7x_i8_bf16_1_alg».proof.Proof.ReducePieces

noncomputable section

namespace Cert.KernelIdeal.Proto

open Cert.KernelIdeal.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem red_acc_set (ch : Fin 3) : (redM.access (redRect ch)).set = (redV ch).view.set := by
  rw [redV_set]; exact View.set_slice_whole _ _

-- one more slot: after the wait the peer's rows are there, and are added to the sum
theorem red_step (K : Dev nD × CIx → ℕ) (c : Dev nD) (ch : Fin 3) (o : Fin 8) (ho : o ≠ 0) (A : Finset CO) (W : Waits sig Unit)
    (acc : FVec F S96x256 .f32)
    (PAY : Vec F S96x256 .f32 → Vec F S1x1x96x256 .bf16 → FVec F S96x256 .f32) (hpay : ∀ a s, PAY a s = accStep a s)
    {hw : (slotV ch o).view.WordExact} {hl : rsM.view.LoadsAt (slotRect ch o).toLoadRect}
    {hla : accM.view.LoadsAt R96x256.toLoadRect} {hsa : (accM.access R96x256).Stores Finset.univ}
    {hma : (Finset.univ : Finset R96x256.shape.Idx) = Finset.univ ∨ ∀ a, R96x256.stride a = 1}
    {α : Type} {Q : α → sProp 𝕄} {k : Prog (TpuEff nD τ sig (Elt F) Λ₀ .tc) α} :
    iprop(records m K ∗ levAts L lv ∗ (cred (tallyAt (dcell c 1 ch o) () N) ∗ atPos ER (dcell c 1 ch o) 0 ∅ 0)
        ∗ owes (c : Thread nD τ) (owedFrom c ∅ ∅ A) W ∗ pts c accM fullShare acc)
      ⊢ iprop(((owes (c : Thread nD τ) (owedFrom c ∅ ∅ A) (insert (dsem 1 ch o, ()) W) ∗ atPos ER (dcell c 1 ch o) 1 ∅ 0
            ∗ pts c (slotV ch o) fullShare (rsCan m c) ∗ pts c accM fullShare (accStep acc (slotRead m c ch o))) -∗ wp frame (wpE (defs₀ (F := F)) 𝒱₀ (c : Thread nD τ) none) Set.univ k Q)
          -∗ wp frame (wpE (defs₀ (F := F)) 𝒱₀ (c : Thread nD τ) none) Set.univ
              (Prog.op (.waitDma2 (semAt cc0_scratch7 ch o) (slotV ch o) (slotV ch o) hw hw) fun _ =>
               Prog.op (.load accM R96x256.toLoadRect hla) fun a =>
               Prog.op (.load rsM (slotRect ch o).toLoadRect hl) fun s =>
               Prog.op (.load accM R96x256.toLoadRect hla) fun _ =>
               Prog.op (.store accM R96x256 (PAY a s) Finset.univ hsa hma) fun _ => k) Q) := by
  iintro ⟨#Hrec, #Hlev, ⟨Hc, Hat⟩, HO, Ha⟩ Hk
  iapply (step_rs_wait m K c ch o ho rfl (credit_slot ch o) (owedFrom c ∅ ∅ A) W) $$ [$Hc $HO $Hat]
  · isplitr; · iapply (inv_of_records m K c 1 ch o); iexact Hrec
    iapply (mayWait_rsR c ch o A); iexact Hlev
  iintro ⟨HO, Hat, Hs⟩
  iapply (step_load_whole_acc c); iframe Ha; iintro Ha
  iapply (step_load_slot c ch o rfl); iframe Hs; iintro Hs
  rw [load_slot m c ch o (rsCan m c) (fun _ _ => rfl)]
  iapply (step_load_whole_acc c); iframe Ha; iintro Ha
  iapply (step_store_whole_acc c); iframe Ha; iintro Ha
  rw [hpay]
  iapply Hk; iframe

-- the handshake's state cut at chunk `ch`: what the chunk's phase uses, and the way back from what it leaves
theorem GP_chunk (c : Dev nD) (ch : Fin 3) :
    (GP c ∅ true ∅ (coGE ch.val) (coGE ch.val) allCO allCO allCO : sProp 𝕄)
      ⊢ iprop((∃ W, owes (c : Thread nD τ) (owedFrom c ∅ ∅ (coGE ch.val)) W) ∗ Tx c 2 3 (chunkCO ch)
          ∗ (bigSep (chunkCO ch) fun x => iprop(cred (tallyAt (dcell c 1 x.1 x.2) () N) ∗ atPos ER (dcell c 1 x.1 x.2) 0 ∅ 0))
          ∗ (((∃ W, owes (c : Thread nD τ) (owedFrom c ∅ ∅ (coGE (ch.val + 1))) W) ∗ Pos c 1 (chunkCO ch) 1 ∗ Cr c 2 (chunkCO ch))
              -∗ GP c ∅ true ∅ (coGE (ch.val + 1)) (coGE (ch.val + 1)) allCO allCO allCO)) := by
  unfold GP Tx Pos Cr
  rw [bigSep_coGE ch, bigSep_coGE ch, bigSep_coGE ch, bigSep_compl ch, bigSep_compl ch,
    bigSep_sep' (chunkCO ch) (fun x => (cred (tallyAt (dcell c 1 x.1 x.2) () N) : sProp 𝕄)) fun x => atPos ER (dcell c 1 x.1 x.2) 0 ∅ 0]
  iintro ⟨HTb, HTx0, ⟨HTx2, HTxc⟩, HO, Hbar, ⟨⟨HP1a, HP1c⟩, ⟨HC1, HC1c⟩, HP1b⟩, H3, H0, ⟨HP2a, HC2, HP2b⟩, HZ⟩
  iframe HO HTxc HC1c HP1c
  iintro ⟨HO, HP1c, HC2c⟩
  iframe

-- the buffers cut at chunk `ch` likewise
theorem B4_chunk (c : Dev nD) (ch : Fin 3) :
    (B4 m c ch.val : sProp 𝕄)
      ⊢ iprop((∃ f, pts c accM fullShare f) ∗ pts c (slotV ch 0) fullShare (rsCan m c) ∗ (∃ f, pts c (redV ch) fullShare f)
          ∗ (∃ f, pts c (outV c ch) fullShare f) ∗ PeerOut c (chunkCO ch)
          ∗ (((∃ f, pts c accM fullShare f) ∗ pts c (slotV ch 0) fullShare (rsCan m c)
                ∗ (bigSep (chunkCO ch) fun x => pts c (slotV x.1 x.2) fullShare (rsCan m c))
                ∗ (pts c (redV ch) (Transfers.shareDrop fullShare 8) (redCan m c) ∗ pts c (redV ch) (redShare 0) (redCan m c))
                ∗ pts c (outV c ch) fullShare (outCan m))
              -∗ B4 m c (ch.val + 1))) := by
  unfold B4 PeerOut
  rw [bigSep_coGE ch, bigSep_compl ch, bigSep_hi ch, bigSep_hi ch, bigSep_lo_succ ch, bigSep_lo_succ ch,
    bigSep_univ_split ch (Φ := fun ch' => pts c (slotV ch' 0) fullShare (rsCan m c)), ← bsep]
  iintro ⟨HIN, Hact, Hwdb, Hacc, Hprow, ⟨Hs0, Hslot0⟩, Hslots, Hredlo, ⟨Hredc, Hredhi⟩, Houtlo, ⟨Houtc, Houthi⟩, HPO, HPOc⟩
  iframe Hacc Hs0 Hredc Houtc HPOc
  iintro ⟨Hacc, Hs0, Hsl, Hrd, Hout⟩
  iframe

set_option maxHeartbeats 1600000 in
theorem phase_reduce (K : Dev nD × CIx → ℕ) (c : Dev nD) (ch : Fin 3)
    (n7 n3 n5 n6 n1 n2 n4 : Dev nD)
    (hn7 : n7 = peer c 7) (hn3 : n3 = peer c 3) (hn5 : n5 = peer c 5) (hn6 : n6 = peer c 6)
    (hn1 : n1 = peer c 1) (hn2 : n2 = peer c 2) (hn4 : n4 = peer c 4)
    (offb offd : Fin 2 → Nat) (hoffb : offb = ![96 * c.val, 256 * ch.val]) (hoffd : offd = ![96 * c.val, 256 * ch.val])
    {inbb : ∀ a, offb a + S96x256.size a ≤ S768x768.size a} {inbd : ∀ a, offd a + S96x256.size a ≤ S768x768.size a}
    {hla : accM.view.LoadsAt R96x256.toLoadRect} {hsa : (accM.access R96x256).Stores Finset.univ}
    {hma : (Finset.univ : Finset R96x256.shape.Idx) = Finset.univ ∨ ∀ a, R96x256.stride a = 1}
    {hl0 : rsM.view.LoadsAt (slotRect ch 0).toLoadRect}
    {hl1 : rsM.view.LoadsAt (slotRect ch 1).toLoadRect} {hw1 : (slotV ch 1).view.WordExact}
    {hl2 : rsM.view.LoadsAt (slotRect ch 2).toLoadRect} {hw2 : (slotV ch 2).view.WordExact}
    {hl4 : rsM.view.LoadsAt (slotRect ch 4).toLoadRect} {hw4 : (slotV ch 4).view.WordExact}
    {hl3 : rsM.view.LoadsAt (slotRect ch 3).toLoadRect} {hw3 : (slotV ch 3).view.WordExact}
    {hl5 : rsM.view.LoadsAt (slotRect ch 5).toLoadRect} {hw5 : (slotV ch 5).view.WordExact}
    {hl6 : rsM.view.LoadsAt (slotRect ch 6).toLoadRect} {hw6 : (slotV ch 6).view.WordExact}
    {hl7 : rsM.view.LoadsAt (slotRect ch 7).toLoadRect} {hw7 : (slotV ch 7).view.WordExact}
    {hlr : redM.view.LoadsAt (redRect ch).toLoadRect} {hsr : (redM.access (redRect ch)).Stores Finset.univ}
    {hmr : (Finset.univ : Finset (redRect ch).shape.Idx) = Finset.univ ∨ ∀ a, (redRect ch).stride a = 1}
    {hlo : outM.view.LoadsAt (Rect.unit (s := S768x768) offb S96x256.size inbb).toLoadRect} {hso : (outM.access (Rect.unit (s := S768x768) offb S96x256.size inbb)).Stores Finset.univ}
    {hmo : (Finset.univ : Finset (Rect.unit (s := S768x768) offb S96x256.size inbb).shape.Idx) = Finset.univ ∨ ∀ a, (Rect.unit (s := S768x768) offb S96x256.size inbb).stride a = 1}
    {hsrc : (redV ch).view.WordExact} {hdst : (outM.slice (Rect.unit (s := S768x768) offd S96x256.size inbd) (fun _ => rfl)).view.WordExact}
    {hsc7 : ((outM.slice (Rect.unit (s := S768x768) offd S96x256.size inbd) (fun _ => rfl)) : Memref sig (Dev.tc n7 : Thread nD τ).2.kind .vmem S96x256 .bf16).view.ref.isScScratch = false}
    {hsem7 : DmaTarget.Typed .vmem (.dma (semAt cc0_scratch9 ch 7)) (.remote (Dev.tc n7 : Thread nD τ) (outM.slice (Rect.unit (s := S768x768) offd S96x256.size inbd) (fun _ => rfl)) (.dma (semAt cc0_scratch8 ch 7)) hsc7)}
    {hsc3 : ((outM.slice (Rect.unit (s := S768x768) offd S96x256.size inbd) (fun _ => rfl)) : Memref sig (Dev.tc n3 : Thread nD τ).2.kind .vmem S96x256 .bf16).view.ref.isScScratch = false}
    {hsem3 : DmaTarget.Typed .vmem (.dma (semAt cc0_scratch9 ch 3)) (.remote (Dev.tc n3 : Thread nD τ) (outM.slice (Rect.unit (s := S768x768) offd S96x256.size inbd) (fun _ => rfl)) (.dma (semAt cc0_scratch8 ch 3)) hsc3)}
    {hsc5 : ((outM.slice (Rect.unit (s := S768x768) offd S96x256.size inbd) (fun _ => rfl)) : Memref sig (Dev.tc n5 : Thread nD τ).2.kind .vmem S96x256 .bf16).view.ref.isScScratch = false}
    {hsem5 : DmaTarget.Typed .vmem (.dma (semAt cc0_scratch9 ch 5)) (.remote (Dev.tc n5 : Thread nD τ) (outM.slice (Rect.unit (s := S768x768) offd S96x256.size inbd) (fun _ => rfl)) (.dma (semAt cc0_scratch8 ch 5)) hsc5)}
    {hsc6 : ((outM.slice (Rect.unit (s := S768x768) offd S96x256.size inbd) (fun _ => rfl)) : Memref sig (Dev.tc n6 : Thread nD τ).2.kind .vmem S96x256 .bf16).view.ref.isScScratch = false}
    {hsem6 : DmaTarget.Typed .vmem (.dma (semAt cc0_scratch9 ch 6)) (.remote (Dev.tc n6 : Thread nD τ) (outM.slice (Rect.unit (s := S768x768) offd S96x256.size inbd) (fun _ => rfl)) (.dma (semAt cc0_scratch8 ch 6)) hsc6)}
    {hsc1 : ((outM.slice (Rect.unit (s := S768x768) offd S96x256.size inbd) (fun _ => rfl)) : Memref sig (Dev.tc n1 : Thread nD τ).2.kind .vmem S96x256 .bf16).view.ref.isScScratch = false}
    {hsem1 : DmaTarget.Typed .vmem (.dma (semAt cc0_scratch9 ch 1)) (.remote (Dev.tc n1 : Thread nD τ) (outM.slice (Rect.unit (s := S768x768) offd S96x256.size inbd) (fun _ => rfl)) (.dma (semAt cc0_scratch8 ch 1)) hsc1)}
    {hsc2 : ((outM.slice (Rect.unit (s := S768x768) offd S96x256.size inbd) (fun _ => rfl)) : Memref sig (Dev.tc n2 : Thread nD τ).2.kind .vmem S96x256 .bf16).view.ref.isScScratch = false}
    {hsem2 : DmaTarget.Typed .vmem (.dma (semAt cc0_scratch9 ch 2)) (.remote (Dev.tc n2 : Thread nD τ) (outM.slice (Rect.unit (s := S768x768) offd S96x256.size inbd) (fun _ => rfl)) (.dma (semAt cc0_scratch8 ch 2)) hsc2)}
    {hsc4 : ((outM.slice (Rect.unit (s := S768x768) offd S96x256.size inbd) (fun _ => rfl)) : Memref sig (Dev.tc n4 : Thread nD τ).2.kind .vmem S96x256 .bf16).view.ref.isScScratch = false}
    {hsem4 : DmaTarget.Typed .vmem (.dma (semAt cc0_scratch9 ch 4)) (.remote (Dev.tc n4 : Thread nD τ) (outM.slice (Rect.unit (s := S768x768) offd S96x256.size inbd) (fun _ => rfl)) (.dma (semAt cc0_scratch8 ch 4)) hsc4)}
    {α : Type} {Q : α → sProp 𝕄} {k : Prog (TpuEff nD τ sig (Elt F) Λ₀ .tc) α} :
    iprop(records m K ∗ levAts L lv ∗ GP c ∅ true ∅ (coGE ch.val) (coGE ch.val) allCO allCO allCO ∗ B4 m c ch.val)
      ⊢ iprop((iprop(GP c ∅ true ∅ (coGE (ch.val + 1)) (coGE (ch.val + 1)) allCO allCO allCO ∗ B4 m c (ch.val + 1)) -∗ wp frame (wpE (defs₀ (F := F)) 𝒱₀ (c : Thread nD τ) none) Set.univ k Q)
          -∗ wp frame (wpE (defs₀ (F := F)) 𝒱₀ (c : Thread nD τ) none) Set.univ
              (Prog.op (.load rsM (slotRect ch 0).toLoadRect hl0) fun s0 =>
        Prog.op (.load accM R96x256.toLoadRect hla) fun _ =>
        Prog.op (.store accM R96x256 (k0_pay10 s0) Finset.univ hsa hma) fun _ =>
        Prog.op (.waitDma2 (semAt cc0_scratch7 ch 1) (slotV ch 1) (slotV ch 1) hw1 hw1) fun _ =>
        Prog.op (.load accM R96x256.toLoadRect hla) fun a =>
        Prog.op (.load rsM (slotRect ch 1).toLoadRect hl1) fun s =>
        Prog.op (.load accM R96x256.toLoadRect hla) fun _ =>
        Prog.op (.store accM R96x256 (k0_pay11 a s) Finset.univ hsa hma) fun _ =>
        Prog.op (.waitDma2 (semAt cc0_scratch7 ch 2) (slotV ch 2) (slotV ch 2) hw2 hw2) fun _ =>
        Prog.op (.load accM R96x256.toLoadRect hla) fun a =>
        Prog.op (.load rsM (slotRect ch 2).toLoadRect hl2) fun s =>
        Prog.op (.load accM R96x256.toLoadRect hla) fun _ =>
        Prog.op (.store accM R96x256 (k0_pay12 a s) Finset.univ hsa hma) fun _ =>
        Prog.op (.waitDma2 (semAt cc0_scratch7 ch 4) (slotV ch 4) (slotV ch 4) hw4 hw4) fun _ =>
        Prog.op (.load accM R96x256.toLoadRect hla) fun a =>
        Prog.op (.load rsM (slotRect ch 4).toLoadRect hl4) fun s =>
        Prog.op (.load accM R96x256.toLoadRect hla) fun _ =>
        Prog.op (.store accM R96x256 (k0_pay14 (k0_pay13 a s)) Finset.univ hsa hma) fun _ =>
        Prog.op (.waitDma2 (semAt cc0_scratch7 ch 3) (slotV ch 3) (slotV ch 3) hw3 hw3) fun _ =>
        Prog.op (.load accM R96x256.toLoadRect hla) fun a =>
        Prog.op (.load rsM (slotRect ch 3).toLoadRect hl3) fun s =>
        Prog.op (.load accM R96x256.toLoadRect hla) fun _ =>
        Prog.op (.store accM R96x256 (k0_pay15 a s) Finset.univ hsa hma) fun _ =>
        Prog.op (.waitDma2 (semAt cc0_scratch7 ch 5) (slotV ch 5) (slotV ch 5) hw5 hw5) fun _ =>
        Prog.op (.load accM R96x256.toLoadRect hla) fun a =>
        Prog.op (.load rsM (slotRect ch 5).toLoadRect hl5) fun s =>
        Prog.op (.load accM R96x256.toLoadRect hla) fun _ =>
        Prog.op (.store accM R96x256 (k0_pay16 a s) Finset.univ hsa hma) fun _ =>
        Prog.op (.waitDma2 (semAt cc0_scratch7 ch 6) (slotV ch 6) (slotV ch 6) hw6 hw6) fun _ =>
        Prog.op (.load accM R96x256.toLoadRect hla) fun a =>
        Prog.op (.load rsM (slotRect ch 6).toLoadRect hl6) fun s =>
        Prog.op (.load accM R96x256.toLoadRect hla) fun _ =>
        Prog.op (.store accM R96x256 (k0_pay17 a s) Finset.univ hsa hma) fun _ =>
        Prog.op (.waitDma2 (semAt cc0_scratch7 ch 7) (slotV ch 7) (slotV ch 7) hw7 hw7) fun _ =>
        Prog.op (.load accM R96x256.toLoadRect hla) fun a =>
        Prog.op (.load rsM (slotRect ch 7).toLoadRect hl7) fun s =>
        Prog.op (.load accM R96x256.toLoadRect hla) fun _ =>
        Prog.op (.store accM R96x256 (k0_pay18 a s) Finset.univ hsa hma) fun _ =>
        Prog.op (.load accM R96x256.toLoadRect hla) fun a7 =>
        Prog.op (.load redM (redRect ch).toLoadRect hlr) fun _ =>
        Prog.op (.store redM (redRect ch) (k0_pay20 (k0_pay19 a7)) Finset.univ hsr hmr) fun _ =>
        Prog.op (.load redM (redRect ch).toLoadRect hlr) fun rr =>
        Prog.op (.load outM (Rect.unit (s := S768x768) offb S96x256.size inbb).toLoadRect hlo) fun _ =>
        Prog.op (.store outM (Rect.unit (s := S768x768) offb S96x256.size inbb) (k0_pay21 rr) Finset.univ hso hmo) fun _ =>
        Prog.op (.enqueueDma (redV ch) (.remote (Dev.tc n7 : Thread nD τ) (outM.slice (Rect.unit (s := S768x768) offd S96x256.size inbd) (fun _ => rfl)) (.dma (semAt cc0_scratch8 ch 7)) hsc7) (.dma (semAt cc0_scratch9 ch 7)) hsrc hdst hsem7) fun _ =>
        Prog.op (.enqueueDma (redV ch) (.remote (Dev.tc n3 : Thread nD τ) (outM.slice (Rect.unit (s := S768x768) offd S96x256.size inbd) (fun _ => rfl)) (.dma (semAt cc0_scratch8 ch 3)) hsc3) (.dma (semAt cc0_scratch9 ch 3)) hsrc hdst hsem3) fun _ =>
        Prog.op (.enqueueDma (redV ch) (.remote (Dev.tc n5 : Thread nD τ) (outM.slice (Rect.unit (s := S768x768) offd S96x256.size inbd) (fun _ => rfl)) (.dma (semAt cc0_scratch8 ch 5)) hsc5) (.dma (semAt cc0_scratch9 ch 5)) hsrc hdst hsem5) fun _ =>
        Prog.op (.enqueueDma (redV ch) (.remote (Dev.tc n6 : Thread nD τ) (outM.slice (Rect.unit (s := S768x768) offd S96x256.size inbd) (fun _ => rfl)) (.dma (semAt cc0_scratch8 ch 6)) hsc6) (.dma (semAt cc0_scratch9 ch 6)) hsrc hdst hsem6) fun _ =>
        Prog.op (.enqueueDma (redV ch) (.remote (Dev.tc n1 : Thread nD τ) (outM.slice (Rect.unit (s := S768x768) offd S96x256.size inbd) (fun _ => rfl)) (.dma (semAt cc0_scratch8 ch 1)) hsc1) (.dma (semAt cc0_scratch9 ch 1)) hsrc hdst hsem1) fun _ =>
        Prog.op (.enqueueDma (redV ch) (.remote (Dev.tc n2 : Thread nD τ) (outM.slice (Rect.unit (s := S768x768) offd S96x256.size inbd) (fun _ => rfl)) (.dma (semAt cc0_scratch8 ch 2)) hsc2) (.dma (semAt cc0_scratch9 ch 2)) hsrc hdst hsem2) fun _ =>
        Prog.op (.enqueueDma (redV ch) (.remote (Dev.tc n4 : Thread nD τ) (outM.slice (Rect.unit (s := S768x768) offd S96x256.size inbd) (fun _ => rfl)) (.dma (semAt cc0_scratch8 ch 4)) hsc4) (.dma (semAt cc0_scratch9 ch 4)) hsrc hdst hsem4) fun _ => k) Q) := by
  subst hoffb
  iintro ⟨#Hrec, #Hlev, HG, HB⟩ Hk
  ihave HG := (GP_chunk (F := F) c ch) $$ HG
  ihave HB := (B4_chunk m c ch) $$ HB
  unfold Tx Pos Cr PeerOut
  rw [bigSep_chunk_sum (F := F) ch fun x => iprop(cred (tallyAt (dcell c 1 x.1 x.2) () N) ∗ atPos ER (dcell c 1 x.1 x.2) 0 ∅ 0),
    bigSep_chunk_sum (F := F) ch fun x => atPos ER (dcell c 1 x.1 x.2) 1 ∅ 0,
    bigSep_chunk_sum ch fun x => pts c (slotV x.1 x.2) fullShare (rsCan m c)]
  icases HG with ⟨⟨%W, HO⟩, HTxc, ⟨Hb1, Hb2, Hb4, Hb3, Hb5, Hb6, Hb7⟩, HGk⟩
  icases HB with ⟨⟨%fa, Hacc⟩, Hs0, ⟨%fr, Hred⟩, ⟨%fo, Hout⟩, HPOc, HBk⟩
  iapply (step_load_slot c ch 0 rfl); iframe Hs0; iintro Hs0
  rw [load_slot m c ch 0 (rsCan m c) (fun _ _ => rfl)]
  iapply (step_load_whole_acc c); iframe Hacc; iintro Hacc
  iapply (step_store_whole_acc c); iframe Hacc; iintro Hacc
  iapply (red_step m K c ch 1 (by decide) (coGE ch.val) _ _ k0_pay11 (fun _ _ => rfl)) $$ [$Hrec $Hlev $Hb1 $HO $Hacc]
  iintro ⟨HO, Hat1, Hs1, Hacc⟩
  iapply (red_step m K c ch 2 (by decide) (coGE ch.val) _ _ k0_pay12 (fun _ _ => rfl)) $$ [$Hrec $Hlev $Hb2 $HO $Hacc]
  iintro ⟨HO, Hat2, Hs2, Hacc⟩
  iapply (red_step m K c ch 4 (by decide) (coGE ch.val) _ _ (fun a s => k0_pay14 (k0_pay13 a s)) (fun _ _ => rfl)) $$ [$Hrec $Hlev $Hb4 $HO $Hacc]
  iintro ⟨HO, Hat4, Hs4, Hacc⟩
  iapply (red_step m K c ch 3 (by decide) (coGE ch.val) _ _ k0_pay15 (fun _ _ => rfl)) $$ [$Hrec $Hlev $Hb3 $HO $Hacc]
  iintro ⟨HO, Hat3, Hs3, Hacc⟩
  iapply (red_step m K c ch 5 (by decide) (coGE ch.val) _ _ k0_pay16 (fun _ _ => rfl)) $$ [$Hrec $Hlev $Hb5 $HO $Hacc]
  iintro ⟨HO, Hat5, Hs5, Hacc⟩
  iapply (red_step m K c ch 6 (by decide) (coGE ch.val) _ _ k0_pay17 (fun _ _ => rfl)) $$ [$Hrec $Hlev $Hb6 $HO $Hacc]
  iintro ⟨HO, Hat6, Hs6, Hacc⟩
  iapply (red_step m K c ch 7 (by decide) (coGE ch.val) _ (acc6 m c ch) k0_pay18 (fun _ _ => rfl)) $$ [$Hrec $Hlev $Hb7 $HO Hacc]
  · iexact Hacc
  iintro ⟨HO, Hat7, Hs7, Hacc⟩
  iapply (step_load_whole_acc c); iframe Hacc; iintro Hacc
  iapply (step_load_red c ch rfl); iframe Hred; iintro Hred
  iapply (step_store_red c ch rfl); iframe Hred; iintro Hred
  have e1 : (pts c (redV ch) fullShare ((redM.access (redRect ch)).write (Elt F) fr (k0_pay20 (k0_pay19 (accStep (acc6 m c ch) (slotRead m c ch 7)))) Finset.univ) : sProp 𝕄)
      = pts c (redV ch) fullShare (redCan m c) :=
    pts_congr fun i hi => store_red m c ch fr i (by rw [red_acc_set]; exact hi)
  ihave Hred := (Entails.of_eq e1) $$ Hred
  iapply (step_load_red c ch rfl); iframe Hred; iintro Hred
  iapply (step_load_out c c ch rfl); iframe Hout; iintro Hout
  iapply (step_store_out c c ch rfl); iframe Hout; iintro Hout
  have e2 : (pts c (outV c ch) fullShare ((outM.access (outRect c ch)).write (Elt F) fo
        (k0_pay21 (redM.view.readAt (Elt F) (redRect ch).toLoadRect (redCan m c))) Finset.univ) : sProp 𝕄)
      = pts c (outV c ch) fullShare (outCan m) :=
    pts_congr (store_out m c ch fo (redCan m c) fun _ _ => rfl)
  ihave Hout := (Entails.of_eq e2) $$ Hout
  ihave T := (red_shares (F := F) c ch (redCan m c)).mp $$ Hred
  rw [bigSep_univ_split (0 : Fin 8), ← bsep]
  icases T with ⟨Hdrop, Ht0, Htoks⟩
  iapply (gather_sends m K c ch n7 n3 n5 n6 n1 n2 n4 hn7 hn3 hn5 hn6 hn1 hn2 hn4 offd hoffd _) $$ [$Hrec $HO $HTxc $HPOc $Htoks]
  iintro ⟨HO, HC2c⟩
  iapply Hk
  isplitl [HGk HO Hat1 Hat2 Hat4 Hat3 Hat5 Hat6 Hat7 HC2c]
  · iapply HGk; iframe; iexists _; iexact HO
  iapply HBk; iframe; iexists _; iexact Hacc

end Cert.KernelIdeal.Proto

end
-- ==== Proof.PhaseWaits.lean ====
import proofs.«900790_g7700000000000791_dist_gated_mlp_tp_i_m768_h1536_d768_v7x_i8_bf16_1_alg».proof.Proof.Steps
import proofs.«900790_g7700000000000791_dist_gated_mlp_tp_i_m768_h1536_d768_v7x_i8_bf16_1_alg».proof.Proof.Bufs

noncomputable section

namespace Cert.KernelIdeal.Proto

open Cert.KernelIdeal.Gen
open Idealize.ShloMosaic
open Idealize.ShloMosaic.TcCoe
open Idealize.SL Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CIx → ℕ) (c : Dev nD)

/-- One wait on the transfer cell (kk, ch, o) once nothing is owed: the transfer leaves `D`, its payload joins those that are back. -/
theorem wait_cell (kk : Fin 4) {D : Finset CO} (ch : Fin 3) (o : Fin 8)
    {sp' sp : Space} {s' s : Shape} {e' e : EltTy} {κ' : Kind} {sem : DmaSem sig}
    {SRCV : Memref sig .tc sp' s' e'} {DSTV : Memref sig κ' sp s e}
    {hs : SRCV.view.WordExact} {hd : DSTV.view.WordExact}
    {α : Type} {Q : α → sProp 𝕄} {k : PUnit → Prog (TpuEff nD τ sig (Elt F) Λ₀ .tc) α}
    (ho : o ≠ 0 := by decide) (hx : (ch, o) ∈ D := by simp)
    (hsem : sem = semAt (karr kk) ch o := by rfl) (hcr : DSTV.view.dmaCredit = N := by rfl) :
    iprop(records m K ∗ (∃ W, owes (c : Thread nD τ) 0 W) ∗ (Pos c kk D 0 ∗ Cr c kk D ∗ Pos c kk (allCO \ D) 1)
        ∗ bigSep (allCO \ D) fun x => dmaPay m c kk x.1 x.2)
      ⊢ iprop((((∃ W, owes (c : Thread nD τ) 0 W)
              ∗ (Pos c kk (D.erase (ch, o)) 0 ∗ Cr c kk (D.erase (ch, o)) ∗ Pos c kk (allCO \ D.erase (ch, o)) 1)
              ∗ bigSep (allCO \ D.erase (ch, o)) fun x => dmaPay m c kk x.1 x.2)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem SRCV DSTV hs hd) k) Q) := by
  have hn : (ch, o) ∉ allCO \ D := by simp [hx]
  unfold Pos Cr
  rw [SparseCore.bigSep_erase' hx, SparseCore.bigSep_erase' hx, Finset.sdiff_erase (by simp [ho]), SparseCore.bigSep_insert' hn,
    SparseCore.bigSep_insert' hn]
  iintro ⟨#HR, ⟨%W, HO⟩, ⟨⟨Hat, HP0⟩, ⟨Hc, HC⟩, HP1⟩, HL⟩ Hk
  iapply (step_drain m K c kk ch o ho hsem hcr W) $$ [HO Hc Hat]
  · iframe
    iapply (inv_of_records m K c kk ch o); iexact HR
  iintro ⟨HO, Hat1, Hp⟩
  iapply Hk
  isplitl [HO]; · iexists _; iexact HO
  iframe

theorem coGE_succ_ag : ∀ ch : Fin 3, (((((((coGE ch.val).erase (ch, 7)).erase (ch, 3)).erase (ch, 5)).erase (ch, 6)).erase (ch, 1)).erase (ch, 2)).erase (ch, 4) = coGE (ch.val + 1) := by decide
theorem coGE_succ_dr : ∀ ch : Fin 3, (((((((coGE ch.val).erase (ch, 1)).erase (ch, 2)).erase (ch, 3)).erase (ch, 4)).erase (ch, 5)).erase (ch, 6)).erase (ch, 7) = coGE (ch.val + 1) := by decide

/-- The seven receive waits of the gather for chunk ch: seven waits on cell 3, in the program's order. -/
theorem phase_ag_waits (ch : Fin 3)
    {S7 S3 S5 S6 S1 S2 S4 : Memref sig .tc .vmem S96x256 .bf16}
    {off7 off3 off5 off6 off1 off2 off4 : Fin 2 → Nat}
    {inb7 : ∀ a, off7 a + S96x256.size a ≤ S768x768.size a} {inb3 : ∀ a, off3 a + S96x256.size a ≤ S768x768.size a}
    {inb5 : ∀ a, off5 a + S96x256.size a ≤ S768x768.size a} {inb6 : ∀ a, off6 a + S96x256.size a ≤ S768x768.size a}
    {inb1 : ∀ a, off1 a + S96x256.size a ≤ S768x768.size a} {inb2 : ∀ a, off2 a + S96x256.size a ≤ S768x768.size a}
    {inb4 : ∀ a, off4 a + S96x256.size a ≤ S768x768.size a}
    {hs7 : S7.view.WordExact} {hs3 : S3.view.WordExact} {hs5 : S5.view.WordExact} {hs6 : S6.view.WordExact}
    {hs1 : S1.view.WordExact} {hs2 : S2.view.WordExact} {hs4 : S4.view.WordExact}
    {hd7 : (outM.slice (Rect.unit (s := S768x768) off7 S96x256.size inb7) (fun _ => rfl)).view.WordExact}
    {hd3 : (outM.slice (Rect.unit (s := S768x768) off3 S96x256.size inb3) (fun _ => rfl)).view.WordExact}
    {hd5 : (outM.slice (Rect.unit (s := S768x768) off5 S96x256.size inb5) (fun _ => rfl)).view.WordExact}
    {hd6 : (outM.slice (Rect.unit (s := S768x768) off6 S96x256.size inb6) (fun _ => rfl)).view.WordExact}
    {hd1 : (outM.slice (Rect.unit (s := S768x768) off1 S96x256.size inb1) (fun _ => rfl)).view.WordExact}
    {hd2 : (outM.slice (Rect.unit (s := S768x768) off2 S96x256.size inb2) (fun _ => rfl)).view.WordExact}
    {hd4 : (outM.slice (Rect.unit (s := S768x768) off4 S96x256.size inb4) (fun _ => rfl)).view.WordExact}
    {α : Type} {Q : α → sProp 𝕄} (k : Prog (TpuEff nD τ sig (Elt F) Λ₀ .tc) α) :
    iprop(records m K ∗ levAts L lv ∗ GP c ∅ true ∅ ∅ ∅ (coGE ch.val) allCO allCO ∗ B5 m c ch.val 0
        ∗ ((GP c ∅ true ∅ ∅ ∅ (coGE (ch.val + 1)) allCO allCO ∗ B5 m c (ch.val + 1) 0)
            -∗ wp frame (wpE (defs₀ (F := F)) 𝒱₀ (c : Thread nD τ) none) Set.univ k Q))
      ⊢ wp frame (wpE (defs₀ (F := F)) 𝒱₀ (c : Thread nD τ) none) Set.univ
              (.op (.waitDma2 (semAt cc0_scratch9 ch 7) S7 (outM.slice (Rect.unit (s := S768x768) off7 S96x256.size inb7) (fun _ => rfl)) hs7 hd7) fun _ =>
                (.op (.waitDma2 (semAt cc0_scratch9 ch 3) S3 (outM.slice (Rect.unit (s := S768x768) off3 S96x256.size inb3) (fun _ => rfl)) hs3 hd3) fun _ =>
                (.op (.waitDma2 (semAt cc0_scratch9 ch 5) S5 (outM.slice (Rect.unit (s := S768x768) off5 S96x256.size inb5) (fun _ => rfl)) hs5 hd5) fun _ =>
                (.op (.waitDma2 (semAt cc0_scratch9 ch 6) S6 (outM.slice (Rect.unit (s := S768x768) off6 S96x256.size inb6) (fun _ => rfl)) hs6 hd6) fun _ =>
                (.op (.waitDma2 (semAt cc0_scratch9 ch 1) S1 (outM.slice (Rect.unit (s := S768x768) off1 S96x256.size inb1) (fun _ => rfl)) hs1 hd1) fun _ =>
                (.op (.waitDma2 (semAt cc0_scratch9 ch 2) S2 (outM.slice (Rect.unit (s := S768x768) off2 S96x256.size inb2) (fun _ => rfl)) hs2 hd2) fun _ =>
                (.op (.waitDma2 (semAt cc0_scratch9 ch 4) S4 (outM.slice (Rect.unit (s := S768x768) off4 S96x256.size inb4) (fun _ => rfl)) hs4 hd4) fun _ =>
                k))))))) Q := by
  unfold GP B5
  simp only [owed_none, ← dmaPay_3 m]
  iintro ⟨#HR, -, ⟨T1, T2, T3, HO, Hb, H1, H3, HG⟩, ⟨HB4, HL, HD⟩, Hk⟩
  iapply (wait_cell m K c 3 ch 7) $$ [$HR $HO $H3 $HL]; iintro ⟨HO, H3, HL⟩
  iapply (wait_cell m K c 3 ch 3) $$ [$HR $HO $H3 $HL]; iintro ⟨HO, H3, HL⟩
  iapply (wait_cell m K c 3 ch 5) $$ [$HR $HO $H3 $HL]; iintro ⟨HO, H3, HL⟩
  iapply (wait_cell m K c 3 ch 6) $$ [$HR $HO $H3 $HL]; iintro ⟨HO, H3, HL⟩
  iapply (wait_cell m K c 3 ch 1) $$ [$HR $HO $H3 $HL]; iintro ⟨HO, H3, HL⟩
  iapply (wait_cell m K c 3 ch 2) $$ [$HR $HO $H3 $HL]; iintro ⟨HO, H3, HL⟩
  iapply (wait_cell m K c 3 ch 4) $$ [$HR $HO $H3 $HL]; iintro ⟨HO, H3, HL⟩
  iapply Hk
  rw [← coGE_succ_ag ch]
  iframe

/-- The fourteen send waits of chunk ch: for each peer, a wait on cell 0 then on cell 2. -/
theorem phase_send_waits (ch : Fin 3)
    {SA1 SA2 SA3 SA4 SA5 SA6 SA7 SB1 SB2 SB3 SB4 SB5 SB6 SB7 : Memref sig .tc .vmem S96x256 .bf16}
    {fA1 fA2 fA3 fA4 fA5 fA6 fA7 fB1 fB2 fB3 fB4 fB5 fB6 fB7 : Fin 3 → Nat}
    {iA1 : ∀ a, fA1 a + S1x96x256.size a ≤ S3x96x256.size a} {iB1 : ∀ a, fB1 a + S1x96x256.size a ≤ S3x96x256.size a}
    {iA2 : ∀ a, fA2 a + S1x96x256.size a ≤ S3x96x256.size a} {iB2 : ∀ a, fB2 a + S1x96x256.size a ≤ S3x96x256.size a}
    {iA3 : ∀ a, fA3 a + S1x96x256.size a ≤ S3x96x256.size a} {iB3 : ∀ a, fB3 a + S1x96x256.size a ≤ S3x96x256.size a}
    {iA4 : ∀ a, fA4 a + S1x96x256.size a ≤ S3x96x256.size a} {iB4 : ∀ a, fB4 a + S1x96x256.size a ≤ S3x96x256.size a}
    {iA5 : ∀ a, fA5 a + S1x96x256.size a ≤ S3x96x256.size a} {iB5 : ∀ a, fB5 a + S1x96x256.size a ≤ S3x96x256.size a}
    {iA6 : ∀ a, fA6 a + S1x96x256.size a ≤ S3x96x256.size a} {iB6 : ∀ a, fB6 a + S1x96x256.size a ≤ S3x96x256.size a}
    {iA7 : ∀ a, fA7 a + S1x96x256.size a ≤ S3x96x256.size a} {iB7 : ∀ a, fB7 a + S1x96x256.size a ≤ S3x96x256.size a}
    {hsA1 : SA1.view.WordExact} {hsB1 : SB1.view.WordExact}
    {hdA1 : ((redM.slice (Rect.unit (s := S3x96x256) fA1 S1x96x256.size iA1) (fun _ => rfl)).squeeze S96x256 squeezes_S1x96x256_S96x256).view.WordExact}
    {hdB1 : ((redM.slice (Rect.unit (s := S3x96x256) fB1 S1x96x256.size iB1) (fun _ => rfl)).squeeze S96x256 squeezes_S1x96x256_S96x256).view.WordExact}
    {hsA2 : SA2.view.WordExact} {hsB2 : SB2.view.WordExact}
    {hdA2 : ((redM.slice (Rect.unit (s := S3x96x256) fA2 S1x96x256.size iA2) (fun _ => rfl)).squeeze S96x256 squeezes_S1x96x256_S96x256).view.WordExact}
    {hdB2 : ((redM.slice (Rect.unit (s := S3x96x256) fB2 S1x96x256.size iB2) (fun _ => rfl)).squeeze S96x256 squeezes_S1x96x256_S96x256).view.WordExact}
    {hsA3 : SA3.view.WordExact} {hsB3 : SB3.view.WordExact}
    {hdA3 : ((redM.slice (Rect.unit (s := S3x96x256) fA3 S1x96x256.size iA3) (fun _ => rfl)).squeeze S96x256 squeezes_S1x96x256_S96x256).view.WordExact}
    {hdB3 : ((redM.slice (Rect.unit (s := S3x96x256) fB3 S1x96x256.size iB3) (fun _ => rfl)).squeeze S96x256 squeezes_S1x96x256_S96x256).view.WordExact}
    {hsA4 : SA4.view.WordExact} {hsB4 : SB4.view.WordExact}
    {hdA4 : ((redM.slice (Rect.unit (s := S3x96x256) fA4 S1x96x256.size iA4) (fun _ => rfl)).squeeze S96x256 squeezes_S1x96x256_S96x256).view.WordExact}
    {hdB4 : ((redM.slice (Rect.unit (s := S3x96x256) fB4 S1x96x256.size iB4) (fun _ => rfl)).squeeze S96x256 squeezes_S1x96x256_S96x256).view.WordExact}
    {hsA5 : SA5.view.WordExact} {hsB5 : SB5.view.WordExact}
    {hdA5 : ((redM.slice (Rect.unit (s := S3x96x256) fA5 S1x96x256.size iA5) (fun _ => rfl)).squeeze S96x256 squeezes_S1x96x256_S96x256).view.WordExact}
    {hdB5 : ((redM.slice (Rect.unit (s := S3x96x256) fB5 S1x96x256.size iB5) (fun _ => rfl)).squeeze S96x256 squeezes_S1x96x256_S96x256).view.WordExact}
    {hsA6 : SA6.view.WordExact} {hsB6 : SB6.view.WordExact}
    {hdA6 : ((redM.slice (Rect.unit (s := S3x96x256) fA6 S1x96x256.size iA6) (fun _ => rfl)).squeeze S96x256 squeezes_S1x96x256_S96x256).view.WordExact}
    {hdB6 : ((redM.slice (Rect.unit (s := S3x96x256) fB6 S1x96x256.size iB6) (fun _ => rfl)).squeeze S96x256 squeezes_S1x96x256_S96x256).view.WordExact}
    {hsA7 : SA7.view.WordExact} {hsB7 : SB7.view.WordExact}
    {hdA7 : ((redM.slice (Rect.unit (s := S3x96x256) fA7 S1x96x256.size iA7) (fun _ => rfl)).squeeze S96x256 squeezes_S1x96x256_S96x256).view.WordExact}
    {hdB7 : ((redM.slice (Rect.unit (s := S3x96x256) fB7 S1x96x256.size iB7) (fun _ => rfl)).squeeze S96x256 squeezes_S1x96x256_S96x256).view.WordExact}
    {α : Type} {Q : α → sProp 𝕄} (k : Prog (TpuEff nD τ sig (Elt F) Λ₀ .tc) α) :
    iprop(records m K ∗ levAts L lv ∗ GP c ∅ true ∅ ∅ ∅ ∅ (coGE ch.val) (coGE ch.val) ∗ B5 m c 3 ch.val
        ∗ ((GP c ∅ true ∅ ∅ ∅ ∅ (coGE (ch.val + 1)) (coGE (ch.val + 1)) ∗ B5 m c 3 (ch.val + 1))
            -∗ wp frame (wpE (defs₀ (F := F)) 𝒱₀ (c : Thread nD τ) none) Set.univ k Q))
      ⊢ wp frame (wpE (defs₀ (F := F)) 𝒱₀ (c : Thread nD τ) none) Set.univ
              (.op (.waitDma2 (semAt cc0_scratch6 ch 1) SA1 ((redM.slice (Rect.unit (s := S3x96x256) fA1 S1x96x256.size iA1) (fun _ => rfl)).squeeze S96x256 squeezes_S1x96x256_S96x256) hsA1 hdA1) fun _ =>
                .op (.waitDma2 (semAt cc0_scratch8 ch 1) SB1 ((redM.slice (Rect.unit (s := S3x96x256) fB1 S1x96x256.size iB1) (fun _ => rfl)).squeeze S96x256 squeezes_S1x96x256_S96x256) hsB1 hdB1) fun _ =>
                (.op (.waitDma2 (semAt cc0_scratch6 ch 2) SA2 ((redM.slice (Rect.unit (s := S3x96x256) fA2 S1x96x256.size iA2) (fun _ => rfl)).squeeze S96x256 squeezes_S1x96x256_S96x256) hsA2 hdA2) fun _ =>
                .op (.waitDma2 (semAt cc0_scratch8 ch 2) SB2 ((redM.slice (Rect.unit (s := S3x96x256) fB2 S1x96x256.size iB2) (fun _ => rfl)).squeeze S96x256 squeezes_S1x96x256_S96x256) hsB2 hdB2) fun _ =>
                (.op (.waitDma2 (semAt cc0_scratch6 ch 3) SA3 ((redM.slice (Rect.unit (s := S3x96x256) fA3 S1x96x256.size iA3) (fun _ => rfl)).squeeze S96x256 squeezes_S1x96x256_S96x256) hsA3 hdA3) fun _ =>
                .op (.waitDma2 (semAt cc0_scratch8 ch 3) SB3 ((redM.slice (Rect.unit (s := S3x96x256) fB3 S1x96x256.size iB3) (fun _ => rfl)).squeeze S96x256 squeezes_S1x96x256_S96x256) hsB3 hdB3) fun _ =>
                (.op (.waitDma2 (semAt cc0_scratch6 ch 4) SA4 ((redM.slice (Rect.unit (s := S3x96x256) fA4 S1x96x256.size iA4) (fun _ => rfl)).squeeze S96x256 squeezes_S1x96x256_S96x256) hsA4 hdA4) fun _ =>
                .op (.waitDma2 (semAt cc0_scratch8 ch 4) SB4 ((redM.slice (Rect.unit (s := S3x96x256) fB4 S1x96x256.size iB4) (fun _ => rfl)).squeeze S96x256 squeezes_S1x96x256_S96x256) hsB4 hdB4) fun _ =>
                (.op (.waitDma2 (semAt cc0_scratch6 ch 5) SA5 ((redM.slice (Rect.unit (s := S3x96x256) fA5 S1x96x256.size iA5) (fun _ => rfl)).squeeze S96x256 squeezes_S1x96x256_S96x256) hsA5 hdA5) fun _ =>
                .op (.waitDma2 (semAt cc0_scratch8 ch 5) SB5 ((redM.slice (Rect.unit (s := S3x96x256) fB5 S1x96x256.size iB5) (fun _ => rfl)).squeeze S96x256 squeezes_S1x96x256_S96x256) hsB5 hdB5) fun _ =>
                (.op (.waitDma2 (semAt cc0_scratch6 ch 6) SA6 ((redM.slice (Rect.unit (s := S3x96x256) fA6 S1x96x256.size iA6) (fun _ => rfl)).squeeze S96x256 squeezes_S1x96x256_S96x256) hsA6 hdA6) fun _ =>
                .op (.waitDma2 (semAt cc0_scratch8 ch 6) SB6 ((redM.slice (Rect.unit (s := S3x96x256) fB6 S1x96x256.size iB6) (fun _ => rfl)).squeeze S96x256 squeezes_S1x96x256_S96x256) hsB6 hdB6) fun _ =>
                (.op (.waitDma2 (semAt cc0_scratch6 ch 7) SA7 ((redM.slice (Rect.unit (s := S3x96x256) fA7 S1x96x256.size iA7) (fun _ => rfl)).squeeze S96x256 squeezes_S1x96x256_S96x256) hsA7 hdA7) fun _ =>
                .op (.waitDma2 (semAt cc0_scratch8 ch 7) SB7 ((redM.slice (Rect.unit (s := S3x96x256) fB7 S1x96x256.size iB7) (fun _ => rfl)).squeeze S96x256 squeezes_S1x96x256_S96x256) hsB7 hdB7) fun _ =>
                k))))))) Q := by
  unfold GP B5
  simp only [owed_none, Finset.sdiff_empty, BI.bigSep_sep', ← dmaPay_0 m, ← dmaPay_2 m]
  iintro ⟨#HR, -, ⟨T1, T2, T3, HO, Hb, H1, H3, H0, H2, HZ⟩, ⟨HB4, HL, P0, P2⟩, Hk⟩
  iapply (wait_cell m K c 0 ch 1) $$ [$HR $HO $H0 $P0]; iintro ⟨HO, H0, P0⟩
  iapply (wait_cell m K c 2 ch 1) $$ [$HR $HO $H2 $P2]; iintro ⟨HO, H2, P2⟩
  iapply (wait_cell m K c 0 ch 2) $$ [$HR $HO $H0 $P0]; iintro ⟨HO, H0, P0⟩
  iapply (wait_cell m K c 2 ch 2) $$ [$HR $HO $H2 $P2]; iintro ⟨HO, H2, P2⟩
  iapply (wait_cell m K c 0 ch 3) $$ [$HR $HO $H0 $P0]; iintro ⟨HO, H0, P0⟩
  iapply (wait_cell m K c 2 ch 3) $$ [$HR $HO $H2 $P2]; iintro ⟨HO, H2, P2⟩
  iapply (wait_cell m K c 0 ch 4) $$ [$HR $HO $H0 $P0]; iintro ⟨HO, H0, P0⟩
  iapply (wait_cell m K c 2 ch 4) $$ [$HR $HO $H2 $P2]; iintro ⟨HO, H2, P2⟩
  iapply (wait_cell m K c 0 ch 5) $$ [$HR $HO $H0 $P0]; iintro ⟨HO, H0, P0⟩
  iapply (wait_cell m K c 2 ch 5) $$ [$HR $HO $H2 $P2]; iintro ⟨HO, H2, P2⟩
  iapply (wait_cell m K c 0 ch 6) $$ [$HR $HO $H0 $P0]; iintro ⟨HO, H0, P0⟩
  iapply (wait_cell m K c 2 ch 6) $$ [$HR $HO $H2 $P2]; iintro ⟨HO, H2, P2⟩
  iapply (wait_cell m K c 0 ch 7) $$ [$HR $HO $H0 $P0]; iintro ⟨HO, H0, P0⟩
  iapply (wait_cell m K c 2 ch 7) $$ [$HR $HO $H2 $P2]; iintro ⟨HO, H2, P2⟩
  iapply Hk
  rw [← coGE_succ_dr ch]
  iframe

end Cert.KernelIdeal.Proto

end
-- ==== Proof.BufMoves.lean ====
import proofs.«900790_g7700000000000791_dist_gated_mlp_tp_i_m768_h1536_d768_v7x_i8_bf16_1_alg».proof.Proof.Bufs
import proofs.«900790_g7700000000000791_dist_gated_mlp_tp_i_m768_h1536_d768_v7x_i8_bf16_1_alg».proof.Proof.Tiles
import proofs.«900790_g7700000000000791_dist_gated_mlp_tp_i_m768_h1536_d768_v7x_i8_bf16_1_alg».proof.Proof.Steps
import Idealize.ShloMosaic.Lib.SparseCore.Launch

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ

variable (m : (ℓ : Loc nD τ sig) → Buf (Elt F) ℓ) (c : Dev nD)

theorem lo_3 : lo 3 = Finset.univ := by decide
theorem hi_3 : hi 3 = ∅ := by decide
theorem lo_0 : lo 0 = ∅ := by decide
theorem hi_0 : hi 0 = Finset.univ := by decide
theorem coGE_3 : coGE 3 = ∅ := by decide
theorem coGE_0 : coGE 0 = allCO := by decide

-- members held at one known contents are members held at some contents each
theorem bigSep_ex {T β : Type} (s : Finset T) (Φ : T → β → sProp 𝕄) (f : β) :
    bigSep s (fun t => Φ t f) ⊢ bigSep s fun t => iprop(∃ f, Φ t f) :=
  bigSep_mono fun t _ => exists_intro (Φ := Φ t) f

theorem red_cut : iprop(∃ f, pts c redM fullShare f) ⊢ (bigSep Finset.univ fun ch : Fin 3 => iprop(∃ f, pts c (redV ch) fullShare f) : sProp 𝕄) :=
  exists_elim fun f => (red_tile c f).1.trans (bigSep_ex _ _ f)

theorem b13 : iprop((IN m c ∗ (∃ f, pts c actM fullShare f) ∗ (∃ f, pts c wdbM fullShare f) ∗ (∃ f, pts c redM fullShare f) ∗ (∃ f, pts c accM fullShare f)
      ∗ (∃ f, pts c pM fullShare f)
      ∗ (bigSep Finset.univ fun ch : Fin 3 => iprop(∃ f, pts c (slotV ch 0) fullShare f))
      ∗ (bigSep Finset.univ fun ch : Fin 3 => iprop(∃ f, pts c (outV c ch) fullShare f)))
      ∗ PeerSlots c allCO ∗ PeerOut c allCO) ⊣⊢ (B1 m c : sProp 𝕄) := by
  unfold B1
  constructor
  · iintro ⟨⟨H0, H1, H2, H3, H4, H5, H6, H7⟩, H8, H9⟩; iframe
  · iintro ⟨H0, H1, H2, H3, H4, H5, H6, H7, H8, H9⟩; iframe

theorem b34 : B3 m c 3 ⊢ (B4 m c 0 : sProp 𝕄) := by
  unfold B3 B4 PeerSlots
  rw [lo_3, hi_3, lo_0, hi_0, coGE_3, coGE_0, Finset.sdiff_self]
  simp only [bigSep_empty]
  iintro ⟨HIN, Hact, Hwdb, Hred, Hacc, Hp, E1, Hs, E2, Hout, E3, Hpo⟩
  ihave Hr := red_cut c $$ Hred
  iframe

theorem b45 : B4 m c 3 ⊢ (B5 m c 0 0 : sProp 𝕄) := by
  unfold B5
  rw [coGE_0, Finset.sdiff_self]
  simp only [bigSep_empty]
  iintro H; iframe; isplitr <;> iempintro

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_allCO_chunks (Ψ : CO → sProp 𝕄) :
    bigSep allCO Ψ = bigSep Finset.univ fun ch : Fin 3 => bigSep (Finset.univ.erase (0 : Fin 8)) fun o => Ψ (ch, o) :=
  SparseCore.bigSep_product _ _ Ψ

theorem bigSep_allCO (Ψ : CO → sProp 𝕄) :
    bigSep allCO Ψ = bigSep (Finset.univ.erase (0 : Fin 8)) fun o => iprop(Ψ (0, o) ∗ Ψ (1, o) ∗ Ψ (2, o)) := by
  rw [bigSep_allCO_chunks, bigSep_fin3, ← bigSep_sep', ← bigSep_sep']

theorem bigSep_co (Ψ : CO → sProp 𝕄) :
    bigSep Finset.univ Ψ = iprop(bigSep allCO Ψ ∗ bigSep Finset.univ fun ch : Fin 3 => Ψ (ch, 0)) := by
  rw [bigSep_sdiff_split (Finset.subset_univ allCO), allCO_compl, bigSep_map]
  all_goals rfl

-- a family over (chunk, device): the members at the peers of c, indexed by allCO, and the members at c
theorem bigSep_cd (Ψ : Fin 3 → Dev nD → sProp 𝕄) :
    (bigSep Finset.univ fun t : Fin 3 × Dev nD => Ψ t.1 t.2)
      = iprop((bigSep allCO fun x : CO => Ψ x.1 (peer c x.2)) ∗ bigSep Finset.univ fun ch : Fin 3 => Ψ ch c) := by
  rw [bigSep_univ_equiv ((Equiv.refl (Fin 3)).prodCongr (peerEquiv' c)), bigSep_co]
  show iprop(_ ∗ bigSep Finset.univ fun ch : Fin 3 => Ψ ch (peer c 0)) = _
  rw [peer_zero]; rfl

theorem pts_cover_ex {ℓ : Loc nD τ sig} {T : Type} [Fintype T] [DecidableEq T] (K : T → Finset (Idx ℓ)) (S : Finset (Idx ℓ))
    (q : PosShare TreeShare) (f₀ : Buf (Elt F) ℓ)
    (hd : ∀ t t', t ≠ t' → Disjoint (K t) (K t')) (hc : ∀ i, i ∈ S ↔ ∃ t, i ∈ K t) :
    (bigSep Finset.univ fun t => iprop(∃ f : Buf (Elt F) ℓ, ℓ ↦[K t]{q} f) : sProp 𝕄) ⊢ iprop(∃ f : Buf (Elt F) ℓ, ℓ ↦[S]{q} f) := by
  haveI : ∀ _ : T, Nonempty (Buf (Elt F) ℓ) := fun _ => ⟨f₀⟩
  iintro H
  ihave H' := (bigSep_exists_pi (Y := fun _ : T => Buf (Elt F) ℓ) Finset.univ (fun t f => (ℓ ↦[K t]{q} f : sProp 𝕄))) $$ H
  icases H' with ⟨%fs, H⟩
  ihave H'' := (pointsTo_biUnion_join Finset.univ K fs f₀ (fun t _ t' _ h => hd t t' h)) $$ H
  icases H'' with ⟨%g, %hg, H⟩
  iexists g
  rw [show S = Finset.univ.biUnion K from by ext i; simp only [hc, Finset.mem_biUnion, Finset.mem_univ, true_and]]
  iexact H

-- all slots: those with slot index 0, and those indexed by allCO
theorem rs_cut (g : Buf (Elt F) (rsM.view.loc (c : Thread nD τ))) :
    (pts c rsM fullShare g : sProp 𝕄) ⊣⊢ iprop((bigSep Finset.univ fun ch : Fin 3 => pts c (slotV ch 0) fullShare g)
      ∗ bigSep allCO fun x : CO => pts c (slotV x.1 x.2) fullShare g) := by
  have h := rs_tile c g
  rw [bigSep_co] at h
  exact h.trans sep_comm

-- all blocks: those of the rows of c, and those of the rows of its peers, indexed by allCO
theorem out_cut (f : Buf (Elt F) (outM.view.loc (c : Thread nD τ))) :
    (((c : Thread nD τ).loc cc0_stg4_0) ↦{fullShare} f : sProp 𝕄) ⊣⊢ iprop((bigSep Finset.univ fun ch : Fin 3 => pts c (outV c ch) fullShare f)
      ∗ bigSep allCO fun x : CO => pts c (outV (peer c x.2) x.1) fullShare f) := by
  have h := out_tile c f
  rw [outM_set, (bigSep_univ_equiv (Equiv.prodComm _ _) _).trans (bigSep_cd c fun ch d => pts c (outV d ch) fullShare f)] at h
  exact h.trans sep_comm

theorem rs_split (g : Buf (Elt F) (rsM.view.loc (c : Thread nD τ))) :
    (pts c rsM fullShare g : sProp 𝕄) ⊢ iprop((bigSep Finset.univ fun ch : Fin 3 => iprop(∃ f, pts c (slotV ch 0) fullShare f))
      ∗ bigSep allCO fun x : CO => iprop(∃ f, pts c (slotV x.1 x.2) fullShare f)) :=
  (rs_cut c g).1.trans (BI.sep_mono (bigSep_ex _ _ g) (bigSep_ex _ _ g))

theorem out_split (f : Buf (Elt F) (outM.view.loc (c : Thread nD τ))) :
    (((c : Thread nD τ).loc cc0_stg4_0) ↦{fullShare} f : sProp 𝕄) ⊢ iprop((bigSep Finset.univ fun ch : Fin 3 => iprop(∃ f, pts c (outV c ch) fullShare f))
      ∗ bigSep allCO fun x : CO => iprop(∃ f, pts c (outV (peer c x.2) x.1) fullShare f)) :=
  (out_cut c f).1.trans (BI.sep_mono (bigSep_ex _ _ f) (bigSep_ex _ _ f))

-- two families over allCO, regrouped peer by peer
theorem pay_join :
    iprop((bigSep allCO fun x : CO => iprop(∃ f, pts c (slotV x.1 x.2) fullShare f))
      ∗ bigSep allCO fun x : CO => iprop(∃ f, pts c (outV (peer c x.2) x.1) fullShare f))
      ⊢ (bigSep (Finset.univ.erase (0 : Fin 8)) fun o => barPay (F := F) (peer c o) o : sProp 𝕄) := by
  rw [bigSep_allCO, bigSep_allCO, ← bigSep_sep']
  refine bigSep_mono fun o _ => ?_
  rw [barPay_self]
  refine (show _ ⊢ (_ : sProp 𝕄) from ?_)
  iintro ⟨⟨A0, A1, A2⟩, B0, B1, B2⟩; iframe

theorem b_start : iprop(IN m c ∗ scratch c ∗ (∃ X, stg c cc0_stg4_0 X) : sProp 𝕄)
    ⊢ iprop((IN m c ∗ (∃ f, pts c actM fullShare f) ∗ (∃ f, pts c wdbM fullShare f) ∗ (∃ f, pts c redM fullShare f) ∗ (∃ f, pts c accM fullShare f)
      ∗ (∃ f, pts c pM fullShare f)
      ∗ (bigSep Finset.univ fun ch : Fin 3 => iprop(∃ f, pts c (slotV ch 0) fullShare f))
      ∗ (bigSep Finset.univ fun ch : Fin 3 => iprop(∃ f, pts c (outV c ch) fullShare f)))
      ∗ bigSep (Finset.univ.erase (0 : Fin 8)) fun o => barPay (F := F) (peer c o) o) := by
  unfold scratch
  iintro ⟨HIN, ⟨Hp, ⟨%g, Hrs⟩, Hact, Hwdb, Hred, Hacc⟩, ⟨%X, %f, %hf, Hout⟩⟩
  ihave Hrs' := (rs_split c g) $$ Hrs
  icases Hrs' with ⟨Hs0, Hsx⟩
  ihave Hout' := (out_split c f) $$ Hout
  icases Hout' with ⟨Ho0, Hox⟩
  ihave Hpay := (pay_join c) $$ [$Hsx $Hox]
  iframe

theorem rs_join :
    iprop((bigSep Finset.univ fun ch : Fin 3 => pts c (slotV ch 0) fullShare (rsCan m c))
      ∗ bigSep allCO fun x : CO => pts c (slotV x.1 x.2) fullShare (rsCan m c))
      ⊢ (iprop(∃ f, pts c rsM fullShare f) : sProp 𝕄) :=
  (rs_cut c _).2.trans (exists_intro _)

theorem out_join :
    iprop((bigSep Finset.univ fun ch : Fin 3 => pts c (outV c ch) fullShare (outCan m))
      ∗ bigSep allCO fun x : CO => pts c (outV (peer c x.2) x.1) fullShare (outCan m))
      ⊢ (stg c cc0_stg4_0 (outCan m) : sProp 𝕄) := by
  iintro H
  iexists (outCan m)
  isplitr; · ipureintro; rfl
  iapply (out_cut c (outCan m)).2; iexact H

-- row blocks at known contents and row blocks at some contents together cover the buffer
theorem p_join :
    iprop((bigSep Finset.univ fun ch : Fin 3 => pts c (prowV ch c) fullShare (pCan m c))
      ∗ bigSep allCO fun x : CO => iprop(∃ f, pts c (prowV x.1 (peer c x.2)) fullShare f))
      ⊢ (iprop(∃ f, pts c pM fullShare f) : sProp 𝕄) := by
  have hB := pts_cover_ex (F := F) (ℓ := pM.view.loc (c : Thread nD τ)) (fun t : Fin 3 × Dev nD => (prowRect t.1 t.2).set)
    pM.view.set fullShare (pCan m c) prow_disj
    (fun i => ⟨fun _ => ⟨(i 0, prowBlk i), prow_cov i⟩, fun _ => by rw [pM_set]; exact Finset.mem_univ _⟩)
  simp only [← prowV_pts c] at hB
  rw [bigSep_cd c fun ch d => iprop(∃ f, pts c (prowV ch d) fullShare f)] at hB
  exact (sep_comm.1.trans (sep_mono_right (bigSep_ex _ _ (pCan m c)))).trans hB

-- per chunk the remainder share and the eight tokens make the full share
theorem red_join :
    iprop((bigSep Finset.univ fun ch : Fin 3 =>
          iprop(pts c (redV ch) (Transfers.shareDrop fullShare 8) (redCan m c) ∗ pts c (redV ch) (redShare 0) (redCan m c)))
      ∗ bigSep allCO fun x : CO => pts c (redV x.1) (redShare x.2) (redCan m c))
      ⊢ (iprop(∃ f, pts c redM fullShare f) : sProp 𝕄) := by
  rw [bigSep_allCO_chunks, ← bigSep_sep']
  refine ((bigSep_mono fun ch _ => (show _ ⊢ (_ : sProp 𝕄) from sep_assoc.1.trans ?_)).trans (red_tile c (redCan m c)).2).trans (exists_intro (Φ := fun f => pts c redM fullShare f) _)
  have h := (red_shares c ch (redCan m c)).2
  rwa [bigSep_univ_at _ (0 : Fin 8)] at h

theorem b_final : B5 m c 3 3 ⊢ iprop(IN m c ∗ scratch c ∗ stg c cc0_stg4_0 (outCan m) : sProp 𝕄) := by
  unfold B5 B4 scratch
  rw [coGE_3, lo_3, Finset.sdiff_empty, bigSep_sep' allCO]
  iintro ⟨⟨HIN, Hact, Hwdb, Hacc, Hp0, Hs0, Hsx, Hred0, -, Ho0, -, -⟩, Hox, Hpl, Hrx⟩
  ihave Hp := (p_join m c) $$ [$Hp0 $Hpl]
  ihave Hrs := (rs_join m c) $$ [$Hs0 $Hsx]
  ihave Hred := (red_join m c) $$ [$Hred0 $Hrx]
  ihave Hout := (out_join m c) $$ [$Ho0 $Hox]
  iframe
  isplitl [Hact] <;> iexists _ <;> iassumption

end Cert.KernelIdeal.Proto

end
-- ==== Proof.BodyClose.lean ====
import proofs.«900790_g7700000000000791_dist_gated_mlp_tp_i_m768_h1536_d768_v7x_i8_bf16_1_alg».proof.Proof.BufMoves

noncomputable section

namespace Cert.KernelIdeal.Proto

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem body_close (K : Dev nD × CIx → ℕ) (c : Dev nD) (Kt : PUnit → sProp 𝕄) :
    iprop(records m K ∗ GP₁ c ∗ B5 m c 3 3 ∗ (bodyPost m ρ c -∗ Kt ⟨⟩))
      ⊢ wp frame (wpE (defs₀ (F := F)) 𝒱₀ (c : Thread nD τ) none) Set.univ (Prog.ret ⟨⟩) Kt := by
  iintro ⟨#Hrec, HG, HB, Hk⟩
  imod (gp_close m ρ K c) $$ [$Hrec $HG] with ⟨Hsem, Hown⟩
  ihave HB' := (b_final m c) $$ HB
  unfold IN
  icases HB' with ⟨⟨H0, H1, H2, H3⟩, Hscr, Hout⟩
  rw [wp_ret]
  imodintro
  iapply Hk
  unfold bodyPost Φ₁
  iframe

end Cert.KernelIdeal.Proto

end
-- ==== Proof.Glue.lean ====
import proofs.«900790_g7700000000000791_dist_gated_mlp_tp_i_m768_h1536_d768_v7x_i8_bf16_1_alg».proof.Proof.BufMoves
import proofs.«900790_g7700000000000791_dist_gated_mlp_tp_i_m768_h1536_d768_v7x_i8_bf16_1_alg».proof.Proof.Chunks

noncomputable section

namespace Cert.KernelIdeal.Proto

open Cert.KernelIdeal Cert.KernelIdeal.Gen
open Idealize.ShloMosaic Idealize.ShloMosaic.TcCoe
open Idealize.SL Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ)

theorem coGE_last : coGE ((2 : Fin 3).val + 1) = ∅ := coGE_three
theorem coGE_first : coGE (0 : Fin 3).val = allCO := coGE_zero

theorem gp_entry_scatter (c : Dev nD) :
    GP c ∅ true allCO allCO allCO allCO allCO allCO = (GP c ∅ true (coGE (0 : Fin 3).val) allCO allCO allCO allCO allCO : sProp 𝕄) := by
  rw [coGE_first]

theorem gp_scatter_reduce (c : Dev nD) :
    GP c ∅ true (coGE ((2 : Fin 3).val + 1)) allCO allCO allCO allCO allCO
      = (GP c ∅ true ∅ (coGE (0 : Fin 3).val) (coGE (0 : Fin 3).val) allCO allCO allCO : sProp 𝕄) := by
  rw [coGE_last, coGE_first]

theorem gp_reduce_agw (c : Dev nD) :
    GP c ∅ true ∅ (coGE ((2 : Fin 3).val + 1)) (coGE ((2 : Fin 3).val + 1)) allCO allCO allCO
      = (GP c ∅ true ∅ ∅ ∅ (coGE (0 : Fin 3).val) allCO allCO : sProp 𝕄) := by
  rw [coGE_last, coGE_first]

theorem gp_agw_sendw (c : Dev nD) :
    GP c ∅ true ∅ ∅ ∅ (coGE ((2 : Fin 3).val + 1)) allCO allCO
      = (GP c ∅ true ∅ ∅ ∅ ∅ (coGE (0 : Fin 3).val) (coGE (0 : Fin 3).val) : sProp 𝕄) := by
  rw [coGE_last, coGE_first]

theorem gp_sendw_end (c : Dev nD) :
    GP c ∅ true ∅ ∅ ∅ ∅ (coGE ((2 : Fin 3).val + 1)) (coGE ((2 : Fin 3).val + 1)) = (GP₁ c : sProp 𝕄) := by
  rw [coGE_last]

theorem b_scatter_reduce (c : Dev nD) : B3 m c ((2 : Fin 3).val + 1) ⊢ (B4 m c (0 : Fin 3).val : sProp 𝕄) := b34 m c

theorem b_reduce_agw (c : Dev nD) : B4 m c ((2 : Fin 3).val + 1) ⊢ (B5 m c (0 : Fin 3).val 0 : sProp 𝕄) := b45 m c

theorem b_agw_sendw (c : Dev nD) : B5 m c ((2 : Fin 3).val + 1) 0 ⊢ (B5 m c 3 (0 : Fin 3).val : sProp 𝕄) := BI.Entails.refl _

theorem b_sendw_end (c : Dev nD) : B5 m c 3 ((2 : Fin 3).val + 1) ⊢ (B5 m c 3 3 : sProp 𝕄) := BI.Entails.refl _

end Cert.KernelIdeal.Proto

end
-- ==== Proof.Body.lean ====
import proofs.«900790_g7700000000000791_dist_gated_mlp_tp_i_m768_h1536_d768_v7x_i8_bf16_1_alg».proof.Proof.PhaseCompute
import proofs.«900790_g7700000000000791_dist_gated_mlp_tp_i_m768_h1536_d768_v7x_i8_bf16_1_alg».proof.Proof.PhaseScatter
import proofs.«900790_g7700000000000791_dist_gated_mlp_tp_i_m768_h1536_d768_v7x_i8_bf16_1_alg».proof.Proof.PhaseReduce
import proofs.«900790_g7700000000000791_dist_gated_mlp_tp_i_m768_h1536_d768_v7x_i8_bf16_1_alg».proof.Proof.PhaseWaits
import proofs.«900790_g7700000000000791_dist_gated_mlp_tp_i_m768_h1536_d768_v7x_i8_bf16_1_alg».proof.Proof.BodyClose
import proofs.«900790_g7700000000000791_dist_gated_mlp_tp_i_m768_h1536_d768_v7x_i8_bf16_1_alg».proof.Proof.Glue

noncomputable section

namespace Cert.KernelIdeal.Proto

open Cert.KernelIdeal Cert.KernelIdeal.Gen
open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
theorem sound_body (K : Dev nD × CIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyCall (F := F)) Kt := by
  unfold bodyCall
  rw [cc0_body_eq_skeleton]; unfold cc0_body_skel k0_part61
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, wp_deviceId]
  unfold bodyPre ghost
  iintro ⟨⟨⟨⟨#Hrec, Hpos, Htok⟩, Hcr, #Hlev, Hscr⟩, Ho, Hx, Hg, Hu, Hd, Hout⟩, Hk⟩
  ihave HGP := (gp_intro m ρ c) $$ [$Hpos $Htok $Hcr $Ho]
  ihave HB := (b_start m c) $$ [Hx Hg Hu Hd Hscr Hout]
  · unfold IN; iframe
  icases HB with ⟨Hkeep, Hgive⟩
  iapply (phase_entry m K c _ _ _ _ _ _ _ (dev1_eq c) (dev2_eq c) (dev3_eq c) (dev4_eq c) (dev5_eq c) (dev6_eq c) (dev7_eq c) _)
  iframe Hrec Hlev HGP Hgive
  iintro ⟨HGP, HPS, HPO⟩
  ihave HB1 := (b13 m c).1 $$ [$Hkeep $HPS $HPO]
  iapply (phase_compute (F := F) m c _)
  iframe HB1
  iintro HB3
  ihave HGP := (Entails.of_eq (gp_entry_scatter c)) $$ HGP
  iapply (phase_scatter (F := F) m K c 0 (dev8_eq c) (dev9_eq c) (dev10_eq c) (dev11_eq c) (dev12_eq c) (dev13_eq c) (dev14_eq c)
      (k0_off1_eq c) (off2_eq c 6) (off2_eq c 2) (off2_eq c 4) (off2_eq c 5) (off2_eq c 0) (off2_eq c 1) (off2_eq c 3)) $$ [$Hrec $Hlev HGP HB3]
  · isplitl [HGP]; · iexact HGP
    iexact HB3
  iintro ⟨HGP, HB3⟩
  iapply (phase_scatter (F := F) m K c 1 (dev15_eq c) (dev16_eq c) (dev17_eq c) (dev18_eq c) (dev19_eq c) (dev20_eq c) (dev21_eq c)
      (k0_off3_eq c) (off4_eq c 6) (off4_eq c 2) (off4_eq c 4) (off4_eq c 5) (off4_eq c 0) (off4_eq c 1) (off4_eq c 3)) $$ [$Hrec $Hlev HGP HB3]
  · isplitl [HGP]; · iexact HGP
    iexact HB3
  iintro ⟨HGP, HB3⟩
  iapply (phase_scatter (F := F) m K c 2 (dev22_eq c) (dev23_eq c) (dev24_eq c) (dev25_eq c) (dev26_eq c) (dev27_eq c) (dev28_eq c)
      (k0_off5_eq c) (off6_eq c 6) (off6_eq c 2) (off6_eq c 4) (off6_eq c 5) (off6_eq c 0) (off6_eq c 1) (off6_eq c 3)) $$ [$Hrec $Hlev HGP HB3]
  · isplitl [HGP]; · iexact HGP
    iexact HB3
  iintro ⟨HGP, HB3⟩
  ihave HGP := (Entails.of_eq (gp_scatter_reduce c)) $$ HGP
  ihave HB4 := (b_scatter_reduce m c) $$ HB3
  iapply (phase_reduce (F := F) m K c 0 _ _ _ _ _ _ _ (dev29_eq c) (dev30_eq c) (dev31_eq c) (dev32_eq c) (dev33_eq c) (dev34_eq c) (dev35_eq c)
      _ _ (k0_off7_eq c) (k0_off8_eq c)) $$ [$Hrec $Hlev HGP HB4]
  · isplitl [HGP]; · iexact HGP
    iexact HB4
  iintro ⟨HGP, HB4⟩
  iapply (phase_reduce (F := F) m K c 1 _ _ _ _ _ _ _ (dev36_eq c) (dev37_eq c) (dev38_eq c) (dev39_eq c) (dev40_eq c) (dev41_eq c) (dev42_eq c)
      _ _ (k0_off9_eq c) (k0_off10_eq c)) $$ [$Hrec $Hlev HGP HB4]
  · isplitl [HGP]; · iexact HGP
    iexact HB4
  iintro ⟨HGP, HB4⟩
  iapply (phase_reduce (F := F) m K c 2 _ _ _ _ _ _ _ (dev43_eq c) (dev44_eq c) (dev45_eq c) (dev46_eq c) (dev47_eq c) (dev48_eq c) (dev49_eq c)
      _ _ (k0_off11_eq c) (k0_off12_eq c)) $$ [$Hrec $Hlev HGP HB4]
  · isplitl [HGP]; · iexact HGP
    iexact HB4
  iintro ⟨HGP, HB4⟩
  ihave HGP := (Entails.of_eq (gp_reduce_agw c)) $$ HGP
  ihave HB5 := (b_reduce_agw m c) $$ HB4
  iapply (phase_ag_waits (F := F) m K c 0 _)
  iframe Hrec Hlev
  isplitl [HGP]; · iexact HGP
  isplitl [HB5]; · iexact HB5
  iintro ⟨HGP, HB5⟩
  iapply (phase_ag_waits (F := F) m K c 1 _)
  iframe Hrec Hlev
  isplitl [HGP]; · iexact HGP
  isplitl [HB5]; · iexact HB5
  iintro ⟨HGP, HB5⟩
  iapply (phase_ag_waits (F := F) m K c 2 _)
  iframe Hrec Hlev
  isplitl [HGP]; · iexact HGP
  isplitl [HB5]; · iexact HB5
  iintro ⟨HGP, HB5⟩
  ihave HGP := (Entails.of_eq (gp_agw_sendw c)) $$ HGP
  ihave HB5 := (b_agw_sendw m c) $$ HB5
  iapply (phase_send_waits (F := F) m K c 0 _)
  iframe Hrec Hlev
  isplitl [HGP]; · iexact HGP
  isplitl [HB5]; · iexact HB5
  iintro ⟨HGP, HB5⟩
  iapply (phase_send_waits (F := F) m K c 1 _)
  iframe Hrec Hlev
  isplitl [HGP]; · iexact HGP
  isplitl [HB5]; · iexact HB5
  iintro ⟨HGP, HB5⟩
  iapply (phase_send_waits (F := F) m K c 2 _)
  iframe Hrec Hlev
  isplitl [HGP]; · iexact HGP
  isplitl [HB5]; · iexact HB5
  iintro ⟨HGP, HB5⟩
  ihave HGP := (Entails.of_eq (gp_sendw_end c)) $$ HGP
  ihave HB5 := (b_sendw_end m c) $$ HB5
  iapply (body_close (F := F) m ρ K c Kt)
  iframe Hrec HGP HB5 Hk

end Cert.KernelIdeal.Proto

end
-- ==== Proof.LaunchCredit.lean ====
import proofs.«900790_g7700000000000791_dist_gated_mlp_tp_i_m768_h1536_d768_v7x_i8_bf16_1_alg».proof.Proof.Levels

noncomputable section

namespace Cert.KernelIdeal.Proto

open Idealize.ShloMosaic
open Idealize.SL Idealize.SL.BI
open Idealize.SL.BI.BIBase Idealize.SL.BI.Laws

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sum_units (g : GSem nD τ sig) :
    (∑ _o ∈ Finset.univ.erase (0 : Fin 8), (tallyAt g () 1 : CellTallies nD τ sig Unit)) = tallyAt g () 7 := by
  funext g'; refine Finsupp.ext fun u => ?_
  rw [Finset.sum_apply, Finsupp.finsetSum_apply]
  simp only [tallyAt_apply]
  rw [Finset.sum_const, show (Finset.univ.erase (0 : Fin 8)).card = 7 from by decide]
  split <;> rfl

omit [FloatOps F] in
-- exchanging across a fixed bit pattern is an involution, so the dues to the peers' cells sum to credit on a device's own cells
theorem launch_creds (c : Dev nD) : (Pipeline.launchCred O₀ c : sProp 𝕄) ⊢ creds c := by
  have hB (k : Fin 4) : (bigSep allCO fun x : CO => (Pipeline.launchCred (fun d => tallyAt (dcell (peer d x.2) k x.1 x.2) () N) c : sProp 𝕄))
      ⊢ bigSep allCO fun x : CO => cred (tallyAt (dcell c k x.1 x.2) () N) :=
    bigSep_mono fun x _ =>
      Pipeline.launchCred_tallyAt (dsem k x.1 x.2) (fun d => peer d x.2) (fun d => peer d x.2) (fun d => peer_peer d x.2) (fun d => peer_peer d x.2) () N c
  unfold O₀ owedFrom creds
  rw [Pipeline.launchCred_add, Pipeline.launchCred_add, Pipeline.launchCred_sum, Pipeline.launchCred_sum, Pipeline.launchCred_sum,
    bigSep_sep', ← sum_units, Pipeline.cred_finsetSum]
  exact sep_assoc.1.trans (BI.sep_mono (bigSep_mono fun o _ =>
    Pipeline.launchCred_tallyAt (.reg barS) (fun d => peer d o) (fun d => peer d o) (fun d => peer_peer d o) (fun d => peer_peer d o) () 1 c)
    (BI.sep_mono (hB 1) (hB 3)))

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) _ _ _
    · show _ ⊢ MayWait _ _ _ 0
      rw [MayWait_zero]; iintro -; iempintro

end Cert.KernelIdeal.Proto

end
-- ==== Proof.FinalOut.lean ====
import proofs.«900790_g7700000000000791_dist_gated_mlp_tp_i_m768_h1536_d768_v7x_i8_bf16_1_alg».proof.Proof.Proto
import proofs.«900790_g7700000000000791_dist_gated_mlp_tp_i_m768_h1536_d768_v7x_i8_bf16_1_alg».proof.Proof.Gen.KernelIdeal.Points

noncomputable section

namespace Cert.KernelIdeal.Proto

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

theorem arrAt_out (c : Dev nD) :
    (dats m ρ 0 c).arrAt (4 : Fin cfg0.W) cfg0.N
      = (outCan m : Buf (Elt F) ((cfg0.win (4 : Fin cfg0.W)).arr.view.loc (c : Thread nD τ))) := by
  show (dats m ρ 0 c).arrAt (4 : Fin cfg0.W) ((t0 : Fin cfg0.N).val + 1) = _
  rw [Dat.arrAt_succ, if_pos (flush0_4 _)]
  exact Memref.write_access_unit_zero_univ (Elt F) main_v1 (funext fun a => Nat.zero_mul _) _ _ _

end Cert.KernelIdeal.Proto

end
-- ==== Proof.Storable.lean ====
import proofs.«900790_g7700000000000791_dist_gated_mlp_tp_i_m768_h1536_d768_v7x_i8_bf16_1_alg».proof.Proof.Proto

noncomputable section

namespace Cert.KernelIdeal.Proto

open Idealize.ShloMosaic
open Idealize.SL Idealize.SL.RA

variable {F : FTy → Type} [FloatOps F]

local notation "𝕄" => MT nD τ sig Unit (Elt F) ℕ UU ℕ

variable (m : (ℓ : Loc nD τ sig) → Buf (Elt F) ℓ)

omit [FloatOps F] in
theorem ex_pts_storable {sp : Space} {s : Shape} {e : EltTy} (c : Dev nD) (v : Memref sig .tc sp s e) (q : PosShare TreeShare) :
    BI.Storable (upEmb : UEmb _ 𝕄) iprop(∃ f, pts c v q f) := inferInstance

-- each payload is a conjunction of points-to assertions, possibly under an existential, or empty
instance Rd_payload_storable (g : GSem nD τ sig) (r : ℕ) (d : Fin 8) :
    BI.Storable (upEmb : UEmb _ 𝕄) ((Rd (F := F) m).payload g r d) := by
  have := @ex_pts_storable F
  dsimp only [Rd]
  unfold barPay dmaPay
  repeat' split
  all_goals infer_instance

end Cert.KernelIdeal.Proto

end
-- ==== Proof.Launch.lean ====
import proofs.«900790_g7700000000000791_dist_gated_mlp_tp_i_m768_h1536_d768_v7x_i8_bf16_1_alg».proof.Proof.Body
import proofs.«900790_g7700000000000791_dist_gated_mlp_tp_i_m768_h1536_d768_v7x_i8_bf16_1_alg».proof.Proof.LaunchCredit
import proofs.«900790_g7700000000000791_dist_gated_mlp_tp_i_m768_h1536_d768_v7x_i8_bf16_1_alg».proof.Proof.FinalOut
import proofs.«900790_g7700000000000791_dist_gated_mlp_tp_i_m768_h1536_d768_v7x_i8_bf16_1_alg».proof.Proof.Storable

noncomputable section

namespace Cert.KernelIdeal.Proto

open Cert.KernelIdeal.Gen
open Idealize.ShloMosaic
open Idealize.ShloMosaic.TcCoe
open Idealize.SL Idealize.SL.RA Idealize.SL.BI
open Idealize.SL.BI.BIBase Idealize.SL.BI.Laws Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_0 (c : Dev nD) (d) : (dats m ρ 0 c).before (0 : Fin 5) t₀ d = xv m c := by
  unfold Dat.before; rw [if_pos (fetch0_0 t₀)]; rfl
theorem before_1 (c : Dev nD) (d) : (dats m ρ 0 c).before (1 : Fin 5) t₀ d = wgv m c := by
  unfold Dat.before; rw [if_pos (fetch0_1 t₀)]; rfl
theorem before_2 (c : Dev nD) (d) : (dats m ρ 0 c).before (2 : Fin 5) t₀ d = wuv m c := by
  unfold Dat.before; rw [if_pos (fetch0_2 t₀)]; rfl
theorem before_3 (c : Dev nD) (d) : (dats m ρ 0 c).before (3 : Fin 5) t₀ d = wdv m c := by
  unfold Dat.before; rw [if_pos (fetch0_3 t₀)]; rfl

theorem body_obligation (c : Dev nD) : BodyObligation (dats (F := F) m ρ 0 c) (defs₀ (F := F)) 𝒱₀ () Set.univ := fun t => by
  rw [fin_N t, bigSep_W0, bigSep_W0]
  simp only [owns_whole_eq]
  show iprop(Φ₀ m c ∗ _) ⊢ wp frame (wpE (defs₀ (F := F)) 𝒱₀ c none) Set.univ (bodyCall (F := F)) (fun _ => bodyPost m ρ c)
  unfold Φ₀ start
  iintro ⟨⟨⟨⟨%K, Hg⟩, Hcr, Hlev⟩, Hscr⟩, Ho, ⟨%d0, Hx⟩, ⟨%d1, Hwg⟩, ⟨%d2, Hwu⟩, ⟨%d3, Hwd⟩, ⟨%d4, Hout⟩⟩
  rw [before_0, before_1, before_2, before_3]
  iapply (sound_body m ρ K c fun _ => bodyPost m ρ c)
  unfold bodyPre
  iframe Hg Hcr Hlev Hscr Ho Hx Hwg Hwu Hwd
  isplitl
  · iexists _; iexact Hout
  · iintro H; iexact H

abbrev osem : Fin 4 × Fin 3 × Fin 8 → SemLoc sig := fun x => dsem x.1 x.2.1 x.2.2

-- the transfer semaphores are numbered from 5 on: by array, then chunk, then peer
theorem osem_val {x : Fin 4 × Fin 3 × Fin 8} {q : DmaSem sig} (h : osem x = .dma q) :
    q.val = 5 + 24 * x.1.val + 8 * x.2.1.val + x.2.2.val :=
  (congrArg (fun q : DmaSem sig => q.val) (SemLoc.dma.inj h)).symm.trans (semAt_val _ _ _)

theorem osem_injective : Function.Injective osem := by
  rintro ⟨k, ch, o⟩ ⟨k', ch', o'⟩ h
  have := (osem_val h).symm.trans (semAt_val k' ch' o')
  simp only [Prod.mk.injEq, Fin.ext_iff] at this ⊢; omega

theorem stage_val_lt : ∀ (w : Fin cfg0.W) (s : Fin (cfg0.spec w).nbuf), ((cfg0.spec w).sem s).val < 5 := by decide
theorem ownSemFacts : Pipeline.OwnSemFacts cfg0.spec osem :=
  ⟨by decide, osem_injective, fun x w s h => by have := osem_val h; have := stage_val_lt w s; omega⟩

theorem kcell_injective : Function.Injective (kcell : Dev nD × CIx → GSem nD τ sig) := by
  rintro ⟨c, _ | ⟨k, ch, o⟩⟩ ⟨c', _ | ⟨k', ch', o'⟩⟩ h <;>
    obtain rfl : c = c' := congrArg (fun g : GSem nD τ sig => g.1.1) h
  · rfl
  · cases congrArg Prod.snd h
  · cases congrArg Prod.snd h
  · rw [osem_injective (a₁ := (k, ch, o)) (a₂ := (k', ch', o')) (congrArg Prod.snd h)]
def ringCells : Finset (GSem nD τ sig) := Finset.univ.map ⟨kcell, kcell_injective⟩

abbrev tokOf (x : Dev nD × CIx × Fin 8) : GSem nD τ sig × ℕ × Fin 8 := (kcell (x.1, x.2.1), 0, x.2.2)
theorem tokOf_injective : Function.Injective (tokOf : Dev nD × CIx × Fin 8 → GSem nD τ sig × ℕ × Fin 8) := by
  rintro ⟨c, i, d⟩ ⟨c', i', d'⟩ h
  cases kcell_injective (congrArg (fun x : GSem nD τ sig × ℕ × Fin 8 => x.1) h)
  cases (congrArg (fun x : GSem nD τ sig × ℕ × Fin 8 => x.2.2) h : d = d')
  rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun i : CIx => bigSep Finset.univ fun d : Fin 8 => dutyTok ER (kcell (c, i)) 0 d

def G (c : Dev nD) : sProp 𝕄 :=
  iprop((bigSep Finset.univ fun i : CIx => roundState ER (Rd m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop(∃ K, ghost m K c)

omit [FloatOps F] in
theorem bigSep_cix (Φ : CIx → sProp 𝕄) :
    bigSep Finset.univ Φ = iprop(Φ none ∗ bigSep Finset.univ fun x : Fin 4 × Fin 3 × Fin 8 => Φ (some x)) := by
  rw [bigSep_univ_equiv (Equiv.optionEquivSumPUnit.{0, 0} (Fin 4 × Fin 3 × Fin 8)).symm Φ, bigSep_univ_sum,
    bigSep_univ_of_subsingleton PUnit.unit]
  exact BI.Entails.antisymm (show _ ⊢ (_ : sProp 𝕄) from sep_comm.1) (show _ ⊢ (_ : sProp 𝕄) from sep_comm.1)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [BI.bigSep_empty]; exact (BI.bigSep_emp_const t).symm
  | insert a s ha ih => simp only [bigSep_insert ha, ih]; exact (bigSep_sep t _ _).symm

omit [FloatOps F] in
-- exchanging across a fixed bit pattern permutes the devices, so a family over (device, index) may be read at the peers
theorem bigSep_deal {J : Type} (S : Finset J) (π : J → Fin 8) (Φ : Dev nD → J → sProp 𝕄) :
    (bigSep Finset.univ fun c : Dev nD => bigSep S fun j => Φ c j) = bigSep Finset.univ fun c : Dev nD => bigSep S fun j => Φ (peer c (π j)) j :=
  (bigSep_swap Finset.univ S Φ).trans ((bigSep_congr fun j _ => bigSep_univ_equiv (peerEquiv (π j)) (fun c => Φ c j)).trans
    (bigSep_swap Finset.univ S fun c j => Φ (peer c (π j)) j).symm)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  refine (Rounds.fund ER (Rd m) ringCells ringToks).trans (BI.bupd_mono ?_)
  rw [hX, hX, hX, hT]
  unfold G; simp only [bigSep_sep']
  show _ ⊢ (_ : sProp 𝕄)
  iintro ⟨Hst, Hr, Hat, Htok⟩; iframe

def ownToks (c : Dev nD) : sProp 𝕄 :=
  iprop((bigSep (Finset.univ.erase (0 : Fin 8)) fun o => dutyTok ER (barCell c) 0 o)
    ∗ (bigSep allCO fun x : CO => dutyTok ER (dcell c 0 x.1 x.2) 0 0) ∗ (bigSep allCO fun x : CO => dutyTok ER (dcell c 1 x.1 x.2) 0 0)
    ∗ (bigSep allCO fun x : CO => dutyTok ER (dcell c 2 x.1 x.2) 0 0) ∗ (bigSep allCO fun x : CO => dutyTok ER (dcell c 3 x.1 x.2) 0 0))

omit [FloatOps F] in
-- of a device's tokens only those with a payer are kept: the entry cell's seven, and one per transfer kind, chunk and peer
theorem toks_own (c : Dev nD) : (toks c : sProp 𝕄) ⊢ ownToks c := by
  unfold toks ownToks
  rw [bigSep_cix]
  refine BI.sep_mono ?_ ?_
  · exact bigSep_subset (Finset.erase_subset _ _)
  · refine (bigSep_mono (Ψ := fun x : Fin 4 × Fin 3 × Fin 8 => (dutyTok ER (dcell c x.1 x.2.1 x.2.2) 0 0 : sProp 𝕄))
      fun x _ => bigSep_elim (Finset.mem_univ (0 : Fin 8))).trans ?_
    rw [bigSep_univ_prod (fun x : Fin 4 × Fin 3 × Fin 8 => (dutyTok ER (dcell c x.1 x.2.1 x.2.2) 0 0 : sProp 𝕄)), bigSep_four]
    have hk (k : Fin 4) : (bigSep Finset.univ fun y : Fin 3 × Fin 8 => (dutyTok ER (dcell c k y.1 y.2) 0 0 : sProp 𝕄))
        ⊢ bigSep allCO fun x : CO => dutyTok ER (dcell c k x.1 x.2) 0 0 := bigSep_subset (Finset.subset_univ _)
    exact BI.sep_mono (hk 0) (BI.sep_mono (hk 1) (BI.sep_mono (hk 2) (hk 3)))

omit [FloatOps F] in
-- the entry cell's token `o` and the receive cells' tokens of `(ch, o)` go to the peer across `o`; the send cells' tokens stay
theorem toks_around : (bigSep Finset.univ fun c : Dev nD => (toks c : sProp 𝕄)) ⊢ bigSep Finset.univ fun c : Dev nD => payToks c := by
  refine (bigSep_mono fun c _ => toks_own c).trans ?_
  unfold ownToks payToks
  simp only [bigSep_sep']
  rw [bigSep_deal (Finset.univ.erase (0 : Fin 8)) id (fun (c : Dev nD) (o : Fin 8) => (dutyTok ER (barCell c) 0 o : sProp 𝕄)),
    bigSep_deal allCO (fun x : CO => x.2) (fun (c : Dev nD) (x : CO) => (dutyTok ER (dcell c 1 x.1 x.2) 0 0 : sProp 𝕄)),
    bigSep_deal allCO (fun x : CO => x.2) (fun (c : Dev nD) (x : CO) => (dutyTok ER (dcell c 3 x.1 x.2) 0 0 : sProp 𝕄))]
  exact BI.Entails.refl _

-- per device: its semaphores at zero and its round states become the cells' invariants
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ toks c) := by
  have hv : (unscopedSems0 c : sProp 𝕄) = semVal (barCell c) 0 := by
    unfold unscopedSems0; rw [bigSep_eq_bigSepL_of_eq [SemLoc.reg barS] (by decide) (by decide)]; rfl
  have hs : iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
    rw [hv, bigSep_cix]; exact sep_comm.1
  have hi : iprop((bigSep Finset.univ fun i : CIx => semVal (kcell (c, i)) 0) ∗ bigSep Finset.univ fun i : CIx => roundState ER (Rd m) (kcell (c, i)) 0)
      ⊢ (|={Set.univ}=> bigSep Finset.univ fun i : CIx => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  unfold G
  iintro ⟨Hos, Hus, Hst, Hat, Htok⟩
  imod ((sep_mono_left hs).trans hi) $$ [$Hos $Hus $Hst] with Hinv
  imodintro; iframe

-- all devices at once: the invariants' names gathered into one table, and the tokens dealt to their payers
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine ((bigSep_mono fun c _ => core_alloc m c).trans (bigSep_fupd _ _)).trans (BI.fupd_mono (show _ ⊢ (bigSep Finset.univ (G' m) : sProp 𝕄) from ?_))
  simp only [bigSep_sep']
  rw [← bigSep_univ_prod (fun ci : Dev nD × CIx => iprop(∃ κ : ℕ, cellInv ER (Rd m) κ (kcell ci))),
    ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (Rd m) κ (kcell ci) : sProp 𝕄))) $$ HI
  icases HK with ⟨%K, #HI⟩
  ihave Htk := (toks_around (F := F)) $$ Htok
  iapply (bigSep_with_persistent (R := records m K) (Φ := fun c => iprop(positions c ∗ payToks c))
    fun c _ => by unfold G' ghost; iintro H; iexists K; iexact H)
  isplitr
  · unfold records; iframe HI HR
  · iapply (Entails.of_eq (bigSep_sep' Finset.univ (fun c : Dev nD => (positions c : sProp 𝕄)) payToks).symm)
    isplitl [Hat]; · iexact Hat
    iexact Htk

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  iframe HG Hc Hlev

omit [FloatOps F] in
theorem scratch_eq (c : Dev nD) : (scratch c : sProp 𝕄) = Pipeline.scopedRest cfg0.spec c := by
  rw [scopedRest0_eq]; unfold scratch; simp only [pts, pM, rsM, actM, wdbM, redM, accM, Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩; iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ← scratch_eq]
  unfold Φ₁ Pipeline.ownSems0
  iintro ⟨Hr, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

-- every weakly fair run of the eight devices terminates with each device's arrays at the computed contents
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      refine (ownU_pair _ _).trans ?_
      iintro ⟨HP, HX⟩
      imod (fund_ring m) $$ HX with HG
      imodintro; iframe)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_arg (c : Dev nD) (w : Fin cfg0.W) (hw : w.val < 4) : finalA m ρ c w = (s₀ m ρ).mem ((cfg0.win w).arr.view.loc (c : Thread nD τ)) :=
  (dats (F := F) m ρ 0 c).arrAt_in w (by revert w; decide) _

theorem finalA_out (c : Dev nD) : finalA m ρ c (4 : Fin cfg0.W) = (outCan m : Buf (Elt F) ((cfg0.win (4 : Fin cfg0.W)).arr.view.loc (c : Thread nD τ))) :=
  arrAt_out m ρ c

end Cert.KernelIdeal.Proto

end
-- ==== Proof.Bits.Peers.lean ====
import proofs.«900790_g7700000000000791_dist_gated_mlp_tp_i_m768_h1536_d768_v7x_i8_bf16_1_alg».proof.Proof.Gen.Kernel

namespace Cert.Kernel.Proto

open Cert.Kernel Cert.Kernel.Gen Idealize.ShloMosaic

def peer (c : Dev nD) (o : Fin 8) : Dev nD := ⟨c.val ^^^ o.val, by revert c o; decide⟩

theorem peer_peer (c : Dev nD) (o : Fin 8) : peer (peer c o) o = c := by revert c o; decide
theorem peer_zero (c : Dev nD) : peer c 0 = c := by revert c; decide

def peerEquiv (o : Fin 8) : Dev nD ≃ Dev nD := ⟨fun c => peer c o, fun c => peer c o, fun c => peer_peer c o, fun c => peer_peer c o⟩

def peerEquiv' (c : Dev nD) : Fin 8 ≃ Dev nD := ⟨fun o => peer c o, fun d => ⟨c.val ^^^ d.val, by revert c d; decide⟩, by intro o; revert c o; decide, by intro d; revert c d; decide⟩

end Cert.Kernel.Proto
-- ==== Proof.Bits.Vals.lean ====
import proofs.«900790_g7700000000000791_dist_gated_mlp_tp_i_m768_h1536_d768_v7x_i8_bf16_1_alg».proof.Proof.Bits.Peers
import proofs.«900790_g7700000000000791_dist_gated_mlp_tp_i_m768_h1536_d768_v7x_i8_bf16_1_alg».proof.Proof.Gen.Kernel.Skeleton

noncomputable section

namespace Cert.Kernel.Proto

open Cert.Kernel Cert.Kernel.Gen
open Idealize.ShloMosaic Idealize.ShloMosaic.TcCoe Idealize.SL.Sem

variable {F : FTy → Type} [FloatOps F]

abbrev xM : Memref sig .tc .vmem S768x768 .f32 := Memref.whole cc0_stg0_0
abbrev wgM : Memref sig .tc .vmem S768x1536 .f32 := Memref.whole cc0_stg1_0
abbrev wuM : Memref sig .tc .vmem S768x1536 .f32 := Memref.whole cc0_stg2_0
abbrev wdM : Memref sig .tc .vmem S1536x768 .f32 := Memref.whole cc0_stg3_0
abbrev outM : Memref sig .tc .vmem S768x768 .bf16 := Memref.whole cc0_stg4_0
abbrev pM : Memref sig .tc .vmem S3x768x256 .bf16 := Memref.whole cc0_scratch0
abbrev rsM : Memref sig .tc .vmem S3x8x96x256 .bf16 := Memref.whole cc0_scratch1
abbrev actM : Memref sig .tc .vmem S768x1536 .bf16 := Memref.whole cc0_scratch2
abbrev wdbM : Memref sig .tc .vmem S1536x768 .bf16 := Memref.whole cc0_scratch3
abbrev redM : Memref sig .tc .vmem S3x96x256 .bf16 := Memref.whole cc0_scratch4
abbrev accM : Memref sig .tc .vmem S96x256 .f32 := Memref.whole cc0_scratch5

theorem wdb_inb (ch : Fin 3) : ∀ a, (![0, 256 * ch.val] : Fin 2 → Nat) a + S1536x256.size a ≤ S1536x768.size a := by revert ch; decide
theorem p_inb (ch : Fin 3) : ∀ a, (![ch.val, 0, 0] : Fin 3 → Nat) a + S1x768x256.size a ≤ S3x768x256.size a := by revert ch; decide
theorem prow_inb (ch : Fin 3) (d : Dev nD) : ∀ a, (![ch.val, 96 * d.val, 0] : Fin 3 → Nat) a + S1x96x256.size a ≤ S3x768x256.size a := by revert ch d; decide
theorem slot_inb (ch : Fin 3) (o : Fin 8) : ∀ a, (![ch.val, o.val, 0, 0] : Fin 4 → Nat) a + S1x1x96x256.size a ≤ S3x8x96x256.size a := by revert ch o; decide
theorem red_inb (ch : Fin 3) : ∀ a, (![ch.val, 0, 0] : Fin 3 → Nat) a + S1x96x256.size a ≤ S3x96x256.size a := by revert ch; decide
theorem out_inb (s : Dev nD) (ch : Fin 3) : ∀ a, (![96 * s.val, 256 * ch.val] : Fin 2 → Nat) a + S96x256.size a ≤ S768x768.size a := by revert s ch; decide
theorem sem_inb (ch : Fin 3) (o : Fin 8) : ∀ a, (![ch.val, o.val] : Fin 2 → Nat) a + S1x1.size a ≤ S3x8.size a := by revert ch o; decide

abbrev wdbRect (ch : Fin 3) : Rect S1536x768 := Rect.unit (s := S1536x768) ![0, 256 * ch.val] S1536x256.size (wdb_inb ch)
abbrev pRect (ch : Fin 3) : Rect S3x768x256 := Rect.unit (s := S3x768x256) ![ch.val, 0, 0] S1x768x256.size (p_inb ch)
abbrev prowRect (ch : Fin 3) (d : Dev nD) : Rect S3x768x256 := Rect.unit (s := S3x768x256) ![ch.val, 96 * d.val, 0] S1x96x256.size (prow_inb ch d)
abbrev slotRect (ch : Fin 3) (o : Fin 8) : Rect S3x8x96x256 := Rect.unit (s := S3x8x96x256) ![ch.val, o.val, 0, 0] S1x1x96x256.size (slot_inb ch o)
abbrev redRect (ch : Fin 3) : Rect S3x96x256 := Rect.unit (s := S3x96x256) ![ch.val, 0, 0] S1x96x256.size (red_inb ch)
abbrev outRect (s : Dev nD) (ch : Fin 3) : Rect S768x768 := Rect.unit (s := S768x768) ![96 * s.val, 256 * ch.val] S96x256.size (out_inb s ch)

abbrev prowV (ch : Fin 3) (d : Dev nD) : Memref sig .tc .vmem S96x256 .bf16 :=
  (pM.slice (prowRect ch d) (fun _ => rfl)).squeeze S96x256 squeezes_S1x96x256_S96x256

abbrev slotV (ch : Fin 3) (o : Fin 8) : Memref sig .tc .vmem S96x256 .bf16 :=
  (rsM.slice (slotRect ch o) (fun _ => rfl)).squeeze S96x256 squeezes_S1x1x96x256_S96x256

abbrev redV (ch : Fin 3) : Memref sig .tc .vmem S96x256 .bf16 :=
  (redM.slice (redRect ch) (fun _ => rfl)).squeeze S96x256 squeezes_S1x96x256_S96x256

abbrev outV (s : Dev nD) (ch : Fin 3) : Memref sig .tc .vmem S96x256 .bf16 := outM.slice (outRect s ch) (fun _ => rfl)

variable (m : (ℓ : Loc nD τ sig) → Buf (Elt F) ℓ)

def t0 : Fin grid0.N := ⟨0, by decide⟩

def xv (c : Dev nD) : (cc0_stg0_0 : Ref sig .tc).ty.Contents (Elt F) := (win0_0.blk t0).view.read (Elt F) (m ((c : Thread nD τ).loc main_arg0))
def wgv (c : Dev nD) : (cc0_stg1_0 : Ref sig .tc).ty.Contents (Elt F) := (win0_1.blk t0).view.read (Elt F) (m ((c : Thread nD τ).loc main_arg1))
def wuv (c : Dev nD) : (cc0_stg2_0 : Ref sig .tc).ty.Contents (Elt F) := (win0_2.blk t0).view.read (Elt F) (m ((c : Thread nD τ).loc main_arg2))
def wdv (c : Dev nD) : (cc0_stg3_0 : Ref sig .tc).ty.Contents (Elt F) := (win0_3.blk t0).view.read (Elt F) (m ((c : Thread nD τ).loc main_arg3))

def actv (c : Dev nD) : FVec F S768x1536 .bf16 := k0_pay1 (xv m c) (wgv m c) (wuv m c)

def wdbv (c : Dev nD) : FVec F S1536x768 .bf16 := k0_pay2 (wdv m c)

def pval (c : Dev nD) (ch : Fin 3) : FVec F S768x256 .bf16 :=
  k0_pay3 (actv m c) (wdbM.view.readAt (Elt F) (wdbRect ch).toLoadRect (wdbv m c))

end Cert.Kernel.Proto

end
-- ==== Proof.Bits.Canon.lean ====
import proofs.«900790_g7700000000000791_dist_gated_mlp_tp_i_m768_h1536_d768_v7x_i8_bf16_1_alg».proof.Proof.Bits.Vals
import Idealize.ShloMosaic.Lib.ValueIdx
import Idealize.ShloMosaic.Lib.Pipeline.Kit

noncomputable section

namespace Cert.Kernel.Proto

open Cert.Kernel Cert.Kernel.Gen
open Idealize.ShloMosaic Idealize.ShloMosaic.TcCoe Idealize.SL.Sem Idealize.ShloMosaic.ValueIdx
open Idealize.ShloMosaic.Rounds

variable {F : FTy → Type} [FloatOps F]
variable (m : (ℓ : Loc nD τ sig) → Buf (Elt F) ℓ)

abbrev UB : Type := URounds (GSem nD τ sig) (Fin 8)
abbrev UU : Type := UR sig nD τ × UB

def pCan (c : Dev nD) : (cc0_scratch0 : Ref sig .tc).ty.Contents (Elt F) :=
  fun i => pval m c (i 0) (ix2 (i 1) (i 2))

def rsCan (c : Dev nD) : (cc0_scratch1 : Ref sig .tc).ty.Contents (Elt F) :=
  fun i => pval m (peer c (i 1)) (i 0) (ix2 ⟨96 * c.val + (i 2).val, by have h2 : (i 2).val < 96 := (i 2).isLt; have hc : c.val < 8 := c.isLt; omega⟩ (i 3))

def slotRead (c : Dev nD) (ch : Fin 3) (o : Fin 8) : Vec F S1x1x96x256 .bf16 :=
  rsM.view.readAt (Elt F) (slotRect ch o).toLoadRect (rsCan m c)

def acc0 (c : Dev nD) (ch : Fin 3) : FVec F S96x256 .f32 := k0_pay10 (slotRead m c ch 0)
def accStep (a : FVec F S96x256 .f32) (s : Vec F S1x1x96x256 .bf16) : FVec F S96x256 .f32 := k0_pay11 a s
def acc1 (c : Dev nD) (ch : Fin 3) := accStep (acc0 m c ch) (slotRead m c ch 1)
def acc2 (c : Dev nD) (ch : Fin 3) := accStep (acc1 m c ch) (slotRead m c ch 2)
def acc3 (c : Dev nD) (ch : Fin 3) := accStep (acc2 m c ch) (slotRead m c ch 4)
def acc4 (c : Dev nD) (ch : Fin 3) := accStep (acc3 m c ch) (slotRead m c ch 3)
def acc5 (c : Dev nD) (ch : Fin 3) := accStep (acc4 m c ch) (slotRead m c ch 5)
def acc6 (c : Dev nD) (ch : Fin 3) := accStep (acc5 m c ch) (slotRead m c ch 6)
def acc7 (c : Dev nD) (ch : Fin 3) := accStep (acc6 m c ch) (slotRead m c ch 7)

def redv (c : Dev nD) (ch : Fin 3) : FVec F S96x256 .bf16 := k0_pay19 (acc7 m c ch)

def redCan (c : Dev nD) : (cc0_scratch4 : Ref sig .tc).ty.Contents (Elt F) :=
  fun i => redv m c (i 0) (ix2 (i 1) (i 2))

def outCan : (cc0_stg4_0 : Ref sig .tc).ty.Contents (Elt F) :=
  fun i => redv m ⟨(i 0).val / 96, by have h0 : (i 0).val < 768 := (i 0).isLt; show (i 0).val / 96 < 8; omega⟩ ⟨(i 1).val / 256, by have h1 : (i 1).val < 768 := (i 1).isLt; omega⟩
    (ix2 ⟨(i 0).val % 96, Nat.mod_lt _ (by decide)⟩ ⟨(i 1).val % 256, Nat.mod_lt _ (by decide)⟩)

end Cert.Kernel.Proto

end
-- ==== Proof.Bits.DevEqs.lean ====
import proofs.«900790_g7700000000000791_dist_gated_mlp_tp_i_m768_h1536_d768_v7x_i8_bf16_1_alg».proof.Proof.Bits.Peers

set_option Elab.async false

namespace Cert.Kernel.Proto

open Cert.Kernel.Gen Idealize.ShloMosaic

theorem dev1_eq (c : Dev nD) : (⟨k0_dev1 c, k0_dev1_lt c⟩ : Dev nD) = peer c ⟨1, by decide⟩ := by
  revert c; decide +kernel
theorem dev2_eq (c : Dev nD) : (⟨k0_dev2 c, k0_dev2_lt c⟩ : Dev nD) = peer c ⟨2, by decide⟩ := by
  revert c; decide +kernel
theorem dev3_eq (c : Dev nD) : (⟨k0_dev3 c, k0_dev3_lt c⟩ : Dev nD) = peer c ⟨3, by decide⟩ := by
  revert c; decide +kernel
theorem dev4_eq (c : Dev nD) : (⟨k0_dev4 c, k0_dev4_lt c⟩ : Dev nD) = peer c ⟨4, by decide⟩ := by
  revert c; decide +kernel
theorem dev5_eq (c : Dev nD) : (⟨k0_dev5 c, k0_dev5_lt c⟩ : Dev nD) = peer c ⟨5, by decide⟩ := by
  revert c; decide +kernel
theorem dev6_eq (c : Dev nD) : (⟨k0_dev6 c, k0_dev6_lt c⟩ : Dev nD) = peer c ⟨6, by decide⟩ := by
  revert c; decide +kernel
theorem dev7_eq (c : Dev nD) : (⟨k0_dev7 c, k0_dev7_lt c⟩ : Dev nD) = peer c ⟨7, by decide⟩ := by
  revert c; decide +kernel
theorem dev8_eq (c : Dev nD) : (⟨k0_dev8 c, k0_dev8_lt c⟩ : Dev nD) = peer c ⟨7, by decide⟩ := dev7_eq c
theorem dev9_eq (c : Dev nD) : (⟨k0_dev9 c, k0_dev9_lt c⟩ : Dev nD) = peer c ⟨3, by decide⟩ := dev3_eq c
theorem dev10_eq (c : Dev nD) : (⟨k0_dev10 c, k0_dev10_lt c⟩ : Dev nD) = peer c ⟨5, by decide⟩ := dev5_eq c
theorem dev11_eq (c : Dev nD) : (⟨k0_dev11 c, k0_dev11_lt c⟩ : Dev nD) = peer c ⟨6, by decide⟩ := dev6_eq c
theorem dev12_eq (c : Dev nD) : (⟨k0_dev12 c, k0_dev12_lt c⟩ : Dev nD) = peer c ⟨1, by decide⟩ := dev1_eq c
theorem dev13_eq (c : Dev nD) : (⟨k0_dev13 c, k0_dev13_lt c⟩ : Dev nD) = peer c ⟨2, by decide⟩ := dev2_eq c
theorem dev14_eq (c : Dev nD) : (⟨k0_dev14 c, k0_dev14_lt c⟩ : Dev nD) = peer c ⟨4, by decide⟩ := dev4_eq c
theorem dev15_eq (c : Dev nD) : (⟨k0_dev15 c, k0_dev15_lt c⟩ : Dev nD) = peer c ⟨7, by decide⟩ := dev7_eq c
theorem dev16_eq (c : Dev nD) : (⟨k0_dev16 c, k0_dev16_lt c⟩ : Dev nD) = peer c ⟨3, by decide⟩ := dev3_eq c
theorem dev17_eq (c : Dev nD) : (⟨k0_dev17 c, k0_dev17_lt c⟩ : Dev nD) = peer c ⟨5, by decide⟩ := dev5_eq c
theorem dev18_eq (c : Dev nD) : (⟨k0_dev18 c, k0_dev18_lt c⟩ : Dev nD) = peer c ⟨6, by decide⟩ := dev6_eq c
theorem dev19_eq (c : Dev nD) : (⟨k0_dev19 c, k0_dev19_lt c⟩ : Dev nD) = peer c ⟨1, by decide⟩ := dev1_eq c
theorem dev20_eq (c : Dev nD) : (⟨k0_dev20 c, k0_dev20_lt c⟩ : Dev nD) = peer c ⟨2, by decide⟩ := dev2_eq c
theorem dev21_eq (c : Dev nD) : (⟨k0_dev21 c, k0_dev21_lt c⟩ : Dev nD) = peer c ⟨4, by decide⟩ := dev4_eq c
theorem dev22_eq (c : Dev nD) : (⟨k0_dev22 c, k0_dev22_lt c⟩ : Dev nD) = peer c ⟨7, by decide⟩ := dev7_eq c
theorem dev23_eq (c : Dev nD) : (⟨k0_dev23 c, k0_dev23_lt c⟩ : Dev nD) = peer c ⟨3, by decide⟩ := dev3_eq c
theorem dev24_eq (c : Dev nD) : (⟨k0_dev24 c, k0_dev24_lt c⟩ : Dev nD) = peer c ⟨5, by decide⟩ := dev5_eq c
theorem dev25_eq (c : Dev nD) : (⟨k0_dev25 c, k0_dev25_lt c⟩ : Dev nD) = peer c ⟨6, by decide⟩ := dev6_eq c
theorem dev26_eq (c : Dev nD) : (⟨k0_dev26 c, k0_dev26_lt c⟩ : Dev nD) = peer c ⟨1, by decide⟩ := dev1_eq c
theorem dev27_eq (c : Dev nD) : (⟨k0_dev27 c, k0_dev27_lt c⟩ : Dev nD) = peer c ⟨2, by decide⟩ := dev2_eq c
theorem dev28_eq (c : Dev nD) : (⟨k0_dev28 c, k0_dev28_lt c⟩ : Dev nD) = peer c ⟨4, by decide⟩ := dev4_eq c
theorem dev29_eq (c : Dev nD) : (⟨k0_dev29 c, k0_dev29_lt c⟩ : Dev nD) = peer c ⟨7, by decide⟩ := dev7_eq c
theorem dev30_eq (c : Dev nD) : (⟨k0_dev30 c, k0_dev30_lt c⟩ : Dev nD) = peer c ⟨3, by decide⟩ := dev3_eq c
theorem dev31_eq (c : Dev nD) : (⟨k0_dev31 c, k0_dev31_lt c⟩ : Dev nD) = peer c ⟨5, by decide⟩ := dev5_eq c
theorem dev32_eq (c : Dev nD) : (⟨k0_dev32 c, k0_dev32_lt c⟩ : Dev nD) = peer c ⟨6, by decide⟩ := dev6_eq c
theorem dev33_eq (c : Dev nD) : (⟨k0_dev33 c, k0_dev33_lt c⟩ : Dev nD) = peer c ⟨1, by decide⟩ := dev1_eq c
theorem dev34_eq (c : Dev nD) : (⟨k0_dev34 c, k0_dev34_lt c⟩ : Dev nD) = peer c ⟨2, by decide⟩ := dev2_eq c
theorem dev35_eq (c : Dev nD) : (⟨k0_dev35 c, k0_dev35_lt c⟩ : Dev nD) = peer c ⟨4, by decide⟩ := dev4_eq c
theorem dev36_eq (c : Dev nD) : (⟨k0_dev36 c, k0_dev36_lt c⟩ : Dev nD) = peer c ⟨7, by decide⟩ := dev7_eq c
theorem dev37_eq (c : Dev nD) : (⟨k0_dev37 c, k0_dev37_lt c⟩ : Dev nD) = peer c ⟨3, by decide⟩ := dev3_eq c
theorem dev38_eq (c : Dev nD) : (⟨k0_dev38 c, k0_dev38_lt c⟩ : Dev nD) = peer c ⟨5, by decide⟩ := dev5_eq c
theorem dev39_eq (c : Dev nD) : (⟨k0_dev39 c, k0_dev39_lt c⟩ : Dev nD) = peer c ⟨6, by decide⟩ := dev6_eq c
theorem dev40_eq (c : Dev nD) : (⟨k0_dev40 c, k0_dev40_lt c⟩ : Dev nD) = peer c ⟨1, by decide⟩ := dev1_eq c
theorem dev41_eq (c : Dev nD) : (⟨k0_dev41 c, k0_dev41_lt c⟩ : Dev nD) = peer c ⟨2, by decide⟩ := dev2_eq c
theorem dev42_eq (c : Dev nD) : (⟨k0_dev42 c, k0_dev42_lt c⟩ : Dev nD) = peer c ⟨4, by decide⟩ := dev4_eq c
theorem dev43_eq (c : Dev nD) : (⟨k0_dev43 c, k0_dev43_lt c⟩ : Dev nD) = peer c ⟨7, by decide⟩ := dev7_eq c
theorem dev44_eq (c : Dev nD) : (⟨k0_dev44 c, k0_dev44_lt c⟩ : Dev nD) = peer c ⟨3, by decide⟩ := dev3_eq c
theorem dev45_eq (c : Dev nD) : (⟨k0_dev45 c, k0_dev45_lt c⟩ : Dev nD) = peer c ⟨5, by decide⟩ := dev5_eq c
theorem dev46_eq (c : Dev nD) : (⟨k0_dev46 c, k0_dev46_lt c⟩ : Dev nD) = peer c ⟨6, by decide⟩ := dev6_eq c
theorem dev47_eq (c : Dev nD) : (⟨k0_dev47 c, k0_dev47_lt c⟩ : Dev nD) = peer c ⟨1, by decide⟩ := dev1_eq c
theorem dev48_eq (c : Dev nD) : (⟨k0_dev48 c, k0_dev48_lt c⟩ : Dev nD) = peer c ⟨2, by decide⟩ := dev2_eq c
theorem dev49_eq (c : Dev nD) : (⟨k0_dev49 c, k0_dev49_lt c⟩ : Dev nD) = peer c ⟨4, by decide⟩ := dev4_eq c

theorem off2_eq (c : Dev nD) (r : Fin 7) :
    k0_off2 c (BitVec.ofNat 32 (1 + r.val)) = ![0, 96 * (peer c ⟨1 + r.val, by omega⟩).val, 0] := by
  revert c r; decide +kernel
theorem off4_eq (c : Dev nD) (r : Fin 7) :
    k0_off4 c (BitVec.ofNat 32 (1 + r.val)) = ![1, 96 * (peer c ⟨1 + r.val, by omega⟩).val, 0] := by
  revert c r; decide +kernel
theorem off6_eq (c : Dev nD) (r : Fin 7) :
    k0_off6 c (BitVec.ofNat 32 (1 + r.val)) = ![2, 96 * (peer c ⟨1 + r.val, by omega⟩).val, 0] := by
  revert c r; decide +kernel

end Cert.Kernel.Proto
-- ==== Proof.Bits.Proto.lean ====
import proofs.«900790_g7700000000000791_dist_gated_mlp_tp_i_m768_h1536_d768_v7x_i8_bf16_1_alg».proof.Proof.Bits.Canon
import proofs.«900790_g7700000000000791_dist_gated_mlp_tp_i_m768_h1536_d768_v7x_i8_bf16_1_alg».proof.Proof.Bits.DevEqs
import proofs.«900790_g7700000000000791_dist_gated_mlp_tp_i_m768_h1536_d768_v7x_i8_bf16_1_alg».proof.Proof.Gen.Kernel.Launch
import Idealize.ShloMosaic.Lib.Tactic

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev karr (k : Fin 4) : DmaSems sig S3x8 := match k with | 0 => cc0_scratch6 | 1 => cc0_scratch7 | 2 => cc0_scratch8 | 3 => cc0_scratch9

abbrev semAt (A : DmaSems sig S3x8) (ch : Fin 3) (o : Fin 8) : DmaSem sig :=
  ((A.slice (Rect.unit (s := S3x8) ![ch.val, o.val] S1x1.size (sem_inb ch o))).squeeze S_ squeezes_S1x1_S_).sem

abbrev dsem (k : Fin 4) (ch : Fin 3) (o : Fin 8) : SemLoc sig := .dma (semAt (karr k) ch o)

abbrev barCell (c : Dev nD) : GSem nD τ sig := ((c : Thread nD τ), .reg barS)
abbrev dcell (c : Dev nD) (k : Fin 4) (ch : Fin 3) (o : Fin 8) : GSem nD τ sig := ((c : Thread nD τ), dsem k ch o)

theorem semAt_val (k : Fin 4) (ch : Fin 3) (o : Fin 8) : (semAt (karr k) ch o).val = 5 + 24 * k.val + 8 * ch.val + o.val := by
  revert k ch o; decide

def decodeQ (q : DmaSem sig) : Option (Fin 4 × Fin 3 × Fin 8) :=
  if h : 5 ≤ q.val ∧ q.val < 101 then
    some (⟨(q.val - 5) / 24, by omega⟩, ⟨((q.val - 5) % 24) / 8, by omega⟩, ⟨(q.val - 5) % 8, by omega⟩)
  else none

theorem decodeQ_semAt (k : Fin 4) (ch : Fin 3) (o : Fin 8) : decodeQ (semAt (karr k) ch o) = some (k, ch, o) := by
  revert k ch o; decide

abbrev N : ℕ := (slotV 0 0 : Memref sig .tc .vmem S96x256 .bf16).view.dmaCredit
theorem N_pos : 0 < N := View.dmaCredit_pos _ (by decide)
theorem credit_slot (ch : Fin 3) (o : Fin 8) : (slotV ch o).view.dmaCredit = N := rfl

abbrev pts {sp : Space} {s : Shape} {e : EltTy} (c : Dev nD) (v : Memref sig .tc sp s e) (q : PosShare TreeShare)
    (f : Buf (Elt F) (v.view.loc (c : Thread nD τ))) : sProp 𝕄 :=
  v.view.loc (c : Thread nD τ) ↦[v.view.set]{q} f

abbrev redShare (o : Fin 8) : PosShare TreeShare := Transfers.shareTok fullShare 8 o

def barPay (t : Dev nD) (o : Fin 8) : sProp 𝕄 :=
  iprop((∃ f, pts (peer t o) (slotV 0 o) fullShare f) ∗ (∃ f, pts (peer t o) (slotV 1 o) fullShare f) ∗ (∃ f, pts (peer t o) (slotV 2 o) fullShare f)
    ∗ (∃ f, pts (peer t o) (outV t 0) fullShare f) ∗ (∃ f, pts (peer t o) (outV t 1) fullShare f) ∗ (∃ f, pts (peer t o) (outV t 2) fullShare f))

def dmaPay (c : Dev nD) (k : Fin 4) (ch : Fin 3) (o : Fin 8) : sProp 𝕄 :=
  match k with
  | 0 => iprop(∃ f, pts c (prowV ch (peer c o)) fullShare f)
  | 1 => pts c (slotV ch o) fullShare (rsCan m c)
  | 2 => pts c (redV ch) (redShare o) (redCan m c)
  | 3 => pts c (outV (peer c o) ch) fullShare (outCan m)

def Rd : Rounds.Schedule (GSem nD τ sig) (Fin 8) 𝕄 where
  duties g r :=
    if r = 0 ∧ g.1.2 = .tc then
      match g.2 with
      | .reg s => if s = barS then Finset.univ.erase 0 else ∅
      | .dma q => match decodeQ q with
        | some (_, _, o) => if o = 0 then ∅ else {0}
        | none => ∅
    else ∅
  unitless _ := False
  amount g _ _ := match g.2 with | .reg _ => 1 | .dma _ => N
  payload g _ d := match g.2 with
    | .reg _ => barPay g.1.1 d
    | .dma q => match decodeQ q with
      | some (k, ch, o) => dmaPay m g.1.1 k ch o
      | none => iprop(emp)
  amount_pos g _ _ _ := by
    cases g.2 with
    | reg _ => exact Nat.one_pos
    | dma _ => exact N_pos

section Sched
variable (c : Dev nD) (k : Fin 4) (ch : Fin 3) (o : Fin 8)

theorem duties_bar : (Rd (F := F) m).duties (barCell c) 0 = Finset.univ.erase 0 := by
  dsimp only [Rd]; rw [if_pos ⟨rfl, rfl⟩, if_pos rfl]
theorem duties_dma (ho : o ≠ 0) : (Rd (F := F) m).duties (dcell c k ch o) 0 = {0} := by
  dsimp only [Rd]; rw [if_pos ⟨rfl, rfl⟩]; simp only [decodeQ_semAt, ho, ↓reduceIte]
theorem duties_dma0 : (Rd (F := F) m).duties (dcell c k ch 0) 0 = ∅ := by
  dsimp only [Rd]; rw [if_pos ⟨rfl, rfl⟩]; simp only [decodeQ_semAt, ↓reduceIte]
theorem duties_later (g : GSem nD τ sig) : ∀ r, 1 ≤ r → (Rd (F := F) m).duties g r = ∅ :=
  fun r hr => by dsimp only [Rd]; rw [if_neg fun h => by omega]
theorem amount_bar (d : Fin 8) : (Rd (F := F) m).amount (barCell c) 0 d = 1 := rfl
theorem amount_dma (d : Fin 8) : (Rd (F := F) m).amount (dcell c k ch o) 0 d = N := rfl
theorem expect_bar : (Rd (F := F) m).expect (barCell c) 0 = 7 := by
  unfold Schedule.expect Schedule.amountOf
  rw [duties_bar, Finset.sum_congr rfl fun d _ => amount_bar m c d]; decide
theorem expect_dma (ho : o ≠ 0) : (Rd (F := F) m).expect (dcell c k ch o) 0 = N := by
  unfold Schedule.expect Schedule.amountOf; rw [duties_dma m c k ch o ho, Finset.sum_singleton, amount_dma]
theorem payload_dma (d : Fin 8) : (Rd (F := F) m).payload (dcell c k ch o) 0 d = dmaPay m c k ch o := by
  dsimp only [Rd]; rw [decodeQ_semAt]

theorem rest_bar : bigSep ((Rd (F := F) m).duties (barCell c) 0 \ ∅) (fun d => (Rd (F := F) m).payload (barCell c) 0 d)
    = bigSep (Finset.univ.erase (0 : Fin 8)) (fun d => barPay (F := F) c d) := by
  rw [Finset.sdiff_empty, duties_bar]; rfl
theorem rest_dma (ho : o ≠ 0) : bigSep ((Rd (F := F) m).duties (dcell c k ch o) 0 \ ∅) (fun d => (Rd (F := F) m).payload (dcell c k ch o) 0 d)
    = dmaPay m c k ch o := by
  rw [Finset.sdiff_empty, duties_dma m c k ch o ho, bigSep_singleton, payload_dma]

end Sched

abbrev CO : Type := Fin 3 × Fin 8

abbrev allCO : Finset CO := Finset.univ ×ˢ (Finset.univ.erase 0)

def owedFrom (c : Dev nD) (S : Finset (Fin 8)) (R A : Finset CO) : CellTallies nD τ sig Unit :=
  (∑ o ∈ S, tallyAt (barCell (peer c o)) () 1) + (∑ x ∈ R, tallyAt (dcell (peer c x.2) 1 x.1 x.2) () N) + (∑ x ∈ A, tallyAt (dcell (peer c x.2) 3 x.1 x.2) () N)

def O₀ (c : Dev nD) : CellTallies nD τ sig Unit := owedFrom c (Finset.univ.erase 0) allCO allCO

theorem owed_peel_bar (c : Dev nD) {S : Finset (Fin 8)} (R A : Finset CO) {o : Fin 8} (ho : o ∈ S) :
    owedFrom c S R A = owedFrom c (S.erase o) R A + tallyAt (barCell (peer c o)) () 1 := by
  unfold owedFrom; rw [← Finset.sum_erase_add _ _ ho]; ac_rfl
theorem owed_peel_rs (c : Dev nD) (S : Finset (Fin 8)) {R : Finset CO} (A : Finset CO) {x : CO} (hx : x ∈ R) :
    owedFrom c S R A = owedFrom c S (R.erase x) A + tallyAt (dcell (peer c x.2) 1 x.1 x.2) () N := by
  unfold owedFrom; rw [← Finset.sum_erase_add _ _ hx]; ac_rfl
theorem owed_peel_ag (c : Dev nD) (S : Finset (Fin 8)) (R : Finset CO) {A : Finset CO} {x : CO} (hx : x ∈ A) :
    owedFrom c S R A = owedFrom c S R (A.erase x) + tallyAt (dcell (peer c x.2) 3 x.1 x.2) () N := by
  unfold owedFrom; rw [← Finset.sum_erase_add _ _ hx]; ac_rfl
theorem owed_none (c : Dev nD) : owedFrom c ∅ ∅ ∅ = 0 := by unfold owedFrom; simp

def L (g : GSem nD τ sig) : Finset Unit := if g.1.2 = .tc then {()} else ∅

def lv (g : GSem nD τ sig) (_ : Unit) : ℕ :=
  match g.2 with
  | .reg _ => 1
  | .dma q => match decodeQ q with
    | some (k, _, _) => if k = 1 then 2 else if k = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl

abbrev CIx : Type := Option (Fin 4 × Fin 3 × Fin 8)
abbrev kcell (ci : Dev nD × CIx) : GSem nD τ sig :=
  match ci.2 with
  | none => barCell ci.1
  | some (k, ch, o) => dcell ci.1 k ch o

def records (K : Dev nD × CIx → ℕ) : sProp 𝕄 :=
  iprop((bigSep Finset.univ fun ci : Dev nD × CIx => cellInv ER (Rd m) (K ci) (kcell ci))
    ∗ bigSep Finset.univ fun ci : Dev nD × CIx => reached ER (kcell ci) 0)

instance records_persistent (K : Dev nD × CIx → ℕ) : BI.Persistent (records m K) := by unfold records; infer_instance

def payToks (c : Dev nD) : sProp 𝕄 :=
  iprop((bigSep (Finset.univ.erase (0 : Fin 8)) fun o => dutyTok ER (barCell (peer c o)) 0 o)
    ∗ bigSep allCO fun x : CO => iprop(dutyTok ER (dcell c 0 x.1 x.2) 0 0 ∗ dutyTok ER (dcell (peer c x.2) 1 x.1 x.2) 0 0
        ∗ dutyTok ER (dcell c 2 x.1 x.2) 0 0 ∗ dutyTok ER (dcell (peer c x.2) 3 x.1 x.2) 0 0))

def positions (c : Dev nD) : sProp 𝕄 := bigSep Finset.univ fun i : CIx => atPos ER (kcell (c, i)) 0 ∅ 0

def ghost (K : Dev nD × CIx → ℕ) (c : Dev nD) : sProp 𝕄 := iprop(records m K ∗ positions c ∗ payToks c)

def creds (c : Dev nD) : sProp 𝕄 :=
  iprop(cred (tallyAt (barCell c) () 7)
    ∗ bigSep allCO fun x : CO => iprop(cred (tallyAt (dcell c 1 x.1 x.2) () N) ∗ cred (tallyAt (dcell c 3 x.1 x.2) () N)))

def start (c : Dev nD) : sProp 𝕄 := iprop((∃ K, ghost m K c) ∗ creds c ∗ levAts L lv)

def scratch (c : Dev nD) : sProp 𝕄 :=
  iprop((∃ f, pts c pM fullShare f) ∗ (∃ f, pts c rsM fullShare f) ∗ (∃ f, pts c actM fullShare f)
    ∗ (∃ f, pts c wdbM fullShare f) ∗ (∃ f, pts c redM fullShare f) ∗ (∃ f, pts c accM fullShare f))

def Φ₀ (c : Dev nD) : sProp 𝕄 := iprop(start m c ∗ scratch c)

def Φ₁ (c : Dev nD) : sProp 𝕄 :=
  iprop(scratch c ∗ bigSep Finset.univ fun x : Fin 4 × Fin 3 × Fin 8 => semVal (dcell c x.1 x.2.1 x.2.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wgv m c
    | ⟨2, _⟩ => wuv m c
    | ⟨3, _⟩ => wdv m c
    | ⟨4, _⟩ => outCan m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Proto

end
-- ==== Proof.Bits.BodyStmt.lean ====
import proofs.«900790_g7700000000000791_dist_gated_mlp_tp_i_m768_h1536_d768_v7x_i8_bf16_1_alg».proof.Proof.Bits.Proto
import proofs.«900790_g7700000000000791_dist_gated_mlp_tp_i_m768_h1536_d768_v7x_i8_bf16_1_alg».proof.Proof.Gen.Kernel.Points

noncomputable section

namespace Cert.Kernel.Proto

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CIx → ℕ) (c : Dev nD) : sProp 𝕄 :=
  iprop((ghost m K c ∗ creds c ∗ levAts L lv ∗ scratch c)
    ∗ (dats m ρ 0 c).owesAt () t₀.castSucc
    ∗ stg c cc0_stg0_0 (xv m c) ∗ stg c cc0_stg1_0 (wgv m c) ∗ stg c cc0_stg2_0 (wuv m c) ∗ stg c cc0_stg3_0 (wdv m c)
    ∗ (∃ X, stg c cc0_stg4_0 X))

def bodyPost (c : Dev nD) : sProp 𝕄 :=
  iprop(Φ₁ c ∗ (dats m ρ 0 c).owesAt () t₀.succ
    ∗ stg c cc0_stg0_0 (xv m c) ∗ stg c cc0_stg1_0 (wgv m c) ∗ stg c cc0_stg2_0 (wuv m c) ∗ stg c cc0_stg3_0 (wdv m c)
    ∗ stg c cc0_stg4_0 (outCan m))

abbrev bodyCall : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9

end Cert.Kernel.Proto

end
-- ==== Proof.Bits.State.lean ====
import proofs.«900790_g7700000000000791_dist_gated_mlp_tp_i_m768_h1536_d768_v7x_i8_bf16_1_alg».proof.Proof.Bits.BodyStmt

noncomputable section

namespace Cert.Kernel.Proto

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CIx → ℕ) (c : Dev nD)

def Tb (S : Finset (Fin 8)) : sProp 𝕄 := bigSep S fun o => dutyTok ER (barCell (peer c o)) 0 o

def Tx (k kp : Fin 4) (X : Finset CO) : sProp 𝕄 :=
  bigSep X fun x => iprop(dutyTok ER (dcell c k x.1 x.2) 0 0 ∗ dutyTok ER (dcell (peer c x.2) kp x.1 x.2) 0 0)

def Pos (k : Fin 4) (X : Finset CO) (r : ℕ) : sProp 𝕄 := bigSep X fun x => atPos ER (dcell c k x.1 x.2) r ∅ 0

def Cr (k : Fin 4) (X : Finset CO) : sProp 𝕄 := bigSep X fun x => cred (tallyAt (dcell c k x.1 x.2) () N)

def PosZ : sProp 𝕄 := bigSep (Finset.univ : Finset (Fin 4 × Fin 3)) fun y => atPos ER (dcell c y.1 y.2 0) 0 ∅ 0

def barPart (done : Bool) : sProp 𝕄 :=
  if done then atPos ER (barCell c) 1 ∅ 0 else iprop(atPos ER (barCell c) 0 ∅ 0 ∗ cred (tallyAt (barCell c) () 7))

def GP (S : Finset (Fin 8)) (bar : Bool) (R A Wr Wa Dr Da : Finset CO) : sProp 𝕄 :=
  iprop(Tb c S ∗ Tx c 0 1 R ∗ Tx c 2 3 A
    ∗ (∃ W, owes (c : Thread nD τ) (owedFrom c S R A) W)
    ∗ barPart c bar
    ∗ (Pos c 1 Wr 0 ∗ Cr c 1 Wr ∗ Pos c 1 (allCO \ Wr) 1)
    ∗ (Pos c 3 Wa 0 ∗ Cr c 3 Wa ∗ Pos c 3 (allCO \ Wa) 1)
    ∗ (Pos c 0 Dr 0 ∗ Cr c 0 (Dr \ R) ∗ Pos c 0 (allCO \ Dr) 1)
    ∗ (Pos c 2 Da 0 ∗ Cr c 2 (Da \ A) ∗ Pos c 2 (allCO \ Da) 1)
    ∗ PosZ c)

abbrev GP₀ : sProp 𝕄 := GP c (Finset.univ.erase 0) false allCO allCO allCO allCO allCO allCO

abbrev GP₁ : sProp 𝕄 := GP c ∅ true ∅ ∅ ∅ ∅ ∅ ∅

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in

theorem bigSep_option {α : Type} [Fintype α] [DecidableEq α] (Φ : Option α → sProp 𝕄) :
    bigSep Finset.univ Φ = iprop(Φ none ∗ bigSep Finset.univ fun a => Φ (some a)) := by
  rw [bigSep_univ_at Φ none,
    show (Finset.univ.erase (none : Option α)) = (Finset.univ : Finset α).map Function.Embedding.some from by
      ext x; cases x <;> simp,
    bigSep_map]
  all_goals rfl

theorem allCO_compl : (Finset.univ : Finset CO) \ allCO
    = (Finset.univ : Finset (Fin 3)).map ⟨fun ch => (ch, (0 : Fin 8)), fun a b h => congrArg Prod.fst h⟩ := by decide

omit [FloatOps F] in

theorem bigSep_cells (Φ : Fin 4 × Fin 3 × Fin 8 → sProp 𝕄) :
    bigSep Finset.univ Φ = iprop((bigSep allCO fun x => Φ (0, x)) ∗ (bigSep allCO fun x => Φ (1, x)) ∗ (bigSep allCO fun x => Φ (2, x))
      ∗ (bigSep allCO fun x => Φ (3, x)) ∗ bigSep (Finset.univ : Finset (Fin 4 × Fin 3)) fun y => Φ (y.1, y.2, 0)) := by
  have hk (k : Fin 4) : (bigSep Finset.univ fun y : Fin 3 × Fin 8 => Φ (k, y))
      = iprop((bigSep allCO fun x => Φ (k, x)) ∗ bigSep Finset.univ fun ch : Fin 3 => Φ (k, ch, 0)) := by
    rw [bigSep_sdiff_split (Finset.subset_univ allCO), allCO_compl, bigSep_map]
    all_goals rfl
  rw [bigSep_univ_prod Φ, bigSep_fin4, hk 0, hk 1, hk 2, hk 3, bigSep_univ_prod (fun y : Fin 4 × Fin 3 => Φ (y.1, y.2, 0)), bigSep_fin4]
  refine BI.Entails.antisymm (show _ ⊢ (_ : sProp 𝕄) from ?_) (show _ ⊢ (_ : sProp 𝕄) from ?_)
  · iintro ⟨⟨A0, Z0⟩, ⟨A1, Z1⟩, ⟨A2, Z2⟩, A3, Z3⟩; iframe
  · iintro ⟨A0, A1, A2, A3, Z0, Z1, Z2, Z3⟩; iframe

omit [FloatOps F] in

theorem bigSep_pers_fupd {I : Type} [DecidableEq I] (s : Finset I) (P : sProp 𝕄) [BI.Persistent P] (Φ Ψ : I → sProp 𝕄)
    (h : ∀ i ∈ s, iprop(P ∗ Φ i) ⊢ iprop(|={Set.univ}=> Ψ i)) : iprop(P ∗ bigSep s Φ) ⊢ iprop(|={Set.univ}=> bigSep s Ψ) := by
  have h1 : iprop(P ∗ bigSep s Φ) ⊢ bigSep s (fun i => iprop(P ∗ Φ i)) := by
    rw [bigSep_sep']
    iintro ⟨#HP, H⟩
    iframe H
    iapply (BI.bigSep_intro_persistent (R := P) (fun i _ => BI.Entails.refl P)); iexact HP
  exact (h1.trans (bigSep_mono h)).trans (bigSep_fupd s Ψ)

omit [FloatOps F] in
theorem positions_eq : (positions c : sProp 𝕄)
    = iprop(atPos ER (barCell c) 0 ∅ 0 ∗ Pos c 0 allCO 0 ∗ Pos c 1 allCO 0 ∗ Pos c 2 allCO 0 ∗ Pos c 3 allCO 0 ∗ PosZ c) := by
  unfold positions Pos PosZ
  rw [bigSep_option, bigSep_cells]
  all_goals rfl

omit [FloatOps F] in
theorem payToks_split : (payToks c : sProp 𝕄) ⊢ iprop(Tb c (Finset.univ.erase 0) ∗ Tx c 0 1 allCO ∗ Tx c 2 3 allCO) := by
  unfold payToks Tb Tx
  rw [← bigSep_sep']
  refine sep_mono_right (bigSep_mono fun x _ => (show _ ⊢ (_ : sProp 𝕄) from ?_))
  iintro ⟨H1, H2, H3, H4⟩; iframe

omit [FloatOps F] in
theorem creds_split : (creds c : sProp 𝕄) ⊢ iprop(cred (tallyAt (barCell c) () 7) ∗ Cr c 1 allCO ∗ Cr c 3 allCO) := by
  unfold creds Cr
  rw [bigSep_sep']

omit [FloatOps F] in
theorem Pos_empty (k : Fin 4) (r : ℕ) : (Pos c k ∅ r : sProp 𝕄) = iprop(emp) := rfl
omit [FloatOps F] in
theorem Cr_empty (k : Fin 4) : (Cr c k ∅ : sProp 𝕄) = iprop(emp) := rfl
omit [FloatOps F] in
theorem barPart_false : (barPart c false : sProp 𝕄) = iprop(atPos ER (barCell c) 0 ∅ 0 ∗ cred (tallyAt (barCell c) () 7)) := rfl

theorem gp_intro : iprop(positions c ∗ payToks c ∗ creds c ∗ (dats m ρ 0 c).owesAt () t₀.castSucc) ⊢ (GP₀ c : sProp 𝕄) := by
  have hO : (dats m ρ 0 c).owed t₀.castSucc = owedFrom c (Finset.univ.erase 0) allCO allCO := rfl
  rw [positions_eq]
  unfold GP₀ GP Dat.owesAt Pipeline.owesWithin
  rw [hO, Finset.sdiff_self, Pos_empty c 1 1, Pos_empty c 3 1, Pos_empty c 0 1, Pos_empty c 2 1, Cr_empty c 0, Cr_empty c 2, barPart_false]
  iintro ⟨⟨Hb, P0, P1, P2, P3, PZ⟩, Htok, Hcr, ⟨%W, %hW, HO⟩⟩
  ihave Htok' := (payToks_split c) $$ Htok
  icases Htok' with ⟨Tb, T01, T23⟩
  ihave Hcr' := (creds_split c) $$ Hcr
  icases Hcr' with ⟨C7, C1, C3⟩
  iframe Tb T01 T23 Hb C7 P0 P1 P2 P3 C1 C3 PZ
  isplitl [HO]; · iexists W; iexact HO
  isplitr <;> isplitr <;> iempintro

theorem inv_of_records (k : Fin 4) (ch : Fin 3) (o : Fin 8) :
    (records m K : sProp 𝕄) ⊢ cellInv ER (Rd m) (K (c, some (k, ch, o))) (dcell c k ch o) := by
  have h : (bigSep Finset.univ fun ci : Dev nD × CIx => cellInv ER (Rd m) (K ci) (kcell ci) : sProp 𝕄)
      ⊢ cellInv ER (Rd m) (K (c, some (k, ch, o))) (dcell c k ch o) :=
    bigSep_elim (Finset.mem_univ ((c, some (k, ch, o)) : Dev nD × CIx))
  unfold records
  iintro ⟨H, -⟩
  iapply h; iexact H

theorem close_one (k : Fin 4) (ch : Fin 3) (o : Fin 8) (R : ℕ) (hR : ∀ r, R ≤ r → (Rd (F := F) m).duties (dcell c k ch o) r = ∅) :
    iprop(records m K ∗ atPos ER (dcell c k ch o) R ∅ 0) ⊢ iprop(|={Set.univ}=> semVal (dcell c k ch o) 0) := by
  iintro ⟨#HR, Hat⟩
  iapply (Rounds.cell_close ER (Rd m) (Set.mem_univ (K (c, some (k, ch, o)))) (fun h => h) (R := R) hR)
  iframe Hat
  iapply (inv_of_records m K c k ch o); iexact HR

theorem close_used (k : Fin 4) :
    iprop(records m K ∗ Pos c k allCO 1) ⊢ iprop(|={Set.univ}=> bigSep allCO fun x : CO => semVal (dcell c k x.1 x.2) 0) :=
  bigSep_pers_fupd allCO (records m K) _ _ fun x _ => close_one m K c k x.1 x.2 1 (duties_later m _)

theorem close_unused :
    iprop(records m K ∗ PosZ c) ⊢ iprop(|={Set.univ}=> bigSep (Finset.univ : Finset (Fin 4 × Fin 3)) fun y => semVal (dcell c y.1 y.2 0) 0) :=
  bigSep_pers_fupd Finset.univ (records m K) _ _ fun y _ => close_one m K c y.1 y.2 0 0 fun r _ => by
    rcases r with _ | r
    · exact duties_dma0 m c y.1 y.2
    · exact duties_later m _ _ (Nat.succ_le_succ (Nat.zero_le r))

theorem gp_close : iprop(records m K ∗ GP₁ c) ⊢ |={Set.univ}=> iprop((bigSep Finset.univ fun x : Fin 4 × Fin 3 × Fin 8 => semVal (dcell c x.1 x.2.1 x.2.2) 0) ∗ (dats m ρ 0 c).owesAt () t₀.succ : sProp 𝕄) := by
  have hO : (dats m ρ 0 c).owed t₀.succ = 0 := rfl
  unfold GP₁ GP Dat.owesAt Pipeline.owesWithin
  rw [hO, owed_none, Finset.sdiff_empty, bigSep_cells]
  iintro ⟨#HR, -, -, -, ⟨%W, HO⟩, -, ⟨-, -, H1⟩, ⟨-, -, H3⟩, ⟨-, -, H0⟩, ⟨-, -, H2⟩, HZ⟩
  imod (close_used m K c 0) $$ [$HR $H0] with Hz0
  imod (close_used m K c 1) $$ [$HR $H1] with Hz1
  imod (close_used m K c 2) $$ [$HR $H2] with Hz2
  imod (close_used m K c 3) $$ [$HR $H3] with Hz3
  imod (close_unused m K c) $$ [$HR $HZ] with HzZ
  imodintro
  iframe Hz0 Hz1 Hz2 Hz3 HzZ
  iexists W
  isplitr; · ipureintro; exact fun _ _ => Or.inl trivial
  iexact HO

end Cert.Kernel.Proto

end
-- ==== Proof.Bits.Bufs.lean ====
import proofs.«900790_g7700000000000791_dist_gated_mlp_tp_i_m768_h1536_d768_v7x_i8_bf16_1_alg».proof.Proof.Bits.State

noncomputable section

namespace Cert.Kernel.Proto

open Cert.Kernel Cert.Kernel.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ)

variable (c : Dev nD)

abbrev lo (n : ℕ) : Finset (Fin 3) := Finset.univ.filter fun ch => ch.val < n
abbrev hi (n : ℕ) : Finset (Fin 3) := Finset.univ.filter fun ch => n ≤ ch.val

abbrev coGE (n : ℕ) : Finset CO := allCO.filter fun x => n ≤ x.1.val

abbrev chunkCO (ch : Fin 3) : Finset CO := allCO.filter fun x => x.1 = ch

def IN : sProp 𝕄 := iprop(stg c cc0_stg0_0 (xv m c) ∗ stg c cc0_stg1_0 (wgv m c) ∗ stg c cc0_stg2_0 (wuv m c) ∗ stg c cc0_stg3_0 (wdv m c))

def PeerSlots (X : Finset CO) : sProp 𝕄 := bigSep X fun x => iprop(∃ f, pts (peer c x.2) (slotV x.1 x.2) fullShare f)

def PeerOut (X : Finset CO) : sProp 𝕄 := bigSep X fun x => iprop(∃ f, pts (peer c x.2) (outV c x.1) fullShare f)

def B1 : sProp 𝕄 :=
  iprop(IN m c ∗ (∃ f, pts c actM fullShare f) ∗ (∃ f, pts c wdbM fullShare f) ∗ (∃ f, pts c redM fullShare f) ∗ (∃ f, pts c accM fullShare f)
    ∗ (∃ f, pts c pM fullShare f)
    ∗ (bigSep Finset.univ fun ch : Fin 3 => iprop(∃ f, pts c (slotV ch 0) fullShare f))
    ∗ (bigSep Finset.univ fun ch : Fin 3 => iprop(∃ f, pts c (outV c ch) fullShare f))
    ∗ PeerSlots c allCO ∗ PeerOut c allCO)

def B3 (n : ℕ) : sProp 𝕄 :=
  iprop(IN m c ∗ pts c actM fullShare (actv m c) ∗ pts c wdbM fullShare (wdbv m c) ∗ (∃ f, pts c redM fullShare f) ∗ (∃ f, pts c accM fullShare f)
    ∗ (bigSep (lo n) fun ch => pts c (prowV ch c) fullShare (pCan m c))
    ∗ (bigSep (hi n) fun ch => iprop(∃ f, (pM.view.loc (c : Thread nD τ) ↦[(pM.access (pRect ch)).set]{fullShare} f)))
    ∗ (bigSep (lo n) fun ch => pts c (slotV ch 0) fullShare (rsCan m c))
    ∗ (bigSep (hi n) fun ch => iprop(∃ f, pts c (slotV ch 0) fullShare f))
    ∗ (bigSep Finset.univ fun ch : Fin 3 => iprop(∃ f, pts c (outV c ch) fullShare f))
    ∗ PeerSlots c (coGE n) ∗ PeerOut c allCO)

def B4 (n : ℕ) : sProp 𝕄 :=
  iprop(IN m c ∗ pts c actM fullShare (actv m c) ∗ pts c wdbM fullShare (wdbv m c) ∗ (∃ f, pts c accM fullShare f)
    ∗ (bigSep Finset.univ fun ch : Fin 3 => pts c (prowV ch c) fullShare (pCan m c))
    ∗ (bigSep Finset.univ fun ch : Fin 3 => pts c (slotV ch 0) fullShare (rsCan m c))
    ∗ (bigSep (allCO \ coGE n) fun x => pts c (slotV x.1 x.2) fullShare (rsCan m c))
    ∗ (bigSep (lo n) fun ch => iprop(pts c (redV ch) (Transfers.shareDrop fullShare 8) (redCan m c) ∗ pts c (redV ch) (redShare 0) (redCan m c)))
    ∗ (bigSep (hi n) fun ch => iprop(∃ f, pts c (redV ch) fullShare f))
    ∗ (bigSep (lo n) fun ch => pts c (outV c ch) fullShare (outCan m))
    ∗ (bigSep (hi n) fun ch => iprop(∃ f, pts c (outV c ch) fullShare f))
    ∗ PeerOut c (coGE n))

def B5 (n k : ℕ) : sProp 𝕄 :=
  iprop(B4 m c 3
    ∗ (bigSep (allCO \ coGE n) fun x => pts c (outV (peer c x.2) x.1) fullShare (outCan m))
    ∗ (bigSep (allCO \ coGE k) fun x => iprop((∃ f, pts c (prowV x.1 (peer c x.2)) fullShare f) ∗ pts c (redV x.1) (redShare x.2) (redCan m c))))

end Cert.Kernel.Proto

end
-- ==== Proof.Bits.Tiles.lean ====
import proofs.«900790_g7700000000000791_dist_gated_mlp_tp_i_m768_h1536_d768_v7x_i8_bf16_1_alg».proof.Proof.Bits.Canon
import Idealize.ShloMosaic.Lib.Pipeline.Value

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

theorem pts_congr {sp : Space} {s : Shape} {e : EltTy} {c : Thread nD τ} {v : View sig c.2.kind sp s e}
    {S : Finset (Idx (v.loc c))} {q : PosShare TreeShare} {f g : Buf (Elt F) (v.loc c)}
    (h : ∀ i ∈ S, f i = g i) : (v.loc c ↦[S]{q} f : sProp 𝕄) = (v.loc c ↦[S]{q} g) :=
  pointsTo_congr h

-- a set covered by pairwise disjoint pieces is held exactly when every piece is
theorem pts_cover {ℓ : Loc nD τ sig} {T : Type} [Fintype T] [DecidableEq T] (K : T → Finset (Idx ℓ)) (S : Finset (Idx ℓ))
    (q : PosShare TreeShare) (f : Buf (Elt F) ℓ)
    (hd : ∀ t t', t ≠ t' → Disjoint (K t) (K t'))
    (hc : ∀ i, i ∈ S ↔ ∃ t, i ∈ K t) :
    (ℓ ↦[S]{q} f : sProp 𝕄) ⊣⊢ bigSep Finset.univ fun t => ℓ ↦[K t]{q} f := by
  rw [show S = Finset.univ.biUnion K from by ext i; simp only [hc, Finset.mem_biUnion, Finset.mem_univ, true_and],
    pointsTo_biUnion Finset.univ K (fun t _ t' _ h => hd t t' h)]

-- the whole buffer, every index of which lies in the piece blk names
theorem pts_tile {ℓ : Loc nD τ sig} {T : Type} [Fintype T] [DecidableEq T] (K : T → Finset (Idx ℓ)) {S : Finset (Idx ℓ)}
    (hS : S = Finset.univ) (f : Buf (Elt F) ℓ) (blk : Idx ℓ → T)
    (hd : ∀ t t', t ≠ t' → Disjoint (K t) (K t')) (hc : ∀ i, i ∈ K (blk i)) :
    (ℓ ↦[S]{fullShare} f : sProp 𝕄) ⊣⊢ bigSep Finset.univ fun t => ℓ ↦[K t]{fullShare} f :=
  pts_cover K S fullShare f hd fun i => ⟨fun _ => ⟨blk i, hc i⟩, fun _ => hS ▸ Finset.mem_univ _⟩

-- a family over pairs is pairwise disjoint when either coordinate alone separates its members
theorem disj2 {α A B : Type} [DecidableEq α] (R : A → B → Finset α) (h1 : ∀ a a' b b', a ≠ a' → Disjoint (R a b) (R a' b'))
    (h2 : ∀ a b b', b ≠ b' → Disjoint (R a b) (R a b')) (t t' : A × B) (h : t ≠ t') : Disjoint (R t.1 t.2) (R t'.1 t'.2) := by
  by_cases e : t.1 = t'.1
  · rw [← e]; exact h2 _ _ _ fun e2 => h (Prod.ext e e2)
  · exact h1 _ _ _ _ e

theorem blk_sep (k : ℕ) {a b : ℕ} (h : a ≠ b) : k * a + k ≤ k * b ∨ k * b + k ≤ k * a :=
  (Nat.lt_or_gt_of_ne h).imp (Nat.mul_le_mul_left k) (Nat.mul_le_mul_left k)

theorem ax_unit (x : ℕ) : x ≤ x ∧ x < x + 1 := ⟨Nat.le_refl _, Nat.lt_succ_self _⟩
theorem ax_whole {n : ℕ} (x : Fin n) : 0 ≤ x.val ∧ x.val < 0 + n := ⟨Nat.zero_le _, by omega⟩
theorem ax_blk (k : ℕ) (hk : 0 < k) (x : ℕ) : k * (x / k) ≤ x ∧ x < k * (x / k) + k :=
  ⟨Nat.mul_div_le x k, Nat.lt_mul_div_succ x hk⟩

theorem redV_set (ch : Fin 3) : (redV ch).view.set = (redRect ch).set := by
  simp only [Memref.view_squeeze, Memref.view_slice, Memref.view_whole, View.set_reshape, View.set_slice_whole]

theorem redV_pts (c : Dev nD) (ch : Fin 3) (q : PosShare TreeShare) (f : Buf (Elt F) (redM.view.loc (c : Thread nD τ))) :
    ((redV ch).view.loc (c : Thread nD τ) ↦[(redV ch).view.set]{q} f : sProp 𝕄)
      = (redM.view.loc (c : Thread nD τ) ↦[(redRect ch).set]{q} f) := by
  rw [redV_set]

theorem red_tile (c : Dev nD) (f : Buf (Elt F) (redM.view.loc (c : Thread nD τ))) :
    (redM.view.loc (c : Thread nD τ) ↦[redM.view.set]{fullShare} f : sProp 𝕄) ⊣⊢
      bigSep Finset.univ fun ch : Fin 3 => ((redV ch).view.loc (c : Thread nD τ) ↦[(redV ch).view.set]{fullShare} f) := by
  rw [bigSep_congr fun ch _ => redV_pts c ch fullShare f]
  exact pts_tile _ (View.set_whole _) f (fun i => i 0)
    (fun _ _ h => Rect.unit_disjoint (0 : Fin 3) (Nat.lt_or_gt_of_ne (Fin.val_ne_of_ne h)))
    fun i => Rect.mem_set_unit.2 fun a => match a with
      | ⟨0, _⟩ => ax_unit _ | ⟨1, _⟩ => ax_whole (i 1) | ⟨2, _⟩ => ax_whole (i 2)

theorem slotV_set (ch : Fin 3) (o : Fin 8) : (slotV ch o).view.set = (slotRect ch o).set := by
  simp only [Memref.view_squeeze, Memref.view_slice, Memref.view_whole, View.set_reshape, View.set_slice_whole]

theorem slotV_pts (c : Dev nD) (ch : Fin 3) (o : Fin 8) (q : PosShare TreeShare) (f : Buf (Elt F) (rsM.view.loc (c : Thread nD τ))) :
    ((slotV ch o).view.loc (c : Thread nD τ) ↦[(slotV ch o).view.set]{q} f : sProp 𝕄)
      = (rsM.view.loc (c : Thread nD τ) ↦[(slotRect ch o).set]{q} f) := by
  rw [slotV_set]

theorem rs_tile (c : Dev nD) (f : Buf (Elt F) (rsM.view.loc (c : Thread nD τ))) :
    (rsM.view.loc (c : Thread nD τ) ↦[rsM.view.set]{fullShare} f : sProp 𝕄) ⊣⊢
      bigSep Finset.univ fun t : Fin 3 × Fin 8 => ((slotV t.1 t.2).view.loc (c : Thread nD τ) ↦[(slotV t.1 t.2).view.set]{fullShare} f) := by
  rw [bigSep_congr fun t _ => slotV_pts c t.1 t.2 fullShare f]
  exact pts_tile _ (View.set_whole _) f (fun i => (i 0, i 1))
    (disj2 (fun ch o => (slotRect ch o).set)
      (fun _ _ _ _ h => Rect.unit_disjoint (0 : Fin 4) (Nat.lt_or_gt_of_ne (Fin.val_ne_of_ne h)))
      fun _ _ _ h => Rect.unit_disjoint (1 : Fin 4) (Nat.lt_or_gt_of_ne (Fin.val_ne_of_ne h)))
    fun i => Rect.mem_set_unit.2 fun a => match a with
      | ⟨0, _⟩ => ax_unit _ | ⟨1, _⟩ => ax_unit _ | ⟨2, _⟩ => ax_whole (i 2) | ⟨3, _⟩ => ax_whole (i 3)

theorem outM_set : outM.view.set = Finset.univ := View.set_whole _
theorem outV_set (s : Dev nD) (ch : Fin 3) : (outV s ch).view.set = (outRect s ch).set := by
  simp only [Memref.view_slice, Memref.view_whole, View.set_slice_whole]

theorem outV_pts (c : Dev nD) (s : Dev nD) (ch : Fin 3) (q : PosShare TreeShare) (f : Buf (Elt F) (outM.view.loc (c : Thread nD τ))) :
    ((outV s ch).view.loc (c : Thread nD τ) ↦[(outV s ch).view.set]{q} f : sProp 𝕄)
      = (outM.view.loc (c : Thread nD τ) ↦[(outRect s ch).set]{q} f) := by
  rw [outV_set]

theorem out_tile (c : Dev nD) (f : Buf (Elt F) (outM.view.loc (c : Thread nD τ))) :
    (outM.view.loc (c : Thread nD τ) ↦[outM.view.set]{fullShare} f : sProp 𝕄) ⊣⊢
      bigSep Finset.univ fun sc : Dev nD × Fin 3 => ((outV sc.1 sc.2).view.loc (c : Thread nD τ) ↦[(outV sc.1 sc.2).view.set]{fullShare} f) := by
  rw [bigSep_congr fun t _ => outV_pts c t.1 t.2 fullShare f]
  exact pts_tile _ outM_set f
    (fun i => (⟨(i 0).val / 96, Nat.div_lt_of_lt_mul (i 0).isLt⟩, ⟨(i 1).val / 256, Nat.div_lt_of_lt_mul (i 1).isLt⟩))
    (disj2 (fun s ch => (outRect s ch).set)
      (fun _ _ _ _ h => Rect.unit_disjoint (0 : Fin 2) (blk_sep 96 (Fin.val_ne_of_ne h)))
      fun _ _ _ h => Rect.unit_disjoint (1 : Fin 2) (blk_sep 256 (Fin.val_ne_of_ne h)))
    fun i => Rect.mem_set_unit.2 fun a => match a with
      | ⟨0, _⟩ => ax_blk 96 (by decide) _ | ⟨1, _⟩ => ax_blk 256 (by decide) _

theorem pM_set : pM.view.set = Finset.univ := View.set_whole _
theorem prowV_set (ch : Fin 3) (d : Dev nD) : (prowV ch d).view.set = (prowRect ch d).set := by
  simp only [Memref.view_squeeze, Memref.view_slice, Memref.view_whole, View.set_reshape, View.set_slice_whole]

theorem prow_disj (t t' : Fin 3 × Dev nD) (h : t ≠ t') : Disjoint (prowRect t.1 t.2).set (prowRect t'.1 t'.2).set :=
  disj2 (fun ch d => (prowRect ch d).set)
    (fun _ _ _ _ h => Rect.unit_disjoint (0 : Fin 3) (Nat.lt_or_gt_of_ne (Fin.val_ne_of_ne h)))
    (fun _ _ _ h => Rect.unit_disjoint (1 : Fin 3) (blk_sep 96 (Fin.val_ne_of_ne h))) t t' h

def prowBlk (i : S3x768x256.Idx) : Dev nD :=
  ⟨(i 1).val / 96, by have h1 : (i 1).val < 768 := (i 1).isLt; show (i 1).val / 96 < 8; omega⟩

theorem prow_cov (i : S3x768x256.Idx) : i ∈ (prowRect (i 0) (prowBlk i)).set :=
  Rect.mem_set_unit.2 fun a => match a with
    | ⟨0, _⟩ => ax_unit _ | ⟨1, _⟩ => ax_blk 96 (by decide) _ | ⟨2, _⟩ => ax_whole (i 2)

theorem prowV_pts (c : Dev nD) (ch : Fin 3) (d : Dev nD) (q : PosShare TreeShare) (f : Buf (Elt F) (pM.view.loc (c : Thread nD τ))) :
    ((prowV ch d).view.loc (c : Thread nD τ) ↦[(prowV ch d).view.set]{q} f : sProp 𝕄)
      = (pM.view.loc (c : Thread nD τ) ↦[(prowRect ch d).set]{q} f) := by
  rw [prowV_set]

theorem p_tile (c : Dev nD) (f : Buf (Elt F) (pM.view.loc (c : Thread nD τ))) :
    (pM.view.loc (c : Thread nD τ) ↦[pM.view.set]{fullShare} f : sProp 𝕄) ⊣⊢
      bigSep Finset.univ fun t : Fin 3 × Dev nD => ((prowV t.1 t.2).view.loc (c : Thread nD τ) ↦[(prowV t.1 t.2).view.set]{fullShare} f) := by
  rw [bigSep_congr fun t _ => prowV_pts c t.1 t.2 fullShare f]
  exact pts_tile _ pM_set f (fun i => (i 0, prowBlk i)) prow_disj prow_cov

theorem pchunk_set (ch : Fin 3) : (pM.access (pRect ch)).set = (pRect ch).set := View.set_slice_whole _ _

theorem pchunk_load_subset (ch : Fin 3) : pM.view.setOn (pRect ch).toLoadRect.set ⊆ (pM.access (pRect ch)).set := by
  rw [View.set_slice]; exact Finset.Subset.refl _

theorem pchunk_mem (ch : Fin 3) (i : S3x768x256.Idx) : i ∈ (pRect ch).set ↔ ∃ d : Dev nD, i ∈ (prowRect ch d).set := by
  constructor
  · intro h
    have h0 : ch.val ≤ (i 0).val ∧ (i 0).val < ch.val + 1 := Rect.mem_set_unit.1 h 0
    have e : i 0 = ch := Fin.ext (by omega)
    exact ⟨prowBlk i, e ▸ prow_cov i⟩
  · rintro ⟨d, h⟩
    exact Rect.mem_set_unit.2 fun a => match a with
      | ⟨0, _⟩ => Rect.mem_set_unit.1 h 0 | ⟨1, _⟩ => ax_whole (i 1) | ⟨2, _⟩ => ax_whole (i 2)

theorem p_chunk (c : Dev nD) (ch : Fin 3) (f : Buf (Elt F) (pM.view.loc (c : Thread nD τ))) :
    (bigSep Finset.univ fun d : Dev nD => ((prowV ch d).view.loc (c : Thread nD τ) ↦[(prowV ch d).view.set]{fullShare} f : sProp 𝕄)) ⊣⊢
      (pM.view.loc (c : Thread nD τ) ↦[(pM.access (pRect ch)).set]{fullShare} f) := by
  rw [pchunk_set, bigSep_congr fun d _ => prowV_pts c ch d fullShare f]
  exact (pts_cover _ _ fullShare f (fun d d' hd => prow_disj (ch, d) (ch, d') fun e => hd (Prod.ext_iff.mp e).2) (pchunk_mem ch)).symm

theorem red_shares (c : Dev nD) (ch : Fin 3) (f : Buf (Elt F) (redM.view.loc (c : Thread nD τ))) :
    ((redV ch).view.loc (c : Thread nD τ) ↦[(redV ch).view.set]{fullShare} f : sProp 𝕄) ⊣⊢
      iprop(((redV ch).view.loc (c : Thread nD τ) ↦[(redV ch).view.set]{Transfers.shareDrop fullShare 8} f)
        ∗ bigSep Finset.univ fun o : Fin 8 =>
            ((redV ch).view.loc (c : Thread nD τ) ↦[(redV ch).view.set]{Transfers.shareTok fullShare 8 o} f)) :=
  Transfers.pointsTo_toks fullShare 8

end Cert.Kernel.Proto

end
-- ==== Proof.Bits.Lands.lean ====
import proofs.«900790_g7700000000000791_dist_gated_mlp_tp_i_m768_h1536_d768_v7x_i8_bf16_1_alg».proof.Proof.Bits.Canon
import Idealize.ShloMosaic.Lib.ValueLayout

noncomputable section

namespace Cert.Kernel.Proto

open Cert.Kernel Cert.Kernel.Gen
open Idealize.ShloMosaic Idealize.ShloMosaic.ValueIdx

variable {F : FTy → Type} [FloatOps F]
variable (m : (ℓ : Loc nD τ sig) → Buf (Elt F) ℓ)

abbrev rowOf (d : Dev nD) (r : Fin 96) : Fin 768 := ⟨96 * d.val + r.val, by have hd : d.val < 8 := d.isLt; have := r.isLt; omega⟩
abbrev colOf (ch : Fin 3) (q : Fin 256) : Fin 768 := ⟨256 * ch.val + q.val, by have := ch.isLt; have := q.isLt; omega⟩

theorem reshape_4 (h : S96x256.numel = (⟨4, S1x1x96x256.size⟩ : Shape).numel) (r : Fin 96) (q : Fin 256) :
    Shape.reshapeEquiv (s := ⟨4, S1x1x96x256.size⟩) (s' := S96x256) h (ix2 r q) = ix4 (0 : Fin 1) (0 : Fin 1) r q :=
  Shape.reshapeEquiv_eq_of_rowMajor h (by
    rw [Shape.rowMajor_val_four, Shape.rowMajor_val_two]
    show ((0 * 1 + 0) * 96 + r.val) * 256 + q.val = r.val * 256 + q.val
    omega)

theorem reshape_3 (h : S96x256.numel = (⟨3, S1x96x256.size⟩ : Shape).numel) (r : Fin 96) (q : Fin 256) :
    Shape.reshapeEquiv (s := ⟨3, S1x96x256.size⟩) (s' := S96x256) h (ix2 r q) = ix3 (0 : Fin 1) r q :=
  Shape.reshapeEquiv_eq_of_rowMajor h (by
    rw [Shape.rowMajor_val_three, Shape.rowMajor_val_two]
    show (0 * 96 + r.val) * 256 + q.val = r.val * 256 + q.val
    omega)

theorem pRect_idx (ch : Fin 3) (u : Fin 1) (i : Fin 768) (q : Fin 256) :
    (pRect ch).toLoadRect.idx (ix3 u i q) = ix3 ch i q := by
  funext a
  apply Fin.ext
  match a with
  | ⟨0, _⟩ => show ch.val + 1 * u.val = ch.val; omega
  | ⟨1, _⟩ => show 0 + 1 * i.val = i.val; omega
  | ⟨2, _⟩ => show 0 + 1 * q.val = q.val; omega

theorem prowRect_idx (ch : Fin 3) (d : Dev nD) (u : Fin 1) (r : Fin 96) (q : Fin 256) :
    (prowRect ch d).toLoadRect.idx (ix3 u r q) = ix3 ch (rowOf d r) q := by
  funext a
  apply Fin.ext
  match a with
  | ⟨0, _⟩ => show ch.val + 1 * u.val = ch.val; omega
  | ⟨1, _⟩ => show 96 * d.val + 1 * r.val = 96 * d.val + r.val; omega
  | ⟨2, _⟩ => show 0 + 1 * q.val = q.val; omega

theorem slotRect_idx (ch : Fin 3) (o : Fin 8) (u0 u1 : Fin 1) (r : Fin 96) (q : Fin 256) :
    (slotRect ch o).toLoadRect.idx (ix4 u0 u1 r q) = ix4 ch o r q := by
  funext a
  apply Fin.ext
  match a with
  | ⟨0, _⟩ => show ch.val + 1 * u0.val = ch.val; omega
  | ⟨1, _⟩ => show o.val + 1 * u1.val = o.val; omega
  | ⟨2, _⟩ => show 0 + 1 * r.val = r.val; omega
  | ⟨3, _⟩ => show 0 + 1 * q.val = q.val; omega

theorem redRect_idx (ch : Fin 3) (u : Fin 1) (r : Fin 96) (q : Fin 256) :
    (redRect ch).toLoadRect.idx (ix3 u r q) = ix3 ch r q := by
  funext a
  apply Fin.ext
  match a with
  | ⟨0, _⟩ => show ch.val + 1 * u.val = ch.val; omega
  | ⟨1, _⟩ => show 0 + 1 * r.val = r.val; omega
  | ⟨2, _⟩ => show 0 + 1 * q.val = q.val; omega

-- dropping unit axes does not move an entry: (r, q) sits where (0, 0, r, q) does
theorem slotV_emb (ch : Fin 3) (o : Fin 8) (r : Fin 96) (q : Fin 256) :
    (slotV ch o).view.emb (ix2 r q) = ix4 ch o r q := by
  show (slotRect ch o).emb (Shape.reshapeEquiv _ (ix2 r q)) = _
  rw [reshape_4]; exact slotRect_idx ch o 0 0 r q

theorem prowV_emb (ch : Fin 3) (d : Dev nD) (r : Fin 96) (q : Fin 256) :
    (prowV ch d).view.emb (ix2 r q) = ix3 ch (rowOf d r) q := by
  show (prowRect ch d).emb (Shape.reshapeEquiv _ (ix2 r q)) = _
  rw [reshape_3]; exact prowRect_idx ch d 0 r q

theorem redV_emb (ch : Fin 3) (r : Fin 96) (q : Fin 256) :
    (redV ch).view.emb (ix2 r q) = ix3 ch r q := by
  show (redRect ch).emb (Shape.reshapeEquiv _ (ix2 r q)) = _
  rw [reshape_3]; exact redRect_idx ch 0 r q

theorem outV_emb (s : Dev nD) (ch : Fin 3) (r : Fin 96) (q : Fin 256) :
    (outV s ch).view.emb (ix2 r q) = ix2 (rowOf s r) (colOf ch q) := by
  funext a
  apply Fin.ext
  match a with
  | ⟨0, _⟩ => show 96 * s.val + 1 * r.val = 96 * s.val + r.val; omega
  | ⟨1, _⟩ => show 256 * ch.val + 1 * q.val = 256 * ch.val + q.val; omega

theorem pCan_at (c : Dev nD) (ch : Fin 3) (i : Fin 768) (q : Fin 256) : pCan m c (ix3 ch i q) = pval m c ch (ix2 i q) := rfl
theorem rsCan_at (c : Dev nD) (ch : Fin 3) (o : Fin 8) (r : Fin 96) (q : Fin 256) :
    rsCan m c (ix4 ch o r q) = pval m (peer c o) ch (ix2 (rowOf c r) q) := rfl
theorem redCan_at (c : Dev nD) (ch : Fin 3) (r : Fin 96) (q : Fin 256) : redCan m c (ix3 ch r q) = redv m c ch (ix2 r q) := rfl

-- entry (96 s + r, 256 ch + q) of the result is entry (r, q) of block (s, ch): quotient and remainder undo the offsets
theorem outCan_at (s : Dev nD) (ch : Fin 3) (r : Fin 96) (q : Fin 256) :
    outCan m (ix2 (rowOf s r) (colOf ch q)) = redv m s ch (ix2 r q) := by
  have e0 : (96 * s.val + r.val) / 96 = s.val := by omega
  have e1 : (256 * ch.val + q.val) / 256 = ch.val := by omega
  have e2 : (96 * s.val + r.val) % 96 = r.val := by omega
  have e3 : (256 * ch.val + q.val) % 256 = q.val := by omega
  show redv m ⟨(96 * s.val + r.val) / 96, _⟩ ⟨(256 * ch.val + q.val) / 256, _⟩ (ix2 ⟨(96 * s.val + r.val) % 96, _⟩ ⟨(256 * ch.val + q.val) % 256, _⟩) = _
  simp only [e0, e1, e2, e3, Fin.eta]

-- a write over a whole view leaves at every element of the view the value written there
theorem write_all {κ : Kind} {sp : Space} {s : Shape} {e : EltTy} (v : View sig κ sp s e) (f g : v.ty.Contents (Elt F)) (w : s.Idx → Elt F e)
    (h : ∀ y, _root_.cast (congrArg (Elt F) v.elt_eq.symm) (w y) = g (v.emb y)) :
    ∀ i ∈ v.set, v.write (Elt F) f w Finset.univ i = g i := by
  intro i hi
  obtain ⟨y, rfl⟩ := View.exists_emb_of_mem_set _ hi
  rw [View.write_emb_of_mem _ _ (Finset.mem_univ _)]; exact h y

theorem land_rs (c : Dev nD) (ch : Fin 3) (o : Fin 8)
    (fs : (prowV ch (peer c o)).view.ty.Contents (Elt F)) (fd : (slotV ch o).view.ty.Contents (Elt F))
    (hfs : ∀ i ∈ (prowV ch (peer c o)).view.set, fs i = pCan m c i) :
    ∀ i ∈ (slotV ch o).view.set,
      (slotV ch o).view.write (Elt F) fd ((prowV ch (peer c o)).view.read (Elt F) fs) Finset.univ i = rsCan m (peer c o) i := by
  refine write_all _ _ _ _ fun y => ?_
  obtain ⟨r, q, rfl⟩ : ∃ (r : Fin 96) (q : Fin 256), y = ix2 r q := ⟨y 0, y 1, eq_ix2 y⟩
  rw [View.read_apply, hfs _ (View.emb_mem_set _ _)]
  show pCan m c ((prowV ch (peer c o)).view.emb (ix2 r q)) = rsCan m (peer c o) ((slotV ch o).view.emb (ix2 r q))
  rw [prowV_emb, slotV_emb, pCan_at, rsCan_at, peer_peer]

theorem land_ag (c : Dev nD) (ch : Fin 3) (o : Fin 8)
    (fs : (redV ch).view.ty.Contents (Elt F)) (fd : (outV c ch).view.ty.Contents (Elt F))
    (hfs : ∀ i ∈ (redV ch).view.set, fs i = redCan m c i) :
    ∀ i ∈ (outV c ch).view.set,
      (outV c ch).view.write (Elt F) fd ((redV ch).view.read (Elt F) fs) Finset.univ i = outCan m i := by
  refine write_all _ _ _ _ fun y => ?_
  obtain ⟨r, q, rfl⟩ : ∃ (r : Fin 96) (q : Fin 256), y = ix2 r q := ⟨y 0, y 1, eq_ix2 y⟩
  rw [View.read_apply, hfs _ (View.emb_mem_set _ _)]
  show redCan m c ((redV ch).view.emb (ix2 r q)) = outCan m ((outV c ch).view.emb (ix2 r q))
  rw [redV_emb, outV_emb, redCan_at, outCan_at]

theorem shapeCast_ab_11ab_apply {α : Type} {a b : ℕ} (x : (⟨2, ![a, b]⟩ : Shape).Idx → α)
    (h : (⟨2, ![a, b]⟩ : Shape).ShapeCasts ⟨4, ![1, 1, a, b]⟩) (u0 u1 : Fin 1) (i : Fin a) (j : Fin b) :
    shapeCast ⟨4, ![1, 1, a, b]⟩ x h (ix4 u0 u1 i j) = x (ix2 i j) :=
  shapeCast_apply x h _ _ (by
    rw [Shape.rowMajor_val_four, Shape.rowMajor_val_two]
    show i.val * b + j.val = ((u0.val * 1 + u1.val) * a + i.val) * b + j.val
    rw [Fin.val_eq_zero u0, Fin.val_eq_zero u1]
    simp)

theorem store_p (c : Dev nD) (ch : Fin 3) (f : (pM.access (pRect ch)).ty.Contents (Elt F)) :
    ∀ i ∈ (pM.access (pRect ch)).set,
      (pM.access (pRect ch)).write (Elt F) f (k0_pay4 (pval m c ch)) Finset.univ i = pCan m c i := by
  refine write_all _ _ _ _ fun y => ?_
  obtain ⟨u, r, q, rfl⟩ : ∃ (u : Fin 1) (r : Fin 768) (q : Fin 256), y = ix3 u r q := ⟨y 0, y 1, y 2, eq_ix3 y⟩
  show k0_pay4 (pval m c ch) (ix3 u r q) = pCan m c ((pRect ch).toLoadRect.idx (ix3 u r q))
  rw [pRect_idx, pCan_at]
  unfold k0_pay4
  exact shapeCast_ab_1ab_apply _ _ u r q

theorem store_slot0 (c : Dev nD) (ch : Fin 3) (f : (rsM.access (slotRect ch 0)).ty.Contents (Elt F))
    (fp : pM.view.ty.Contents (Elt F)) (hfp : ∀ i ∈ (prowV ch c).view.set, fp i = pCan m c i) :
    ∀ i ∈ (rsM.access (slotRect ch 0)).set,
      (rsM.access (slotRect ch 0)).write (Elt F) f
        (k0_pay5 (pM.view.readAt (Elt F) (prowRect ch c).toLoadRect fp)) Finset.univ i = rsCan m c i := by
  refine write_all _ _ _ _ fun y => ?_
  obtain ⟨u0, u1, r, q, rfl⟩ : ∃ (u0 u1 : Fin 1) (r : Fin 96) (q : Fin 256), y = ix4 u0 u1 r q :=
    ⟨y 0, y 1, y 2, y 3, eq_ix4 y⟩
  show k0_pay5 (pM.view.readAt (Elt F) (prowRect ch c).toLoadRect fp) (ix4 u0 u1 r q)
    = rsCan m c ((slotRect ch 0).toLoadRect.idx (ix4 u0 u1 r q))
  rw [slotRect_idx, rsCan_at, peer_zero]
  unfold k0_pay5
  rw [shapeCast_ab_11ab_apply, shapeCast_1ab_ab_apply, View.readAt_apply]
  show fp ((prowRect ch c).toLoadRect.idx (ix3 (0 : Fin 1) r q)) = _
  rw [prowRect_idx, ← prowV_emb, hfp _ (View.emb_mem_set _ _), prowV_emb, pCan_at]

theorem load_slot (c : Dev nD) (ch : Fin 3) (o : Fin 8) (f : rsM.view.ty.Contents (Elt F))
    (hf : ∀ i ∈ (slotV ch o).view.set, f i = rsCan m c i) :
    rsM.view.readAt (Elt F) (slotRect ch o).toLoadRect f = slotRead m c ch o := by
  funext x
  obtain ⟨u0, u1, r, q, rfl⟩ : ∃ (u0 u1 : Fin 1) (r : Fin 96) (q : Fin 256), x = ix4 u0 u1 r q :=
    ⟨x 0, x 1, x 2, x 3, eq_ix4 x⟩
  unfold slotRead
  rw [View.readAt_apply, View.readAt_apply]
  show f ((slotRect ch o).toLoadRect.idx (ix4 u0 u1 r q)) = rsCan m c ((slotRect ch o).toLoadRect.idx (ix4 u0 u1 r q))
  rw [slotRect_idx, ← slotV_emb]
  exact hf _ (View.emb_mem_set _ _)

theorem store_red (c : Dev nD) (ch : Fin 3) (f : (redM.access (redRect ch)).ty.Contents (Elt F)) :
    ∀ i ∈ (redM.access (redRect ch)).set,
      (redM.access (redRect ch)).write (Elt F) f (k0_pay20 (redv m c ch)) Finset.univ i = redCan m c i := by
  refine write_all _ _ _ _ fun y => ?_
  obtain ⟨u, r, q, rfl⟩ : ∃ (u : Fin 1) (r : Fin 96) (q : Fin 256), y = ix3 u r q := ⟨y 0, y 1, y 2, eq_ix3 y⟩
  show k0_pay20 (redv m c ch) (ix3 u r q) = redCan m c ((redRect ch).toLoadRect.idx (ix3 u r q))
  rw [redRect_idx, redCan_at]
  unfold k0_pay20
  exact shapeCast_ab_1ab_apply _ _ u r q

theorem store_out (c : Dev nD) (ch : Fin 3) (f : (outM.access (outRect c ch)).ty.Contents (Elt F))
    (fr : redM.view.ty.Contents (Elt F)) (hfr : ∀ i ∈ (redV ch).view.set, fr i = redCan m c i) :
    ∀ i ∈ (outV c ch).view.set,
      (outM.access (outRect c ch)).write (Elt F) f
        (k0_pay21 (redM.view.readAt (Elt F) (redRect ch).toLoadRect fr)) Finset.univ i = outCan m i := by
  refine write_all (outM.access (outRect c ch)) _ _ _ fun y => ?_
  obtain ⟨r, q, rfl⟩ : ∃ (r : Fin 96) (q : Fin 256), y = ix2 r q := ⟨y 0, y 1, eq_ix2 y⟩
  show k0_pay21 (redM.view.readAt (Elt F) (redRect ch).toLoadRect fr) (ix2 r q) = outCan m ((outV c ch).view.emb (ix2 r q))
  rw [outV_emb, outCan_at]
  unfold k0_pay21
  rw [shapeCast_1ab_ab_apply, View.readAt_apply]
  show fr ((redRect ch).toLoadRect.idx (ix3 (0 : Fin 1) r q)) = _
  rw [redRect_idx, ← redV_emb, hfr _ (View.emb_mem_set _ _), redV_emb, redCan_at]

end Cert.Kernel.Proto

end
-- ==== Proof.Bits.LocalSteps.lean ====
import proofs.«900790_g7700000000000791_dist_gated_mlp_tp_i_m768_h1536_d768_v7x_i8_bf16_1_alg».proof.Proof.Bits.Tiles
import proofs.«900790_g7700000000000791_dist_gated_mlp_tp_i_m768_h1536_d768_v7x_i8_bf16_1_alg».proof.Proof.Bits.Lands
import proofs.«900790_g7700000000000791_dist_gated_mlp_tp_i_m768_h1536_d768_v7x_i8_bf16_1_alg».proof.Proof.Bits.Proto

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

-- a load needs a share of any set of elements that contains those it reads
theorem step_load_at (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {S : Finset (Idx (M.view.loc (c : Thread nD τ)))} {f : Buf (Elt F) (M.view.loc (c : Thread nD τ))}
    (hS : M.view.setOn r.set ⊆ S) :
    iprop((M.view.loc (c : Thread nD τ) ↦[S]{q} f)
        ∗ ((M.view.loc (c : Thread nD τ) ↦[S]{q} f) -∗ wp frame (wpE (defs₀ (F := F)) 𝒱₀ (c : Thread nD τ) none) Set.univ (k (M.view.readAt (Elt F) r f)) Q))
      ⊢ wp frame (wpE (defs₀ (F := F)) 𝒱₀ (c : Thread nD τ) none) Set.univ (.op (.load M r h) k) Q :=
  BI.wand_elim (wp_load 𝒱₀ (c : Thread nD τ) none Set.univ (Γ := .empty) hS)

-- an unmasked store needs, in full, any set of elements that contains those it writes
theorem step_store_at (c : Dev nD) {cs : CoreSpace} {s : Shape} {e : EltTy} (M : Memref sig .tc cs s e) {α : Type} {r : Rect s}
    {w : r.shape.Idx → Elt F e} {hx : (M.access r).Stores Finset.univ}
    {hm : (Finset.univ : Finset r.shape.Idx) = Finset.univ ∨ ∀ a, r.stride a = 1}
    {k : PUnit → Prog (TpuEff nD τ sig (Elt F) Λ₀ .tc) α} {Q : α → sProp 𝕄}
    {S : Finset (Idx ((M.access r).loc (c : Thread nD τ)))} {f : Buf (Elt F) ((M.access r).loc (c : Thread nD τ))}
    (hS : (M.access r).set ⊆ S) :
    iprop(((M.access r).loc (c : Thread nD τ) ↦[S]{fullShare} f)
        ∗ (((M.access r).loc (c : Thread nD τ) ↦[S]{fullShare} ((M.access r).write (Elt F) f w Finset.univ)) -∗ wp frame (wpE (defs₀ (F := F)) 𝒱₀ (c : Thread nD τ) none) Set.univ (k ⟨⟩) Q))
      ⊢ wp frame (wpE (defs₀ (F := F)) 𝒱₀ (c : Thread nD τ) none) Set.univ (.op (.store M r w Finset.univ hx hm) k) Q :=
  BI.wand_elim (wp_store 𝒱₀ (c : Thread nD τ) none Set.univ (Γ := .empty) (Mk := Finset.univ) hS)

theorem step_load_held (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {f : Buf (Elt F) (M.view.loc (c : Thread nD τ))} :
    iprop(pts c M q f ∗ (pts c M q f -∗ wp frame (wpE (defs₀ (F := F)) 𝒱₀ (c : Thread nD τ) none) Set.univ (k (M.view.readAt (Elt F) r f)) Q))
      ⊢ wp frame (wpE (defs₀ (F := F)) 𝒱₀ (c : Thread nD τ) none) Set.univ (.op (.load M r h) k) Q :=
  step_load_at c M (M.view.setOn_subset_set _)

-- mapping a finite set along the identity embedding gives the set back
theorem setOn_whole {κ : Kind} (b : Ref sig κ) (T : Finset b.ty.shape.Idx) : (View.whole b : View sig κ _ _ _).setOn T = T := by
  unfold View.setOn; rw [View.emb_whole]; exact Finset.map_refl

theorem hz2 : (![0, 0] : Fin 2 → Nat) = fun _ => 0 := funext fun a => by fin_cases a <;> rfl

abbrev R768x768 : Rect S768x768 := Rect.unit (s := S768x768) ![0, 0] S768x768.size inb_S768x768_S768x768_0_0
abbrev R768x1536 : Rect S768x1536 := Rect.unit (s := S768x1536) ![0, 0] S768x1536.size inb_S768x1536_S768x1536_0_0
abbrev R1536x768 : Rect S1536x768 := Rect.unit (s := S1536x768) ![0, 0] S1536x768.size inb_S1536x768_S1536x768_0_0
abbrev R96x256 : Rect S96x256 := Rect.unit (s := S96x256) ![0, 0] S96x256.size inb_S96x256_S96x256_0_0

theorem step_load_whole_act (c : Dev nD) {α : Type} {h : actM.view.LoadsAt R768x1536.toLoadRect}
    {k : (R768x1536.toLoadRect.shape.Idx → Elt F .bf16) → Prog (TpuEff nD τ sig (Elt F) Λ₀ .tc) α} {Q : α → sProp 𝕄} {q : PosShare TreeShare}
    {f : Buf (Elt F) (actM.view.loc (c : Thread nD τ))} :
    iprop(pts c actM q f ∗ (pts c actM q f -∗ wp frame (wpE (defs₀ (F := F)) 𝒱₀ (c : Thread nD τ) none) Set.univ (k f) Q))
      ⊢ wp frame (wpE (defs₀ (F := F)) 𝒱₀ (c : Thread nD τ) none) Set.univ (.op (.load actM R768x1536.toLoadRect h) k) Q := by
  have := step_load_held c actM (r := R768x1536.toLoadRect) (h := h) (k := k) (Q := Q) (q := q) (f := f)
  erw [Memref.readAt_unit_zero (Elt F) cc0_scratch2 hz2] at this; exact this

theorem step_store_whole_act (c : Dev nD) {α : Type} {w : R768x1536.shape.Idx → Elt F .bf16} {hx : (actM.access R768x1536).Stores Finset.univ}
    {hm : (Finset.univ : Finset R768x1536.shape.Idx) = Finset.univ ∨ ∀ a, R768x1536.stride a = 1}
    {k : PUnit → Prog (TpuEff nD τ sig (Elt F) Λ₀ .tc) α} {Q : α → sProp 𝕄} {f : Buf (Elt F) (actM.view.loc (c : Thread nD τ))} :
    iprop(pts c actM fullShare f ∗ (pts c actM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store actM R768x1536 w Finset.univ hx hm) k) Q := by
  have := step_store_at c actM (r := R768x1536) (w := w) (hx := hx) (hm := hm) (k := k) (Q := Q) (f := f) (View.set_slice_subset _ _)
  erw [Memref.write_access_unit_zero_univ (Elt F) cc0_scratch2 hz2] at this; exact this

theorem step_load_whole_wdb (c : Dev nD) {α : Type} {h : wdbM.view.LoadsAt R1536x768.toLoadRect}
    {k : (R1536x768.toLoadRect.shape.Idx → Elt F .bf16) → Prog (TpuEff nD τ sig (Elt F) Λ₀ .tc) α} {Q : α → sProp 𝕄} {q : PosShare TreeShare}
    {f : Buf (Elt F) (wdbM.view.loc (c : Thread nD τ))} :
    iprop(pts c wdbM q f ∗ (pts c wdbM q f -∗ wp frame (wpE (defs₀ (F := F)) 𝒱₀ (c : Thread nD τ) none) Set.univ (k f) Q))
      ⊢ wp frame (wpE (defs₀ (F := F)) 𝒱₀ (c : Thread nD τ) none) Set.univ (.op (.load wdbM R1536x768.toLoadRect h) k) Q := by
  have := step_load_held c wdbM (r := R1536x768.toLoadRect) (h := h) (k := k) (Q := Q) (q := q) (f := f)
  erw [Memref.readAt_unit_zero (Elt F) cc0_scratch3 hz2] at this; exact this

theorem step_store_whole_wdb (c : Dev nD) {α : Type} {w : R1536x768.shape.Idx → Elt F .bf16} {hx : (wdbM.access R1536x768).Stores Finset.univ}
    {hm : (Finset.univ : Finset R1536x768.shape.Idx) = Finset.univ ∨ ∀ a, R1536x768.stride a = 1}
    {k : PUnit → Prog (TpuEff nD τ sig (Elt F) Λ₀ .tc) α} {Q : α → sProp 𝕄} {f : Buf (Elt F) (wdbM.view.loc (c : Thread nD τ))} :
    iprop(pts c wdbM fullShare f ∗ (pts c wdbM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store wdbM R1536x768 w Finset.univ hx hm) k) Q := by
  have := step_store_at c wdbM (r := R1536x768) (w := w) (hx := hx) (hm := hm) (k := k) (Q := Q) (f := f) (View.set_slice_subset _ _)
  erw [Memref.write_access_unit_zero_univ (Elt F) cc0_scratch3 hz2] at this; exact this

theorem step_load_whole_acc (c : Dev nD) {α : Type} {h : accM.view.LoadsAt R96x256.toLoadRect}
    {k : (R96x256.toLoadRect.shape.Idx → Elt F .f32) → Prog (TpuEff nD τ sig (Elt F) Λ₀ .tc) α} {Q : α → sProp 𝕄} {q : PosShare TreeShare}
    {f : Buf (Elt F) (accM.view.loc (c : Thread nD τ))} :
    iprop(pts c accM q f ∗ (pts c accM q f -∗ wp frame (wpE (defs₀ (F := F)) 𝒱₀ (c : Thread nD τ) none) Set.univ (k f) Q))
      ⊢ wp frame (wpE (defs₀ (F := F)) 𝒱₀ (c : Thread nD τ) none) Set.univ (.op (.load accM R96x256.toLoadRect h) k) Q := by
  have := step_load_held c accM (r := R96x256.toLoadRect) (h := h) (k := k) (Q := Q) (q := q) (f := f)
  erw [Memref.readAt_unit_zero (Elt F) cc0_scratch5 hz2] at this; exact this

theorem step_store_whole_acc (c : Dev nD) {α : Type} {w : R96x256.shape.Idx → Elt F .f32} {hx : (accM.access R96x256).Stores Finset.univ}
    {hm : (Finset.univ : Finset R96x256.shape.Idx) = Finset.univ ∨ ∀ a, R96x256.stride a = 1}
    {k : PUnit → Prog (TpuEff nD τ sig (Elt F) Λ₀ .tc) α} {Q : α → sProp 𝕄} {f : Buf (Elt F) (accM.view.loc (c : Thread nD τ))} :
    iprop(pts c accM fullShare f ∗ (pts c accM fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store accM R96x256 w Finset.univ hx hm) k) Q := by
  have := step_store_at c accM (r := R96x256) (w := w) (hx := hx) (hm := hm) (k := k) (Q := Q) (f := f) (View.set_slice_subset _ _)
  erw [Memref.write_access_unit_zero_univ (Elt F) cc0_scratch5 hz2] at this; exact this

theorem step_load_pchunk (c : Dev nD) (ch : Fin 3) {α : Type} {R : Rect S3x768x256} (hR : R = pRect ch) {h : pM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (pM.view.loc (c : Thread nD τ))} :
    iprop((pM.view.loc (c : Thread nD τ) ↦[(pM.access (pRect ch)).set]{q} f)
        ∗ ((pM.view.loc (c : Thread nD τ) ↦[(pM.access (pRect ch)).set]{q} f) -∗ wp frame (wpE (defs₀ (F := F)) 𝒱₀ (c : Thread nD τ) none) Set.univ (k (pM.view.readAt (Elt F) R.toLoadRect f)) Q))
      ⊢ wp frame (wpE (defs₀ (F := F)) 𝒱₀ (c : Thread nD τ) none) Set.univ (.op (.load pM R.toLoadRect h) k) Q := by
  subst hR; exact step_load_at c pM (pchunk_load_subset ch)

theorem step_store_pchunk (c : Dev nD) (ch : Fin 3) {α : Type} {R : Rect S3x768x256} (hR : R = pRect ch) {w : R.shape.Idx → Elt F .bf16}
    {hx : (pM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (pM.view.loc (c : Thread nD τ))} :
    iprop((pM.view.loc (c : Thread nD τ) ↦[(pM.access (pRect ch)).set]{fullShare} f)
        ∗ ((pM.view.loc (c : Thread nD τ) ↦[(pM.access (pRect ch)).set]{fullShare} ((pM.access R).write (Elt F) f w Finset.univ))
            -∗ wp frame (wpE (defs₀ (F := F)) 𝒱₀ (c : Thread nD τ) none) Set.univ (k ⟨⟩) Q))
      ⊢ wp frame (wpE (defs₀ (F := F)) 𝒱₀ (c : Thread nD τ) none) Set.univ (.op (.store pM R w Finset.univ hx hm) k) Q := by
  subst hR; exact step_store_at c pM (r := pRect ch) (Finset.Subset.refl _)

theorem step_load_slot (c : Dev nD) (ch : Fin 3) (o : Fin 8) {α : Type} {R : Rect S3x8x96x256} (hR : R = slotRect ch o) {h : rsM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (rsM.view.loc (c : Thread nD τ))} :
    iprop(pts c (slotV ch o) q f ∗ (pts c (slotV ch o) q f -∗ wp frame (wpE (defs₀ (F := F)) 𝒱₀ (c : Thread nD τ) none) Set.univ (k (rsM.view.readAt (Elt F) R.toLoadRect f)) Q))
      ⊢ wp frame (wpE (defs₀ (F := F)) 𝒱₀ (c : Thread nD τ) none) Set.univ (.op (.load rsM R.toLoadRect h) k) Q := by
  subst hR; unfold pts; rw [slotV_pts]
  exact step_load_at c rsM (setOn_whole cc0_scratch1 _).subset

theorem step_store_slot (c : Dev nD) (ch : Fin 3) (o : Fin 8) {α : Type} {R : Rect S3x8x96x256} (hR : R = slotRect ch o) {w : R.shape.Idx → Elt F .bf16}
    {hx : (rsM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (rsM.view.loc (c : Thread nD τ))} :
    iprop(pts c (slotV ch o) fullShare f
        ∗ (pts c (slotV ch o) fullShare ((rsM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store rsM R w Finset.univ hx hm) k) Q := by
  subst hR; unfold pts; rw [slotV_pts, slotV_pts]
  exact step_store_at c rsM (r := slotRect ch o) (View.set_slice_whole cc0_scratch1 _).subset

theorem step_load_red (c : Dev nD) (ch : Fin 3) {α : Type} {R : Rect S3x96x256} (hR : R = redRect ch) {h : redM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (redM.view.loc (c : Thread nD τ))} :
    iprop(pts c (redV ch) q f ∗ (pts c (redV ch) q f -∗ wp frame (wpE (defs₀ (F := F)) 𝒱₀ (c : Thread nD τ) none) Set.univ (k (redM.view.readAt (Elt F) R.toLoadRect f)) Q))
      ⊢ wp frame (wpE (defs₀ (F := F)) 𝒱₀ (c : Thread nD τ) none) Set.univ (.op (.load redM R.toLoadRect h) k) Q := by
  subst hR; unfold pts; rw [redV_pts]
  exact step_load_at c redM (setOn_whole cc0_scratch4 _).subset

theorem step_store_red (c : Dev nD) (ch : Fin 3) {α : Type} {R : Rect S3x96x256} (hR : R = redRect ch) {w : R.shape.Idx → Elt F .bf16}
    {hx : (redM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (redM.view.loc (c : Thread nD τ))} :
    iprop(pts c (redV ch) fullShare f
        ∗ (pts c (redV ch) fullShare ((redM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store redM R w Finset.univ hx hm) k) Q := by
  subst hR; unfold pts; rw [redV_pts, redV_pts]
  exact step_store_at c redM (r := redRect ch) (View.set_slice_whole cc0_scratch4 _).subset

theorem step_load_out (c : Dev nD) (s : Dev nD) (ch : Fin 3) {α : Type} {R : Rect S768x768} (hR : R = outRect s ch) {h : outM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (outM.view.loc (c : Thread nD τ))} :
    iprop(pts c (outV s ch) q f ∗ (pts c (outV s ch) q f -∗ wp frame (wpE (defs₀ (F := F)) 𝒱₀ (c : Thread nD τ) none) Set.univ (k (outM.view.readAt (Elt F) R.toLoadRect f)) Q))
      ⊢ wp frame (wpE (defs₀ (F := F)) 𝒱₀ (c : Thread nD τ) none) Set.univ (.op (.load outM R.toLoadRect h) k) Q := by
  subst hR; unfold pts; rw [outV_pts]
  exact step_load_at c outM (setOn_whole cc0_stg4_0 _).subset

theorem step_store_out (c : Dev nD) (s : Dev nD) (ch : Fin 3) {α : Type} {R : Rect S768x768} (hR : R = outRect s ch) {w : R.shape.Idx → Elt F .bf16}
    {hx : (outM.access R).Stores Finset.univ} {hm : (Finset.univ : Finset R.shape.Idx) = Finset.univ ∨ ∀ a, R.stride a = 1}
    {k : PUnit → Prog (TpuEff nD τ sig (Elt F) Λ₀ .tc) α} {Q : α → sProp 𝕄} {f : Buf (Elt F) (outM.view.loc (c : Thread nD τ))} :
    iprop(pts c (outV s ch) fullShare f
        ∗ (pts c (outV s ch) fullShare ((outM.access R).write (Elt F) f w Finset.univ) -∗ wp frame (wpE (defs₀ (F := F)) 𝒱₀ (c : Thread nD τ) none) Set.univ (k ⟨⟩) Q))
      ⊢ wp frame (wpE (defs₀ (F := F)) 𝒱₀ (c : Thread nD τ) none) Set.univ (.op (.store outM R w Finset.univ hx hm) k) Q := by
  subst hR; unfold pts; rw [outV_pts, outV_pts]
  exact step_store_at c outM (r := outRect s ch) (View.set_slice_whole cc0_stg4_0 _).subset

theorem step_load_prow (c : Dev nD) (ch : Fin 3) (d : Dev nD) {α : Type} {R : Rect S3x768x256} (hR : R = prowRect ch d) {h : pM.view.LoadsAt R.toLoadRect}
    {k : (R.toLoadRect.shape.Idx → Elt F .bf16) → Prog (TpuEff nD τ sig (Elt F) Λ₀ .tc) α} {Q : α → sProp 𝕄} {q : PosShare TreeShare}
    {f : Buf (Elt F) (pM.view.loc (c : Thread nD τ))} :
    iprop(pts c (prowV ch d) q f ∗ (pts c (prowV ch d) q f -∗ wp frame (wpE (defs₀ (F := F)) 𝒱₀ (c : Thread nD τ) none) Set.univ (k (pM.view.readAt (Elt F) R.toLoadRect f)) Q))
      ⊢ wp frame (wpE (defs₀ (F := F)) 𝒱₀ (c : Thread nD τ) none) Set.univ (.op (.load pM R.toLoadRect h) k) Q := by
  subst hR; unfold pts; rw [prowV_pts]
  exact step_load_at c pM (setOn_whole cc0_scratch0 _).subset

end Cert.Kernel.Proto

end
-- ==== Proof.Bits.PhaseCompute.lean ====
import proofs.«900790_g7700000000000791_dist_gated_mlp_tp_i_m768_h1536_d768_v7x_i8_bf16_1_alg».proof.Proof.Bits.Bufs
import proofs.«900790_g7700000000000791_dist_gated_mlp_tp_i_m768_h1536_d768_v7x_i8_bf16_1_alg».proof.Proof.Bits.LocalSteps

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.Sem

variable {F : FTy → Type} [FloatOps F]

local notation "𝕄" => MT nD τ sig Unit (Elt F) ℕ UU ℕ

variable (m : (ℓ : Loc nD τ sig) → Buf (Elt F) ℓ)

-- A load that returns the whole of a buffer held whole reads its contents `g`.
private theorem step_load_stg (c : Dev nD) {cs : CoreSpace} {s : Shape} {e : EltTy} (M : Memref sig .tc cs s e) {α : Type} {r : LoadRect s}
    {h : M.view.LoadsAt r} {k : (r.shape.Idx → Elt F e) → Prog (TpuEff nD τ sig (Elt F) Λ₀ .tc) α} {Q : α → sProp 𝕄} {q : PosShare TreeShare}
    {f : Buf (Elt F) (M.view.loc (c : Thread nD τ))} {g : r.shape.Idx → Elt F e} (hf : M.view.readAt (Elt F) r f = g) :
    iprop((M.view.loc (c : Thread nD τ) ↦{q} f) ∗ ((M.view.loc (c : Thread nD τ) ↦{q} f) -∗ wp frame (wpE (defs₀ (F := F)) 𝒱₀ (c : Thread nD τ) none) Set.univ (k g) Q))
      ⊢ wp frame (wpE (defs₀ (F := F)) 𝒱₀ (c : Thread nD τ) none) Set.univ (.op (.load M r h) k) Q := by
  subst hf; exact step_load_at c M (Finset.subset_univ _)

-- `stg c b X` is the whole of `b` held in full at contents `X`.
private theorem stg_eq (c : Dev nD) (b : Ref sig .tc) (X : b.ty.Contents (Elt F)) :
    (stg c b X : sProp 𝕄) = (((c : Thread nD τ).loc b) ↦{fullShare} X) := by
  refine equiv_iff.mp ⟨?_, ?_⟩
  · show (_ : sProp 𝕄) ⊢ _; iintro ⟨%f, %hf, H⟩; subst hf; iexact H
  · show (_ : sProp 𝕄) ⊢ _; iintro H; iexists X; iframe H; ipureintro; rfl

theorem p_cut (c : Dev nD) (f : Buf (Elt F) (pM.view.loc (c : Thread nD τ))) :
    pts c pM fullShare f
      ⊢ bigSep Finset.univ fun ch : Fin 3 => iprop(∃ g, (pM.view.loc (c : Thread nD τ) ↦[(pM.access (pRect ch)).set]{fullShare} g) : sProp 𝕄) := by
  refine (p_tile (F := F) c f).1.trans ?_
  rw [bigSep_univ_prod]
  exact bigSep_mono fun ch _ => (p_chunk (F := F) c ch f).1.trans (exists_intro f)

theorem phase_compute (c : Dev nD) {α : Type} {Q : α → sProp 𝕄} (k : Prog (TpuEff nD τ sig (Elt F) Λ₀ .tc) α)
    {h1 : xM.view.LoadsAt R768x768.toLoadRect} {h2 : wgM.view.LoadsAt R768x1536.toLoadRect} {h3 : wuM.view.LoadsAt R768x1536.toLoadRect}
    {h4 : actM.view.LoadsAt R768x1536.toLoadRect} {hx5 : (actM.access R768x1536).Stores Finset.univ}
    {hm5 : (Finset.univ : Finset R768x1536.shape.Idx) = Finset.univ ∨ ∀ a, R768x1536.stride a = 1}
    {h6 : wdM.view.LoadsAt R1536x768.toLoadRect} {h7 : wdbM.view.LoadsAt R1536x768.toLoadRect}
    {hx8 : (wdbM.access R1536x768).Stores Finset.univ}
    {hm8 : (Finset.univ : Finset R1536x768.shape.Idx) = Finset.univ ∨ ∀ a, R1536x768.stride a = 1} :
    iprop(B1 m c ∗ (B3 m c 0 -∗ wp frame (wpE (defs₀ (F := F)) 𝒱₀ (c : Thread nD τ) none) Set.univ k Q))
      ⊢ wp frame (wpE (defs₀ (F := F)) 𝒱₀ (c : Thread nD τ) none) Set.univ
          (Prog.op (.load xM R768x768.toLoadRect h1) fun x =>
           Prog.op (.load wgM R768x1536.toLoadRect h2) fun g =>
           Prog.op (.load wuM R768x1536.toLoadRect h3) fun u =>
           Prog.op (.load actM R768x1536.toLoadRect h4) fun _ =>
           Prog.op (.store actM R768x1536 (k0_pay1 x g u) Finset.univ hx5 hm5) fun _ =>
           Prog.op (.load wdM R1536x768.toLoadRect h6) fun d =>
           Prog.op (.load wdbM R1536x768.toLoadRect h7) fun _ =>
           Prog.op (.store wdbM R1536x768 (k0_pay2 d) Finset.univ hx8 hm8) fun _ => k) Q := by
  unfold B1 B3 IN actv wdbv
  rw [stg_eq, stg_eq, stg_eq, stg_eq, (by decide : lo 0 = ∅), (by decide : hi 0 = Finset.univ), (by decide : coGE 0 = allCO), bigSep_empty, bigSep_empty]
  iintro ⟨⟨⟨Hx, Hg, Hu, Hd⟩, ⟨%fa, Hact⟩, ⟨%fw, Hwdb⟩, Hred, Hacc, ⟨%fp, Hp⟩, Hs0, Hout, HPS, HPO⟩, Hk⟩
  iapply (step_load_stg (F := F) c xM (Memref.readAt_unit_zero (Elt F) cc0_stg0_0 hz2 _ _)); iframe Hx
  iintro Hx
  iapply (step_load_stg (F := F) c wgM (Memref.readAt_unit_zero (Elt F) cc0_stg1_0 hz2 _ _)); iframe Hg
  iintro Hg
  iapply (step_load_stg (F := F) c wuM (Memref.readAt_unit_zero (Elt F) cc0_stg2_0 hz2 _ _)); iframe Hu
  iintro Hu
  iapply (step_load_whole_act (F := F) c); iframe Hact
  iintro Hact
  iapply (step_store_whole_act (F := F) c); iframe Hact
  iintro Hact
  iapply (step_load_stg (F := F) c wdM (Memref.readAt_unit_zero (Elt F) cc0_stg3_0 hz2 _ _)); iframe Hd
  iintro Hd
  iapply (step_load_whole_wdb (F := F) c); iframe Hwdb
  iintro Hwdb
  iapply (step_store_whole_wdb (F := F) c); iframe Hwdb
  iintro Hwdb
  iapply Hk
  ihave Hp := p_cut (F := F) c fp $$ Hp
  iframe
  isplitr <;> iempintro

end Cert.Kernel.Proto

end
-- ==== Proof.Bits.Steps.lean ====
import proofs.«900790_g7700000000000791_dist_gated_mlp_tp_i_m768_h1536_d768_v7x_i8_bf16_1_alg».proof.Proof.Bits.Proto
import proofs.«900790_g7700000000000791_dist_gated_mlp_tp_i_m768_h1536_d768_v7x_i8_bf16_1_alg».proof.Proof.Bits.Lands

noncomputable section

namespace Cert.Kernel.Proto

open Idealize.ShloMosaic
open Idealize.ShloMosaic.TcCoe
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem barPay_self (c : Dev nD) (o : Fin 8) :
    barPay (F := F) (peer c o) o
      = iprop((∃ f, pts c (slotV 0 o) fullShare f) ∗ (∃ f, pts c (slotV 1 o) fullShare f) ∗ (∃ f, pts c (slotV 2 o) fullShare f)
          ∗ (∃ f, pts c (outV (peer c o) 0) fullShare f) ∗ (∃ f, pts c (outV (peer c o) 1) fullShare f) ∗ (∃ f, pts c (outV (peer c o) 2) fullShare f)) := by
  unfold barPay; rw [peer_peer]

theorem step_signal (K : Dev nD × CIx → ℕ) (c n : Dev nD) (o : Fin 8) (ho : o ≠ 0) (hn : n = peer c o)
    {α : Type} {Q : α → sProp 𝕄} {k : PUnit → Prog (TpuEff nD τ sig (Elt F) Λ₀ .tc) α}
    (O : CellTallies nD τ sig Unit) (W : Waits sig Unit) :
    iprop(cellInv ER (Rd (F := F) m) (K (peer c o, none)) (barCell (peer c o))
        ∗ owes (c : Thread nD τ) (O + tallyAt (barCell (peer c o)) () 1) W
        ∗ dutyTok ER (barCell (peer c o)) 0 o ∗ barPay (F := F) (peer c o) o
        ∗ reached ER (barCell (peer c o)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32).toNat) k) Q) := by
  subst hn
  exact Rounds.wp_signal 𝒱₀ ER (Rd (F := F) m) (c : Thread nD τ) none (dst := (peer c o : Thread nD τ)) (κ := K (peer c o, none))
    (r := 0) (d := o) (by rw [duties_bar]; exact Finset.mem_erase.mpr ⟨ho, Finset.mem_univ _⟩)
    ((amount_bar m (peer c o) o).trans (by decide)) () O rfl (W := W)

theorem step_barwait (K : Dev nD × CIx → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, none)) (barCell c) ∗ cred (tallyAt (barCell c) () 7)
        ∗ owes (c : Thread nD τ) O W ∗ MayWait (c : Thread nD τ) (.reg barS) () O ∗ atPos ER (barCell c) 0 ∅ 0)
      ⊢ iprop(((owes (c : Thread nD τ) O (insert (SemLoc.reg barS, ()) W) ∗ atPos ER (barCell c) 1 ∅ 0
              ∗ bigSep (Finset.univ.erase (0 : Fin 8)) (fun d => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (7#32).toNat) k) Q) := by
  iintro H Hk
  iapply (Rounds.wp_wait_rest_token 𝒱₀ ER (Rd (F := F) m) (c : Thread nD τ) none (κ := K (c, none))
      (wpE_semWait_eq 𝒱₀ (c : Thread nD τ) none Set.univ) (Set.mem_univ _) () (O := O) (W := W) (R := 0) (m := 0) (T := ∅)
      (show 0 + (7#32).toNat = _ by rw [expect_bar]; decide)) $$ [H]
  · iexact H
  iintro ⟨HO, Hat, -, Hpay⟩
  ihave Hp := (Entails.of_eq (rest_bar m c)) $$ Hpay
  iapply Hk; iframe

theorem step_rs_send (K : Dev nD × CIx → ℕ) (c n : Dev nD) (ch : Fin 3) (o : Fin 8) (ho : o ≠ 0) (hn : n = peer c o)
    {SRC DST : Memref sig .tc .vmem S96x256 .bf16} {sS sR : DmaSem sig}
    (hS : SRC = prowV ch (peer c o)) (hD : DST = slotV ch o)
    (hsS : sS = semAt (karr 0) ch o) (hsR : sR = semAt (karr 1) ch o)
    {hsc : (DST : Memref sig (Dev.tc n : Thread nD τ).2.kind .vmem S96x256 .bf16).view.ref.isScScratch = false}
    {hsrc : SRC.view.WordExact} {hdst : DST.view.WordExact}
    {hsem : DmaTarget.Typed .vmem (.dma sR) (.remote (Dev.tc n : Thread nD τ) DST (.dma sS) hsc)}
    {α : Type} {Q : α → sProp 𝕄} {k : PUnit → Prog (TpuEff nD τ sig (Elt F) Λ₀ .tc) α}
    (fs : Buf (Elt F) ((prowV ch (peer c o)).view.loc (c : Thread nD τ)))
    (fd : Buf (Elt F) ((slotV ch o).view.loc (peer c o : Thread nD τ)))
    (hfs : ∀ i ∈ (prowV ch (peer c o)).view.set, fs i = pCan m c i)
    (O : CellTallies nD τ sig Unit) (W : Waits sig Unit) :
    iprop(cellInv ER (Rd (F := F) m) (K (c, some (0, ch, o))) (dcell c 0 ch o)
        ∗ cellInv ER (Rd (F := F) m) (K (peer c o, some (1, ch, o))) (dcell (peer c o) 1 ch o)
        ∗ pts c (prowV ch (peer c o)) fullShare fs ∗ pts (peer c o) (slotV ch o) fullShare fd
        ∗ owes (c : Thread nD τ) (O + tallyAt (dcell (peer c o) 1 ch o) () N) W
        ∗ dutyTok ER (dcell c 0 ch o) 0 0 ∗ reached ER (dcell c 0 ch o) 0
        ∗ dutyTok ER (dcell (peer c o) 1 ch o) 0 0 ∗ reached ER (dcell (peer c o) 1 ch o) 0)
      ⊢ iprop(((cred (tallyAt (dcell c 0 ch o) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma SRC (.remote (Dev.tc n : Thread nD τ) DST (.dma sS) hsc) (.dma sR) hsrc hdst hsem) k) Q) := by
  subst hn hS hD hsS hsR
  exact Rounds.wp_send_pointsTo 𝒱₀ ER (Rd (F := F) m) (c : Thread nD τ) none (c' := (peer c o : Thread nD τ))
    (src := prowV ch (peer c o)) (dst := slotV ch o)
    (by rw [duties_dma m c 0 ch o ho]; exact Finset.mem_singleton_self _)
    (by rw [duties_dma m (peer c o) 1 ch o ho]; exact Finset.mem_singleton_self _)
    () () N rfl (amount_dma m c 0 ch o 0) (amount_dma m (peer c o) 1 ch o 0) O rfl (W := W)
    (by rw [payload_dma]
        show _ ⊢ iprop(∃ f, pts c (prowV ch (peer c o)) fullShare f)
        iintro H; iexists fs; iexact H)
    (by rw [payload_dma]
        show _ ⊢ pts (peer c o) (slotV ch o) fullShare (rsCan m (peer c o))
        exact Entails.of_eq (pointsTo_congr (land_rs m c ch o fs fd hfs)))

theorem step_wait (K : Dev nD × CIx → ℕ) (c : Dev nD) (kk : Fin 4) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr kk) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, some (kk, ch, o))) (dcell c kk ch o) ∗ cred (tallyAt (dcell c kk ch o) () N)
        ∗ owes (c : Thread nD τ) O W ∗ MayWait (c : Thread nD τ) (dsem kk ch o) () O ∗ atPos ER (dcell c kk ch o) 0 ∅ 0)
      ⊢ iprop(((owes (c : Thread nD τ) O (insert (dsem kk ch o, ()) W) ∗ atPos ER (dcell c kk ch o) 1 ∅ 0 ∗ dmaPay m c kk ch o)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) := by
  subst hsem; rw [← hcr]
  iintro H Hk
  iapply (Rounds.wp_wait_rest_token 𝒱₀ ER (Rd (F := F) m) (c : Thread nD τ) none (κ := K (c, some (kk, ch, o)))
      (sm := dsem kk ch o) (k' := DSTV.view.dmaCredit)
      (wpE_waitDma2_eq 𝒱₀ (c : Thread nD τ) none Set.univ) (Set.mem_univ _) () (O := O) (W := W) (R := 0) (m := 0) (T := ∅)
      (show 0 + DSTV.view.dmaCredit = _ by rw [expect_dma m c kk ch o ho, hcr, Nat.zero_add])) $$ H
  iintro ⟨HO, Hat, -, Hpay⟩
  ihave Hp := (Entails.of_eq (rest_dma m c kk ch o ho)) $$ Hpay
  iapply Hk; iframe

theorem step_rs_wait (K : Dev nD × CIx → ℕ) (c : Dev nD) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr 1) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (O : CellTallies nD τ sig Unit) (W : Waits sig Unit) :
    iprop(cellInv ER (Rd (F := F) m) (K (c, some (1, ch, o))) (dcell c 1 ch o) ∗ cred (tallyAt (dcell c 1 ch o) () N)
        ∗ owes (c : Thread nD τ) O W ∗ MayWait (c : Thread nD τ) (dsem 1 ch o) () O ∗ atPos ER (dcell c 1 ch o) 0 ∅ 0)
      ⊢ iprop(((owes (c : Thread nD τ) O (insert (dsem 1 ch o, ()) W) ∗ atPos ER (dcell c 1 ch o) 1 ∅ 0
              ∗ pts c (slotV ch o) fullShare (rsCan m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) :=
  step_wait m K c 1 ch o ho hsem hcr O W

theorem step_ag_send (K : Dev nD × CIx → ℕ) (c n : Dev nD) (ch : Fin 3) (o : Fin 8) (ho : o ≠ 0) (hn : n = peer c o)
    {SRC DST : Memref sig .tc .vmem S96x256 .bf16} {sS sR : DmaSem sig}
    (hS : SRC = redV ch) (hD : DST = outV c ch)
    (hsS : sS = semAt (karr 2) ch o) (hsR : sR = semAt (karr 3) ch o)
    {hsc : (DST : Memref sig (Dev.tc n : Thread nD τ).2.kind .vmem S96x256 .bf16).view.ref.isScScratch = false}
    {hsrc : SRC.view.WordExact} {hdst : DST.view.WordExact}
    {hsem : DmaTarget.Typed .vmem (.dma sR) (.remote (Dev.tc n : Thread nD τ) DST (.dma sS) hsc)}
    {α : Type} {Q : α → sProp 𝕄} {k : PUnit → Prog (TpuEff nD τ sig (Elt F) Λ₀ .tc) α}
    (fs : Buf (Elt F) ((redV ch).view.loc (c : Thread nD τ)))
    (fd : Buf (Elt F) ((outV c ch).view.loc (peer c o : Thread nD τ)))
    (hfs : ∀ i ∈ (redV ch).view.set, fs i = redCan m c i)
    (O : CellTallies nD τ sig Unit) (W : Waits sig Unit) :
    iprop(cellInv ER (Rd (F := F) m) (K (c, some (2, ch, o))) (dcell c 2 ch o)
        ∗ cellInv ER (Rd (F := F) m) (K (peer c o, some (3, ch, o))) (dcell (peer c o) 3 ch o)
        ∗ pts c (redV ch) (redShare o) fs ∗ pts (peer c o) (outV c ch) fullShare fd
        ∗ owes (c : Thread nD τ) (O + tallyAt (dcell (peer c o) 3 ch o) () N) W
        ∗ dutyTok ER (dcell c 2 ch o) 0 0 ∗ reached ER (dcell c 2 ch o) 0
        ∗ dutyTok ER (dcell (peer c o) 3 ch o) 0 0 ∗ reached ER (dcell (peer c o) 3 ch o) 0)
      ⊢ iprop(((cred (tallyAt (dcell c 2 ch o) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma SRC (.remote (Dev.tc n : Thread nD τ) DST (.dma sS) hsc) (.dma sR) hsrc hdst hsem) k) Q) := by
  subst hn hS hD hsS hsR
  exact Rounds.wp_send_pointsTo 𝒱₀ ER (Rd (F := F) m) (c : Thread nD τ) none (c' := (peer c o : Thread nD τ))
    (src := redV ch) (dst := outV c ch)
    (by rw [duties_dma m c 2 ch o ho]; exact Finset.mem_singleton_self _)
    (by rw [duties_dma m (peer c o) 3 ch o ho]; exact Finset.mem_singleton_self _)
    () () N rfl (amount_dma m c 2 ch o 0) (amount_dma m (peer c o) 3 ch o 0) O rfl (W := W)
    (by rw [payload_dma]
        show _ ⊢ pts c (redV ch) (redShare o) (redCan m c)
        exact Entails.of_eq (pointsTo_congr hfs))
    (by rw [payload_dma]
        show _ ⊢ pts (peer c o) (outV (peer (peer c o) o) ch) fullShare (outCan m)
        rw [peer_peer]
        exact Entails.of_eq (pointsTo_congr (land_ag m c ch o fs fd hfs)))

theorem step_drain (K : Dev nD × CIx → ℕ) (c : Dev nD) (kk : Fin 4) (ch : Fin 3) (o : Fin 8) (ho : o ≠ 0)
    {sp' sp : Space} {s' s : Shape} {e' e : EltTy} {κ' : Kind} {sem : DmaSem sig}
    {SRCV : Memref sig .tc sp' s' e'} {DSTV : Memref sig κ' sp s e}
    (hsem : sem = semAt (karr kk) ch o) (hcr : DSTV.view.dmaCredit = N)
    {hs : SRCV.view.WordExact} {hd : DSTV.view.WordExact}
    {α : Type} {Q : α → sProp 𝕄} {k : PUnit → Prog (TpuEff nD τ sig (Elt F) Λ₀ .tc) α}
    (W : Waits sig Unit) :
    iprop(cellInv ER (Rd (F := F) m) (K (c, some (kk, ch, o))) (dcell c kk ch o) ∗ cred (tallyAt (dcell c kk ch o) () N)
        ∗ owes (c : Thread nD τ) 0 W ∗ atPos ER (dcell c kk ch o) 0 ∅ 0)
      ⊢ iprop(((owes (c : Thread nD τ) 0 (insert (dsem kk ch o, ()) W) ∗ atPos ER (dcell c kk ch o) 1 ∅ 0 ∗ dmaPay m c kk ch o)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem SRCV DSTV hs hd) k) Q) := by
  iintro ⟨Hg, Hc, HO, Hat⟩
  iapply (step_wait m K c kk ch o ho hsem hcr 0 W)
  rw [MayWait_zero]; iframe; iempintro

theorem dmaPay_0 (c : Dev nD) (ch : Fin 3) (o : Fin 8) : dmaPay m c 0 ch o = iprop(∃ f, pts c (prowV ch (peer c o)) fullShare f) := rfl
theorem dmaPay_2 (c : Dev nD) (ch : Fin 3) (o : Fin 8) : dmaPay m c 2 ch o = pts c (redV ch) (redShare o) (redCan m c) := rfl
theorem dmaPay_3 (c : Dev nD) (ch : Fin 3) (o : Fin 8) : dmaPay m c 3 ch o = pts c (outV (peer c o) ch) fullShare (outCan m) := rfl

end Cert.Kernel.Proto

end
-- ==== Proof.Bits.Levels.lean ====
import proofs.«900790_g7700000000000791_dist_gated_mlp_tp_i_m768_h1536_d768_v7x_i8_bf16_1_alg».proof.Proof.Bits.Proto

noncomputable section

namespace Cert.Kernel.Proto

open Idealize.ShloMosaic
open Idealize.ShloMosaic.TcCoe
open Idealize.SL.BI
open Idealize.SL.BI.BIBase

variable {F : FTy → Type}

local notation "𝕄" => MT nD τ sig Unit (Elt F) ℕ UU ℕ

theorem lv_dcell (c : Dev nD) (k : Fin 4) (ch : Fin 3) (o : Fin 8) (u : Unit) :
    lv (dcell c k ch o) u = if k = 1 then 2 else if k = 3 then 3 else 0 := by
  dsimp only [lv]; rw [decodeQ_semAt]

-- a wait at level `n` is allowed when every cell still owed lies above `n`: entry cells at 1, receive cells at 2 and 3
theorem mayWait_owed (c : Dev nD) (s : SemLoc sig) (S : Finset (Fin 8)) (R A : Finset CO) (n : ℕ)
    (hn : lv ((c : Thread nD τ), s) () = n) (hS : S = ∅ ∨ n < 1) (hR : R = ∅ ∨ n < 2) (hA : n < 3) :
    (levAts L lv : sProp 𝕄) ⊢ MayWait (c : Thread nD τ) s () (owedFrom c S R A) := by
  have hL (d : Dev nD) (sm : SemLoc sig) (u : Unit) : u ∈ L ((d : Thread nD τ), sm) := by
    rw [L_tc]; exact Finset.mem_singleton_self _
  have h1 (d : Dev nD) (ch : Fin 3) (o : Fin 8) (u : Unit) : lv (dcell d 1 ch o) u = 2 := (lv_dcell d 1 ch o u).trans (by decide)
  have h3 (d : Dev nD) (ch : Fin 3) (o : Fin 8) (u : Unit) : lv (dcell d 3 ch o) u = 3 := (lv_dcell d 3 ch o u).trans (by decide)
  refine Pipeline.mayWait_of_levAts (L := L) (lev := lv) (hL c s ()) fun g u hg => ?_
  rw [hn]; unfold owedFrom at hg
  rcases Pipeline.add_pos_cases hg with h | h
  · rcases Pipeline.add_pos_cases h with h | h
    · obtain ⟨o, ho, hp⟩ := Pipeline.sum_pos_exists h
      obtain ⟨rfl, _⟩ := Pipeline.tallyAt_pos hp
      exact ⟨hL _ _ _, hS.resolve_left (Finset.ne_empty_of_mem ho)⟩
    · obtain ⟨x, hx, hp⟩ := Pipeline.sum_pos_exists h
      obtain ⟨rfl, _⟩ := Pipeline.tallyAt_pos hp
      exact ⟨hL _ _ _, by rw [h1]; exact hR.resolve_left (Finset.ne_empty_of_mem hx)⟩
  · obtain ⟨x, _, hp⟩ := Pipeline.sum_pos_exists h
    obtain ⟨rfl, _⟩ := Pipeline.tallyAt_pos hp
    exact ⟨hL _ _ _, by rw [h3]; exact hA⟩

theorem mayWait_stage (c : Dev nD) (q : DmaSem sig) (hq : q.val < 5) (S : Finset (Fin 8)) (R A : Finset CO) :
    (levAts L lv : sProp 𝕄) ⊢ MayWait (c : Thread nD τ) (.dma q) () (owedFrom c S R A) :=
  mayWait_owed c _ S R A 0 (by dsimp only [lv]; unfold decodeQ; rw [dif_neg (by omega)]) (.inr Nat.one_pos) (.inr Nat.two_pos) (by decide)

theorem mayWait_bar (c : Dev nD) (R A : Finset CO) :
    (levAts L lv : sProp 𝕄) ⊢ MayWait (c : Thread nD τ) (.reg barS) () (owedFrom c ∅ R A) :=
  mayWait_owed c _ ∅ R A 1 rfl (.inl rfl) (.inr Nat.one_lt_two) (by decide)

theorem mayWait_rsR (c : Dev nD) (ch : Fin 3) (o : Fin 8) (A : Finset CO) :
    (levAts L lv : sProp 𝕄) ⊢ MayWait (c : Thread nD τ) (dsem 1 ch o) () (owedFrom c ∅ ∅ A) :=
  mayWait_owed c _ ∅ ∅ A 2 ((lv_dcell c 1 ch o ()).trans (by decide)) (.inl rfl) (.inl rfl) (by decide)

end Cert.Kernel.Proto

end
-- ==== Proof.Bits.PhaseEntry.lean ====
import proofs.«900790_g7700000000000791_dist_gated_mlp_tp_i_m768_h1536_d768_v7x_i8_bf16_1_alg».proof.Proof.Bits.Bufs
import proofs.«900790_g7700000000000791_dist_gated_mlp_tp_i_m768_h1536_d768_v7x_i8_bf16_1_alg».proof.Proof.Bits.Steps
import proofs.«900790_g7700000000000791_dist_gated_mlp_tp_i_m768_h1536_d768_v7x_i8_bf16_1_alg».proof.Proof.Bits.Levels

noncomputable section

namespace Cert.Kernel.Proto

open Idealize.ShloMosaic
open Idealize.ShloMosaic.TcCoe
open Idealize.SL Idealize.SL.BI
open scoped Idealize.SL.BI
open Idealize.SL.BI.BIBase Idealize.SL.BI.Laws Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem pe_inv (K : Dev nD × CIx → ℕ) (ci : Dev nD × CIx) :
    records m K ⊢ (cellInv ER (Rd (F := F) m) (K ci) (kcell ci) : sProp 𝕄) := by
  unfold records; exact sep_elim_left.trans (bigSep_elim (Finset.mem_univ ci))

theorem pe_reached (K : Dev nD × CIx → ℕ) (ci : Dev nD × CIx) :
    records m K ⊢ (reached ER (kcell ci) 0 : sProp 𝕄) := by
  unfold records; exact sep_elim_right.trans (bigSep_elim (Finset.mem_univ ci))

theorem bsep (P Q : sProp 𝕄) : iprop(P ∗ Q) = BI.sep P Q := rfl

theorem peers_list : (Finset.univ.erase (0 : Fin 8)) = ([1, 2, 3, 4, 5, 6, 7] : List (Fin 8)).toFinset := by decide

theorem bigSep_peers (Φ : Fin 8 → sProp 𝕄) :
    bigSep (Finset.univ.erase (0 : Fin 8)) Φ = iprop(Φ 1 ∗ Φ 2 ∗ Φ 3 ∗ Φ 4 ∗ Φ 5 ∗ Φ 6 ∗ Φ 7) := by
  rw [bigSep_eq_bigSepL_of_eq _ peers_list (by decide)]; rfl

theorem allCO_list : allCO = ([(0, 1), (1, 1), (2, 1), (0, 2), (1, 2), (2, 2), (0, 3), (1, 3), (2, 3), (0, 4), (1, 4), (2, 4),
    (0, 5), (1, 5), (2, 5), (0, 6), (1, 6), (2, 6), (0, 7), (1, 7), (2, 7)] : List CO).toFinset := by decide

theorem bigSep_allCO_peers (Φ : CO → sProp 𝕄) :
    bigSep allCO Φ = bigSep (Finset.univ.erase (0 : Fin 8)) fun o => iprop(Φ (0, o) ∗ Φ (1, o) ∗ Φ (2, o)) := by
  rw [bigSep_eq_bigSepL_of_eq _ allCO_list (by decide), bigSep_peers]
  simp only [bigSepL_cons_cons, bigSepL_singleton, bsep]
  ac_rfl

theorem barPays_regroup (c : Dev nD) :
    bigSep (Finset.univ.erase (0 : Fin 8)) (fun o => barPay (F := F) c o) = iprop(PeerSlots c allCO ∗ PeerOut c allCO) := by
  unfold PeerSlots PeerOut
  rw [bigSep_allCO_peers, bigSep_allCO_peers, bsep, ← bigSep_sep]
  refine bigSep_congr fun o _ => ?_
  unfold barPay
  simp only [bsep]
  ac_rfl

/-- One entry signal to the peer across `o`: its unit leaves the debt. -/
theorem signal_rec (K : Dev nD × CIx → ℕ) (c : Dev nD) (o : Fin 8) (ho : o ≠ 0) {S S' : Finset (Fin 8)} (hS : o ∈ S)
    (hS' : S.erase o = S') (R A : Finset CO)
    {α : Type} {Q : α → sProp 𝕄} {k : PUnit → Prog (TpuEff nD τ sig (Elt F) Λ₀ .tc) α} (W : Waits sig Unit) :
    iprop(records m K ∗ owes (c : Thread nD τ) (owedFrom c S R A) W
        ∗ dutyTok ER (barCell (peer c o)) 0 o ∗ barPay (F := F) (peer c o) o)
      ⊢ iprop((owes (c : Thread nD τ) (owedFrom c S' R A) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc (peer c o) : Thread nD τ) barS (1#32).toNat) k) Q) := by
  subst hS'
  rw [owed_peel_bar c R A hS]
  iintro ⟨#Hrec, HO, Ht, Hp⟩
  iapply (step_signal m K c _ o ho rfl _ W)
  iframe HO Ht Hp
  isplitr
  · iapply (pe_inv m K (peer c o, none)); iexact Hrec
  · iapply (pe_reached m K (peer c o, none)); iexact Hrec

theorem phase_entry (K : Dev nD × CIx → ℕ) (c : Dev nD) (n1 n2 n3 n4 n5 n6 n7 : Dev nD)
    (h1 : n1 = peer c 1) (h2 : n2 = peer c 2) (h3 : n3 = peer c 3) (h4 : n4 = peer c 4)
    (h5 : n5 = peer c 5) (h6 : n6 = peer c 6) (h7 : n7 = peer c 7)
    {α : Type} {Q : α → sProp 𝕄} (k : Prog (TpuEff nD τ sig (Elt F) Λ₀ .tc) α) :
    iprop(records m K ∗ levAts L lv ∗ GP₀ c
        ∗ (bigSep (Finset.univ.erase (0 : Fin 8)) fun o => barPay (F := F) (peer c o) o)
        ∗ ((GP c ∅ true allCO allCO allCO allCO allCO allCO ∗ PeerSlots c allCO ∗ PeerOut c allCO)
            -∗ wp frame (wpE (defs₀ (F := F)) 𝒱₀ (c : Thread nD τ) none) Set.univ k Q))
      ⊢ wp frame (wpE (defs₀ (F := F)) 𝒱₀ (c : Thread nD τ) none) Set.univ
          (.op (.semSignal (Dev.tc n1 : Thread nD τ) barS (1#32).toNat) fun _ =>
           .op (.semSignal (Dev.tc n2 : Thread nD τ) barS (1#32).toNat) fun _ =>
           .op (.semSignal (Dev.tc n3 : Thread nD τ) barS (1#32).toNat) fun _ =>
           .op (.semSignal (Dev.tc n4 : Thread nD τ) barS (1#32).toNat) fun _ =>
           .op (.semSignal (Dev.tc n5 : Thread nD τ) barS (1#32).toNat) fun _ =>
           .op (.semSignal (Dev.tc n6 : Thread nD τ) barS (1#32).toNat) fun _ =>
           .op (.semSignal (Dev.tc n7 : Thread nD τ) barS (1#32).toNat) fun _ =>
           .op (.semWait barS (7#32).toNat) fun _ => k) Q := by
  subst h1 h2 h3 h4 h5 h6 h7
  unfold GP₀ GP Tb barPart
  rw [bigSep_peers, bigSep_peers]
  simp only [Bool.false_eq_true, ↓reduceIte]
  iintro ⟨#Hrec, #Hlev, ⟨⟨Ht1, Ht2, Ht3, Ht4, Ht5, Ht6, Ht7⟩, HTr, HTa, ⟨%W, HO⟩, ⟨Hat, Hc⟩, Hr1, Hr3, Hr0, Hr2, HZ⟩,
    ⟨Hp1, Hp2, Hp3, Hp4, Hp5, Hp6, Hp7⟩, Hk⟩
  iapply (signal_rec m K c 1 (by decide) (by decide) rfl allCO allCO W) $$ [$Hrec $HO $Ht1 $Hp1]
  iintro HO
  iapply (signal_rec m K c 2 (by decide) (by decide) rfl allCO allCO W) $$ [$Hrec $HO $Ht2 $Hp2]
  iintro HO
  iapply (signal_rec m K c 3 (by decide) (by decide) rfl allCO allCO W) $$ [$Hrec $HO $Ht3 $Hp3]
  iintro HO
  iapply (signal_rec m K c 4 (by decide) (by decide) rfl allCO allCO W) $$ [$Hrec $HO $Ht4 $Hp4]
  iintro HO
  iapply (signal_rec m K c 5 (by decide) (by decide) rfl allCO allCO W) $$ [$Hrec $HO $Ht5 $Hp5]
  iintro HO
  iapply (signal_rec m K c 6 (by decide) (by decide) rfl allCO allCO W) $$ [$Hrec $HO $Ht6 $Hp6]
  iintro HO
  iapply (signal_rec m K c 7 (by decide) (by decide) (by decide) allCO allCO W (S' := ∅)) $$ [$Hrec $HO $Ht7 $Hp7]
  iintro HO
  iapply (step_barwait m K c (owedFrom c ∅ allCO allCO) W) $$ [$HO $Hat $Hc]
  · isplitr; · iapply (pe_inv m K (c, none)); iexact Hrec
    iapply (mayWait_bar c allCO allCO); iexact Hlev
  iintro ⟨HO, Hat, Hpays⟩
  ihave Hps := (Entails.of_eq (barPays_regroup c)) $$ Hpays
  iapply Hk
  iframe Hps HTr HTa Hat Hr1 Hr3 Hr0 Hr2 HZ
  isplitr; · rw [bigSep_empty]; iempintro
  iexists _; iexact HO

end Cert.Kernel.Proto

end
-- ==== Proof.Bits.Chunks.lean ====
import proofs.«900790_g7700000000000791_dist_gated_mlp_tp_i_m768_h1536_d768_v7x_i8_bf16_1_alg».proof.Proof.Bits.Bufs

noncomputable section

namespace Cert.Kernel.Proto

open Idealize.ShloMosaic
open Idealize.SL Idealize.SL.BI
open scoped Idealize.SL.BI
open Idealize.SL.BI.BIBase

variable {F : FTy → Type} [FloatOps F]

local notation "𝕄" => MT nD τ sig Unit (Elt F) ℕ UU ℕ

theorem coGE_split (ch : Fin 3) : coGE ch.val = coGE (ch.val + 1) ∪ chunkCO ch := by revert ch; decide
theorem coGE_disj (ch : Fin 3) : Disjoint (coGE (ch.val + 1)) (chunkCO ch) := by revert ch; decide

theorem compl_split (ch : Fin 3) : allCO \ coGE (ch.val + 1) = (allCO \ coGE ch.val) ∪ chunkCO ch := by revert ch; decide
theorem compl_disj (ch : Fin 3) : Disjoint (allCO \ coGE ch.val) (chunkCO ch) := by revert ch; decide
theorem coGE_zero : coGE 0 = allCO := by decide
theorem coGE_three : coGE 3 = ∅ := by decide

theorem chunkCO_issue (ch : Fin 3) :
    chunkCO ch = ([(ch, 7), (ch, 3), (ch, 5), (ch, 6), (ch, 1), (ch, 2), (ch, 4)] : List CO).toFinset := by revert ch; decide
theorem nodup_issue (ch : Fin 3) : ([(ch, 7), (ch, 3), (ch, 5), (ch, 6), (ch, 1), (ch, 2), (ch, 4)] : List CO).Nodup := by revert ch; decide

theorem chunkCO_sum (ch : Fin 3) :
    chunkCO ch = ([(ch, 1), (ch, 2), (ch, 4), (ch, 3), (ch, 5), (ch, 6), (ch, 7)] : List CO).toFinset := by revert ch; decide
theorem nodup_sum (ch : Fin 3) : ([(ch, 1), (ch, 2), (ch, 4), (ch, 3), (ch, 5), (ch, 6), (ch, 7)] : List CO).Nodup := by revert ch; decide

theorem bigSep_coGE (ch : Fin 3) (Φ : CO → sProp 𝕄) :
    bigSep (coGE ch.val) Φ = iprop(bigSep (coGE (ch.val + 1)) Φ ∗ bigSep (chunkCO ch) Φ) := by
  rw [coGE_split ch, bigSep_union (coGE_disj ch)]; rfl

theorem bigSep_compl (ch : Fin 3) (Φ : CO → sProp 𝕄) :
    bigSep (allCO \ coGE (ch.val + 1)) Φ = iprop(bigSep (allCO \ coGE ch.val) Φ ∗ bigSep (chunkCO ch) Φ) := by
  rw [compl_split ch, bigSep_union (compl_disj ch)]; rfl

theorem bigSep_chunk_issue (ch : Fin 3) (Φ : CO → sProp 𝕄) :
    bigSep (chunkCO ch) Φ = iprop(Φ (ch, 7) ∗ Φ (ch, 3) ∗ Φ (ch, 5) ∗ Φ (ch, 6) ∗ Φ (ch, 1) ∗ Φ (ch, 2) ∗ Φ (ch, 4)) := by
  rw [bigSep_eq_bigSepL_of_eq _ (chunkCO_issue ch) (nodup_issue ch)]; rfl

theorem bigSep_chunk_sum (ch : Fin 3) (Φ : CO → sProp 𝕄) :
    bigSep (chunkCO ch) Φ = iprop(Φ (ch, 1) ∗ Φ (ch, 2) ∗ Φ (ch, 4) ∗ Φ (ch, 3) ∗ Φ (ch, 5) ∗ Φ (ch, 6) ∗ Φ (ch, 7)) := by
  rw [bigSep_eq_bigSepL_of_eq _ (chunkCO_sum ch) (nodup_sum ch)]; rfl

theorem lo_succ (ch : Fin 3) : lo (ch.val + 1) = insert ch (lo ch.val) := by revert ch; decide
theorem not_mem_lo (ch : Fin 3) : ch ∉ lo ch.val := by revert ch; decide
theorem hi_eq (ch : Fin 3) : hi ch.val = insert ch (hi (ch.val + 1)) := by revert ch; decide
theorem not_mem_hi_succ (ch : Fin 3) : ch ∉ hi (ch.val + 1) := by revert ch; decide

theorem bigSep_lo_succ (ch : Fin 3) (Φ : Fin 3 → sProp 𝕄) :
    bigSep (lo (ch.val + 1)) Φ = iprop(bigSep (lo ch.val) Φ ∗ Φ ch) := by
  rw [lo_succ ch, bigSep_insert (not_mem_lo ch)]
  exact Std.Commutative.comm (op := (BI.sep : sProp 𝕄 → _ → _)) _ _

theorem bigSep_hi (ch : Fin 3) (Φ : Fin 3 → sProp 𝕄) :
    bigSep (hi ch.val) Φ = iprop(Φ ch ∗ bigSep (hi (ch.val + 1)) Φ) := by
  rw [hi_eq ch, bigSep_insert (not_mem_hi_succ ch)]; rfl

theorem coGE_erase (ch : Fin 3) :
    (((((((coGE ch.val).erase (ch, 7)).erase (ch, 3)).erase (ch, 5)).erase (ch, 6)).erase (ch, 1)).erase (ch, 2)).erase (ch, 4) = coGE (ch.val + 1) := by
  revert ch; decide

theorem owed_chunk_rs (c : Dev nD) (ch : Fin 3) (A : Finset CO) :
    owedFrom c ∅ (coGE ch.val) A
      = owedFrom c ∅ (coGE (ch.val + 1)) A + tallyAt (dcell (peer c 4) 1 ch 4) () N + tallyAt (dcell (peer c 2) 1 ch 2) () N
          + tallyAt (dcell (peer c 1) 1 ch 1) () N + tallyAt (dcell (peer c 6) 1 ch 6) () N + tallyAt (dcell (peer c 5) 1 ch 5) () N
          + tallyAt (dcell (peer c 3) 1 ch 3) () N + tallyAt (dcell (peer c 7) 1 ch 7) () N := by
  rw [owed_peel_rs c ∅ A (x := (ch, 7)), owed_peel_rs c ∅ A (x := (ch, 3)), owed_peel_rs c ∅ A (x := (ch, 5)),
    owed_peel_rs c ∅ A (x := (ch, 6)), owed_peel_rs c ∅ A (x := (ch, 1)), owed_peel_rs c ∅ A (x := (ch, 2)),
    owed_peel_rs c ∅ A (x := (ch, 4)), coGE_erase ch]
  all_goals revert ch; decide

theorem owed_chunk_ag (c : Dev nD) (ch : Fin 3) (R : Finset CO) :
    owedFrom c ∅ R (coGE ch.val)
      = owedFrom c ∅ R (coGE (ch.val + 1)) + tallyAt (dcell (peer c 4) 3 ch 4) () N + tallyAt (dcell (peer c 2) 3 ch 2) () N
          + tallyAt (dcell (peer c 1) 3 ch 1) () N + tallyAt (dcell (peer c 6) 3 ch 6) () N + tallyAt (dcell (peer c 5) 3 ch 5) () N
          + tallyAt (dcell (peer c 3) 3 ch 3) () N + tallyAt (dcell (peer c 7) 3 ch 7) () N := by
  rw [owed_peel_ag c ∅ R (x := (ch, 7)), owed_peel_ag c ∅ R (x := (ch, 3)), owed_peel_ag c ∅ R (x := (ch, 5)),
    owed_peel_ag c ∅ R (x := (ch, 6)), owed_peel_ag c ∅ R (x := (ch, 1)), owed_peel_ag c ∅ R (x := (ch, 2)),
    owed_peel_ag c ∅ R (x := (ch, 4)), coGE_erase ch]
  all_goals revert ch; decide

end Cert.Kernel.Proto

end
-- ==== Proof.Bits.PhaseScatter.lean ====
import proofs.«900790_g7700000000000791_dist_gated_mlp_tp_i_m768_h1536_d768_v7x_i8_bf16_1_alg».proof.Proof.Bits.LocalSteps
import proofs.«900790_g7700000000000791_dist_gated_mlp_tp_i_m768_h1536_d768_v7x_i8_bf16_1_alg».proof.Proof.Bits.PhaseEntry
import proofs.«900790_g7700000000000791_dist_gated_mlp_tp_i_m768_h1536_d768_v7x_i8_bf16_1_alg».proof.Proof.Bits.Chunks

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev srcV (off : Fin 3 → ℕ) (inb : ∀ a, off a + S1x96x256.size a ≤ S3x768x256.size a) : Memref sig .tc .vmem S96x256 .bf16 :=
  (pM.slice (Rect.unit (s := S3x768x256) off S1x96x256.size inb) (fun _ => rfl)).squeeze S96x256 squeezes_S1x96x256_S96x256

abbrev sendOp (n : Dev nD) (ch : Fin 3) (o : Fin 8) (off : Fin 3 → ℕ) (inb : ∀ a, off a + S1x96x256.size a ≤ S3x768x256.size a)
    (hsc : (slotV ch o : Memref sig (Dev.tc n : Thread nD τ).2.kind .vmem S96x256 .bf16).view.ref.isScScratch = false)
    (hsrc : (srcV off inb).view.WordExact) (hdst : (slotV ch o).view.WordExact)
    (hsem : DmaTarget.Typed .vmem (.dma (semAt cc0_scratch7 ch o)) (.remote (Dev.tc n : Thread nD τ) (slotV ch o) (.dma (semAt cc0_scratch6 ch o)) hsc : DmaTarget nD τ sig .tc .vmem S96x256 .bf16)) :
    TpuEff nD τ sig (Elt F) Λ₀ .tc PUnit :=
  .enqueueDma (srcV off inb) (.remote (Dev.tc n : Thread nD τ) (slotV ch o) (.dma (semAt cc0_scratch6 ch o)) hsc) (.dma (semAt cc0_scratch7 ch o)) hsrc hdst hsem

theorem bigSep_devs (c : Dev nD) (Ψ : Dev nD → sProp 𝕄) :
    bigSep Finset.univ Ψ = iprop(Ψ c ∗ Ψ (peer c 7) ∗ Ψ (peer c 3) ∗ Ψ (peer c 5) ∗ Ψ (peer c 6) ∗ Ψ (peer c 1) ∗ Ψ (peer c 2) ∗ Ψ (peer c 4)) := by
  rw [bigSep_eq_bigSepL_of_eq [c, peer c 7, peer c 3, peer c 5, peer c 6, peer c 1, peer c 2, peer c 4] (by revert c; decide) (by revert c; decide)]; rfl

-- One transfer of the scatter: the records supply both cells' invariants and reached rounds.
private theorem scatter_send (K : Dev nD × CIx → ℕ) (c : Dev nD) (ch : Fin 3) (o : Fin 8) (ho : o ≠ 0)
    {hsc : (slotV ch o : Memref sig (Dev.tc (peer c o) : Thread nD τ).2.kind .vmem S96x256 .bf16).view.ref.isScScratch = false}
    {hsrc : (srcV ![ch.val, 96 * (peer c o).val, 0] (prow_inb ch (peer c o))).view.WordExact} {hdst : (slotV ch o).view.WordExact}
    {hsem : DmaTarget.Typed .vmem (.dma (semAt cc0_scratch7 ch o)) (.remote (Dev.tc (peer c o) : Thread nD τ) (slotV ch o) (.dma (semAt cc0_scratch6 ch o)) hsc : DmaTarget nD τ sig .tc .vmem S96x256 .bf16)}
    {α : Type} {Q : α → sProp 𝕄} {k : PUnit → Prog (TpuEff nD τ sig (Elt F) Λ₀ .tc) α}
    {O : CellTallies nD τ sig Unit} {W : Waits sig Unit} :
    iprop(records m K ∗ pts c (prowV ch (peer c o)) fullShare (pCan m c) ∗ (∃ f, pts (peer c o) (slotV ch o) fullShare f)
        ∗ (dutyTok ER (dcell c 0 ch o) 0 0 ∗ dutyTok ER (dcell (peer c o) 1 ch o) 0 0)
        ∗ owes (c : Thread nD τ) (O + tallyAt (dcell (peer c o) 1 ch o) () N) W)
      ⊢ iprop(((cred (tallyAt (dcell c 0 ch o) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (sendOp (peer c o) ch o ![ch.val, 96 * (peer c o).val, 0] (prow_inb ch (peer c o)) hsc hsrc hdst hsem) k) Q) := by
  iintro ⟨#Hrec, Hr, ⟨%fd, Hd⟩, ⟨Hta, Htb⟩, HO⟩
  iapply (step_rs_send (F := F) m K c (peer c o) ch o ho rfl rfl rfl rfl rfl (pCan m c) fd (fun _ _ => rfl) O W)
  iframe Hr Hd HO Hta Htb
  isplitr; · iapply (pe_inv m K (c, some (0, ch, o))); iexact Hrec
  isplitr; · iapply (pe_inv m K (peer c o, some (1, ch, o))); iexact Hrec
  isplitr; · iapply (pe_reached m K (c, some (0, ch, o))); iexact Hrec
  iapply (pe_reached m K (peer c o, some (1, ch, o))); iexact Hrec

theorem tx_step (c : Dev nD) (ch : Fin 3) :
    (Tx c 0 1 (coGE ch.val) : sProp 𝕄) = iprop(Tx c 0 1 (coGE (ch.val + 1)) ∗ Tx c 0 1 (chunkCO ch)) := by
  unfold Tx; exact bigSep_coGE ch _
theorem ps_step (c : Dev nD) (ch : Fin 3) :
    (PeerSlots c (coGE ch.val) : sProp 𝕄) = iprop(PeerSlots c (coGE (ch.val + 1)) ∗ PeerSlots c (chunkCO ch)) := by
  unfold PeerSlots; exact bigSep_coGE ch _
theorem cr_step (c : Dev nD) (ch : Fin 3) :
    (Cr c 0 (allCO \ coGE (ch.val + 1)) : sProp 𝕄) = iprop(Cr c 0 (allCO \ coGE ch.val) ∗ Cr c 0 (chunkCO ch)) := by
  unfold Cr; exact bigSep_compl ch _

theorem phase_scatter (K : Dev nD × CIx → ℕ) (c : Dev nD) (ch : Fin 3)
    {n7 n3 n5 n6 n1 n2 n4 : Dev nD}
    (hn7 : n7 = peer c 7)
    (hn3 : n3 = peer c 3)
    (hn5 : n5 = peer c 5)
    (hn6 : n6 = peer c 6)
    (hn1 : n1 = peer c 1)
    (hn2 : n2 = peer c 2)
    (hn4 : n4 = peer c 4)
    {off0 off7 off3 off5 off6 off1 off2 off4 : Fin 3 → ℕ}
    (ho0 : off0 = ![ch.val, 96 * c.val, 0])
    (ho7 : off7 = ![ch.val, 96 * (peer c 7).val, 0])
    (ho3 : off3 = ![ch.val, 96 * (peer c 3).val, 0])
    (ho5 : off5 = ![ch.val, 96 * (peer c 5).val, 0])
    (ho6 : off6 = ![ch.val, 96 * (peer c 6).val, 0])
    (ho1 : off1 = ![ch.val, 96 * (peer c 1).val, 0])
    (ho2 : off2 = ![ch.val, 96 * (peer c 2).val, 0])
    (ho4 : off4 = ![ch.val, 96 * (peer c 4).val, 0])
    {inb0 : ∀ a, off0 a + S1x96x256.size a ≤ S3x768x256.size a}
    {inb7 : ∀ a, off7 a + S1x96x256.size a ≤ S3x768x256.size a}
    {inb3 : ∀ a, off3 a + S1x96x256.size a ≤ S3x768x256.size a}
    {inb5 : ∀ a, off5 a + S1x96x256.size a ≤ S3x768x256.size a}
    {inb6 : ∀ a, off6 a + S1x96x256.size a ≤ S3x768x256.size a}
    {inb1 : ∀ a, off1 a + S1x96x256.size a ≤ S3x768x256.size a}
    {inb2 : ∀ a, off2 a + S1x96x256.size a ≤ S3x768x256.size a}
    {inb4 : ∀ a, off4 a + S1x96x256.size a ≤ S3x768x256.size a}
    {hl1 : actM.view.LoadsAt R768x1536.toLoadRect}
    {hl2 : wdbM.view.LoadsAt (wdbRect ch).toLoadRect}
    {hl3 : pM.view.LoadsAt (pRect ch).toLoadRect}
    {hs4 : (pM.access (pRect ch)).Stores Finset.univ}
    {hm4 : (Finset.univ : Finset (pRect ch).shape.Idx) = Finset.univ ∨ ∀ a, (pRect ch).stride a = 1}
    {hl5 : pM.view.LoadsAt (Rect.unit (s := S3x768x256) off0 S1x96x256.size inb0).toLoadRect}
    {hl6 : rsM.view.LoadsAt (slotRect ch 0).toLoadRect}
    {hs7 : (rsM.access (slotRect ch 0)).Stores Finset.univ}
    {hm7 : (Finset.univ : Finset (slotRect ch 0).shape.Idx) = Finset.univ ∨ ∀ a, (slotRect ch 0).stride a = 1}
    {hsc7 : (slotV ch 7 : Memref sig (Dev.tc n7 : Thread nD τ).2.kind .vmem S96x256 .bf16).view.ref.isScScratch = false}
    {hsrc7 : (srcV off7 inb7).view.WordExact} {hdst7 : (slotV ch 7).view.WordExact}
    {hsem7 : DmaTarget.Typed .vmem (.dma (semAt cc0_scratch7 ch 7)) (.remote (Dev.tc n7 : Thread nD τ) (slotV ch 7) (.dma (semAt cc0_scratch6 ch 7)) hsc7)}
    {hsc3 : (slotV ch 3 : Memref sig (Dev.tc n3 : Thread nD τ).2.kind .vmem S96x256 .bf16).view.ref.isScScratch = false}
    {hsrc3 : (srcV off3 inb3).view.WordExact} {hdst3 : (slotV ch 3).view.WordExact}
    {hsem3 : DmaTarget.Typed .vmem (.dma (semAt cc0_scratch7 ch 3)) (.remote (Dev.tc n3 : Thread nD τ) (slotV ch 3) (.dma (semAt cc0_scratch6 ch 3)) hsc3)}
    {hsc5 : (slotV ch 5 : Memref sig (Dev.tc n5 : Thread nD τ).2.kind .vmem S96x256 .bf16).view.ref.isScScratch = false}
    {hsrc5 : (srcV off5 inb5).view.WordExact} {hdst5 : (slotV ch 5).view.WordExact}
    {hsem5 : DmaTarget.Typed .vmem (.dma (semAt cc0_scratch7 ch 5)) (.remote (Dev.tc n5 : Thread nD τ) (slotV ch 5) (.dma (semAt cc0_scratch6 ch 5)) hsc5)}
    {hsc6 : (slotV ch 6 : Memref sig (Dev.tc n6 : Thread nD τ).2.kind .vmem S96x256 .bf16).view.ref.isScScratch = false}
    {hsrc6 : (srcV off6 inb6).view.WordExact} {hdst6 : (slotV ch 6).view.WordExact}
    {hsem6 : DmaTarget.Typed .vmem (.dma (semAt cc0_scratch7 ch 6)) (.remote (Dev.tc n6 : Thread nD τ) (slotV ch 6) (.dma (semAt cc0_scratch6 ch 6)) hsc6)}
    {hsc1 : (slotV ch 1 : Memref sig (Dev.tc n1 : Thread nD τ).2.kind .vmem S96x256 .bf16).view.ref.isScScratch = false}
    {hsrc1 : (srcV off1 inb1).view.WordExact} {hdst1 : (slotV ch 1).view.WordExact}
    {hsem1 : DmaTarget.Typed .vmem (.dma (semAt cc0_scratch7 ch 1)) (.remote (Dev.tc n1 : Thread nD τ) (slotV ch 1) (.dma (semAt cc0_scratch6 ch 1)) hsc1)}
    {hsc2 : (slotV ch 2 : Memref sig (Dev.tc n2 : Thread nD τ).2.kind .vmem S96x256 .bf16).view.ref.isScScratch = false}
    {hsrc2 : (srcV off2 inb2).view.WordExact} {hdst2 : (slotV ch 2).view.WordExact}
    {hsem2 : DmaTarget.Typed .vmem (.dma (semAt cc0_scratch7 ch 2)) (.remote (Dev.tc n2 : Thread nD τ) (slotV ch 2) (.dma (semAt cc0_scratch6 ch 2)) hsc2)}
    {hsc4 : (slotV ch 4 : Memref sig (Dev.tc n4 : Thread nD τ).2.kind .vmem S96x256 .bf16).view.ref.isScScratch = false}
    {hsrc4 : (srcV off4 inb4).view.WordExact} {hdst4 : (slotV ch 4).view.WordExact}
    {hsem4 : DmaTarget.Typed .vmem (.dma (semAt cc0_scratch7 ch 4)) (.remote (Dev.tc n4 : Thread nD τ) (slotV ch 4) (.dma (semAt cc0_scratch6 ch 4)) hsc4)}
    {α : Type} {Q : α → sProp 𝕄} {k : PUnit → Prog (TpuEff nD τ sig (Elt F) Λ₀ .tc) α} :
    iprop(records m K ∗ levAts L lv ∗ GP c ∅ true (coGE ch.val) allCO allCO allCO allCO allCO ∗ B3 m c ch.val)
      ⊢ iprop(((GP c ∅ true (coGE (ch.val + 1)) allCO allCO allCO allCO allCO ∗ B3 m c (ch.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load actM R768x1536.toLoadRect hl1) fun a =>
               .op (.load wdbM (wdbRect ch).toLoadRect hl2) fun w =>
               .op (.load pM (pRect ch).toLoadRect hl3) fun _ =>
               .op (.store pM (pRect ch) (k0_pay4 (k0_pay3 a w)) Finset.univ hs4 hm4) fun _ =>
               .op (.load pM (Rect.unit (s := S3x768x256) off0 S1x96x256.size inb0).toLoadRect hl5) fun r =>
               .op (.load rsM (slotRect ch 0).toLoadRect hl6) fun _ =>
               .op (.store rsM (slotRect ch 0) (k0_pay5 r) Finset.univ hs7 hm7) fun _ =>
               .op (sendOp n7 ch 7 off7 inb7 hsc7 hsrc7 hdst7 hsem7) fun _ =>
               .op (sendOp n3 ch 3 off3 inb3 hsc3 hsrc3 hdst3 hsem3) fun _ =>
               .op (sendOp n5 ch 5 off5 inb5 hsc5 hsrc5 hdst5 hsem5) fun _ =>
               .op (sendOp n6 ch 6 off6 inb6 hsc6 hsrc6 hdst6 hsem6) fun _ =>
               .op (sendOp n1 ch 1 off1 inb1 hsc1 hsrc1 hdst1 hsem1) fun _ =>
               .op (sendOp n2 ch 2 off2 inb2 hsc2 hsrc2 hdst2 hsem2) fun _ =>
               .op (sendOp n4 ch 4 off4 inb4 hsc4 hsrc4 hdst4 hsem4) k) Q) := by
  subst hn7 hn3 hn5 hn6 hn1 hn2 hn4 ho0 ho7 ho3 ho5 ho6 ho1 ho2 ho4
  unfold GP B3
  rw [tx_step c ch, ps_step c ch, cr_step c ch, bigSep_hi ch, bigSep_hi ch, bigSep_lo_succ ch, bigSep_lo_succ ch, owed_chunk_rs c ch allCO]
  iintro ⟨#Hrec, #Hlev, ⟨HTb, ⟨HTx, HTc⟩, HTxA, ⟨%W, HO⟩, Hbar, HW1, HW3, ⟨HP0, HCr0, HP0'⟩, HD2, HZ⟩,
    ⟨HIN, Hact, Hwdb, Hred, Hacc, Hprow, ⟨⟨%fp, Hpch⟩, Hpch'⟩, Hs0lo, ⟨⟨%fs, Hs0⟩, Hs0'⟩, Hout, ⟨HPS, HPSc⟩, HPO⟩⟩ Hk
  ihave HTc := (Entails.of_eq (show (Tx c 0 1 (chunkCO ch) : sProp 𝕄) = _ from bigSep_chunk_issue ch _)) $$ HTc
  icases HTc with ⟨Ht7, Ht3, Ht5, Ht6, Ht1, Ht2, Ht4⟩
  ihave HPSc := (Entails.of_eq (show (PeerSlots c (chunkCO ch) : sProp 𝕄) = _ from bigSep_chunk_issue ch _)) $$ HPSc
  icases HPSc with ⟨Hd7, Hd3, Hd5, Hd6, Hd1, Hd2, Hd4⟩
  iapply (step_load_whole_act (F := F) c); iframe Hact
  iintro Hact
  iapply (step_load_held (F := F) c wdbM); iframe Hwdb
  iintro Hwdb
  iapply (step_load_pchunk (F := F) c ch rfl); iframe Hpch
  iintro Hpch
  iapply (step_store_pchunk (F := F) c ch rfl); iframe Hpch
  iintro Hpch
  have e4 : (pM.view.loc (c : Thread nD τ) ↦[(pM.access (pRect ch)).set]{fullShare}
        ((pM.access (pRect ch)).write (Elt F) fp (k0_pay4 (k0_pay3 (actv m c) (wdbM.view.readAt (Elt F) (wdbRect ch).toLoadRect (wdbv m c)))) Finset.univ) : sProp 𝕄)
      = (pM.view.loc (c : Thread nD τ) ↦[(pM.access (pRect ch)).set]{fullShare} pCan m c) :=
    pts_congr (v := pM.view) (c := (c : Thread nD τ)) (q := fullShare) (store_p m c ch fp)
  ihave Hpch := (Entails.of_eq e4) $$ Hpch
  ihave Hrows := (p_chunk (F := F) c ch (pCan m c)).mpr $$ Hpch
  ihave Hrows := (Entails.of_eq (bigSep_devs c _)) $$ Hrows
  icases Hrows with ⟨Hr0, Hr7, Hr3, Hr5, Hr6, Hr1, Hr2, Hr4⟩
  iapply (step_load_prow (F := F) c ch c rfl); iframe Hr0
  iintro Hr0
  iapply (step_load_slot (F := F) c ch 0 rfl); iframe Hs0
  iintro Hs0
  iapply (step_store_slot (F := F) c ch 0 rfl); iframe Hs0
  iintro Hs0
  have e7 : (pts c (slotV ch 0) fullShare ((rsM.access (slotRect ch 0)).write (Elt F) fs
        (k0_pay5 (pM.view.readAt (Elt F) (prowRect ch c).toLoadRect (pCan m c))) Finset.univ) : sProp 𝕄)
      = pts c (slotV ch 0) fullShare (rsCan m c) :=
    pts_congr (v := (slotV ch 0).view) (c := (c : Thread nD τ)) (q := fullShare)
      (fun i hi => store_slot0 m c ch fs (pCan m c) (fun _ _ => rfl) i
        (by rw [slotV_set] at hi; rw [show (rsM.access (slotRect ch 0)).set = (slotRect ch 0).set from View.set_slice_whole _ _]; exact hi))
  ihave Hs0 := (Entails.of_eq e7) $$ Hs0
  iapply (scatter_send (F := F) m K c ch 7 (by decide)) $$ [$HO $Hrec $Hr7 $Hd7 $Ht7]
  iintro ⟨Hc7, HO⟩
  iapply (scatter_send (F := F) m K c ch 3 (by decide)) $$ [$HO $Hrec $Hr3 $Hd3 $Ht3]
  iintro ⟨Hc3, HO⟩
  iapply (scatter_send (F := F) m K c ch 5 (by decide)) $$ [$HO $Hrec $Hr5 $Hd5 $Ht5]
  iintro ⟨Hc5, HO⟩
  iapply (scatter_send (F := F) m K c ch 6 (by decide)) $$ [$HO $Hrec $Hr6 $Hd6 $Ht6]
  iintro ⟨Hc6, HO⟩
  iapply (scatter_send (F := F) m K c ch 1 (by decide)) $$ [$HO $Hrec $Hr1 $Hd1 $Ht1]
  iintro ⟨Hc1, HO⟩
  iapply (scatter_send (F := F) m K c ch 2 (by decide)) $$ [$HO $Hrec $Hr2 $Hd2 $Ht2]
  iintro ⟨Hc2, HO⟩
  iapply (scatter_send (F := F) m K c ch 4 (by decide)) $$ [$HO $Hrec $Hr4 $Hd4 $Ht4]
  iintro ⟨Hc4, HO⟩
  iapply Hk
  rw [show (Cr c 0 (chunkCO ch) : sProp 𝕄) = _ from bigSep_chunk_issue ch _]
  iframe
  iexists W; iexact HO

end Cert.Kernel.Proto

end
-- ==== Proof.Bits.ReducePieces.lean ====
import proofs.«900790_g7700000000000791_dist_gated_mlp_tp_i_m768_h1536_d768_v7x_i8_bf16_1_alg».proof.Proof.Bits.LocalSteps
import proofs.«900790_g7700000000000791_dist_gated_mlp_tp_i_m768_h1536_d768_v7x_i8_bf16_1_alg».proof.Proof.Bits.PhaseEntry
import proofs.«900790_g7700000000000791_dist_gated_mlp_tp_i_m768_h1536_d768_v7x_i8_bf16_1_alg».proof.Proof.Bits.Chunks

noncomputable section

namespace Cert.Kernel.Proto

open Cert.Kernel.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
-- both cells of a transfer (send side in array k, receive side in array kp): invariants and reached rounds are on record
theorem ag_cells (K : Dev nD × CIx → ℕ) (c : Dev nD) (k kp : Fin 4) (ch : Fin 3) (o : Fin 8) :
    (records m K : sProp 𝕄) ⊢ iprop(cellInv ER (Rd (F := F) m) (K (c, some (k, ch, o))) (dcell c k ch o)
      ∗ cellInv ER (Rd (F := F) m) (K (peer c o, some (kp, ch, o))) (dcell (peer c o) kp ch o)
      ∗ reached ER (dcell c k ch o) 0 ∗ reached ER (dcell (peer c o) kp ch o) 0) := by
  iintro #H
  isplitr; · iapply (pe_inv m K (c, some (k, ch, o))); iexact H
  isplitr; · iapply (pe_inv m K (peer c o, some (kp, ch, o))); iexact H
  isplitr; · iapply (pe_reached m K (c, some (k, ch, o))); iexact H
  iapply (pe_reached m K (peer c o, some (kp, ch, o))); iexact H

theorem gather_sends (K : Dev nD × CIx → ℕ) (c : Dev nD) (ch : Fin 3)
    (n7 n3 n5 n6 n1 n2 n4 : Dev nD)
    (hn7 : n7 = peer c 7) (hn3 : n3 = peer c 3) (hn5 : n5 = peer c 5) (hn6 : n6 = peer c 6)
    (hn1 : n1 = peer c 1) (hn2 : n2 = peer c 2) (hn4 : n4 = peer c 4)
    (offd : Fin 2 → Nat) (hoffd : offd = ![96 * c.val, 256 * ch.val]) (W : Waits sig Unit)
    {inbd : ∀ a, offd a + S96x256.size a ≤ S768x768.size a}
    {hsrc : (redV ch).view.WordExact} {hdst : (outM.slice (Rect.unit (s := S768x768) offd S96x256.size inbd) (fun _ => rfl)).view.WordExact}
    {hsc7 : ((outM.slice (Rect.unit (s := S768x768) offd S96x256.size inbd) (fun _ => rfl)) : Memref sig (Dev.tc n7 : Thread nD τ).2.kind .vmem S96x256 .bf16).view.ref.isScScratch = false}
    {hsem7 : DmaTarget.Typed .vmem (.dma (semAt cc0_scratch9 ch 7)) (.remote (Dev.tc n7 : Thread nD τ) (outM.slice (Rect.unit (s := S768x768) offd S96x256.size inbd) (fun _ => rfl)) (.dma (semAt cc0_scratch8 ch 7)) hsc7)}
    {hsc3 : ((outM.slice (Rect.unit (s := S768x768) offd S96x256.size inbd) (fun _ => rfl)) : Memref sig (Dev.tc n3 : Thread nD τ).2.kind .vmem S96x256 .bf16).view.ref.isScScratch = false}
    {hsem3 : DmaTarget.Typed .vmem (.dma (semAt cc0_scratch9 ch 3)) (.remote (Dev.tc n3 : Thread nD τ) (outM.slice (Rect.unit (s := S768x768) offd S96x256.size inbd) (fun _ => rfl)) (.dma (semAt cc0_scratch8 ch 3)) hsc3)}
    {hsc5 : ((outM.slice (Rect.unit (s := S768x768) offd S96x256.size inbd) (fun _ => rfl)) : Memref sig (Dev.tc n5 : Thread nD τ).2.kind .vmem S96x256 .bf16).view.ref.isScScratch = false}
    {hsem5 : DmaTarget.Typed .vmem (.dma (semAt cc0_scratch9 ch 5)) (.remote (Dev.tc n5 : Thread nD τ) (outM.slice (Rect.unit (s := S768x768) offd S96x256.size inbd) (fun _ => rfl)) (.dma (semAt cc0_scratch8 ch 5)) hsc5)}
    {hsc6 : ((outM.slice (Rect.unit (s := S768x768) offd S96x256.size inbd) (fun _ => rfl)) : Memref sig (Dev.tc n6 : Thread nD τ).2.kind .vmem S96x256 .bf16).view.ref.isScScratch = false}
    {hsem6 : DmaTarget.Typed .vmem (.dma (semAt cc0_scratch9 ch 6)) (.remote (Dev.tc n6 : Thread nD τ) (outM.slice (Rect.unit (s := S768x768) offd S96x256.size inbd) (fun _ => rfl)) (.dma (semAt cc0_scratch8 ch 6)) hsc6)}
    {hsc1 : ((outM.slice (Rect.unit (s := S768x768) offd S96x256.size inbd) (fun _ => rfl)) : Memref sig (Dev.tc n1 : Thread nD τ).2.kind .vmem S96x256 .bf16).view.ref.isScScratch = false}
    {hsem1 : DmaTarget.Typed .vmem (.dma (semAt cc0_scratch9 ch 1)) (.remote (Dev.tc n1 : Thread nD τ) (outM.slice (Rect.unit (s := S768x768) offd S96x256.size inbd) (fun _ => rfl)) (.dma (semAt cc0_scratch8 ch 1)) hsc1)}
    {hsc2 : ((outM.slice (Rect.unit (s := S768x768) offd S96x256.size inbd) (fun _ => rfl)) : Memref sig (Dev.tc n2 : Thread nD τ).2.kind .vmem S96x256 .bf16).view.ref.isScScratch = false}
    {hsem2 : DmaTarget.Typed .vmem (.dma (semAt cc0_scratch9 ch 2)) (.remote (Dev.tc n2 : Thread nD τ) (outM.slice (Rect.unit (s := S768x768) offd S96x256.size inbd) (fun _ => rfl)) (.dma (semAt cc0_scratch8 ch 2)) hsc2)}
    {hsc4 : ((outM.slice (Rect.unit (s := S768x768) offd S96x256.size inbd) (fun _ => rfl)) : Memref sig (Dev.tc n4 : Thread nD τ).2.kind .vmem S96x256 .bf16).view.ref.isScScratch = false}
    {hsem4 : DmaTarget.Typed .vmem (.dma (semAt cc0_scratch9 ch 4)) (.remote (Dev.tc n4 : Thread nD τ) (outM.slice (Rect.unit (s := S768x768) offd S96x256.size inbd) (fun _ => rfl)) (.dma (semAt cc0_scratch8 ch 4)) hsc4)}
    {α : Type} {Q : α → sProp 𝕄} {k : Prog (TpuEff nD τ sig (Elt F) Λ₀ .tc) α} :
    iprop(records m K
        ∗ owes (c : Thread nD τ) (owedFrom c ∅ ∅ (coGE ch.val)) W
        ∗ (bigSep (chunkCO ch) fun x => iprop(dutyTok ER (dcell c 2 x.1 x.2) 0 0 ∗ dutyTok ER (dcell (peer c x.2) 3 x.1 x.2) 0 0))
        ∗ (bigSep (chunkCO ch) fun x => iprop(∃ f, pts (peer c x.2) (outV c x.1) fullShare f))
        ∗ (bigSep (Finset.univ.erase (0 : Fin 8)) fun o => pts c (redV ch) (redShare o) (redCan m c)))
      ⊢ iprop(((owes (c : Thread nD τ) (owedFrom c ∅ ∅ (coGE (ch.val + 1))) W
              ∗ bigSep (chunkCO ch) fun x => cred (tallyAt (dcell c 2 x.1 x.2) () N)) -∗ wp frame (wpE (defs₀ (F := F)) 𝒱₀ (c : Thread nD τ) none) Set.univ k Q)
          -∗ wp frame (wpE (defs₀ (F := F)) 𝒱₀ (c : Thread nD τ) none) Set.univ
              (Prog.op (.enqueueDma (redV ch) (.remote (Dev.tc n7 : Thread nD τ) (outM.slice (Rect.unit (s := S768x768) offd S96x256.size inbd) (fun _ => rfl)) (.dma (semAt cc0_scratch8 ch 7)) hsc7) (.dma (semAt cc0_scratch9 ch 7)) hsrc hdst hsem7) fun _ =>
               Prog.op (.enqueueDma (redV ch) (.remote (Dev.tc n3 : Thread nD τ) (outM.slice (Rect.unit (s := S768x768) offd S96x256.size inbd) (fun _ => rfl)) (.dma (semAt cc0_scratch8 ch 3)) hsc3) (.dma (semAt cc0_scratch9 ch 3)) hsrc hdst hsem3) fun _ =>
               Prog.op (.enqueueDma (redV ch) (.remote (Dev.tc n5 : Thread nD τ) (outM.slice (Rect.unit (s := S768x768) offd S96x256.size inbd) (fun _ => rfl)) (.dma (semAt cc0_scratch8 ch 5)) hsc5) (.dma (semAt cc0_scratch9 ch 5)) hsrc hdst hsem5) fun _ =>
               Prog.op (.enqueueDma (redV ch) (.remote (Dev.tc n6 : Thread nD τ) (outM.slice (Rect.unit (s := S768x768) offd S96x256.size inbd) (fun _ => rfl)) (.dma (semAt cc0_scratch8 ch 6)) hsc6) (.dma (semAt cc0_scratch9 ch 6)) hsrc hdst hsem6) fun _ =>
               Prog.op (.enqueueDma (redV ch) (.remote (Dev.tc n1 : Thread nD τ) (outM.slice (Rect.unit (s := S768x768) offd S96x256.size inbd) (fun _ => rfl)) (.dma (semAt cc0_scratch8 ch 1)) hsc1) (.dma (semAt cc0_scratch9 ch 1)) hsrc hdst hsem1) fun _ =>
               Prog.op (.enqueueDma (redV ch) (.remote (Dev.tc n2 : Thread nD τ) (outM.slice (Rect.unit (s := S768x768) offd S96x256.size inbd) (fun _ => rfl)) (.dma (semAt cc0_scratch8 ch 2)) hsc2) (.dma (semAt cc0_scratch9 ch 2)) hsrc hdst hsem2) fun _ =>
               Prog.op (.enqueueDma (redV ch) (.remote (Dev.tc n4 : Thread nD τ) (outM.slice (Rect.unit (s := S768x768) offd S96x256.size inbd) (fun _ => rfl)) (.dma (semAt cc0_scratch8 ch 4)) hsc4) (.dma (semAt cc0_scratch9 ch 4)) hsrc hdst hsem4) fun _ => k) Q) := by
  subst hn7 hn3 hn5 hn6 hn1 hn2 hn4 hoffd
  rw [owed_chunk_ag c ch ∅, bigSep_chunk_issue ch, bigSep_chunk_issue ch, bigSep_chunk_issue ch, bigSep_peers]
  iintro ⟨#Hrec, HO, ⟨⟨Ta7, Tb7⟩, ⟨Ta3, Tb3⟩, ⟨Ta5, Tb5⟩, ⟨Ta6, Tb6⟩, ⟨Ta1, Tb1⟩, ⟨Ta2, Tb2⟩, ⟨Ta4, Tb4⟩⟩,
    ⟨⟨%f7, D7⟩, ⟨%f3, D3⟩, ⟨%f5, D5⟩, ⟨%f6, D6⟩, ⟨%f1, D1⟩, ⟨%f2, D2⟩, ⟨%f4, D4⟩⟩,
    ⟨S1, S2, S3, S4, S5, S6, S7⟩⟩ Hk
  iapply (step_ag_send m K c _ ch 7 (by decide) rfl rfl rfl rfl rfl (redCan m c) f7 (fun _ _ => rfl) _ W) $$ [$S7 $D7 $HO $Ta7 $Tb7]
  · iapply (ag_cells m K c 2 3 ch 7); iexact Hrec
  iintro ⟨C7, HO⟩
  iapply (step_ag_send m K c _ ch 3 (by decide) rfl rfl rfl rfl rfl (redCan m c) f3 (fun _ _ => rfl) _ W) $$ [$S3 $D3 $HO $Ta3 $Tb3]
  · iapply (ag_cells m K c 2 3 ch 3); iexact Hrec
  iintro ⟨C3, HO⟩
  iapply (step_ag_send m K c _ ch 5 (by decide) rfl rfl rfl rfl rfl (redCan m c) f5 (fun _ _ => rfl) _ W) $$ [$S5 $D5 $HO $Ta5 $Tb5]
  · iapply (ag_cells m K c 2 3 ch 5); iexact Hrec
  iintro ⟨C5, HO⟩
  iapply (step_ag_send m K c _ ch 6 (by decide) rfl rfl rfl rfl rfl (redCan m c) f6 (fun _ _ => rfl) _ W) $$ [$S6 $D6 $HO $Ta6 $Tb6]
  · iapply (ag_cells m K c 2 3 ch 6); iexact Hrec
  iintro ⟨C6, HO⟩
  iapply (step_ag_send m K c _ ch 1 (by decide) rfl rfl rfl rfl rfl (redCan m c) f1 (fun _ _ => rfl) _ W) $$ [$S1 $D1 $HO $Ta1 $Tb1]
  · iapply (ag_cells m K c 2 3 ch 1); iexact Hrec
  iintro ⟨C1, HO⟩
  iapply (step_ag_send m K c _ ch 2 (by decide) rfl rfl rfl rfl rfl (redCan m c) f2 (fun _ _ => rfl) _ W) $$ [$S2 $D2 $HO $Ta2 $Tb2]
  · iapply (ag_cells m K c 2 3 ch 2); iexact Hrec
  iintro ⟨C2, HO⟩
  iapply (step_ag_send m K c _ ch 4 (by decide) rfl rfl rfl rfl rfl (redCan m c) f4 (fun _ _ => rfl) _ W) $$ [$S4 $D4 $HO $Ta4 $Tb4]
  · iapply (ag_cells m K c 2 3 ch 4); iexact Hrec
  iintro ⟨C4, HO⟩
  iapply Hk
  iframe

end Cert.Kernel.Proto

end
-- ==== Proof.Bits.PhaseReduce.lean ====
import proofs.«900790_g7700000000000791_dist_gated_mlp_tp_i_m768_h1536_d768_v7x_i8_bf16_1_alg».proof.Proof.Bits.ReducePieces

noncomputable section

namespace Cert.Kernel.Proto

open Cert.Kernel.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
theorem red_acc_set (ch : Fin 3) : (redM.access (redRect ch)).set = (redV ch).view.set := by
  rw [redV_set]; exact View.set_slice_whole _ _

-- one more slot: after the wait the peer's rows are there, and are added to the sum
theorem red_step (K : Dev nD × CIx → ℕ) (c : Dev nD) (ch : Fin 3) (o : Fin 8) (ho : o ≠ 0) (A : Finset CO) (W : Waits sig Unit)
    (acc : FVec F S96x256 .f32)
    (PAY : Vec F S96x256 .f32 → Vec F S1x1x96x256 .bf16 → FVec F S96x256 .f32) (hpay : ∀ a s, PAY a s = accStep a s)
    {hw : (slotV ch o).view.WordExact} {hl : rsM.view.LoadsAt (slotRect ch o).toLoadRect}
    {hla : accM.view.LoadsAt R96x256.toLoadRect} {hsa : (accM.access R96x256).Stores Finset.univ}
    {hma : (Finset.univ : Finset R96x256.shape.Idx) = Finset.univ ∨ ∀ a, R96x256.stride a = 1}
    {α : Type} {Q : α → sProp 𝕄} {k : Prog (TpuEff nD τ sig (Elt F) Λ₀ .tc) α} :
    iprop(records m K ∗ levAts L lv ∗ (cred (tallyAt (dcell c 1 ch o) () N) ∗ atPos ER (dcell c 1 ch o) 0 ∅ 0)
        ∗ owes (c : Thread nD τ) (owedFrom c ∅ ∅ A) W ∗ pts c accM fullShare acc)
      ⊢ iprop(((owes (c : Thread nD τ) (owedFrom c ∅ ∅ A) (insert (dsem 1 ch o, ()) W) ∗ atPos ER (dcell c 1 ch o) 1 ∅ 0
            ∗ pts c (slotV ch o) fullShare (rsCan m c) ∗ pts c accM fullShare (accStep acc (slotRead m c ch o))) -∗ wp frame (wpE (defs₀ (F := F)) 𝒱₀ (c : Thread nD τ) none) Set.univ k Q)
          -∗ wp frame (wpE (defs₀ (F := F)) 𝒱₀ (c : Thread nD τ) none) Set.univ
              (Prog.op (.waitDma2 (semAt cc0_scratch7 ch o) (slotV ch o) (slotV ch o) hw hw) fun _ =>
               Prog.op (.load accM R96x256.toLoadRect hla) fun a =>
               Prog.op (.load rsM (slotRect ch o).toLoadRect hl) fun s =>
               Prog.op (.load accM R96x256.toLoadRect hla) fun _ =>
               Prog.op (.store accM R96x256 (PAY a s) Finset.univ hsa hma) fun _ => k) Q) := by
  iintro ⟨#Hrec, #Hlev, ⟨Hc, Hat⟩, HO, Ha⟩ Hk
  iapply (step_rs_wait m K c ch o ho rfl (credit_slot ch o) (owedFrom c ∅ ∅ A) W) $$ [$Hc $HO $Hat]
  · isplitr; · iapply (inv_of_records m K c 1 ch o); iexact Hrec
    iapply (mayWait_rsR c ch o A); iexact Hlev
  iintro ⟨HO, Hat, Hs⟩
  iapply (step_load_whole_acc c); iframe Ha; iintro Ha
  iapply (step_load_slot c ch o rfl); iframe Hs; iintro Hs
  rw [load_slot m c ch o (rsCan m c) (fun _ _ => rfl)]
  iapply (step_load_whole_acc c); iframe Ha; iintro Ha
  iapply (step_store_whole_acc c); iframe Ha; iintro Ha
  rw [hpay]
  iapply Hk; iframe

-- the handshake's state cut at chunk `ch`: what the chunk's phase uses, and the way back from what it leaves
theorem GP_chunk (c : Dev nD) (ch : Fin 3) :
    (GP c ∅ true ∅ (coGE ch.val) (coGE ch.val) allCO allCO allCO : sProp 𝕄)
      ⊢ iprop((∃ W, owes (c : Thread nD τ) (owedFrom c ∅ ∅ (coGE ch.val)) W) ∗ Tx c 2 3 (chunkCO ch)
          ∗ (bigSep (chunkCO ch) fun x => iprop(cred (tallyAt (dcell c 1 x.1 x.2) () N) ∗ atPos ER (dcell c 1 x.1 x.2) 0 ∅ 0))
          ∗ (((∃ W, owes (c : Thread nD τ) (owedFrom c ∅ ∅ (coGE (ch.val + 1))) W) ∗ Pos c 1 (chunkCO ch) 1 ∗ Cr c 2 (chunkCO ch))
              -∗ GP c ∅ true ∅ (coGE (ch.val + 1)) (coGE (ch.val + 1)) allCO allCO allCO)) := by
  unfold GP Tx Pos Cr
  rw [bigSep_coGE ch, bigSep_coGE ch, bigSep_coGE ch, bigSep_compl ch, bigSep_compl ch,
    bigSep_sep' (chunkCO ch) (fun x => (cred (tallyAt (dcell c 1 x.1 x.2) () N) : sProp 𝕄)) fun x => atPos ER (dcell c 1 x.1 x.2) 0 ∅ 0]
  iintro ⟨HTb, HTx0, ⟨HTx2, HTxc⟩, HO, Hbar, ⟨⟨HP1a, HP1c⟩, ⟨HC1, HC1c⟩, HP1b⟩, H3, H0, ⟨HP2a, HC2, HP2b⟩, HZ⟩
  iframe HO HTxc HC1c HP1c
  iintro ⟨HO, HP1c, HC2c⟩
  iframe

-- the buffers cut at chunk `ch` likewise
theorem B4_chunk (c : Dev nD) (ch : Fin 3) :
    (B4 m c ch.val : sProp 𝕄)
      ⊢ iprop((∃ f, pts c accM fullShare f) ∗ pts c (slotV ch 0) fullShare (rsCan m c) ∗ (∃ f, pts c (redV ch) fullShare f)
          ∗ (∃ f, pts c (outV c ch) fullShare f) ∗ PeerOut c (chunkCO ch)
          ∗ (((∃ f, pts c accM fullShare f) ∗ pts c (slotV ch 0) fullShare (rsCan m c)
                ∗ (bigSep (chunkCO ch) fun x => pts c (slotV x.1 x.2) fullShare (rsCan m c))
                ∗ (pts c (redV ch) (Transfers.shareDrop fullShare 8) (redCan m c) ∗ pts c (redV ch) (redShare 0) (redCan m c))
                ∗ pts c (outV c ch) fullShare (outCan m))
              -∗ B4 m c (ch.val + 1))) := by
  unfold B4 PeerOut
  rw [bigSep_coGE ch, bigSep_compl ch, bigSep_hi ch, bigSep_hi ch, bigSep_lo_succ ch, bigSep_lo_succ ch,
    bigSep_univ_split ch (Φ := fun ch' => pts c (slotV ch' 0) fullShare (rsCan m c)), ← bsep]
  iintro ⟨HIN, Hact, Hwdb, Hacc, Hprow, ⟨Hs0, Hslot0⟩, Hslots, Hredlo, ⟨Hredc, Hredhi⟩, Houtlo, ⟨Houtc, Houthi⟩, HPO, HPOc⟩
  iframe Hacc Hs0 Hredc Houtc HPOc
  iintro ⟨Hacc, Hs0, Hsl, Hrd, Hout⟩
  iframe

set_option maxHeartbeats 1600000 in
theorem phase_reduce (K : Dev nD × CIx → ℕ) (c : Dev nD) (ch : Fin 3)
    (n7 n3 n5 n6 n1 n2 n4 : Dev nD)
    (hn7 : n7 = peer c 7) (hn3 : n3 = peer c 3) (hn5 : n5 = peer c 5) (hn6 : n6 = peer c 6)
    (hn1 : n1 = peer c 1) (hn2 : n2 = peer c 2) (hn4 : n4 = peer c 4)
    (offb offd : Fin 2 → Nat) (hoffb : offb = ![96 * c.val, 256 * ch.val]) (hoffd : offd = ![96 * c.val, 256 * ch.val])
    {inbb : ∀ a, offb a + S96x256.size a ≤ S768x768.size a} {inbd : ∀ a, offd a + S96x256.size a ≤ S768x768.size a}
    {hla : accM.view.LoadsAt R96x256.toLoadRect} {hsa : (accM.access R96x256).Stores Finset.univ}
    {hma : (Finset.univ : Finset R96x256.shape.Idx) = Finset.univ ∨ ∀ a, R96x256.stride a = 1}
    {hl0 : rsM.view.LoadsAt (slotRect ch 0).toLoadRect}
    {hl1 : rsM.view.LoadsAt (slotRect ch 1).toLoadRect} {hw1 : (slotV ch 1).view.WordExact}
    {hl2 : rsM.view.LoadsAt (slotRect ch 2).toLoadRect} {hw2 : (slotV ch 2).view.WordExact}
    {hl4 : rsM.view.LoadsAt (slotRect ch 4).toLoadRect} {hw4 : (slotV ch 4).view.WordExact}
    {hl3 : rsM.view.LoadsAt (slotRect ch 3).toLoadRect} {hw3 : (slotV ch 3).view.WordExact}
    {hl5 : rsM.view.LoadsAt (slotRect ch 5).toLoadRect} {hw5 : (slotV ch 5).view.WordExact}
    {hl6 : rsM.view.LoadsAt (slotRect ch 6).toLoadRect} {hw6 : (slotV ch 6).view.WordExact}
    {hl7 : rsM.view.LoadsAt (slotRect ch 7).toLoadRect} {hw7 : (slotV ch 7).view.WordExact}
    {hlr : redM.view.LoadsAt (redRect ch).toLoadRect} {hsr : (redM.access (redRect ch)).Stores Finset.univ}
    {hmr : (Finset.univ : Finset (redRect ch).shape.Idx) = Finset.univ ∨ ∀ a, (redRect ch).stride a = 1}
    {hlo : outM.view.LoadsAt (Rect.unit (s := S768x768) offb S96x256.size inbb).toLoadRect} {hso : (outM.access (Rect.unit (s := S768x768) offb S96x256.size inbb)).Stores Finset.univ}
    {hmo : (Finset.univ : Finset (Rect.unit (s := S768x768) offb S96x256.size inbb).shape.Idx) = Finset.univ ∨ ∀ a, (Rect.unit (s := S768x768) offb S96x256.size inbb).stride a = 1}
    {hsrc : (redV ch).view.WordExact} {hdst : (outM.slice (Rect.unit (s := S768x768) offd S96x256.size inbd) (fun _ => rfl)).view.WordExact}
    {hsc7 : ((outM.slice (Rect.unit (s := S768x768) offd S96x256.size inbd) (fun _ => rfl)) : Memref sig (Dev.tc n7 : Thread nD τ).2.kind .vmem S96x256 .bf16).view.ref.isScScratch = false}
    {hsem7 : DmaTarget.Typed .vmem (.dma (semAt cc0_scratch9 ch 7)) (.remote (Dev.tc n7 : Thread nD τ) (outM.slice (Rect.unit (s := S768x768) offd S96x256.size inbd) (fun _ => rfl)) (.dma (semAt cc0_scratch8 ch 7)) hsc7)}
    {hsc3 : ((outM.slice (Rect.unit (s := S768x768) offd S96x256.size inbd) (fun _ => rfl)) : Memref sig (Dev.tc n3 : Thread nD τ).2.kind .vmem S96x256 .bf16).view.ref.isScScratch = false}
    {hsem3 : DmaTarget.Typed .vmem (.dma (semAt cc0_scratch9 ch 3)) (.remote (Dev.tc n3 : Thread nD τ) (outM.slice (Rect.unit (s := S768x768) offd S96x256.size inbd) (fun _ => rfl)) (.dma (semAt cc0_scratch8 ch 3)) hsc3)}
    {hsc5 : ((outM.slice (Rect.unit (s := S768x768) offd S96x256.size inbd) (fun _ => rfl)) : Memref sig (Dev.tc n5 : Thread nD τ).2.kind .vmem S96x256 .bf16).view.ref.isScScratch = false}
    {hsem5 : DmaTarget.Typed .vmem (.dma (semAt cc0_scratch9 ch 5)) (.remote (Dev.tc n5 : Thread nD τ) (outM.slice (Rect.unit (s := S768x768) offd S96x256.size inbd) (fun _ => rfl)) (.dma (semAt cc0_scratch8 ch 5)) hsc5)}
    {hsc6 : ((outM.slice (Rect.unit (s := S768x768) offd S96x256.size inbd) (fun _ => rfl)) : Memref sig (Dev.tc n6 : Thread nD τ).2.kind .vmem S96x256 .bf16).view.ref.isScScratch = false}
    {hsem6 : DmaTarget.Typed .vmem (.dma (semAt cc0_scratch9 ch 6)) (.remote (Dev.tc n6 : Thread nD τ) (outM.slice (Rect.unit (s := S768x768) offd S96x256.size inbd) (fun _ => rfl)) (.dma (semAt cc0_scratch8 ch 6)) hsc6)}
    {hsc1 : ((outM.slice (Rect.unit (s := S768x768) offd S96x256.size inbd) (fun _ => rfl)) : Memref sig (Dev.tc n1 : Thread nD τ).2.kind .vmem S96x256 .bf16).view.ref.isScScratch = false}
    {hsem1 : DmaTarget.Typed .vmem (.dma (semAt cc0_scratch9 ch 1)) (.remote (Dev.tc n1 : Thread nD τ) (outM.slice (Rect.unit (s := S768x768) offd S96x256.size inbd) (fun _ => rfl)) (.dma (semAt cc0_scratch8 ch 1)) hsc1)}
    {hsc2 : ((outM.slice (Rect.unit (s := S768x768) offd S96x256.size inbd) (fun _ => rfl)) : Memref sig (Dev.tc n2 : Thread nD τ).2.kind .vmem S96x256 .bf16).view.ref.isScScratch = false}
    {hsem2 : DmaTarget.Typed .vmem (.dma (semAt cc0_scratch9 ch 2)) (.remote (Dev.tc n2 : Thread nD τ) (outM.slice (Rect.unit (s := S768x768) offd S96x256.size inbd) (fun _ => rfl)) (.dma (semAt cc0_scratch8 ch 2)) hsc2)}
    {hsc4 : ((outM.slice (Rect.unit (s := S768x768) offd S96x256.size inbd) (fun _ => rfl)) : Memref sig (Dev.tc n4 : Thread nD τ).2.kind .vmem S96x256 .bf16).view.ref.isScScratch = false}
    {hsem4 : DmaTarget.Typed .vmem (.dma (semAt cc0_scratch9 ch 4)) (.remote (Dev.tc n4 : Thread nD τ) (outM.slice (Rect.unit (s := S768x768) offd S96x256.size inbd) (fun _ => rfl)) (.dma (semAt cc0_scratch8 ch 4)) hsc4)}
    {α : Type} {Q : α → sProp 𝕄} {k : Prog (TpuEff nD τ sig (Elt F) Λ₀ .tc) α} :
    iprop(records m K ∗ levAts L lv ∗ GP c ∅ true ∅ (coGE ch.val) (coGE ch.val) allCO allCO allCO ∗ B4 m c ch.val)
      ⊢ iprop((iprop(GP c ∅ true ∅ (coGE (ch.val + 1)) (coGE (ch.val + 1)) allCO allCO allCO ∗ B4 m c (ch.val + 1)) -∗ wp frame (wpE (defs₀ (F := F)) 𝒱₀ (c : Thread nD τ) none) Set.univ k Q)
          -∗ wp frame (wpE (defs₀ (F := F)) 𝒱₀ (c : Thread nD τ) none) Set.univ
              (Prog.op (.load rsM (slotRect ch 0).toLoadRect hl0) fun s0 =>
        Prog.op (.load accM R96x256.toLoadRect hla) fun _ =>
        Prog.op (.store accM R96x256 (k0_pay10 s0) Finset.univ hsa hma) fun _ =>
        Prog.op (.waitDma2 (semAt cc0_scratch7 ch 1) (slotV ch 1) (slotV ch 1) hw1 hw1) fun _ =>
        Prog.op (.load accM R96x256.toLoadRect hla) fun a =>
        Prog.op (.load rsM (slotRect ch 1).toLoadRect hl1) fun s =>
        Prog.op (.load accM R96x256.toLoadRect hla) fun _ =>
        Prog.op (.store accM R96x256 (k0_pay11 a s) Finset.univ hsa hma) fun _ =>
        Prog.op (.waitDma2 (semAt cc0_scratch7 ch 2) (slotV ch 2) (slotV ch 2) hw2 hw2) fun _ =>
        Prog.op (.load accM R96x256.toLoadRect hla) fun a =>
        Prog.op (.load rsM (slotRect ch 2).toLoadRect hl2) fun s =>
        Prog.op (.load accM R96x256.toLoadRect hla) fun _ =>
        Prog.op (.store accM R96x256 (k0_pay12 a s) Finset.univ hsa hma) fun _ =>
        Prog.op (.waitDma2 (semAt cc0_scratch7 ch 4) (slotV ch 4) (slotV ch 4) hw4 hw4) fun _ =>
        Prog.op (.load accM R96x256.toLoadRect hla) fun a =>
        Prog.op (.load rsM (slotRect ch 4).toLoadRect hl4) fun s =>
        Prog.op (.load accM R96x256.toLoadRect hla) fun _ =>
        Prog.op (.store accM R96x256 (k0_pay14 (k0_pay13 a s)) Finset.univ hsa hma) fun _ =>
        Prog.op (.waitDma2 (semAt cc0_scratch7 ch 3) (slotV ch 3) (slotV ch 3) hw3 hw3) fun _ =>
        Prog.op (.load accM R96x256.toLoadRect hla) fun a =>
        Prog.op (.load rsM (slotRect ch 3).toLoadRect hl3) fun s =>
        Prog.op (.load accM R96x256.toLoadRect hla) fun _ =>
        Prog.op (.store accM R96x256 (k0_pay15 a s) Finset.univ hsa hma) fun _ =>
        Prog.op (.waitDma2 (semAt cc0_scratch7 ch 5) (slotV ch 5) (slotV ch 5) hw5 hw5) fun _ =>
        Prog.op (.load accM R96x256.toLoadRect hla) fun a =>
        Prog.op (.load rsM (slotRect ch 5).toLoadRect hl5) fun s =>
        Prog.op (.load accM R96x256.toLoadRect hla) fun _ =>
        Prog.op (.store accM R96x256 (k0_pay16 a s) Finset.univ hsa hma) fun _ =>
        Prog.op (.waitDma2 (semAt cc0_scratch7 ch 6) (slotV ch 6) (slotV ch 6) hw6 hw6) fun _ =>
        Prog.op (.load accM R96x256.toLoadRect hla) fun a =>
        Prog.op (.load rsM (slotRect ch 6).toLoadRect hl6) fun s =>
        Prog.op (.load accM R96x256.toLoadRect hla) fun _ =>
        Prog.op (.store accM R96x256 (k0_pay17 a s) Finset.univ hsa hma) fun _ =>
        Prog.op (.waitDma2 (semAt cc0_scratch7 ch 7) (slotV ch 7) (slotV ch 7) hw7 hw7) fun _ =>
        Prog.op (.load accM R96x256.toLoadRect hla) fun a =>
        Prog.op (.load rsM (slotRect ch 7).toLoadRect hl7) fun s =>
        Prog.op (.load accM R96x256.toLoadRect hla) fun _ =>
        Prog.op (.store accM R96x256 (k0_pay18 a s) Finset.univ hsa hma) fun _ =>
        Prog.op (.load accM R96x256.toLoadRect hla) fun a7 =>
        Prog.op (.load redM (redRect ch).toLoadRect hlr) fun _ =>
        Prog.op (.store redM (redRect ch) (k0_pay20 (k0_pay19 a7)) Finset.univ hsr hmr) fun _ =>
        Prog.op (.load redM (redRect ch).toLoadRect hlr) fun rr =>
        Prog.op (.load outM (Rect.unit (s := S768x768) offb S96x256.size inbb).toLoadRect hlo) fun _ =>
        Prog.op (.store outM (Rect.unit (s := S768x768) offb S96x256.size inbb) (k0_pay21 rr) Finset.univ hso hmo) fun _ =>
        Prog.op (.enqueueDma (redV ch) (.remote (Dev.tc n7 : Thread nD τ) (outM.slice (Rect.unit (s := S768x768) offd S96x256.size inbd) (fun _ => rfl)) (.dma (semAt cc0_scratch8 ch 7)) hsc7) (.dma (semAt cc0_scratch9 ch 7)) hsrc hdst hsem7) fun _ =>
        Prog.op (.enqueueDma (redV ch) (.remote (Dev.tc n3 : Thread nD τ) (outM.slice (Rect.unit (s := S768x768) offd S96x256.size inbd) (fun _ => rfl)) (.dma (semAt cc0_scratch8 ch 3)) hsc3) (.dma (semAt cc0_scratch9 ch 3)) hsrc hdst hsem3) fun _ =>
        Prog.op (.enqueueDma (redV ch) (.remote (Dev.tc n5 : Thread nD τ) (outM.slice (Rect.unit (s := S768x768) offd S96x256.size inbd) (fun _ => rfl)) (.dma (semAt cc0_scratch8 ch 5)) hsc5) (.dma (semAt cc0_scratch9 ch 5)) hsrc hdst hsem5) fun _ =>
        Prog.op (.enqueueDma (redV ch) (.remote (Dev.tc n6 : Thread nD τ) (outM.slice (Rect.unit (s := S768x768) offd S96x256.size inbd) (fun _ => rfl)) (.dma (semAt cc0_scratch8 ch 6)) hsc6) (.dma (semAt cc0_scratch9 ch 6)) hsrc hdst hsem6) fun _ =>
        Prog.op (.enqueueDma (redV ch) (.remote (Dev.tc n1 : Thread nD τ) (outM.slice (Rect.unit (s := S768x768) offd S96x256.size inbd) (fun _ => rfl)) (.dma (semAt cc0_scratch8 ch 1)) hsc1) (.dma (semAt cc0_scratch9 ch 1)) hsrc hdst hsem1) fun _ =>
        Prog.op (.enqueueDma (redV ch) (.remote (Dev.tc n2 : Thread nD τ) (outM.slice (Rect.unit (s := S768x768) offd S96x256.size inbd) (fun _ => rfl)) (.dma (semAt cc0_scratch8 ch 2)) hsc2) (.dma (semAt cc0_scratch9 ch 2)) hsrc hdst hsem2) fun _ =>
        Prog.op (.enqueueDma (redV ch) (.remote (Dev.tc n4 : Thread nD τ) (outM.slice (Rect.unit (s := S768x768) offd S96x256.size inbd) (fun _ => rfl)) (.dma (semAt cc0_scratch8 ch 4)) hsc4) (.dma (semAt cc0_scratch9 ch 4)) hsrc hdst hsem4) fun _ => k) Q) := by
  subst hoffb
  iintro ⟨#Hrec, #Hlev, HG, HB⟩ Hk
  ihave HG := (GP_chunk (F := F) c ch) $$ HG
  ihave HB := (B4_chunk m c ch) $$ HB
  unfold Tx Pos Cr PeerOut
  rw [bigSep_chunk_sum (F := F) ch fun x => iprop(cred (tallyAt (dcell c 1 x.1 x.2) () N) ∗ atPos ER (dcell c 1 x.1 x.2) 0 ∅ 0),
    bigSep_chunk_sum (F := F) ch fun x => atPos ER (dcell c 1 x.1 x.2) 1 ∅ 0,
    bigSep_chunk_sum ch fun x => pts c (slotV x.1 x.2) fullShare (rsCan m c)]
  icases HG with ⟨⟨%W, HO⟩, HTxc, ⟨Hb1, Hb2, Hb4, Hb3, Hb5, Hb6, Hb7⟩, HGk⟩
  icases HB with ⟨⟨%fa, Hacc⟩, Hs0, ⟨%fr, Hred⟩, ⟨%fo, Hout⟩, HPOc, HBk⟩
  iapply (step_load_slot c ch 0 rfl); iframe Hs0; iintro Hs0
  rw [load_slot m c ch 0 (rsCan m c) (fun _ _ => rfl)]
  iapply (step_load_whole_acc c); iframe Hacc; iintro Hacc
  iapply (step_store_whole_acc c); iframe Hacc; iintro Hacc
  iapply (red_step m K c ch 1 (by decide) (coGE ch.val) _ _ k0_pay11 (fun _ _ => rfl)) $$ [$Hrec $Hlev $Hb1 $HO $Hacc]
  iintro ⟨HO, Hat1, Hs1, Hacc⟩
  iapply (red_step m K c ch 2 (by decide) (coGE ch.val) _ _ k0_pay12 (fun _ _ => rfl)) $$ [$Hrec $Hlev $Hb2 $HO $Hacc]
  iintro ⟨HO, Hat2, Hs2, Hacc⟩
  iapply (red_step m K c ch 4 (by decide) (coGE ch.val) _ _ (fun a s => k0_pay14 (k0_pay13 a s)) (fun _ _ => rfl)) $$ [$Hrec $Hlev $Hb4 $HO $Hacc]
  iintro ⟨HO, Hat4, Hs4, Hacc⟩
  iapply (red_step m K c ch 3 (by decide) (coGE ch.val) _ _ k0_pay15 (fun _ _ => rfl)) $$ [$Hrec $Hlev $Hb3 $HO $Hacc]
  iintro ⟨HO, Hat3, Hs3, Hacc⟩
  iapply (red_step m K c ch 5 (by decide) (coGE ch.val) _ _ k0_pay16 (fun _ _ => rfl)) $$ [$Hrec $Hlev $Hb5 $HO $Hacc]
  iintro ⟨HO, Hat5, Hs5, Hacc⟩
  iapply (red_step m K c ch 6 (by decide) (coGE ch.val) _ _ k0_pay17 (fun _ _ => rfl)) $$ [$Hrec $Hlev $Hb6 $HO $Hacc]
  iintro ⟨HO, Hat6, Hs6, Hacc⟩
  iapply (red_step m K c ch 7 (by decide) (coGE ch.val) _ (acc6 m c ch) k0_pay18 (fun _ _ => rfl)) $$ [$Hrec $Hlev $Hb7 $HO Hacc]
  · iexact Hacc
  iintro ⟨HO, Hat7, Hs7, Hacc⟩
  iapply (step_load_whole_acc c); iframe Hacc; iintro Hacc
  iapply (step_load_red c ch rfl); iframe Hred; iintro Hred
  iapply (step_store_red c ch rfl); iframe Hred; iintro Hred
  have e1 : (pts c (redV ch) fullShare ((redM.access (redRect ch)).write (Elt F) fr (k0_pay20 (k0_pay19 (accStep (acc6 m c ch) (slotRead m c ch 7)))) Finset.univ) : sProp 𝕄)
      = pts c (redV ch) fullShare (redCan m c) :=
    pts_congr fun i hi => store_red m c ch fr i (by rw [red_acc_set]; exact hi)
  ihave Hred := (Entails.of_eq e1) $$ Hred
  iapply (step_load_red c ch rfl); iframe Hred; iintro Hred
  iapply (step_load_out c c ch rfl); iframe Hout; iintro Hout
  iapply (step_store_out c c ch rfl); iframe Hout; iintro Hout
  have e2 : (pts c (outV c ch) fullShare ((outM.access (outRect c ch)).write (Elt F) fo
        (k0_pay21 (redM.view.readAt (Elt F) (redRect ch).toLoadRect (redCan m c))) Finset.univ) : sProp 𝕄)
      = pts c (outV c ch) fullShare (outCan m) :=
    pts_congr (store_out m c ch fo (redCan m c) fun _ _ => rfl)
  ihave Hout := (Entails.of_eq e2) $$ Hout
  ihave T := (red_shares (F := F) c ch (redCan m c)).mp $$ Hred
  rw [bigSep_univ_split (0 : Fin 8), ← bsep]
  icases T with ⟨Hdrop, Ht0, Htoks⟩
  iapply (gather_sends m K c ch n7 n3 n5 n6 n1 n2 n4 hn7 hn3 hn5 hn6 hn1 hn2 hn4 offd hoffd _) $$ [$Hrec $HO $HTxc $HPOc $Htoks]
  iintro ⟨HO, HC2c⟩
  iapply Hk
  isplitl [HGk HO Hat1 Hat2 Hat4 Hat3 Hat5 Hat6 Hat7 HC2c]
  · iapply HGk; iframe; iexists _; iexact HO
  iapply HBk; iframe; iexists _; iexact Hacc

end Cert.Kernel.Proto

end
-- ==== Proof.Bits.PhaseWaits.lean ====
import proofs.«900790_g7700000000000791_dist_gated_mlp_tp_i_m768_h1536_d768_v7x_i8_bf16_1_alg».proof.Proof.Bits.Steps
import proofs.«900790_g7700000000000791_dist_gated_mlp_tp_i_m768_h1536_d768_v7x_i8_bf16_1_alg».proof.Proof.Bits.Bufs

noncomputable section

namespace Cert.Kernel.Proto

open Cert.Kernel.Gen
open Idealize.ShloMosaic
open Idealize.ShloMosaic.TcCoe
open Idealize.SL Idealize.SL.BI
open scoped Idealize.SL.BI
open Idealize.SL.BI.BIBase Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CIx → ℕ) (c : Dev nD)

/-- One wait on the transfer cell (kk, ch, o) once nothing is owed: the transfer leaves `D`, its payload joins those that are back. -/
theorem wait_cell (kk : Fin 4) {D : Finset CO} (ch : Fin 3) (o : Fin 8)
    {sp' sp : Space} {s' s : Shape} {e' e : EltTy} {κ' : Kind} {sem : DmaSem sig}
    {SRCV : Memref sig .tc sp' s' e'} {DSTV : Memref sig κ' sp s e}
    {hs : SRCV.view.WordExact} {hd : DSTV.view.WordExact}
    {α : Type} {Q : α → sProp 𝕄} {k : PUnit → Prog (TpuEff nD τ sig (Elt F) Λ₀ .tc) α}
    (ho : o ≠ 0 := by decide) (hx : (ch, o) ∈ D := by simp)
    (hsem : sem = semAt (karr kk) ch o := by rfl) (hcr : DSTV.view.dmaCredit = N := by rfl) :
    iprop(records m K ∗ (∃ W, owes (c : Thread nD τ) 0 W) ∗ (Pos c kk D 0 ∗ Cr c kk D ∗ Pos c kk (allCO \ D) 1)
        ∗ bigSep (allCO \ D) fun x => dmaPay m c kk x.1 x.2)
      ⊢ iprop((((∃ W, owes (c : Thread nD τ) 0 W)
              ∗ (Pos c kk (D.erase (ch, o)) 0 ∗ Cr c kk (D.erase (ch, o)) ∗ Pos c kk (allCO \ D.erase (ch, o)) 1)
              ∗ bigSep (allCO \ D.erase (ch, o)) fun x => dmaPay m c kk x.1 x.2)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem SRCV DSTV hs hd) k) Q) := by
  have hn : (ch, o) ∉ allCO \ D := by simp [hx]
  unfold Pos Cr
  rw [SparseCore.bigSep_erase' hx, SparseCore.bigSep_erase' hx, Finset.sdiff_erase (by simp [ho]), SparseCore.bigSep_insert' hn,
    SparseCore.bigSep_insert' hn]
  iintro ⟨#HR, ⟨%W, HO⟩, ⟨⟨Hat, HP0⟩, ⟨Hc, HC⟩, HP1⟩, HL⟩ Hk
  iapply (step_drain m K c kk ch o ho hsem hcr W) $$ [HO Hc Hat]
  · iframe
    iapply (inv_of_records m K c kk ch o); iexact HR
  iintro ⟨HO, Hat1, Hp⟩
  iapply Hk
  isplitl [HO]; · iexists _; iexact HO
  iframe

theorem coGE_succ_ag : ∀ ch : Fin 3, (((((((coGE ch.val).erase (ch, 7)).erase (ch, 3)).erase (ch, 5)).erase (ch, 6)).erase (ch, 1)).erase (ch, 2)).erase (ch, 4) = coGE (ch.val + 1) := by decide
theorem coGE_succ_dr : ∀ ch : Fin 3, (((((((coGE ch.val).erase (ch, 1)).erase (ch, 2)).erase (ch, 3)).erase (ch, 4)).erase (ch, 5)).erase (ch, 6)).erase (ch, 7) = coGE (ch.val + 1) := by decide

/-- The seven receive waits of the gather for chunk ch: seven waits on cell 3, in the program's order. -/
theorem phase_ag_waits (ch : Fin 3)
    {S7 S3 S5 S6 S1 S2 S4 : Memref sig .tc .vmem S96x256 .bf16}
    {off7 off3 off5 off6 off1 off2 off4 : Fin 2 → Nat}
    {inb7 : ∀ a, off7 a + S96x256.size a ≤ S768x768.size a} {inb3 : ∀ a, off3 a + S96x256.size a ≤ S768x768.size a}
    {inb5 : ∀ a, off5 a + S96x256.size a ≤ S768x768.size a} {inb6 : ∀ a, off6 a + S96x256.size a ≤ S768x768.size a}
    {inb1 : ∀ a, off1 a + S96x256.size a ≤ S768x768.size a} {inb2 : ∀ a, off2 a + S96x256.size a ≤ S768x768.size a}
    {inb4 : ∀ a, off4 a + S96x256.size a ≤ S768x768.size a}
    {hs7 : S7.view.WordExact} {hs3 : S3.view.WordExact} {hs5 : S5.view.WordExact} {hs6 : S6.view.WordExact}
    {hs1 : S1.view.WordExact} {hs2 : S2.view.WordExact} {hs4 : S4.view.WordExact}
    {hd7 : (outM.slice (Rect.unit (s := S768x768) off7 S96x256.size inb7) (fun _ => rfl)).view.WordExact}
    {hd3 : (outM.slice (Rect.unit (s := S768x768) off3 S96x256.size inb3) (fun _ => rfl)).view.WordExact}
    {hd5 : (outM.slice (Rect.unit (s := S768x768) off5 S96x256.size inb5) (fun _ => rfl)).view.WordExact}
    {hd6 : (outM.slice (Rect.unit (s := S768x768) off6 S96x256.size inb6) (fun _ => rfl)).view.WordExact}
    {hd1 : (outM.slice (Rect.unit (s := S768x768) off1 S96x256.size inb1) (fun _ => rfl)).view.WordExact}
    {hd2 : (outM.slice (Rect.unit (s := S768x768) off2 S96x256.size inb2) (fun _ => rfl)).view.WordExact}
    {hd4 : (outM.slice (Rect.unit (s := S768x768) off4 S96x256.size inb4) (fun _ => rfl)).view.WordExact}
    {α : Type} {Q : α → sProp 𝕄} (k : Prog (TpuEff nD τ sig (Elt F) Λ₀ .tc) α) :
    iprop(records m K ∗ levAts L lv ∗ GP c ∅ true ∅ ∅ ∅ (coGE ch.val) allCO allCO ∗ B5 m c ch.val 0
        ∗ ((GP c ∅ true ∅ ∅ ∅ (coGE (ch.val + 1)) allCO allCO ∗ B5 m c (ch.val + 1) 0)
            -∗ wp frame (wpE (defs₀ (F := F)) 𝒱₀ (c : Thread nD τ) none) Set.univ k Q))
      ⊢ wp frame (wpE (defs₀ (F := F)) 𝒱₀ (c : Thread nD τ) none) Set.univ
              (.op (.waitDma2 (semAt cc0_scratch9 ch 7) S7 (outM.slice (Rect.unit (s := S768x768) off7 S96x256.size inb7) (fun _ => rfl)) hs7 hd7) fun _ =>
                (.op (.waitDma2 (semAt cc0_scratch9 ch 3) S3 (outM.slice (Rect.unit (s := S768x768) off3 S96x256.size inb3) (fun _ => rfl)) hs3 hd3) fun _ =>
                (.op (.waitDma2 (semAt cc0_scratch9 ch 5) S5 (outM.slice (Rect.unit (s := S768x768) off5 S96x256.size inb5) (fun _ => rfl)) hs5 hd5) fun _ =>
                (.op (.waitDma2 (semAt cc0_scratch9 ch 6) S6 (outM.slice (Rect.unit (s := S768x768) off6 S96x256.size inb6) (fun _ => rfl)) hs6 hd6) fun _ =>
                (.op (.waitDma2 (semAt cc0_scratch9 ch 1) S1 (outM.slice (Rect.unit (s := S768x768) off1 S96x256.size inb1) (fun _ => rfl)) hs1 hd1) fun _ =>
                (.op (.waitDma2 (semAt cc0_scratch9 ch 2) S2 (outM.slice (Rect.unit (s := S768x768) off2 S96x256.size inb2) (fun _ => rfl)) hs2 hd2) fun _ =>
                (.op (.waitDma2 (semAt cc0_scratch9 ch 4) S4 (outM.slice (Rect.unit (s := S768x768) off4 S96x256.size inb4) (fun _ => rfl)) hs4 hd4) fun _ =>
                k))))))) Q := by
  unfold GP B5
  simp only [owed_none, ← dmaPay_3 m]
  iintro ⟨#HR, -, ⟨T1, T2, T3, HO, Hb, H1, H3, HG⟩, ⟨HB4, HL, HD⟩, Hk⟩
  iapply (wait_cell m K c 3 ch 7) $$ [$HR $HO $H3 $HL]; iintro ⟨HO, H3, HL⟩
  iapply (wait_cell m K c 3 ch 3) $$ [$HR $HO $H3 $HL]; iintro ⟨HO, H3, HL⟩
  iapply (wait_cell m K c 3 ch 5) $$ [$HR $HO $H3 $HL]; iintro ⟨HO, H3, HL⟩
  iapply (wait_cell m K c 3 ch 6) $$ [$HR $HO $H3 $HL]; iintro ⟨HO, H3, HL⟩
  iapply (wait_cell m K c 3 ch 1) $$ [$HR $HO $H3 $HL]; iintro ⟨HO, H3, HL⟩
  iapply (wait_cell m K c 3 ch 2) $$ [$HR $HO $H3 $HL]; iintro ⟨HO, H3, HL⟩
  iapply (wait_cell m K c 3 ch 4) $$ [$HR $HO $H3 $HL]; iintro ⟨HO, H3, HL⟩
  iapply Hk
  rw [← coGE_succ_ag ch]
  iframe

/-- The fourteen send waits of chunk ch: for each peer, a wait on cell 0 then on cell 2. -/
theorem phase_send_waits (ch : Fin 3)
    {SA1 SA2 SA3 SA4 SA5 SA6 SA7 SB1 SB2 SB3 SB4 SB5 SB6 SB7 : Memref sig .tc .vmem S96x256 .bf16}
    {fA1 fA2 fA3 fA4 fA5 fA6 fA7 fB1 fB2 fB3 fB4 fB5 fB6 fB7 : Fin 3 → Nat}
    {iA1 : ∀ a, fA1 a + S1x96x256.size a ≤ S3x96x256.size a} {iB1 : ∀ a, fB1 a + S1x96x256.size a ≤ S3x96x256.size a}
    {iA2 : ∀ a, fA2 a + S1x96x256.size a ≤ S3x96x256.size a} {iB2 : ∀ a, fB2 a + S1x96x256.size a ≤ S3x96x256.size a}
    {iA3 : ∀ a, fA3 a + S1x96x256.size a ≤ S3x96x256.size a} {iB3 : ∀ a, fB3 a + S1x96x256.size a ≤ S3x96x256.size a}
    {iA4 : ∀ a, fA4 a + S1x96x256.size a ≤ S3x96x256.size a} {iB4 : ∀ a, fB4 a + S1x96x256.size a ≤ S3x96x256.size a}
    {iA5 : ∀ a, fA5 a + S1x96x256.size a ≤ S3x96x256.size a} {iB5 : ∀ a, fB5 a + S1x96x256.size a ≤ S3x96x256.size a}
    {iA6 : ∀ a, fA6 a + S1x96x256.size a ≤ S3x96x256.size a} {iB6 : ∀ a, fB6 a + S1x96x256.size a ≤ S3x96x256.size a}
    {iA7 : ∀ a, fA7 a + S1x96x256.size a ≤ S3x96x256.size a} {iB7 : ∀ a, fB7 a + S1x96x256.size a ≤ S3x96x256.size a}
    {hsA1 : SA1.view.WordExact} {hsB1 : SB1.view.WordExact}
    {hdA1 : ((redM.slice (Rect.unit (s := S3x96x256) fA1 S1x96x256.size iA1) (fun _ => rfl)).squeeze S96x256 squeezes_S1x96x256_S96x256).view.WordExact}
    {hdB1 : ((redM.slice (Rect.unit (s := S3x96x256) fB1 S1x96x256.size iB1) (fun _ => rfl)).squeeze S96x256 squeezes_S1x96x256_S96x256).view.WordExact}
    {hsA2 : SA2.view.WordExact} {hsB2 : SB2.view.WordExact}
    {hdA2 : ((redM.slice (Rect.unit (s := S3x96x256) fA2 S1x96x256.size iA2) (fun _ => rfl)).squeeze S96x256 squeezes_S1x96x256_S96x256).view.WordExact}
    {hdB2 : ((redM.slice (Rect.unit (s := S3x96x256) fB2 S1x96x256.size iB2) (fun _ => rfl)).squeeze S96x256 squeezes_S1x96x256_S96x256).view.WordExact}
    {hsA3 : SA3.view.WordExact} {hsB3 : SB3.view.WordExact}
    {hdA3 : ((redM.slice (Rect.unit (s := S3x96x256) fA3 S1x96x256.size iA3) (fun _ => rfl)).squeeze S96x256 squeezes_S1x96x256_S96x256).view.WordExact}
    {hdB3 : ((redM.slice (Rect.unit (s := S3x96x256) fB3 S1x96x256.size iB3) (fun _ => rfl)).squeeze S96x256 squeezes_S1x96x256_S96x256).view.WordExact}
    {hsA4 : SA4.view.WordExact} {hsB4 : SB4.view.WordExact}
    {hdA4 : ((redM.slice (Rect.unit (s := S3x96x256) fA4 S1x96x256.size iA4) (fun _ => rfl)).squeeze S96x256 squeezes_S1x96x256_S96x256).view.WordExact}
    {hdB4 : ((redM.slice (Rect.unit (s := S3x96x256) fB4 S1x96x256.size iB4) (fun _ => rfl)).squeeze S96x256 squeezes_S1x96x256_S96x256).view.WordExact}
    {hsA5 : SA5.view.WordExact} {hsB5 : SB5.view.WordExact}
    {hdA5 : ((redM.slice (Rect.unit (s := S3x96x256) fA5 S1x96x256.size iA5) (fun _ => rfl)).squeeze S96x256 squeezes_S1x96x256_S96x256).view.WordExact}
    {hdB5 : ((redM.slice (Rect.unit (s := S3x96x256) fB5 S1x96x256.size iB5) (fun _ => rfl)).squeeze S96x256 squeezes_S1x96x256_S96x256).view.WordExact}
    {hsA6 : SA6.view.WordExact} {hsB6 : SB6.view.WordExact}
    {hdA6 : ((redM.slice (Rect.unit (s := S3x96x256) fA6 S1x96x256.size iA6) (fun _ => rfl)).squeeze S96x256 squeezes_S1x96x256_S96x256).view.WordExact}
    {hdB6 : ((redM.slice (Rect.unit (s := S3x96x256) fB6 S1x96x256.size iB6) (fun _ => rfl)).squeeze S96x256 squeezes_S1x96x256_S96x256).view.WordExact}
    {hsA7 : SA7.view.WordExact} {hsB7 : SB7.view.WordExact}
    {hdA7 : ((redM.slice (Rect.unit (s := S3x96x256) fA7 S1x96x256.size iA7) (fun _ => rfl)).squeeze S96x256 squeezes_S1x96x256_S96x256).view.WordExact}
    {hdB7 : ((redM.slice (Rect.unit (s := S3x96x256) fB7 S1x96x256.size iB7) (fun _ => rfl)).squeeze S96x256 squeezes_S1x96x256_S96x256).view.WordExact}
    {α : Type} {Q : α → sProp 𝕄} (k : Prog (TpuEff nD τ sig (Elt F) Λ₀ .tc) α) :
    iprop(records m K ∗ levAts L lv ∗ GP c ∅ true ∅ ∅ ∅ ∅ (coGE ch.val) (coGE ch.val) ∗ B5 m c 3 ch.val
        ∗ ((GP c ∅ true ∅ ∅ ∅ ∅ (coGE (ch.val + 1)) (coGE (ch.val + 1)) ∗ B5 m c 3 (ch.val + 1))
            -∗ wp frame (wpE (defs₀ (F := F)) 𝒱₀ (c : Thread nD τ) none) Set.univ k Q))
      ⊢ wp frame (wpE (defs₀ (F := F)) 𝒱₀ (c : Thread nD τ) none) Set.univ
              (.op (.waitDma2 (semAt cc0_scratch6 ch 1) SA1 ((redM.slice (Rect.unit (s := S3x96x256) fA1 S1x96x256.size iA1) (fun _ => rfl)).squeeze S96x256 squeezes_S1x96x256_S96x256) hsA1 hdA1) fun _ =>
                .op (.waitDma2 (semAt cc0_scratch8 ch 1) SB1 ((redM.slice (Rect.unit (s := S3x96x256) fB1 S1x96x256.size iB1) (fun _ => rfl)).squeeze S96x256 squeezes_S1x96x256_S96x256) hsB1 hdB1) fun _ =>
                (.op (.waitDma2 (semAt cc0_scratch6 ch 2) SA2 ((redM.slice (Rect.unit (s := S3x96x256) fA2 S1x96x256.size iA2) (fun _ => rfl)).squeeze S96x256 squeezes_S1x96x256_S96x256) hsA2 hdA2) fun _ =>
                .op (.waitDma2 (semAt cc0_scratch8 ch 2) SB2 ((redM.slice (Rect.unit (s := S3x96x256) fB2 S1x96x256.size iB2) (fun _ => rfl)).squeeze S96x256 squeezes_S1x96x256_S96x256) hsB2 hdB2) fun _ =>
                (.op (.waitDma2 (semAt cc0_scratch6 ch 3) SA3 ((redM.slice (Rect.unit (s := S3x96x256) fA3 S1x96x256.size iA3) (fun _ => rfl)).squeeze S96x256 squeezes_S1x96x256_S96x256) hsA3 hdA3) fun _ =>
                .op (.waitDma2 (semAt cc0_scratch8 ch 3) SB3 ((redM.slice (Rect.unit (s := S3x96x256) fB3 S1x96x256.size iB3) (fun _ => rfl)).squeeze S96x256 squeezes_S1x96x256_S96x256) hsB3 hdB3) fun _ =>
                (.op (.waitDma2 (semAt cc0_scratch6 ch 4) SA4 ((redM.slice (Rect.unit (s := S3x96x256) fA4 S1x96x256.size iA4) (fun _ => rfl)).squeeze S96x256 squeezes_S1x96x256_S96x256) hsA4 hdA4) fun _ =>
                .op (.waitDma2 (semAt cc0_scratch8 ch 4) SB4 ((redM.slice (Rect.unit (s := S3x96x256) fB4 S1x96x256.size iB4) (fun _ => rfl)).squeeze S96x256 squeezes_S1x96x256_S96x256) hsB4 hdB4) fun _ =>
                (.op (.waitDma2 (semAt cc0_scratch6 ch 5) SA5 ((redM.slice (Rect.unit (s := S3x96x256) fA5 S1x96x256.size iA5) (fun _ => rfl)).squeeze S96x256 squeezes_S1x96x256_S96x256) hsA5 hdA5) fun _ =>
                .op (.waitDma2 (semAt cc0_scratch8 ch 5) SB5 ((redM.slice (Rect.unit (s := S3x96x256) fB5 S1x96x256.size iB5) (fun _ => rfl)).squeeze S96x256 squeezes_S1x96x256_S96x256) hsB5 hdB5) fun _ =>
                (.op (.waitDma2 (semAt cc0_scratch6 ch 6) SA6 ((redM.slice (Rect.unit (s := S3x96x256) fA6 S1x96x256.size iA6) (fun _ => rfl)).squeeze S96x256 squeezes_S1x96x256_S96x256) hsA6 hdA6) fun _ =>
                .op (.waitDma2 (semAt cc0_scratch8 ch 6) SB6 ((redM.slice (Rect.unit (s := S3x96x256) fB6 S1x96x256.size iB6) (fun _ => rfl)).squeeze S96x256 squeezes_S1x96x256_S96x256) hsB6 hdB6) fun _ =>
                (.op (.waitDma2 (semAt cc0_scratch6 ch 7) SA7 ((redM.slice (Rect.unit (s := S3x96x256) fA7 S1x96x256.size iA7) (fun _ => rfl)).squeeze S96x256 squeezes_S1x96x256_S96x256) hsA7 hdA7) fun _ =>
                .op (.waitDma2 (semAt cc0_scratch8 ch 7) SB7 ((redM.slice (Rect.unit (s := S3x96x256) fB7 S1x96x256.size iB7) (fun _ => rfl)).squeeze S96x256 squeezes_S1x96x256_S96x256) hsB7 hdB7) fun _ =>
                k))))))) Q := by
  unfold GP B5
  simp only [owed_none, Finset.sdiff_empty, BI.bigSep_sep', ← dmaPay_0 m, ← dmaPay_2 m]
  iintro ⟨#HR, -, ⟨T1, T2, T3, HO, Hb, H1, H3, H0, H2, HZ⟩, ⟨HB4, HL, P0, P2⟩, Hk⟩
  iapply (wait_cell m K c 0 ch 1) $$ [$HR $HO $H0 $P0]; iintro ⟨HO, H0, P0⟩
  iapply (wait_cell m K c 2 ch 1) $$ [$HR $HO $H2 $P2]; iintro ⟨HO, H2, P2⟩
  iapply (wait_cell m K c 0 ch 2) $$ [$HR $HO $H0 $P0]; iintro ⟨HO, H0, P0⟩
  iapply (wait_cell m K c 2 ch 2) $$ [$HR $HO $H2 $P2]; iintro ⟨HO, H2, P2⟩
  iapply (wait_cell m K c 0 ch 3) $$ [$HR $HO $H0 $P0]; iintro ⟨HO, H0, P0⟩
  iapply (wait_cell m K c 2 ch 3) $$ [$HR $HO $H2 $P2]; iintro ⟨HO, H2, P2⟩
  iapply (wait_cell m K c 0 ch 4) $$ [$HR $HO $H0 $P0]; iintro ⟨HO, H0, P0⟩
  iapply (wait_cell m K c 2 ch 4) $$ [$HR $HO $H2 $P2]; iintro ⟨HO, H2, P2⟩
  iapply (wait_cell m K c 0 ch 5) $$ [$HR $HO $H0 $P0]; iintro ⟨HO, H0, P0⟩
  iapply (wait_cell m K c 2 ch 5) $$ [$HR $HO $H2 $P2]; iintro ⟨HO, H2, P2⟩
  iapply (wait_cell m K c 0 ch 6) $$ [$HR $HO $H0 $P0]; iintro ⟨HO, H0, P0⟩
  iapply (wait_cell m K c 2 ch 6) $$ [$HR $HO $H2 $P2]; iintro ⟨HO, H2, P2⟩
  iapply (wait_cell m K c 0 ch 7) $$ [$HR $HO $H0 $P0]; iintro ⟨HO, H0, P0⟩
  iapply (wait_cell m K c 2 ch 7) $$ [$HR $HO $H2 $P2]; iintro ⟨HO, H2, P2⟩
  iapply Hk
  rw [← coGE_succ_dr ch]
  iframe

end Cert.Kernel.Proto

end
-- ==== Proof.Bits.BufMoves.lean ====
import proofs.«900790_g7700000000000791_dist_gated_mlp_tp_i_m768_h1536_d768_v7x_i8_bf16_1_alg».proof.Proof.Bits.Bufs
import proofs.«900790_g7700000000000791_dist_gated_mlp_tp_i_m768_h1536_d768_v7x_i8_bf16_1_alg».proof.Proof.Bits.Tiles
import proofs.«900790_g7700000000000791_dist_gated_mlp_tp_i_m768_h1536_d768_v7x_i8_bf16_1_alg».proof.Proof.Bits.Steps
import Idealize.ShloMosaic.Lib.SparseCore.Launch

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ

variable (m : (ℓ : Loc nD τ sig) → Buf (Elt F) ℓ) (c : Dev nD)

theorem lo_3 : lo 3 = Finset.univ := by decide
theorem hi_3 : hi 3 = ∅ := by decide
theorem lo_0 : lo 0 = ∅ := by decide
theorem hi_0 : hi 0 = Finset.univ := by decide
theorem coGE_3 : coGE 3 = ∅ := by decide
theorem coGE_0 : coGE 0 = allCO := by decide

-- members held at one known contents are members held at some contents each
theorem bigSep_ex {T β : Type} (s : Finset T) (Φ : T → β → sProp 𝕄) (f : β) :
    bigSep s (fun t => Φ t f) ⊢ bigSep s fun t => iprop(∃ f, Φ t f) :=
  bigSep_mono fun t _ => exists_intro (Φ := Φ t) f

theorem red_cut : iprop(∃ f, pts c redM fullShare f) ⊢ (bigSep Finset.univ fun ch : Fin 3 => iprop(∃ f, pts c (redV ch) fullShare f) : sProp 𝕄) :=
  exists_elim fun f => (red_tile c f).1.trans (bigSep_ex _ _ f)

theorem b13 : iprop((IN m c ∗ (∃ f, pts c actM fullShare f) ∗ (∃ f, pts c wdbM fullShare f) ∗ (∃ f, pts c redM fullShare f) ∗ (∃ f, pts c accM fullShare f)
      ∗ (∃ f, pts c pM fullShare f)
      ∗ (bigSep Finset.univ fun ch : Fin 3 => iprop(∃ f, pts c (slotV ch 0) fullShare f))
      ∗ (bigSep Finset.univ fun ch : Fin 3 => iprop(∃ f, pts c (outV c ch) fullShare f)))
      ∗ PeerSlots c allCO ∗ PeerOut c allCO) ⊣⊢ (B1 m c : sProp 𝕄) := by
  unfold B1
  constructor
  · iintro ⟨⟨H0, H1, H2, H3, H4, H5, H6, H7⟩, H8, H9⟩; iframe
  · iintro ⟨H0, H1, H2, H3, H4, H5, H6, H7, H8, H9⟩; iframe

theorem b34 : B3 m c 3 ⊢ (B4 m c 0 : sProp 𝕄) := by
  unfold B3 B4 PeerSlots
  rw [lo_3, hi_3, lo_0, hi_0, coGE_3, coGE_0, Finset.sdiff_self]
  simp only [bigSep_empty]
  iintro ⟨HIN, Hact, Hwdb, Hred, Hacc, Hp, E1, Hs, E2, Hout, E3, Hpo⟩
  ihave Hr := red_cut c $$ Hred
  iframe

theorem b45 : B4 m c 3 ⊢ (B5 m c 0 0 : sProp 𝕄) := by
  unfold B5
  rw [coGE_0, Finset.sdiff_self]
  simp only [bigSep_empty]
  iintro H; iframe; isplitr <;> iempintro

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem bigSep_allCO_chunks (Ψ : CO → sProp 𝕄) :
    bigSep allCO Ψ = bigSep Finset.univ fun ch : Fin 3 => bigSep (Finset.univ.erase (0 : Fin 8)) fun o => Ψ (ch, o) :=
  SparseCore.bigSep_product _ _ Ψ

theorem bigSep_allCO (Ψ : CO → sProp 𝕄) :
    bigSep allCO Ψ = bigSep (Finset.univ.erase (0 : Fin 8)) fun o => iprop(Ψ (0, o) ∗ Ψ (1, o) ∗ Ψ (2, o)) := by
  rw [bigSep_allCO_chunks, bigSep_fin3, ← bigSep_sep', ← bigSep_sep']

theorem bigSep_co (Ψ : CO → sProp 𝕄) :
    bigSep Finset.univ Ψ = iprop(bigSep allCO Ψ ∗ bigSep Finset.univ fun ch : Fin 3 => Ψ (ch, 0)) := by
  rw [bigSep_sdiff_split (Finset.subset_univ allCO), allCO_compl, bigSep_map]
  all_goals rfl

-- a family over (chunk, device): the members at the peers of c, indexed by allCO, and the members at c
theorem bigSep_cd (Ψ : Fin 3 → Dev nD → sProp 𝕄) :
    (bigSep Finset.univ fun t : Fin 3 × Dev nD => Ψ t.1 t.2)
      = iprop((bigSep allCO fun x : CO => Ψ x.1 (peer c x.2)) ∗ bigSep Finset.univ fun ch : Fin 3 => Ψ ch c) := by
  rw [bigSep_univ_equiv ((Equiv.refl (Fin 3)).prodCongr (peerEquiv' c)), bigSep_co]
  show iprop(_ ∗ bigSep Finset.univ fun ch : Fin 3 => Ψ ch (peer c 0)) = _
  rw [peer_zero]; rfl

theorem pts_cover_ex {ℓ : Loc nD τ sig} {T : Type} [Fintype T] [DecidableEq T] (K : T → Finset (Idx ℓ)) (S : Finset (Idx ℓ))
    (q : PosShare TreeShare) (f₀ : Buf (Elt F) ℓ)
    (hd : ∀ t t', t ≠ t' → Disjoint (K t) (K t')) (hc : ∀ i, i ∈ S ↔ ∃ t, i ∈ K t) :
    (bigSep Finset.univ fun t => iprop(∃ f : Buf (Elt F) ℓ, ℓ ↦[K t]{q} f) : sProp 𝕄) ⊢ iprop(∃ f : Buf (Elt F) ℓ, ℓ ↦[S]{q} f) := by
  haveI : ∀ _ : T, Nonempty (Buf (Elt F) ℓ) := fun _ => ⟨f₀⟩
  iintro H
  ihave H' := (bigSep_exists_pi (Y := fun _ : T => Buf (Elt F) ℓ) Finset.univ (fun t f => (ℓ ↦[K t]{q} f : sProp 𝕄))) $$ H
  icases H' with ⟨%fs, H⟩
  ihave H'' := (pointsTo_biUnion_join Finset.univ K fs f₀ (fun t _ t' _ h => hd t t' h)) $$ H
  icases H'' with ⟨%g, %hg, H⟩
  iexists g
  rw [show S = Finset.univ.biUnion K from by ext i; simp only [hc, Finset.mem_biUnion, Finset.mem_univ, true_and]]
  iexact H

-- all slots: those with slot index 0, and those indexed by allCO
theorem rs_cut (g : Buf (Elt F) (rsM.view.loc (c : Thread nD τ))) :
    (pts c rsM fullShare g : sProp 𝕄) ⊣⊢ iprop((bigSep Finset.univ fun ch : Fin 3 => pts c (slotV ch 0) fullShare g)
      ∗ bigSep allCO fun x : CO => pts c (slotV x.1 x.2) fullShare g) := by
  have h := rs_tile c g
  rw [bigSep_co] at h
  exact h.trans sep_comm

-- all blocks: those of the rows of c, and those of the rows of its peers, indexed by allCO
theorem out_cut (f : Buf (Elt F) (outM.view.loc (c : Thread nD τ))) :
    (((c : Thread nD τ).loc cc0_stg4_0) ↦{fullShare} f : sProp 𝕄) ⊣⊢ iprop((bigSep Finset.univ fun ch : Fin 3 => pts c (outV c ch) fullShare f)
      ∗ bigSep allCO fun x : CO => pts c (outV (peer c x.2) x.1) fullShare f) := by
  have h := out_tile c f
  rw [outM_set, (bigSep_univ_equiv (Equiv.prodComm _ _) _).trans (bigSep_cd c fun ch d => pts c (outV d ch) fullShare f)] at h
  exact h.trans sep_comm

theorem rs_split (g : Buf (Elt F) (rsM.view.loc (c : Thread nD τ))) :
    (pts c rsM fullShare g : sProp 𝕄) ⊢ iprop((bigSep Finset.univ fun ch : Fin 3 => iprop(∃ f, pts c (slotV ch 0) fullShare f))
      ∗ bigSep allCO fun x : CO => iprop(∃ f, pts c (slotV x.1 x.2) fullShare f)) :=
  (rs_cut c g).1.trans (BI.sep_mono (bigSep_ex _ _ g) (bigSep_ex _ _ g))

theorem out_split (f : Buf (Elt F) (outM.view.loc (c : Thread nD τ))) :
    (((c : Thread nD τ).loc cc0_stg4_0) ↦{fullShare} f : sProp 𝕄) ⊢ iprop((bigSep Finset.univ fun ch : Fin 3 => iprop(∃ f, pts c (outV c ch) fullShare f))
      ∗ bigSep allCO fun x : CO => iprop(∃ f, pts c (outV (peer c x.2) x.1) fullShare f)) :=
  (out_cut c f).1.trans (BI.sep_mono (bigSep_ex _ _ f) (bigSep_ex _ _ f))

-- two families over allCO, regrouped peer by peer
theorem pay_join :
    iprop((bigSep allCO fun x : CO => iprop(∃ f, pts c (slotV x.1 x.2) fullShare f))
      ∗ bigSep allCO fun x : CO => iprop(∃ f, pts c (outV (peer c x.2) x.1) fullShare f))
      ⊢ (bigSep (Finset.univ.erase (0 : Fin 8)) fun o => barPay (F := F) (peer c o) o : sProp 𝕄) := by
  rw [bigSep_allCO, bigSep_allCO, ← bigSep_sep']
  refine bigSep_mono fun o _ => ?_
  rw [barPay_self]
  refine (show _ ⊢ (_ : sProp 𝕄) from ?_)
  iintro ⟨⟨A0, A1, A2⟩, B0, B1, B2⟩; iframe

theorem b_start : iprop(IN m c ∗ scratch c ∗ (∃ X, stg c cc0_stg4_0 X) : sProp 𝕄)
    ⊢ iprop((IN m c ∗ (∃ f, pts c actM fullShare f) ∗ (∃ f, pts c wdbM fullShare f) ∗ (∃ f, pts c redM fullShare f) ∗ (∃ f, pts c accM fullShare f)
      ∗ (∃ f, pts c pM fullShare f)
      ∗ (bigSep Finset.univ fun ch : Fin 3 => iprop(∃ f, pts c (slotV ch 0) fullShare f))
      ∗ (bigSep Finset.univ fun ch : Fin 3 => iprop(∃ f, pts c (outV c ch) fullShare f)))
      ∗ bigSep (Finset.univ.erase (0 : Fin 8)) fun o => barPay (F := F) (peer c o) o) := by
  unfold scratch
  iintro ⟨HIN, ⟨Hp, ⟨%g, Hrs⟩, Hact, Hwdb, Hred, Hacc⟩, ⟨%X, %f, %hf, Hout⟩⟩
  ihave Hrs' := (rs_split c g) $$ Hrs
  icases Hrs' with ⟨Hs0, Hsx⟩
  ihave Hout' := (out_split c f) $$ Hout
  icases Hout' with ⟨Ho0, Hox⟩
  ihave Hpay := (pay_join c) $$ [$Hsx $Hox]
  iframe

theorem rs_join :
    iprop((bigSep Finset.univ fun ch : Fin 3 => pts c (slotV ch 0) fullShare (rsCan m c))
      ∗ bigSep allCO fun x : CO => pts c (slotV x.1 x.2) fullShare (rsCan m c))
      ⊢ (iprop(∃ f, pts c rsM fullShare f) : sProp 𝕄) :=
  (rs_cut c _).2.trans (exists_intro _)

theorem out_join :
    iprop((bigSep Finset.univ fun ch : Fin 3 => pts c (outV c ch) fullShare (outCan m))
      ∗ bigSep allCO fun x : CO => pts c (outV (peer c x.2) x.1) fullShare (outCan m))
      ⊢ (stg c cc0_stg4_0 (outCan m) : sProp 𝕄) := by
  iintro H
  iexists (outCan m)
  isplitr; · ipureintro; rfl
  iapply (out_cut c (outCan m)).2; iexact H

-- row blocks at known contents and row blocks at some contents together cover the buffer
theorem p_join :
    iprop((bigSep Finset.univ fun ch : Fin 3 => pts c (prowV ch c) fullShare (pCan m c))
      ∗ bigSep allCO fun x : CO => iprop(∃ f, pts c (prowV x.1 (peer c x.2)) fullShare f))
      ⊢ (iprop(∃ f, pts c pM fullShare f) : sProp 𝕄) := by
  have hB := pts_cover_ex (F := F) (ℓ := pM.view.loc (c : Thread nD τ)) (fun t : Fin 3 × Dev nD => (prowRect t.1 t.2).set)
    pM.view.set fullShare (pCan m c) prow_disj
    (fun i => ⟨fun _ => ⟨(i 0, prowBlk i), prow_cov i⟩, fun _ => by rw [pM_set]; exact Finset.mem_univ _⟩)
  simp only [← prowV_pts c] at hB
  rw [bigSep_cd c fun ch d => iprop(∃ f, pts c (prowV ch d) fullShare f)] at hB
  exact (sep_comm.1.trans (sep_mono_right (bigSep_ex _ _ (pCan m c)))).trans hB

-- per chunk the remainder share and the eight tokens make the full share
theorem red_join :
    iprop((bigSep Finset.univ fun ch : Fin 3 =>
          iprop(pts c (redV ch) (Transfers.shareDrop fullShare 8) (redCan m c) ∗ pts c (redV ch) (redShare 0) (redCan m c)))
      ∗ bigSep allCO fun x : CO => pts c (redV x.1) (redShare x.2) (redCan m c))
      ⊢ (iprop(∃ f, pts c redM fullShare f) : sProp 𝕄) := by
  rw [bigSep_allCO_chunks, ← bigSep_sep']
  refine ((bigSep_mono fun ch _ => (show _ ⊢ (_ : sProp 𝕄) from sep_assoc.1.trans ?_)).trans (red_tile c (redCan m c)).2).trans (exists_intro (Φ := fun f => pts c redM fullShare f) _)
  have h := (red_shares c ch (redCan m c)).2
  rwa [bigSep_univ_at _ (0 : Fin 8)] at h

theorem b_final : B5 m c 3 3 ⊢ iprop(IN m c ∗ scratch c ∗ stg c cc0_stg4_0 (outCan m) : sProp 𝕄) := by
  unfold B5 B4 scratch
  rw [coGE_3, lo_3, Finset.sdiff_empty, bigSep_sep' allCO]
  iintro ⟨⟨HIN, Hact, Hwdb, Hacc, Hp0, Hs0, Hsx, Hred0, -, Ho0, -, -⟩, Hox, Hpl, Hrx⟩
  ihave Hp := (p_join m c) $$ [$Hp0 $Hpl]
  ihave Hrs := (rs_join m c) $$ [$Hs0 $Hsx]
  ihave Hred := (red_join m c) $$ [$Hred0 $Hrx]
  ihave Hout := (out_join m c) $$ [$Ho0 $Hox]
  iframe
  isplitl [Hact] <;> iexists _ <;> iassumption

end Cert.Kernel.Proto

end
-- ==== Proof.Bits.BodyClose.lean ====
import proofs.«900790_g7700000000000791_dist_gated_mlp_tp_i_m768_h1536_d768_v7x_i8_bf16_1_alg».proof.Proof.Bits.BufMoves

noncomputable section

namespace Cert.Kernel.Proto

open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

theorem body_close (K : Dev nD × CIx → ℕ) (c : Dev nD) (Kt : PUnit → sProp 𝕄) :
    iprop(records m K ∗ GP₁ c ∗ B5 m c 3 3 ∗ (bodyPost m ρ c -∗ Kt ⟨⟩))
      ⊢ wp frame (wpE (defs₀ (F := F)) 𝒱₀ (c : Thread nD τ) none) Set.univ (Prog.ret ⟨⟩) Kt := by
  iintro ⟨#Hrec, HG, HB, Hk⟩
  imod (gp_close m ρ K c) $$ [$Hrec $HG] with ⟨Hsem, Hown⟩
  ihave HB' := (b_final m c) $$ HB
  unfold IN
  icases HB' with ⟨⟨H0, H1, H2, H3⟩, Hscr, Hout⟩
  rw [wp_ret]
  imodintro
  iapply Hk
  unfold bodyPost Φ₁
  iframe

end Cert.Kernel.Proto

end
-- ==== Proof.Bits.Glue.lean ====
import proofs.«900790_g7700000000000791_dist_gated_mlp_tp_i_m768_h1536_d768_v7x_i8_bf16_1_alg».proof.Proof.Bits.BufMoves
import proofs.«900790_g7700000000000791_dist_gated_mlp_tp_i_m768_h1536_d768_v7x_i8_bf16_1_alg».proof.Proof.Bits.Chunks

noncomputable section

namespace Cert.Kernel.Proto

open Cert.Kernel Cert.Kernel.Gen
open Idealize.ShloMosaic Idealize.ShloMosaic.TcCoe
open Idealize.SL Idealize.SL.BI Idealize.SL.BI.BIBase Idealize.SL.Sem
open scoped Idealize.SL.BI

variable {F : FTy → Type} [FloatOps F]

local notation "𝕄" => MT nD τ sig Unit (Elt F) ℕ UU ℕ

variable (m : (ℓ : Loc nD τ sig) → Buf (Elt F) ℓ)

theorem coGE_last : coGE ((2 : Fin 3).val + 1) = ∅ := coGE_three
theorem coGE_first : coGE (0 : Fin 3).val = allCO := coGE_zero

theorem gp_entry_scatter (c : Dev nD) :
    GP c ∅ true allCO allCO allCO allCO allCO allCO = (GP c ∅ true (coGE (0 : Fin 3).val) allCO allCO allCO allCO allCO : sProp 𝕄) := by
  rw [coGE_first]

theorem gp_scatter_reduce (c : Dev nD) :
    GP c ∅ true (coGE ((2 : Fin 3).val + 1)) allCO allCO allCO allCO allCO
      = (GP c ∅ true ∅ (coGE (0 : Fin 3).val) (coGE (0 : Fin 3).val) allCO allCO allCO : sProp 𝕄) := by
  rw [coGE_last, coGE_first]

theorem gp_reduce_agw (c : Dev nD) :
    GP c ∅ true ∅ (coGE ((2 : Fin 3).val + 1)) (coGE ((2 : Fin 3).val + 1)) allCO allCO allCO
      = (GP c ∅ true ∅ ∅ ∅ (coGE (0 : Fin 3).val) allCO allCO : sProp 𝕄) := by
  rw [coGE_last, coGE_first]

theorem gp_agw_sendw (c : Dev nD) :
    GP c ∅ true ∅ ∅ ∅ (coGE ((2 : Fin 3).val + 1)) allCO allCO
      = (GP c ∅ true ∅ ∅ ∅ ∅ (coGE (0 : Fin 3).val) (coGE (0 : Fin 3).val) : sProp 𝕄) := by
  rw [coGE_last, coGE_first]

theorem gp_sendw_end (c : Dev nD) :
    GP c ∅ true ∅ ∅ ∅ ∅ (coGE ((2 : Fin 3).val + 1)) (coGE ((2 : Fin 3).val + 1)) = (GP₁ c : sProp 𝕄) := by
  rw [coGE_last]

theorem b_scatter_reduce (c : Dev nD) : B3 m c ((2 : Fin 3).val + 1) ⊢ (B4 m c (0 : Fin 3).val : sProp 𝕄) := b34 m c

theorem b_reduce_agw (c : Dev nD) : B4 m c ((2 : Fin 3).val + 1) ⊢ (B5 m c (0 : Fin 3).val 0 : sProp 𝕄) := b45 m c

theorem b_agw_sendw (c : Dev nD) : B5 m c ((2 : Fin 3).val + 1) 0 ⊢ (B5 m c 3 (0 : Fin 3).val : sProp 𝕄) := BI.Entails.refl _

theorem b_sendw_end (c : Dev nD) : B5 m c 3 ((2 : Fin 3).val + 1) ⊢ (B5 m c 3 3 : sProp 𝕄) := BI.Entails.refl _

end Cert.Kernel.Proto

end
-- ==== Proof.Bits.Body.lean ====
import proofs.«900790_g7700000000000791_dist_gated_mlp_tp_i_m768_h1536_d768_v7x_i8_bf16_1_alg».proof.Proof.Bits.PhaseCompute
import proofs.«900790_g7700000000000791_dist_gated_mlp_tp_i_m768_h1536_d768_v7x_i8_bf16_1_alg».proof.Proof.Bits.PhaseScatter
import proofs.«900790_g7700000000000791_dist_gated_mlp_tp_i_m768_h1536_d768_v7x_i8_bf16_1_alg».proof.Proof.Bits.PhaseReduce
import proofs.«900790_g7700000000000791_dist_gated_mlp_tp_i_m768_h1536_d768_v7x_i8_bf16_1_alg».proof.Proof.Bits.PhaseWaits
import proofs.«900790_g7700000000000791_dist_gated_mlp_tp_i_m768_h1536_d768_v7x_i8_bf16_1_alg».proof.Proof.Bits.BodyClose
import proofs.«900790_g7700000000000791_dist_gated_mlp_tp_i_m768_h1536_d768_v7x_i8_bf16_1_alg».proof.Proof.Bits.Glue

noncomputable section

namespace Cert.Kernel.Proto

open Cert.Kernel Cert.Kernel.Gen
open Idealize.ShloMosaic
open Idealize.ShloMosaic.TcCoe
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
theorem sound_body (K : Dev nD × CIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (bodyCall (F := F)) Kt := by
  unfold bodyCall
  rw [cc0_body_eq_skeleton]; unfold cc0_body_skel k0_part61
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel
  simp only [semSignalWord, semWaitWord, Prog.lift, Prog.bind_op, Prog.bind_ret, Prog.pure_eq_ret, wp_deviceId]
  unfold bodyPre ghost
  iintro ⟨⟨⟨⟨#Hrec, Hpos, Htok⟩, Hcr, #Hlev, Hscr⟩, Ho, Hx, Hg, Hu, Hd, Hout⟩, Hk⟩
  ihave HGP := (gp_intro m ρ c) $$ [$Hpos $Htok $Hcr $Ho]
  ihave HB := (b_start m c) $$ [Hx Hg Hu Hd Hscr Hout]
  · unfold IN; iframe
  icases HB with ⟨Hkeep, Hgive⟩
  iapply (phase_entry m K c _ _ _ _ _ _ _ (dev1_eq c) (dev2_eq c) (dev3_eq c) (dev4_eq c) (dev5_eq c) (dev6_eq c) (dev7_eq c) _)
  iframe Hrec Hlev HGP Hgive
  iintro ⟨HGP, HPS, HPO⟩
  ihave HB1 := (b13 m c).1 $$ [$Hkeep $HPS $HPO]
  iapply (phase_compute (F := F) m c _)
  iframe HB1
  iintro HB3
  ihave HGP := (Entails.of_eq (gp_entry_scatter c)) $$ HGP
  iapply (phase_scatter (F := F) m K c 0 (dev8_eq c) (dev9_eq c) (dev10_eq c) (dev11_eq c) (dev12_eq c) (dev13_eq c) (dev14_eq c)
      (k0_off1_eq c) (off2_eq c 6) (off2_eq c 2) (off2_eq c 4) (off2_eq c 5) (off2_eq c 0) (off2_eq c 1) (off2_eq c 3)) $$ [$Hrec $Hlev HGP HB3]
  · isplitl [HGP]; · iexact HGP
    iexact HB3
  iintro ⟨HGP, HB3⟩
  iapply (phase_scatter (F := F) m K c 1 (dev15_eq c) (dev16_eq c) (dev17_eq c) (dev18_eq c) (dev19_eq c) (dev20_eq c) (dev21_eq c)
      (k0_off3_eq c) (off4_eq c 6) (off4_eq c 2) (off4_eq c 4) (off4_eq c 5) (off4_eq c 0) (off4_eq c 1) (off4_eq c 3)) $$ [$Hrec $Hlev HGP HB3]
  · isplitl [HGP]; · iexact HGP
    iexact HB3
  iintro ⟨HGP, HB3⟩
  iapply (phase_scatter (F := F) m K c 2 (dev22_eq c) (dev23_eq c) (dev24_eq c) (dev25_eq c) (dev26_eq c) (dev27_eq c) (dev28_eq c)
      (k0_off5_eq c) (off6_eq c 6) (off6_eq c 2) (off6_eq c 4) (off6_eq c 5) (off6_eq c 0) (off6_eq c 1) (off6_eq c 3)) $$ [$Hrec $Hlev HGP HB3]
  · isplitl [HGP]; · iexact HGP
    iexact HB3
  iintro ⟨HGP, HB3⟩
  ihave HGP := (Entails.of_eq (gp_scatter_reduce c)) $$ HGP
  ihave HB4 := (b_scatter_reduce m c) $$ HB3
  iapply (phase_reduce (F := F) m K c 0 _ _ _ _ _ _ _ (dev29_eq c) (dev30_eq c) (dev31_eq c) (dev32_eq c) (dev33_eq c) (dev34_eq c) (dev35_eq c)
      _ _ (k0_off7_eq c) (k0_off8_eq c)) $$ [$Hrec $Hlev HGP HB4]
  · isplitl [HGP]; · iexact HGP
    iexact HB4
  iintro ⟨HGP, HB4⟩
  iapply (phase_reduce (F := F) m K c 1 _ _ _ _ _ _ _ (dev36_eq c) (dev37_eq c) (dev38_eq c) (dev39_eq c) (dev40_eq c) (dev41_eq c) (dev42_eq c)
      _ _ (k0_off9_eq c) (k0_off10_eq c)) $$ [$Hrec $Hlev HGP HB4]
  · isplitl [HGP]; · iexact HGP
    iexact HB4
  iintro ⟨HGP, HB4⟩
  iapply (phase_reduce (F := F) m K c 2 _ _ _ _ _ _ _ (dev43_eq c) (dev44_eq c) (dev45_eq c) (dev46_eq c) (dev47_eq c) (dev48_eq c) (dev49_eq c)
      _ _ (k0_off11_eq c) (k0_off12_eq c)) $$ [$Hrec $Hlev HGP HB4]
  · isplitl [HGP]; · iexact HGP
    iexact HB4
  iintro ⟨HGP, HB4⟩
  ihave HGP := (Entails.of_eq (gp_reduce_agw c)) $$ HGP
  ihave HB5 := (b_reduce_agw m c) $$ HB4
  iapply (phase_ag_waits (F := F) m K c 0 _)
  iframe Hrec Hlev
  isplitl [HGP]; · iexact HGP
  isplitl [HB5]; · iexact HB5
  iintro ⟨HGP, HB5⟩
  iapply (phase_ag_waits (F := F) m K c 1 _)
  iframe Hrec Hlev
  isplitl [HGP]; · iexact HGP
  isplitl [HB5]; · iexact HB5
  iintro ⟨HGP, HB5⟩
  iapply (phase_ag_waits (F := F) m K c 2 _)
  iframe Hrec Hlev
  isplitl [HGP]; · iexact HGP
  isplitl [HB5]; · iexact HB5
  iintro ⟨HGP, HB5⟩
  ihave HGP := (Entails.of_eq (gp_agw_sendw c)) $$ HGP
  ihave HB5 := (b_agw_sendw m c) $$ HB5
  iapply (phase_send_waits (F := F) m K c 0 _)
  iframe Hrec Hlev
  isplitl [HGP]; · iexact HGP
  isplitl [HB5]; · iexact HB5
  iintro ⟨HGP, HB5⟩
  iapply (phase_send_waits (F := F) m K c 1 _)
  iframe Hrec Hlev
  isplitl [HGP]; · iexact HGP
  isplitl [HB5]; · iexact HB5
  iintro ⟨HGP, HB5⟩
  iapply (phase_send_waits (F := F) m K c 2 _)
  iframe Hrec Hlev
  isplitl [HGP]; · iexact HGP
  isplitl [HB5]; · iexact HB5
  iintro ⟨HGP, HB5⟩
  ihave HGP := (Entails.of_eq (gp_sendw_end c)) $$ HGP
  ihave HB5 := (b_sendw_end m c) $$ HB5
  iapply (body_close (F := F) m ρ K c Kt)
  iframe Hrec HGP HB5 Hk

end Cert.Kernel.Proto

end
-- ==== Proof.Bits.LaunchCredit.lean ====
import proofs.«900790_g7700000000000791_dist_gated_mlp_tp_i_m768_h1536_d768_v7x_i8_bf16_1_alg».proof.Proof.Bits.Levels

noncomputable section

namespace Cert.Kernel.Proto

open Idealize.ShloMosaic
open Idealize.SL Idealize.SL.BI
open Idealize.SL.BI.BIBase Idealize.SL.BI.Laws

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sum_units (g : GSem nD τ sig) :
    (∑ _o ∈ Finset.univ.erase (0 : Fin 8), (tallyAt g () 1 : CellTallies nD τ sig Unit)) = tallyAt g () 7 := by
  funext g'; refine Finsupp.ext fun u => ?_
  rw [Finset.sum_apply, Finsupp.finsetSum_apply]
  simp only [tallyAt_apply]
  rw [Finset.sum_const, show (Finset.univ.erase (0 : Fin 8)).card = 7 from by decide]
  split <;> rfl

omit [FloatOps F] in
-- exchanging across a fixed bit pattern is an involution, so the dues to the peers' cells sum to credit on a device's own cells
theorem launch_creds (c : Dev nD) : (Pipeline.launchCred O₀ c : sProp 𝕄) ⊢ creds c := by
  have hB (k : Fin 4) : (bigSep allCO fun x : CO => (Pipeline.launchCred (fun d => tallyAt (dcell (peer d x.2) k x.1 x.2) () N) c : sProp 𝕄))
      ⊢ bigSep allCO fun x : CO => cred (tallyAt (dcell c k x.1 x.2) () N) :=
    bigSep_mono fun x _ =>
      Pipeline.launchCred_tallyAt (dsem k x.1 x.2) (fun d => peer d x.2) (fun d => peer d x.2) (fun d => peer_peer d x.2) (fun d => peer_peer d x.2) () N c
  unfold O₀ owedFrom creds
  rw [Pipeline.launchCred_add, Pipeline.launchCred_add, Pipeline.launchCred_sum, Pipeline.launchCred_sum, Pipeline.launchCred_sum,
    bigSep_sep', ← sum_units, Pipeline.cred_finsetSum]
  exact sep_assoc.1.trans (BI.sep_mono (bigSep_mono fun o _ =>
    Pipeline.launchCred_tallyAt (.reg barS) (fun d => peer d o) (fun d => peer d o) (fun d => peer_peer d o) (fun d => peer_peer d o) () 1 c)
    (BI.sep_mono (hB 1) (hB 3)))

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) _ _ _
    · show _ ⊢ MayWait _ _ _ 0
      rw [MayWait_zero]; iintro -; iempintro

end Cert.Kernel.Proto

end
-- ==== Proof.Bits.FinalOut.lean ====
import proofs.«900790_g7700000000000791_dist_gated_mlp_tp_i_m768_h1536_d768_v7x_i8_bf16_1_alg».proof.Proof.Bits.Proto
import proofs.«900790_g7700000000000791_dist_gated_mlp_tp_i_m768_h1536_d768_v7x_i8_bf16_1_alg».proof.Proof.Gen.Kernel.Points

noncomputable section

namespace Cert.Kernel.Proto

open Cert.Kernel Cert.Kernel.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

theorem arrAt_out (c : Dev nD) :
    (dats m ρ 0 c).arrAt (4 : Fin cfg0.W) cfg0.N
      = (outCan m : Buf (Elt F) ((cfg0.win (4 : Fin cfg0.W)).arr.view.loc (c : Thread nD τ))) := by
  show (dats m ρ 0 c).arrAt (4 : Fin cfg0.W) ((t0 : Fin cfg0.N).val + 1) = _
  rw [Dat.arrAt_succ, if_pos (flush0_4 _)]
  exact Memref.write_access_unit_zero_univ (Elt F) main_v1 (funext fun a => Nat.zero_mul _) _ _ _

end Cert.Kernel.Proto

end
-- ==== Proof.Bits.Storable.lean ====
import proofs.«900790_g7700000000000791_dist_gated_mlp_tp_i_m768_h1536_d768_v7x_i8_bf16_1_alg».proof.Proof.Bits.Proto

noncomputable section

namespace Cert.Kernel.Proto

open Idealize.ShloMosaic
open Idealize.SL Idealize.SL.RA

variable {F : FTy → Type} [FloatOps F]

local notation "𝕄" => MT nD τ sig Unit (Elt F) ℕ UU ℕ

variable (m : (ℓ : Loc nD τ sig) → Buf (Elt F) ℓ)

omit [FloatOps F] in
theorem ex_pts_storable {sp : Space} {s : Shape} {e : EltTy} (c : Dev nD) (v : Memref sig .tc sp s e) (q : PosShare TreeShare) :
    BI.Storable (upEmb : UEmb _ 𝕄) iprop(∃ f, pts c v q f) := inferInstance

-- each payload is a conjunction of points-to assertions, possibly under an existential, or empty
instance Rd_payload_storable (g : GSem nD τ sig) (r : ℕ) (d : Fin 8) :
    BI.Storable (upEmb : UEmb _ 𝕄) ((Rd (F := F) m).payload g r d) := by
  have := @ex_pts_storable F
  dsimp only [Rd]
  unfold barPay dmaPay
  repeat' split
  all_goals infer_instance

end Cert.Kernel.Proto

end
-- ==== Proof.Bits.Launch.lean ====
import proofs.«900790_g7700000000000791_dist_gated_mlp_tp_i_m768_h1536_d768_v7x_i8_bf16_1_alg».proof.Proof.Bits.Body
import proofs.«900790_g7700000000000791_dist_gated_mlp_tp_i_m768_h1536_d768_v7x_i8_bf16_1_alg».proof.Proof.Bits.LaunchCredit
import proofs.«900790_g7700000000000791_dist_gated_mlp_tp_i_m768_h1536_d768_v7x_i8_bf16_1_alg».proof.Proof.Bits.FinalOut
import proofs.«900790_g7700000000000791_dist_gated_mlp_tp_i_m768_h1536_d768_v7x_i8_bf16_1_alg».proof.Proof.Bits.Storable

noncomputable section

namespace Cert.Kernel.Proto

open Cert.Kernel.Gen
open Idealize.ShloMosaic
open Idealize.ShloMosaic.TcCoe
open Idealize.SL Idealize.SL.RA Idealize.SL.BI
open Idealize.SL.BI.BIBase Idealize.SL.BI.Laws Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_0 (c : Dev nD) (d) : (dats m ρ 0 c).before (0 : Fin 5) t₀ d = xv m c := by
  unfold Dat.before; rw [if_pos (fetch0_0 t₀)]; rfl
theorem before_1 (c : Dev nD) (d) : (dats m ρ 0 c).before (1 : Fin 5) t₀ d = wgv m c := by
  unfold Dat.before; rw [if_pos (fetch0_1 t₀)]; rfl
theorem before_2 (c : Dev nD) (d) : (dats m ρ 0 c).before (2 : Fin 5) t₀ d = wuv m c := by
  unfold Dat.before; rw [if_pos (fetch0_2 t₀)]; rfl
theorem before_3 (c : Dev nD) (d) : (dats m ρ 0 c).before (3 : Fin 5) t₀ d = wdv m c := by
  unfold Dat.before; rw [if_pos (fetch0_3 t₀)]; rfl

theorem body_obligation (c : Dev nD) : BodyObligation (dats (F := F) m ρ 0 c) (defs₀ (F := F)) 𝒱₀ () Set.univ := fun t => by
  rw [fin_N t, bigSep_W0, bigSep_W0]
  simp only [owns_whole_eq]
  show iprop(Φ₀ m c ∗ _) ⊢ wp frame (wpE (defs₀ (F := F)) 𝒱₀ c none) Set.univ (bodyCall (F := F)) (fun _ => bodyPost m ρ c)
  unfold Φ₀ start
  iintro ⟨⟨⟨⟨%K, Hg⟩, Hcr, Hlev⟩, Hscr⟩, Ho, ⟨%d0, Hx⟩, ⟨%d1, Hwg⟩, ⟨%d2, Hwu⟩, ⟨%d3, Hwd⟩, ⟨%d4, Hout⟩⟩
  rw [before_0, before_1, before_2, before_3]
  iapply (sound_body m ρ K c fun _ => bodyPost m ρ c)
  unfold bodyPre
  iframe Hg Hcr Hlev Hscr Ho Hx Hwg Hwu Hwd
  isplitl
  · iexists _; iexact Hout
  · iintro H; iexact H

abbrev osem : Fin 4 × Fin 3 × Fin 8 → SemLoc sig := fun x => dsem x.1 x.2.1 x.2.2

-- the transfer semaphores are numbered from 5 on: by array, then chunk, then peer
theorem osem_val {x : Fin 4 × Fin 3 × Fin 8} {q : DmaSem sig} (h : osem x = .dma q) :
    q.val = 5 + 24 * x.1.val + 8 * x.2.1.val + x.2.2.val :=
  (congrArg (fun q : DmaSem sig => q.val) (SemLoc.dma.inj h)).symm.trans (semAt_val _ _ _)

theorem osem_injective : Function.Injective osem := by
  rintro ⟨k, ch, o⟩ ⟨k', ch', o'⟩ h
  have := (osem_val h).symm.trans (semAt_val k' ch' o')
  simp only [Prod.mk.injEq, Fin.ext_iff] at this ⊢; omega

theorem stage_val_lt : ∀ (w : Fin cfg0.W) (s : Fin (cfg0.spec w).nbuf), ((cfg0.spec w).sem s).val < 5 := by decide
theorem ownSemFacts : Pipeline.OwnSemFacts cfg0.spec osem :=
  ⟨by decide, osem_injective, fun x w s h => by have := osem_val h; have := stage_val_lt w s; omega⟩

theorem kcell_injective : Function.Injective (kcell : Dev nD × CIx → GSem nD τ sig) := by
  rintro ⟨c, _ | ⟨k, ch, o⟩⟩ ⟨c', _ | ⟨k', ch', o'⟩⟩ h <;>
    obtain rfl : c = c' := congrArg (fun g : GSem nD τ sig => g.1.1) h
  · rfl
  · cases congrArg Prod.snd h
  · cases congrArg Prod.snd h
  · rw [osem_injective (a₁ := (k, ch, o)) (a₂ := (k', ch', o')) (congrArg Prod.snd h)]
def ringCells : Finset (GSem nD τ sig) := Finset.univ.map ⟨kcell, kcell_injective⟩

abbrev tokOf (x : Dev nD × CIx × Fin 8) : GSem nD τ sig × ℕ × Fin 8 := (kcell (x.1, x.2.1), 0, x.2.2)
theorem tokOf_injective : Function.Injective (tokOf : Dev nD × CIx × Fin 8 → GSem nD τ sig × ℕ × Fin 8) := by
  rintro ⟨c, i, d⟩ ⟨c', i', d'⟩ h
  cases kcell_injective (congrArg (fun x : GSem nD τ sig × ℕ × Fin 8 => x.1) h)
  cases (congrArg (fun x : GSem nD τ sig × ℕ × Fin 8 => x.2.2) h : d = d')
  rfl
def ringToks : Finset (GSem nD τ sig × ℕ × Fin 8) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  bigSep Finset.univ fun i : CIx => bigSep Finset.univ fun d : Fin 8 => dutyTok ER (kcell (c, i)) 0 d

def G (c : Dev nD) : sProp 𝕄 :=
  iprop((bigSep Finset.univ fun i : CIx => roundState ER (Rd m) (kcell (c, i)) 0)
    ∗ (bigSep Finset.univ fun i : CIx => iprop(atPos ER (kcell (c, i)) 0 ∅ 0 ∗ reached ER (kcell (c, i)) 0)) ∗ toks c)

def G' (c : Dev nD) : sProp 𝕄 := iprop(∃ K, ghost m K c)

omit [FloatOps F] in
theorem bigSep_cix (Φ : CIx → sProp 𝕄) :
    bigSep Finset.univ Φ = iprop(Φ none ∗ bigSep Finset.univ fun x : Fin 4 × Fin 3 × Fin 8 => Φ (some x)) := by
  rw [bigSep_univ_equiv (Equiv.optionEquivSumPUnit.{0, 0} (Fin 4 × Fin 3 × Fin 8)).symm Φ, bigSep_univ_sum,
    bigSep_univ_of_subsingleton PUnit.unit]
  exact BI.Entails.antisymm (show _ ⊢ (_ : sProp 𝕄) from sep_comm.1) (show _ ⊢ (_ : sProp 𝕄) from sep_comm.1)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [BI.bigSep_empty]; exact (BI.bigSep_emp_const t).symm
  | insert a s ha ih => simp only [bigSep_insert ha, ih]; exact (bigSep_sep t _ _).symm

omit [FloatOps F] in
-- exchanging across a fixed bit pattern permutes the devices, so a family over (device, index) may be read at the peers
theorem bigSep_deal {J : Type} (S : Finset J) (π : J → Fin 8) (Φ : Dev nD → J → sProp 𝕄) :
    (bigSep Finset.univ fun c : Dev nD => bigSep S fun j => Φ c j) = bigSep Finset.univ fun c : Dev nD => bigSep S fun j => Φ (peer c (π j)) j :=
  (bigSep_swap Finset.univ S Φ).trans ((bigSep_congr fun j _ => bigSep_univ_equiv (peerEquiv (π j)) (fun c => Φ c j)).trans
    (bigSep_swap Finset.univ S fun c j => Φ (peer c (π j)) j).symm)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  refine (Rounds.fund ER (Rd m) ringCells ringToks).trans (BI.bupd_mono ?_)
  rw [hX, hX, hX, hT]
  unfold G; simp only [bigSep_sep']
  show _ ⊢ (_ : sProp 𝕄)
  iintro ⟨Hst, Hr, Hat, Htok⟩; iframe

def ownToks (c : Dev nD) : sProp 𝕄 :=
  iprop((bigSep (Finset.univ.erase (0 : Fin 8)) fun o => dutyTok ER (barCell c) 0 o)
    ∗ (bigSep allCO fun x : CO => dutyTok ER (dcell c 0 x.1 x.2) 0 0) ∗ (bigSep allCO fun x : CO => dutyTok ER (dcell c 1 x.1 x.2) 0 0)
    ∗ (bigSep allCO fun x : CO => dutyTok ER (dcell c 2 x.1 x.2) 0 0) ∗ (bigSep allCO fun x : CO => dutyTok ER (dcell c 3 x.1 x.2) 0 0))

omit [FloatOps F] in
-- of a device's tokens only those with a payer are kept: the entry cell's seven, and one per transfer kind, chunk and peer
theorem toks_own (c : Dev nD) : (toks c : sProp 𝕄) ⊢ ownToks c := by
  unfold toks ownToks
  rw [bigSep_cix]
  refine BI.sep_mono ?_ ?_
  · exact bigSep_subset (Finset.erase_subset _ _)
  · refine (bigSep_mono (Ψ := fun x : Fin 4 × Fin 3 × Fin 8 => (dutyTok ER (dcell c x.1 x.2.1 x.2.2) 0 0 : sProp 𝕄))
      fun x _ => bigSep_elim (Finset.mem_univ (0 : Fin 8))).trans ?_
    rw [bigSep_univ_prod (fun x : Fin 4 × Fin 3 × Fin 8 => (dutyTok ER (dcell c x.1 x.2.1 x.2.2) 0 0 : sProp 𝕄)), bigSep_four]
    have hk (k : Fin 4) : (bigSep Finset.univ fun y : Fin 3 × Fin 8 => (dutyTok ER (dcell c k y.1 y.2) 0 0 : sProp 𝕄))
        ⊢ bigSep allCO fun x : CO => dutyTok ER (dcell c k x.1 x.2) 0 0 := bigSep_subset (Finset.subset_univ _)
    exact BI.sep_mono (hk 0) (BI.sep_mono (hk 1) (BI.sep_mono (hk 2) (hk 3)))

omit [FloatOps F] in
-- the entry cell's token `o` and the receive cells' tokens of `(ch, o)` go to the peer across `o`; the send cells' tokens stay
theorem toks_around : (bigSep Finset.univ fun c : Dev nD => (toks c : sProp 𝕄)) ⊢ bigSep Finset.univ fun c : Dev nD => payToks c := by
  refine (bigSep_mono fun c _ => toks_own c).trans ?_
  unfold ownToks payToks
  simp only [bigSep_sep']
  rw [bigSep_deal (Finset.univ.erase (0 : Fin 8)) id (fun (c : Dev nD) (o : Fin 8) => (dutyTok ER (barCell c) 0 o : sProp 𝕄)),
    bigSep_deal allCO (fun x : CO => x.2) (fun (c : Dev nD) (x : CO) => (dutyTok ER (dcell c 1 x.1 x.2) 0 0 : sProp 𝕄)),
    bigSep_deal allCO (fun x : CO => x.2) (fun (c : Dev nD) (x : CO) => (dutyTok ER (dcell c 3 x.1 x.2) 0 0 : sProp 𝕄))]
  exact BI.Entails.refl _

-- per device: its semaphores at zero and its round states become the cells' invariants
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (Rd m) κ (kcell (c, i))))
          ∗ (bigSep Finset.univ fun i : CIx => iprop(atPos ER (kcell (c, i)) 0 ∅ 0 ∗ reached ER (kcell (c, i)) 0)) ∗ toks c) := by
  have hv : (unscopedSems0 c : sProp 𝕄) = semVal (barCell c) 0 := by
    unfold unscopedSems0; rw [bigSep_eq_bigSepL_of_eq [SemLoc.reg barS] (by decide) (by decide)]; rfl
  have hs : iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
    rw [hv, bigSep_cix]; exact sep_comm.1
  have hi : iprop((bigSep Finset.univ fun i : CIx => semVal (kcell (c, i)) 0) ∗ bigSep Finset.univ fun i : CIx => roundState ER (Rd m) (kcell (c, i)) 0)
      ⊢ (|={Set.univ}=> bigSep Finset.univ fun i : CIx => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  unfold G
  iintro ⟨Hos, Hus, Hst, Hat, Htok⟩
  imod ((sep_mono_left hs).trans hi) $$ [$Hos $Hus $Hst] with Hinv
  imodintro; iframe

-- all devices at once: the invariants' names gathered into one table, and the tokens dealt to their payers
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine ((bigSep_mono fun c _ => core_alloc m c).trans (bigSep_fupd _ _)).trans (BI.fupd_mono (show _ ⊢ (bigSep Finset.univ (G' m) : sProp 𝕄) from ?_))
  simp only [bigSep_sep']
  rw [← bigSep_univ_prod (fun ci : Dev nD × CIx => iprop(∃ κ : ℕ, cellInv ER (Rd m) κ (kcell ci))),
    ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (Rd m) κ (kcell ci) : sProp 𝕄))) $$ HI
  icases HK with ⟨%K, #HI⟩
  ihave Htk := (toks_around (F := F)) $$ Htok
  iapply (bigSep_with_persistent (R := records m K) (Φ := fun c => iprop(positions c ∗ payToks c))
    fun c _ => by unfold G' ghost; iintro H; iexists K; iexact H)
  isplitr
  · unfold records; iframe HI HR
  · iapply (Entails.of_eq (bigSep_sep' Finset.univ (fun c : Dev nD => (positions c : sProp 𝕄)) payToks).symm)
    isplitl [Hat]; · iexact Hat
    iexact Htk

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  iframe HG Hc Hlev

omit [FloatOps F] in
theorem scratch_eq (c : Dev nD) : (scratch c : sProp 𝕄) = Pipeline.scopedRest cfg0.spec c := by
  rw [scopedRest0_eq]; unfold scratch; simp only [pts, pM, rsM, actM, wdbM, redM, accM, Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩; iframe

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, ← scratch_eq]
  unfold Φ₁ Pipeline.ownSems0
  iintro ⟨Hr, Hz⟩
  isplitr; · iempintro
  iframe

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

-- every weakly fair run of the eight devices terminates with each device's arrays at the computed contents
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      refine (ownU_pair _ _).trans ?_
      iintro ⟨HP, HX⟩
      imod (fund_ring m) $$ HX with HG
      imodintro; iframe)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_arg (c : Dev nD) (w : Fin cfg0.W) (hw : w.val < 4) : finalA m ρ c w = (s₀ m ρ).mem ((cfg0.win w).arr.view.loc (c : Thread nD τ)) :=
  (dats (F := F) m ρ 0 c).arrAt_in w (by revert w; decide) _

theorem finalA_out (c : Dev nD) : finalA m ρ c (4 : Fin cfg0.W) = (outCan m : Buf (Elt F) ((cfg0.win (4 : Fin cfg0.W)).arr.view.loc (c : Thread nD τ))) :=
  arrAt_out m ρ c

end Cert.Kernel.Proto

end
-- ==== Proof.Spec.lean ====
import Idealize.ShloMosaic.Lib.IdealHost

noncomputable section

namespace Cert.Proof.Spec

open Idealize.ShloMosaic Idealize.ShloMosaic.ValueIdx

abbrev Arr (a b : Nat) : Type := (⟨2, ![a, b]⟩ : Shape).Idx → EReal

def silu (u : EReal) : EReal := Ideal.div u (1 + Ideal.exp (-u))

def proj {N : Nat} (x : Arr 768 768) (w : Arr 768 N) (i : Fin 768) (k : Fin N) : EReal :=
  ∑ j : Fin 768, x (ix2 i j) * w (ix2 j k)

def hidden {N : Nat} (x : Arr 768 768) (wg wu : Arr 768 N) (i : Fin 768) (k : Fin N) : EReal :=
  proj x wg i k * silu (proj x wu i k)

def G (x : Arr 768 768) (wg wu : Arr 768 12288) (wd : Arr 12288 768) : Arr 768 768 :=
  fun j => ∑ k : Fin 12288, hidden x wg wu (j 0) k * wd (ix2 k (j 1))

theorem G_apply (x : Arr 768 768) (wg wu : Arr 768 12288) (wd : Arr 12288 768) (i j : Fin 768) :
    G x wg wu wd (ix2 i j) = ∑ k : Fin 12288, hidden x wg wu i k * wd (ix2 k j) := rfl

theorem ofBits_one_f32 : Ideal.ofBits .f32 0x3F800000#32 = 1 := Ideal.ofBits_one_f32

-- 1 + e^(-u) is never zero, so both quotients are products with its inverse, and u * (1 * y⁻¹) = u * y⁻¹.
theorem mul_logistic (u : EReal) : u * Ideal.logistic u = silu u := by
  have hy : (1 : EReal) + Ideal.exp (-u) ≠ 0 := by
    refine (add_pos_of_pos_of_nonneg one_pos ?_).ne'
    induction u using EReal.rec with
    | bot => exact le_top
    | coe r => exact EReal.coe_nonneg.mpr (Real.exp_pos _).le
    | top => exact le_rfl
  unfold silu Ideal.logistic Ideal.div
  rw [if_neg hy, if_neg hy, one_mul]

-- Fin (m * n) is Fin m × Fin n, the pair (d, k') at n * d + k'.
theorem sum_blocks {M : Type*} [AddCommMonoid M] (m n N : Nat) (h : m * n = N) (f : Fin N → M) :
    ∑ k : Fin N, f k
      = ∑ d : Fin m, ∑ k' : Fin n, f ⟨n * d.val + k'.val, by
          have := d.isLt; have := k'.isLt
          calc n * d.val + k'.val < n * d.val + n := by omega
            _ = n * (d.val + 1) := by ring
            _ ≤ n * m := Nat.mul_le_mul_left n (by omega)
            _ = N := by rw [Nat.mul_comm]; exact h⟩ := by
  subst h
  rw [← Equiv.sum_comp finProdFinEquiv, Fintype.sum_prod_type]
  exact Finset.sum_congr rfl fun d _ => Finset.sum_congr rfl fun k' _ => congrArg f (Fin.ext (Nat.add_comm _ _))

-- A sum over Fin 8 may be taken along any bijection, in any order.
theorem sum_eight_order {M : Type*} [AddCommMonoid M] (e : Fin 8 ≃ Fin 8) (f : Fin 8 → M) :
    f (e 0) + f (e 1) + f (e 2) + f (e 4) + f (e 3) + f (e 5) + f (e 6) + f (e 7) = ∑ d : Fin 8, f d := by
  rw [← Equiv.sum_comp e, Fin.sum_univ_eight]
  abel

end Cert.Proof.Spec

end
-- ==== Proof.RefSide.lean ====
import proofs.«900790_g7700000000000791_dist_gated_mlp_tp_i_m768_h1536_d768_v7x_i8_bf16_1_alg».proof.Defs
import proofs.«900790_g7700000000000791_dist_gated_mlp_tp_i_m768_h1536_d768_v7x_i8_bf16_1_alg».proof.Proof.Gen.ReferenceIdeal.Read
import proofs.«900790_g7700000000000791_dist_gated_mlp_tp_i_m768_h1536_d768_v7x_i8_bf16_1_alg».proof.Proof.Gen.Pre_finite_inputs_ReferenceIdeal
import proofs.«900790_g7700000000000791_dist_gated_mlp_tp_i_m768_h1536_d768_v7x_i8_bf16_1_alg».proof.Proof.Spec

noncomputable section

namespace Cert.Proof.RefSide

open Idealize.ShloMosaic Idealize.ShloMosaic.ValueIdx
open Cert.ReferenceIdeal Cert.ReferenceIdeal.Read Cert.Proof.Spec

-- The operand indices (i 0, j) and (j, i 1) are named by their coordinates.
theorem proj_v0 (x : Arr 768 768) (w : Arr 768 12288) (i : S768x12288.Idx) :
    ∑ j : Fin 768, x (lidx_main_v0 i j) * w (ridx_main_v0 i j) = proj x w (i 0) (i 1) :=
  Finset.sum_congr rfl fun j _ => congrArg₂ (fun a b => x a * w b) (eq_ix2 _) (eq_ix2 _)

-- Stage by stage the reference is the sum over k of (x·Wg)(i,k) * ((x·Wu)(i,k) / (1 + e^(-(x·Wu)(i,k)))) * Wd (k, j).
theorem ref_is_G (x : Arr 768 768) (wg wu : Arr 768 12288) (wd : Arr 12288 768) :
    val_main_v9 (F := Ideal) x wg wu wd = G x wg wu wd := by
  funext i
  rw [val_main_v9_apply, val_main_v8_apply, Ideal.truncf_def]
  refine Finset.sum_congr rfl fun k _ => ?_
  rw [val_main_v7_apply, val_main_v0_apply, val_main_v6_apply, val_main_v5_apply, val_main_v4_apply,
    val_main_cst_apply, val_main_v3_apply, val_main_v2_apply, val_main_v1_apply, proj_v0, proj_v0, eq_ix2 (ridx_main_v8 i k),
    Ideal.ofBits_def, ofBits_one_f32]
  rfl

theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v9_eq (F := Ideal) _ _ _ _).trans (ref_is_G _ _ _ _)), (h c).2⟩)
    (Value.run (F := Ideal) m ρ)

theorem frame_ri : Cert.frame_ReferenceIdeal := fun m ρ _ =>
  (θ_run defs _ _).mono (fun _ h c => (h c).2) (run_G m ρ)

end Cert.Proof.RefSide

end
-- ==== Proof.KernelValue.lean ====
import proofs.«900790_g7700000000000791_dist_gated_mlp_tp_i_m768_h1536_d768_v7x_i8_bf16_1_alg».proof.Proof.Canon
import proofs.«900790_g7700000000000791_dist_gated_mlp_tp_i_m768_h1536_d768_v7x_i8_bf16_1_alg».proof.Proof.Spec
import Idealize.ShloMosaic.Lib.ValueLayout
import Idealize.ShloMosaic.Lib.StackMember

noncomputable section

namespace Cert.Proof.KernelValue

open Cert.KernelIdeal Cert.KernelIdeal.Gen Cert.KernelIdeal.Proto Cert.Proof.Spec
open Idealize.ShloMosaic Idealize.ShloMosaic.TcCoe Idealize.ShloMosaic.ValueIdx

-- A rank-2 index is determined by the values of its two coordinates.
theorem ix2_of_val {n0 n1 : Nat} {j : (⟨2, ![n0, n1]⟩ : Shape).Idx} {a : Fin n0} {b : Fin n1}
    (h0 : (j 0).val = a.val) (h1 : (j 1).val = b.val) : j = ix2 a b :=
  (eq_ix2 j).trans (congrArg₂ ix2 (Fin.ext h0) (Fin.ext h1))

-- Entry (i, j) of a plain product into the zero accumulator is the sum over the contracted coordinate.
theorem matmul_plain_apply {M K N : Nat} {φ₁ φ₂ : FTy} (l : FVec Ideal ⟨2, ![M, K]⟩ φ₁) (r : FVec Ideal ⟨2, ![K, N]⟩ φ₂)
    (i : Fin M) (j : Fin N) :
    matmul (DotDims.plain M K N) none l r (constant _ .f32 0x00000000#32) (ix2 i j) = ∑ c : Fin K, l (ix2 i c) * r (ix2 c j) :=
  (Ideal.matmul_constant_zero_apply (DotDims.plain M K N) none l r (ix2 i j)).trans
    ((Ideal.dotGeneral_apply (DotDims.plain M K N) none .single l r (ix2 i j)).symm.trans
      (StackMember.dotGeneral_plain_apply none l r i j))

-- u * logistic u = silu u.
theorem pay1_apply (x : Vec Ideal S768x768 .f32) (wg wu : Vec Ideal S768x1536 .f32) (i : Fin 768) (k : Fin 1536) :
    k0_pay1 (F := Ideal) x wg wu (ix2 i k) = hidden x wg wu i k := by
  unfold k0_pay1
  simp only [shapeCast_self]
  exact congrArg₂ (· * ·) (matmul_plain_apply _ _ i k)
    ((congrArg (fun u => u * Ideal.logistic u) (matmul_plain_apply _ _ i k)).trans (mul_logistic _))

theorem pay2_apply (wd : Vec Ideal S1536x768 .f32) (j : S1536x768.Idx) : k0_pay2 (F := Ideal) wd j = wd j := by
  unfold k0_pay2
  simp only [shapeCast_self]
  rfl

theorem pay3_apply (a : Vec Ideal S768x1536 .bf16) (w : Vec Ideal S1536x256 .bf16) (i : Fin 768) (q : Fin 256) :
    k0_pay3 (F := Ideal) a w (ix2 i q) = ∑ k : Fin 1536, a (ix2 i k) * w (ix2 k q) :=
  matmul_plain_apply (φ₁ := .bf16) (φ₂ := .bf16) a w i q

theorem slot_cast_apply (v : Vec Ideal S1x1x96x256 .bf16) (r : Fin 96) (q : Fin 256) :
    shapeCast S96x256 v shapeCasts_S1x1x96x256_S96x256 (ix2 r q) = v (ix4 (0 : Fin 1) (0 : Fin 1) r q) :=
  congrArg v (reshapeEquiv_ix2_11ab _ r q)

theorem pay10_apply (v : Vec Ideal S1x1x96x256 .bf16) (r : Fin 96) (q : Fin 256) :
    k0_pay10 (F := Ideal) v (ix2 r q) = v (ix4 (0 : Fin 1) (0 : Fin 1) r q) := by
  unfold k0_pay10
  simp only [shapeCast_self]
  rw [extf_apply, slot_cast_apply]

theorem pay11_apply (a : Vec Ideal S96x256 .f32) (v : Vec Ideal S1x1x96x256 .bf16) (r : Fin 96) (q : Fin 256) :
    k0_pay11 (F := Ideal) a v (ix2 r q) = a (ix2 r q) + v (ix4 (0 : Fin 1) (0 : Fin 1) r q) := by
  unfold k0_pay11
  simp only [shapeCast_self]
  rw [addf_apply, extf_apply, slot_cast_apply]

variable (m : (ℓ : Loc nD τ sig) → Buf (Elt Ideal) ℓ)

-- The rectangle has offsets (ch, o, 0, 0) and unit strides.
theorem slotRead_apply (c : Dev nD) (ch : Fin 3) (o : Fin 8) (r : Fin 96) (q : Fin 256) :
    slotRead m c ch o (ix4 (0 : Fin 1) (0 : Fin 1) r q) = rsCan m c (ix4 ch o r q) :=
  congrArg (rsCan m c) (funext fun a => Fin.ext (by
    match a with
    | ⟨0, _⟩ | ⟨1, _⟩ => rfl
    | ⟨2, _⟩ | ⟨3, _⟩ => exact (Nat.zero_add _).trans (Nat.one_mul _)))

-- The rectangle has offsets (0, 256 ch) and unit strides.
theorem wdbRead_apply (w : FVec Ideal S1536x768 .bf16) (ch : Fin 3) (k : Fin 1536) (q : Fin 256) :
    (wdbM.view.readAt (Elt Ideal) (wdbRect ch).toLoadRect w) (ix2 k q)
      = w (ix2 k ⟨256 * ch.val + q.val, by have := ch.isLt; have := q.isLt; omega⟩) :=
  congrArg w (ix2_of_val ((Nat.zero_add _).trans (Nat.one_mul _)) (congrArg (256 * ch.val + ·) (Nat.one_mul _)))

-- A block with zero offsets and the whole extent is the whole array.
theorem xv_eq (c : Dev nD) : xv m c = m ((c : Thread nD τ).loc main_arg0) :=
  Memref.read_access_unit_zero (Elt Ideal) main_arg0 (funext fun a => Nat.zero_mul _) _ _
theorem wgv_eq (c : Dev nD) : wgv m c = m ((c : Thread nD τ).loc main_arg1) :=
  Memref.read_access_unit_zero (Elt Ideal) main_arg1 (funext fun a => Nat.zero_mul _) _ _
theorem wuv_eq (c : Dev nD) : wuv m c = m ((c : Thread nD τ).loc main_arg2) :=
  Memref.read_access_unit_zero (Elt Ideal) main_arg2 (funext fun a => Nat.zero_mul _) _ _
theorem wdv_eq (c : Dev nD) : wdv m c = m ((c : Thread nD τ).loc main_arg3) :=
  Memref.read_access_unit_zero (Elt Ideal) main_arg3 (funext fun a => Nat.zero_mul _) _ _

theorem pval_apply (c : Dev nD) (ch : Fin 3) (i : Fin 768) (q : Fin 256) :
    pval m c ch (ix2 i q)
      = ∑ k : Fin 1536, hidden (xv m c) (wgv m c) (wuv m c) i k
          * wdv m c (ix2 k ⟨256 * ch.val + q.val, by have := ch.isLt; have := q.isLt; omega⟩) := by
  unfold pval
  rw [pay3_apply]
  refine Finset.sum_congr rfl fun k _ => ?_
  rw [wdbRead_apply]
  unfold actv wdbv
  rw [pay1_apply, pay2_apply]

abbrev row (s : Dev nD) (r : Fin 96) : Fin 768 := ⟨96 * s.val + r.val, by have hs : s.val < 8 := s.isLt; have := r.isLt; omega⟩

-- The eight terms are added along a bijection of Fin 8 with the devices, so they are the sum over all devices.
theorem redv_apply (s : Dev nD) (ch : Fin 3) (r : Fin 96) (q : Fin 256) :
    redv m s ch (ix2 r q) = ∑ d : Dev nD, pval m d ch (ix2 (row s r) q) := by
  unfold redv k0_pay19 acc7 acc6 acc5 acc4 acc3 acc2 acc1 acc0 accStep
  simp only [truncf_apply, pay11_apply, pay10_apply, slotRead_apply]
  exact sum_eight_order (peerEquiv' s) (fun d : Dev nD => pval m d ch (ix2 (row s r) q))

-- Block d along axis 1 starts at column 1536 d.
theorem block_cols_apply (W : Arr 768 12288) (d : Dev nD) (j : Fin 768) (k : Fin 1536) :
    (Layout.block ⟨2, ![768, 1536]⟩ ⟨2, ![768, 12288]⟩ 1 8 d W) (ix2 j k)
      = W (ix2 j ⟨1536 * d.val + k.val, by have hd : d.val < 8 := d.isLt; have := k.isLt; omega⟩) :=
  congrArg W (ix2_of_val rfl (congrArg (· + k.val) (Nat.mul_comm _ _)))

-- Block d along axis 0 starts at row 1536 d.
theorem block_rows_apply (W : Arr 12288 768) (d : Dev nD) (k : Fin 1536) (j : Fin 768) :
    (Layout.block ⟨2, ![1536, 768]⟩ ⟨2, ![12288, 768]⟩ 0 8 d W) (ix2 k j)
      = W (ix2 ⟨1536 * d.val + k.val, by have hd : d.val < 8 := d.isLt; have := k.isLt; omega⟩ j) :=
  congrArg W (ix2_of_val (congrArg (· + k.val) (Nat.mul_comm _ _)) rfl)

theorem hidden_block (X : Arr 768 768) (WG WU : Arr 768 12288) (d : Dev nD) (i : Fin 768) (k : Fin 1536) :
    hidden X (Layout.block ⟨2, ![768, 1536]⟩ ⟨2, ![768, 12288]⟩ 1 8 d WG)
        (Layout.block ⟨2, ![768, 1536]⟩ ⟨2, ![768, 12288]⟩ 1 8 d WU) i k
      = hidden X WG WU i ⟨1536 * d.val + k.val, by have hd : d.val < 8 := d.isLt; have := k.isLt; omega⟩ := by
  unfold Spec.hidden Spec.proj
  simp only [block_cols_apply]

-- A sum over 8 blocks of 1536 terms is the sum over all 12288, and 96 (i / 96) + i % 96 = i.
theorem outCan_eq_G (X : Arr 768 768) (WG WU : Arr 768 12288) (WD : Arr 12288 768)
    (h : ∀ c : Dev nD,
      m ((c.tc : Thread nD τ).loc main_arg0) = X
      ∧ m ((c.tc : Thread nD τ).loc main_arg1) = Layout.block ⟨2, ![768, 1536]⟩ ⟨2, ![768, 12288]⟩ 1 8 c WG
      ∧ m ((c.tc : Thread nD τ).loc main_arg2) = Layout.block ⟨2, ![768, 1536]⟩ ⟨2, ![768, 12288]⟩ 1 8 c WU
      ∧ m ((c.tc : Thread nD τ).loc main_arg3) = Layout.block ⟨2, ![1536, 768]⟩ ⟨2, ![12288, 768]⟩ 0 8 c WD) :
    outCan (F := Ideal) m = G X WG WU WD := by
  funext i
  obtain ⟨i0, i1, rfl⟩ : ∃ (a b : Fin 768), i = ix2 a b := ⟨i 0, i 1, eq_ix2 i⟩
  rw [G_apply, sum_blocks 8 1536 12288 rfl]
  refine (redv_apply m _ _ _ _).trans (Finset.sum_congr rfl fun d _ => ?_)
  rw [pval_apply, xv_eq, wgv_eq, wuv_eq, wdv_eq, (h d).1, (h d).2.1, (h d).2.2.1, (h d).2.2.2]
  refine Finset.sum_congr rfl fun k _ => ?_
  rw [hidden_block, block_rows_apply]
  exact congrArg₂ (fun a b => hidden X WG WU a _ * WD (ix2 _ b)) (Fin.ext (Nat.div_add_mod i0.val 96))
    (Fin.ext (Nat.div_add_mod i1.val 256))

end Cert.Proof.KernelValue

end
-- ==== Proof.Assembly.lean ====
import proofs.«900790_g7700000000000791_dist_gated_mlp_tp_i_m768_h1536_d768_v7x_i8_bf16_1_alg».proof.Proof.RefSide
import proofs.«900790_g7700000000000791_dist_gated_mlp_tp_i_m768_h1536_d768_v7x_i8_bf16_1_alg».proof.Proof.KernelValue
import proofs.«900790_g7700000000000791_dist_gated_mlp_tp_i_m768_h1536_d768_v7x_i8_bf16_1_alg».proof.Proof.Gen.Pre_finite_inputs_Kernel

noncomputable section

namespace Cert.Proof.Assembly

open Idealize.ShloMosaic

def KernelRun : Prop :=
  ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1) = Cert.KernelIdeal.Proto.outCan (F := Ideal) m
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

-- Both runs end at G of the reference's arrays, which is the common value.
theorem algebraic_of_run (hrun : KernelRun) : Cert.algebraic_KernelIdeal_ReferenceIdeal := fun m g m' g' _ hagree =>
  ⟨_, (θ_run (Cert.KernelIdeal.defs (F := Ideal)) _ _).mono
      (fun r h c => ⟨(h c).1.trans (Cert.Proof.KernelValue.outCan_eq_G m _ _ _ _ hagree), (h c).2⟩) (hrun m g),
    (θ_run (Cert.ReferenceIdeal.defs (F := Ideal)) _ _).mono (fun r h => h 0) (Cert.Proof.RefSide.run_G m' g')⟩

theorem frame_of_run (hrun : KernelRun) : Cert.frame_KernelIdeal := fun m g _ =>
  (θ_run (Cert.KernelIdeal.defs (F := Ideal)) _ _).mono (fun _ h c => (h c).2) (hrun m g)

end Cert.Proof.Assembly

end
-- ==== Proof.Claims.lean ====
import proofs.«900790_g7700000000000791_dist_gated_mlp_tp_i_m768_h1536_d768_v7x_i8_bf16_1_alg».proof.Proof.Launch
import proofs.«900790_g7700000000000791_dist_gated_mlp_tp_i_m768_h1536_d768_v7x_i8_bf16_1_alg».proof.Proof.Bits.Launch
import proofs.«900790_g7700000000000791_dist_gated_mlp_tp_i_m768_h1536_d768_v7x_i8_bf16_1_alg».proof.Proof.Assembly

noncomputable section

namespace Cert.Proof.Claims

open Idealize.ShloMosaic Idealize.ShloMosaic.TcCoe Idealize.SL.Sem

theorem kernel_run : Cert.Proof.Assembly.KernelRun := fun m g =>
  (θ_run (Cert.KernelIdeal.defs (F := Ideal)) _ _).mono
    (fun r h c => ⟨(h c 4).trans (Cert.KernelIdeal.Proto.finalA_out (F := Ideal) m g c),
      (h c 0).trans (Cert.KernelIdeal.Proto.finalA_arg (F := Ideal) m g c 0 (by decide)),
      (h c 1).trans (Cert.KernelIdeal.Proto.finalA_arg (F := Ideal) m g c 1 (by decide)),
      (h c 2).trans (Cert.KernelIdeal.Proto.finalA_arg (F := Ideal) m g c 2 (by decide)),
      (h c 3).trans (Cert.KernelIdeal.Proto.finalA_arg (F := Ideal) m g c 3 (by decide))⟩)
    (Cert.KernelIdeal.Proto.run_main (F := Ideal) m g)

theorem frame_Kernel : Cert.frame_Kernel := fun m g _ =>
  (θ_run (Cert.Kernel.defs (F := Bits)) _ _).mono
    (fun r h c => ⟨(h c 0).trans (Cert.Kernel.Proto.finalA_arg (F := Bits) m g c 0 (by decide)),
      (h c 1).trans (Cert.Kernel.Proto.finalA_arg (F := Bits) m g c 1 (by decide)),
      (h c 2).trans (Cert.Kernel.Proto.finalA_arg (F := Bits) m g c 2 (by decide)),
      (h c 3).trans (Cert.Kernel.Proto.finalA_arg (F := Bits) m g c 3 (by decide))⟩)
    (Cert.Kernel.Proto.run_main (F := Bits) m g)

theorem frame_KernelIdeal : Cert.frame_KernelIdeal := Cert.Proof.Assembly.frame_of_run kernel_run
theorem frame_ReferenceIdeal : Cert.frame_ReferenceIdeal := Cert.Proof.RefSide.frame_ri
theorem preserves : Cert.preserves_Kernel_KernelIdeal := trivial
theorem algebraic : Cert.algebraic_KernelIdeal_ReferenceIdeal := Cert.Proof.Assembly.algebraic_of_run kernel_run

end Cert.Proof.Claims

end
-- ==== Proof.lean ====
/- Each of the eight devices holds x, one block of 1536 columns of Wg and of Wu, and the matching block of rows of Wd. Over the
   extended reals a sum over the 12288 inner indices is the sum of the eight devices' partial sums in any order, so every device's
   result is (x·Wg ⊙ (x·Wu ⊙ logistic (x·Wu)))·Wd, the reference's; no finiteness is used. -/
import proofs.«900790_g7700000000000791_dist_gated_mlp_tp_i_m768_h1536_d768_v7x_i8_bf16_1_alg».proof.Defs
import proofs.«900790_g7700000000000791_dist_gated_mlp_tp_i_m768_h1536_d768_v7x_i8_bf16_1_alg».proof.Proof.Gen.Kernel
import proofs.«900790_g7700000000000791_dist_gated_mlp_tp_i_m768_h1536_d768_v7x_i8_bf16_1_alg».proof.Proof.Gen.Kernel.Skeleton
import proofs.«900790_g7700000000000791_dist_gated_mlp_tp_i_m768_h1536_d768_v7x_i8_bf16_1_alg».proof.Proof.Gen.Kernel.Launch
import proofs.«900790_g7700000000000791_dist_gated_mlp_tp_i_m768_h1536_d768_v7x_i8_bf16_1_alg».proof.Proof.Gen.Kernel.Points
import proofs.«900790_g7700000000000791_dist_gated_mlp_tp_i_m768_h1536_d768_v7x_i8_bf16_1_alg».proof.Proof.Gen.Kernel.Frame
import proofs.«900790_g7700000000000791_dist_gated_mlp_tp_i_m768_h1536_d768_v7x_i8_bf16_1_alg».proof.Proof.Gen.KernelIdeal
import proofs.«900790_g7700000000000791_dist_gated_mlp_tp_i_m768_h1536_d768_v7x_i8_bf16_1_alg».proof.Proof.Gen.KernelIdeal.Skeleton
import proofs.«900790_g7700000000000791_dist_gated_mlp_tp_i_m768_h1536_d768_v7x_i8_bf16_1_alg».proof.Proof.Gen.KernelIdeal.Launch
import proofs.«900790_g7700000000000791_dist_gated_mlp_tp_i_m768_h1536_d768_v7x_i8_bf16_1_alg».proof.Proof.Gen.KernelIdeal.Points
import proofs.«900790_g7700000000000791_dist_gated_mlp_tp_i_m768_h1536_d768_v7x_i8_bf16_1_alg».proof.Proof.Gen.KernelIdeal.Frame
import proofs.«900790_g7700000000000791_dist_gated_mlp_tp_i_m768_h1536_d768_v7x_i8_bf16_1_alg».proof.Proof.Gen.ReferenceIdeal
import proofs.«900790_g7700000000000791_dist_gated_mlp_tp_i_m768_h1536_d768_v7x_i8_bf16_1_alg».proof.Proof.Gen.Pre_finite_inputs_Kernel
import proofs.«900790_g7700000000000791_dist_gated_mlp_tp_i_m768_h1536_d768_v7x_i8_bf16_1_alg».proof.Proof.Gen.Pre_finite_inputs_ReferenceIdeal
import proofs.«900790_g7700000000000791_dist_gated_mlp_tp_i_m768_h1536_d768_v7x_i8_bf16_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  ⟨Cert.Proof.Claims.frame_Kernel, Cert.Proof.Claims.frame_KernelIdeal, Cert.Proof.Claims.frame_ReferenceIdeal, Cert.Proof.Claims.preserves, Cert.Proof.Claims.algebraic⟩⟩

end Cert.Proof

end
